-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v138) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S3x128 .f32) (main_arg7 : FVec F S3x128 .f32) (main_arg8 : FVec F S128x128 .f32) (main_arg9 : FVec F S128 .f32) (main_arg10 : FVec F S128x128 .f32) (main_arg11 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S3x128x128 .f32) (main_arg5 : FVec F S3x128 .f32) (main_arg6 : FVec F S3x128 .f32) (main_arg7 : FVec F S3x128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x512 : Shape := ⟨2, ![100000, 512]⟩
abbrev S128x512 : Shape := ⟨2, ![128, 512]⟩

abbrev nBuf : Space → Nat
  | .hbm => 242
  | .vmem => 88
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S128x128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .f32⟩
  | 45 => ⟨S100000, .f32⟩
  | 46 => ⟨S100000, .f32⟩
  | 47 => ⟨S100000x1, .f32⟩
  | 48 => ⟨S1x128x128, .f32⟩
  | 49 => ⟨S128x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S1x128, .f32⟩
  | 68 => ⟨S128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S128, .f32⟩
  | 102 => ⟨S1x128, .f32⟩
  | 103 => ⟨S128, .f32⟩
  | 104 => ⟨S128, .f32⟩
  | 105 => ⟨S1x128, .f32⟩
  | 106 => ⟨S128, .f32⟩
  | 107 => ⟨S128, .f32⟩
  | 108 => ⟨S128, .f32⟩
  | 109 => ⟨S100000x128, .f32⟩
  | 110 => ⟨S1x128x128, .f32⟩
  | 111 => ⟨S128x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S128, .f32⟩
  | 36 => ⟨S1x128, .f32⟩
  | 37 => ⟨S128, .f32⟩
  | 38 => ⟨S128, .f32⟩
  | 39 => ⟨S1x128, .f32⟩
  | 40 => ⟨S128, .f32⟩
  | 41 => ⟨S128, .f32⟩
  | 42 => ⟨S128, .f32⟩
  | 43 => ⟨S100000x128, .f32⟩
  | 44 => ⟨S1x128x128, .f32⟩
  | 45 => ⟨S128x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128, .f32⟩
  | 64 => ⟨S128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S128, .f32⟩
  | 98 => ⟨S1x128, .f32⟩
  | 99 => ⟨S128, .f32⟩
  | 100 => ⟨S128, .f32⟩
  | 101 => ⟨S1x128, .f32⟩
  | 102 => ⟨S128, .f32⟩
  | 103 => ⟨S128, .f32⟩
  | 104 => ⟨S128, .f32⟩
  | 105 => ⟨S100000x128, .f32⟩
  | 106 => ⟨S100000x128, .f32⟩
  | 107 => ⟨S100000x1, .i32⟩
  | 108 => ⟨S128x128, .f32⟩
  | 109 => ⟨S128x128, .f32⟩
  | 110 => ⟨S128x128, .f32⟩
  | 111 => ⟨S128x128, .f32⟩
  | 112 => ⟨S100000x512, .f32⟩
  | 113 => ⟨S128x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S128, .f32⟩
  | .local _ .vmem, ⟨64, _⟩ => ⟨S128x128, .f32⟩
  | .local _ .vmem, ⟨65, _⟩ => ⟨S128, .f32⟩
  | .local _ .vmem, ⟨66, _⟩ => ⟨S5000x128, .f32⟩
  | .local _ .vmem, ⟨67, _⟩ => ⟨S5000x128, .f32⟩
  | .local _ .vmem, ⟨68, _⟩ => ⟨S5000x1, .i32⟩
  | .local _ .vmem, ⟨69, _⟩ => ⟨S5000x1, .i32⟩
  | .local _ .vmem, ⟨70, _⟩ => ⟨S5000x128, .f32⟩
  | .local _ .vmem, ⟨71, _⟩ => ⟨S5000x128, .f32⟩
  | .local _ .vmem, ⟨72, _⟩ => ⟨S128x128, .f32⟩
  | .local _ .vmem, ⟨73, _⟩ => ⟨S5000x1, .i32⟩
  | .local _ .vmem, ⟨74, _⟩ => ⟨S5000x1, .i32⟩
  | .local _ .vmem, ⟨75, _⟩ => ⟨S5000x128, .f32⟩
  | .local _ .vmem, ⟨76, _⟩ => ⟨S5000x128, .f32⟩
  | .local _ .vmem, ⟨77, _⟩ => ⟨S128x128, .f32⟩
  | .local _ .vmem, ⟨78, _⟩ => ⟨S5000x1, .i32⟩
  | .local _ .vmem, ⟨79, _⟩ => ⟨S5000x1, .i32⟩
  | .local _ .vmem, ⟨80, _⟩ => ⟨S5000x128, .f32⟩
  | .local _ .vmem, ⟨81, _⟩ => ⟨S5000x128, .f32⟩
  | .local _ .vmem, ⟨82, _⟩ => ⟨S128x128, .f32⟩
  | .local _ .vmem, ⟨83, _⟩ => ⟨S5000x1, .i32⟩
  | .local _ .vmem, ⟨84, _⟩ => ⟨S5000x1, .i32⟩
  | .local _ .vmem, ⟨85, _⟩ => ⟨S5000x128, .f32⟩
  | .local _ .vmem, ⟨86, _⟩ => ⟨S5000x128, .f32⟩
  | .local _ .vmem, ⟨87, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_12 : Ref sig .tc := ⟨.hbm, 113, rfl⟩
abbrev main_v66 : Ref sig .tc := ⟨.hbm, 114, rfl⟩
abbrev main_v67 : Ref sig .tc := ⟨.hbm, 115, rfl⟩
abbrev main_c_13 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_15 : Ref sig .tc := ⟨.hbm, 132, rfl⟩
abbrev main_v82 : Ref sig .tc := ⟨.hbm, 133, rfl⟩
abbrev main_cst_16 : Ref sig .tc := ⟨.hbm, 134, rfl⟩
abbrev main_v83 : Ref sig .tc := ⟨.hbm, 135, rfl⟩
abbrev main_v84 : Ref sig .tc := ⟨.hbm, 136, rfl⟩
abbrev main_c_17 : Ref sig .tc := ⟨.hbm, 137, rfl⟩
abbrev main_call1_cst : Ref sig .tc := ⟨.hbm, 138, rfl⟩
abbrev main_call1_v0 : Ref sig .tc := ⟨.hbm, 139, rfl⟩
abbrev main_call1_v1 : Ref sig .tc := ⟨.hbm, 140, rfl⟩
abbrev main_call1_cst_0 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_v7 : Ref sig .tc := ⟨.hbm, 147, rfl⟩
abbrev main_call1_cst_1 : Ref sig .tc := ⟨.hbm, 148, rfl⟩
abbrev main_call1_v8 : Ref sig .tc := ⟨.hbm, 149, rfl⟩
abbrev main_call1_cst_2 : Ref sig .tc := ⟨.hbm, 150, rfl⟩
abbrev main_call1_v9 : Ref sig .tc := ⟨.hbm, 151, rfl⟩
abbrev main_call1_v10 : Ref sig .tc := ⟨.hbm, 152, rfl⟩
abbrev main_call1_v11 : Ref sig .tc := ⟨.hbm, 153, rfl⟩
abbrev main_call1_cst_3 : Ref sig .tc := ⟨.hbm, 154, rfl⟩
abbrev main_call1_v12 : Ref sig .tc := ⟨.hbm, 155, rfl⟩
abbrev main_call1_cst_4 : Ref sig .tc := ⟨.hbm, 156, rfl⟩
abbrev main_call1_call0_v0 : Ref sig .tc := ⟨.hbm, 157, rfl⟩
abbrev main_call1_call0_v1 : Ref sig .tc := ⟨.hbm, 158, rfl⟩
abbrev main_v85 : Ref sig .tc := ⟨.hbm, 159, rfl⟩
abbrev main_cst_18 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_c_19 : Ref sig .tc := ⟨.hbm, 175, rfl⟩
abbrev main_v100 : Ref sig .tc := ⟨.hbm, 176, rfl⟩
abbrev main_v101 : Ref sig .tc := ⟨.hbm, 177, rfl⟩
abbrev main_c_20 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_21 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_22 : Ref sig .tc := ⟨.hbm, 194, rfl⟩
abbrev main_v116 : Ref sig .tc := ⟨.hbm, 195, rfl⟩
abbrev main_cst_23 : Ref sig .tc := ⟨.hbm, 196, rfl⟩
abbrev main_v117 : Ref sig .tc := ⟨.hbm, 197, rfl⟩
abbrev main_v118 : Ref sig .tc := ⟨.hbm, 198, rfl⟩
abbrev main_c_24 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_call2_v4 : Ref sig .tc := ⟨.hbm, 206, rfl⟩
abbrev main_call2_v5 : Ref sig .tc := ⟨.hbm, 207, rfl⟩
abbrev main_call2_v6 : Ref sig .tc := ⟨.hbm, 208, rfl⟩
abbrev main_call2_v7 : Ref sig .tc := ⟨.hbm, 209, rfl⟩
abbrev main_call2_cst_1 : Ref sig .tc := ⟨.hbm, 210, rfl⟩
abbrev main_call2_v8 : Ref sig .tc := ⟨.hbm, 211, rfl⟩
abbrev main_call2_cst_2 : Ref sig .tc := ⟨.hbm, 212, rfl⟩
abbrev main_call2_v9 : Ref sig .tc := ⟨.hbm, 213, rfl⟩
abbrev main_call2_v10 : Ref sig .tc := ⟨.hbm, 214, rfl⟩
abbrev main_call2_v11 : Ref sig .tc := ⟨.hbm, 215, rfl⟩
abbrev main_call2_cst_3 : Ref sig .tc := ⟨.hbm, 216, rfl⟩
abbrev main_call2_v12 : Ref sig .tc := ⟨.hbm, 217, rfl⟩
abbrev main_call2_cst_4 : Ref sig .tc := ⟨.hbm, 218, rfl⟩
abbrev main_call2_call0_v0 : Ref sig .tc := ⟨.hbm, 219, rfl⟩
abbrev main_call2_call0_v1 : Ref sig .tc := ⟨.hbm, 220, rfl⟩
abbrev main_v119 : Ref sig .tc := ⟨.hbm, 221, rfl⟩
abbrev main_cst_25 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg4_0 : Ref sig .tc := ⟨.vmem, 65, rfl⟩
abbrev cc9_stg5_0 : Ref sig .tc := ⟨.vmem, 66, rfl⟩
abbrev cc9_stg5_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg1_1 : Ref sig .tc := ⟨.vmem, 76, rfl⟩
abbrev cc11_stg2_0 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg1_1 : Ref sig .tc := ⟨.vmem, 81, rfl⟩
abbrev cc12_stg2_0 : Ref sig .tc := ⟨.vmem, 82, rfl⟩
abbrev cc13_stg0_0 : Ref sig .tc := ⟨.vmem, 83, rfl⟩
abbrev cc13_stg0_1 : Ref sig .tc := ⟨.vmem, 84, rfl⟩
abbrev cc13_stg1_0 : Ref sig .tc := ⟨.vmem, 85, rfl⟩
abbrev cc13_stg1_1 : Ref sig .tc := ⟨.vmem, 86, rfl⟩
abbrev cc13_stg2_0 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem4_0 : DmaSem sig := 65
abbrev cc9_sem5_0 : DmaSem sig := 66
abbrev cc9_sem5_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc12_sem0_0 : DmaSem sig := 78
abbrev cc12_sem0_1 : DmaSem sig := 79
abbrev cc12_sem1_0 : DmaSem sig := 80
abbrev cc12_sem1_1 : DmaSem sig := 81
abbrev cc12_sem2_0 : DmaSem sig := 82
abbrev cc13_sem0_0 : DmaSem sig := 83
abbrev cc13_sem0_1 : DmaSem sig := 84
abbrev cc13_sem1_0 : DmaSem sig := 85
abbrev cc13_sem1_1 : DmaSem sig := 86
abbrev cc13_sem2_0 : DmaSem sig := 87

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x1 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x1 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x1 .i32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x1 .i32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128_S128_0 : ∀ a, (![0] : Fin 1 → Nat) a + S128.size a ≤ S128.size a
  h_S128 : 0 < S128.numel
  shapeCasts_S128_S128 : S128.ShapeCasts S128
  broadcasts_S5000x1_S5000x128 : S5000x1.Broadcasts S5000x128
  shapeCasts_S128_S1x128 : S128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  iota_S5000x128_d1_w32 : S5000x128.Iotas .tc 32 [1]
  natLt_1_32 : 1 < 32
  concatenates_S100000x128_S100000x128_S100000x128_S100000x128_S100000x512_d1 : Shape.Concatenates [S100000x128, S100000x128, S100000x128, S100000x128] S100000x512 1
  concatenates_S128x128_S128x128_S128x128_S128x128_S128x512_d1 : Shape.Concatenates [S128x128, S128x128, S128x128, S128x128] S128x512 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x1.size a ≤ S100000x1.size a
  hwx10_0 : ∀ i : grid10.Coords, EltTy.bits .i32 = 32 ∨ (Rect.block (s := S100000x1) S5000x1.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x1.size a ≤ S100000x1.size a
  hwx11_0 : ∀ i : grid11.Coords, EltTy.bits .i32 = 32 ∨ (Rect.block (s := S100000x1) S5000x1.size (cc11_transform_0 i) (hinb11_0 i)).WholeWords (EltTy.packing .i32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S100000x128.size a
  hwx11_1 : ∀ i : grid11.Coords, EltTy.bits .f32 = 32 ∨ (Rect.block (s := S100000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x1.size a ≤ S100000x1.size a
  hwx12_0 : ∀ i : grid12.Coords, EltTy.bits .i32 = 32 ∨ (Rect.block (s := S100000x1) S5000x1.size (cc12_transform_0 i) (hinb12_0 i)).WholeWords (EltTy.packing .i32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x1.size a ≤ S100000x1.size a
  hwx13_0 : ∀ i : grid13.Coords, EltTy.bits .i32 = 32 ∨ (Rect.block (s := S100000x1) S5000x1.size (cc13_transform_0 i) (hinb13_0 i)).WholeWords (EltTy.packing .i32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S100000x128.size a
  hwx13_1 : ∀ i : grid13.Coords, EltTy.bits .f32 = 32 ∨ (Rect.block (s := S100000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v80) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v96) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v112) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v114) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v115) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v115) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v125) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v129) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v130) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v130) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg9) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg10) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg11) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v131) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v132) S5000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v62) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v133) S128x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v132) S5000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v96) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v134) S128x128.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v132) S5000x1.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v130) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v135) S128x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v132) S5000x1.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v131) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v136) S128x128.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S1600000x128 : Shape := ⟨2, ![1600000, 128]⟩
abbrev S1x128 : Shape := ⟨2, ![1, 128]⟩
abbrev S100000x512 : Shape := ⟨2, ![100000, 512]⟩
abbrev S128x512 : Shape := ⟨2, ![128, 512]⟩

abbrev nBuf : Space → Nat
  | .hbm => 311
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S128x128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .f32⟩
  | 45 => ⟨S100000, .f32⟩
  | 46 => ⟨S100000, .f32⟩
  | 47 => ⟨S100000x1, .f32⟩
  | 48 => ⟨S1x128x128, .f32⟩
  | 49 => ⟨S128x128, .f32⟩
  | 50 => ⟨S100000x128, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S100000x128, .f32⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S1600000x128, .f32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S100000x128, .f32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S128x128, .f32⟩
  | 39 => ⟨S100000x1, .i32⟩
  | 40 => ⟨S128x128, .f32⟩
  | 41 => ⟨S_, .f32⟩
  | 42 => ⟨S128x128, .f32⟩
  | 43 => ⟨S100000x1, .i32⟩
  | 44 => ⟨S128x128, .f32⟩
  | 45 => ⟨S_, .f32⟩
  | 46 => ⟨S128x128, .f32⟩
  | 47 => ⟨S100000x1, .i32⟩
  | 48 => ⟨S128x128, .f32⟩
  | 49 => ⟨S_, .f32⟩
  | 50 => ⟨S128x128, .f32⟩
  | 51 => ⟨S100000x1, .i32⟩
  | 52 => ⟨S128x128, .f32⟩
  | 53 => ⟨S100000x512, .f32⟩
  | 54 => ⟨S128x512, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_11 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_12 : Ref sig .tc := ⟨.hbm, 130, rfl⟩
abbrev main_v81 : Ref sig .tc := ⟨.hbm, 131, rfl⟩
abbrev main_v82 : Ref sig .tc := ⟨.hbm, 132, rfl⟩
abbrev main_c_13 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_14 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_call2_cst : Ref sig .tc := ⟨.hbm, 153, rfl⟩
abbrev main_call2_v0 : Ref sig .tc := ⟨.hbm, 154, rfl⟩
abbrev main_v101 : Ref sig .tc := ⟨.hbm, 155, rfl⟩
abbrev main_cst_15 : Ref sig .tc := ⟨.hbm, 156, rfl⟩
abbrev main_v102 : Ref sig .tc := ⟨.hbm, 157, rfl⟩
abbrev main_cst_16 : Ref sig .tc := ⟨.hbm, 158, rfl⟩
abbrev main_v103 : Ref sig .tc := ⟨.hbm, 159, rfl⟩
abbrev main_v104 : Ref sig .tc := ⟨.hbm, 160, rfl⟩
abbrev main_c_17 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_cst_1 : Ref sig .tc := ⟨.hbm, 172, rfl⟩
abbrev main_call3_v8 : Ref sig .tc := ⟨.hbm, 173, rfl⟩
abbrev main_call3_cst_2 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_cst_3 : Ref sig .tc := ⟨.hbm, 178, rfl⟩
abbrev main_call3_v12 : Ref sig .tc := ⟨.hbm, 179, rfl⟩
abbrev main_call3_cst_4 : Ref sig .tc := ⟨.hbm, 180, rfl⟩
abbrev main_call3_call0_v0 : Ref sig .tc := ⟨.hbm, 181, rfl⟩
abbrev main_call3_call0_v1 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_18 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_c_19 : Ref sig .tc := ⟨.hbm, 208, rfl⟩
abbrev main_v129 : Ref sig .tc := ⟨.hbm, 209, rfl⟩
abbrev main_v130 : Ref sig .tc := ⟨.hbm, 210, rfl⟩
abbrev main_c_20 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_21 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_call4_cst : Ref sig .tc := ⟨.hbm, 231, rfl⟩
abbrev main_call4_v0 : Ref sig .tc := ⟨.hbm, 232, rfl⟩
abbrev main_v149 : Ref sig .tc := ⟨.hbm, 233, rfl⟩
abbrev main_cst_22 : Ref sig .tc := ⟨.hbm, 234, rfl⟩
abbrev main_v150 : Ref sig .tc := ⟨.hbm, 235, rfl⟩
abbrev main_cst_23 : Ref sig .tc := ⟨.hbm, 236, rfl⟩
abbrev main_v151 : Ref sig .tc := ⟨.hbm, 237, rfl⟩
abbrev main_v152 : Ref sig .tc := ⟨.hbm, 238, rfl⟩
abbrev main_c_24 : Ref sig .tc := ⟨.hbm, 239, rfl⟩
abbrev main_call5_cst : Ref sig .tc := ⟨.hbm, 240, rfl⟩
abbrev main_call5_v0 : Ref sig .tc := ⟨.hbm, 241, rfl⟩
abbrev main_call5_v1 : Ref sig .tc := ⟨.hbm, 242, rfl⟩
abbrev main_call5_cst_0 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_call5_v5 : Ref sig .tc := ⟨.hbm, 247, rfl⟩
abbrev main_call5_v6 : Ref sig .tc := ⟨.hbm, 248, rfl⟩
abbrev main_call5_v7 : Ref sig .tc := ⟨.hbm, 249, rfl⟩
abbrev main_call5_cst_1 : Ref sig .tc := ⟨.hbm, 250, rfl⟩
abbrev main_call5_v8 : Ref sig .tc := ⟨.hbm, 251, rfl⟩
abbrev main_call5_cst_2 : Ref sig .tc := ⟨.hbm, 252, rfl⟩
abbrev main_call5_v9 : Ref sig .tc := ⟨.hbm, 253, rfl⟩
abbrev main_call5_v10 : Ref sig .tc := ⟨.hbm, 254, rfl⟩
abbrev main_call5_v11 : Ref sig .tc := ⟨.hbm, 255, rfl⟩
abbrev main_call5_cst_3 : Ref sig .tc := ⟨.hbm, 256, rfl⟩
abbrev main_call5_v12 : Ref sig .tc := ⟨.hbm, 257, rfl⟩
abbrev main_call5_cst_4 : Ref sig .tc := ⟨.hbm, 258, rfl⟩
abbrev main_call5_call0_v0 : Ref sig .tc := ⟨.hbm, 259, rfl⟩
abbrev main_call5_call0_v1 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_cst_25 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_call6_cst : Ref sig .tc := ⟨.hbm, 286, rfl⟩
abbrev main_call6_v0 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_cst_26 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_cst_27 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_cst_28 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_cst_29 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  concatenates_S100000x128_S100000x128_S100000x128_S100000x128_S100000x512_d1 : Shape.Concatenates [S100000x128, S100000x128, S100000x128, S100000x128] S100000x512 1
  concatenates_S128x128_S128x128_S128x128_S128x128_S128x512_d1 : Shape.Concatenates [S128x128, S128x128, S128x128, S128x128] S128x512 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

class Facts : Prop extends Facts₀ where

variable [Facts]
-- ==== Proof.KB.R0.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.KB.R1.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S128 := Rect.unit (s := S128) ![0] S128.size inb_S128_S128_0

def out1_4 (x0 : Vec F S5000x128 .f32) (x1 : Vec F S5000x128 .f32) (x2 : Vec F S5000x1 .f32) (x3 : Vec F S128 .f32) : Vec F S5000x128 .f32 :=
  View.canon [⟨r1_0, k1_pay1 (View.ld x0 r1_0) (View.ld x1 r1_0) (View.ld x2 r1_2) (View.ld x3 r1_3)⟩]

theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (x3 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.KB.R2.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0

abbrev r2_1 : Rect S128 := Rect.unit (s := S128) ![0] S128.size inb_S128_S128_0

def out2_3 (x0 : Vec F S5000x128 .f32) (x1 : Vec F S128 .f32) (x2 : Vec F S128 .f32) : Vec F S5000x128 .f32 :=
  View.canon [⟨r2_0, k2_pay1 (View.ld x0 r2_0) (View.ld x1 r2_1) (View.ld x2 r2_1)⟩]

theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
theorem sound_kernel2 (c : Dev nD) (E : Set ℕ) (i : grid2.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S5000x128 .f32) (harg4 : arg4.IsWhole)
    (x0 : Vec F S5000x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn_kernel i arg1 harg1 arg2 harg2 arg3 harg3 arg4 harg4) K := by
  simp only [cc2__bn_kernel_eq_skeleton]; unfold cc2__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.KB.R3.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

def out3_2 (x0 : Vec F S5000x128 .f32) (x1 : Vec F S128x128 .f32) : Vec F S5000x128 .f32 :=
  View.canon [⟨r3_0, k3_pay1 (View.ld x0 r3_0) (View.ld x1 r3_1)⟩]

theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.KB.R4.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R1

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out1_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out1_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem cc4__combine_kernel_eq : cc4__combine_kernel (F := F) = cc1__combine_kernel (F := F) :=
  cc4__combine_kernel_eq_skeleton.trans cc1__combine_kernel_eq_skeleton.symm

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4__combine_kernel_eq]
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.KB.R5.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R2

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out2_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out2_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem cc5__bn_kernel_eq : cc5__bn_kernel (F := F) = cc2__bn_kernel (F := F) :=
  cc5__bn_kernel_eq_skeleton.trans cc2__bn_kernel_eq_skeleton.symm

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5__bn_kernel_eq]
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel2 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.KB.R6.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R3

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out3_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out3_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem cc6__linear_kernel_eq : cc6__linear_kernel (F := F) = cc3__linear_kernel (F := F) :=
  cc6__linear_kernel_eq_skeleton.trans cc3__linear_kernel_eq_skeleton.symm

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6__linear_kernel_eq]
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel3 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.KB.R7.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R1

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out1_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out1_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem cc7__combine_kernel_eq : cc7__combine_kernel (F := F) = cc1__combine_kernel (F := F) :=
  cc7__combine_kernel_eq_skeleton.trans cc1__combine_kernel_eq_skeleton.symm

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7__combine_kernel_eq]
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.KB.R8.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R2

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out2_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out2_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)

theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem cc8__bn_kernel_eq : cc8__bn_kernel (F := F) = cc2__bn_kernel (F := F) :=
  cc8__bn_kernel_eq_skeleton.trans cc2__bn_kernel_eq_skeleton.symm

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8__bn_kernel_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel2 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Rg

end
-- ==== Proof.KB.R9.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S5000x128 := Rect.unit (s := S5000x128) ![0, 0] S5000x128.size inb_S5000x128_S5000x128_0_0
abbrev rB9 : Rect S128x128 := Rect.unit (s := S128x128) ![0, 0] S128x128.size inb_S128x128_S128x128_0_0
abbrev rC9 : Rect S128 := Rect.unit (s := S128) ![0] S128.size inb_S128_S128_0

def out9_5 (x0 : Vec F S5000x128 .f32) (x1 : Vec F S128x128 .f32) (x2 : Vec F S128 .f32) (x3 : Vec F S128x128 .f32) (x4 : Vec F S128 .f32) : Vec F S5000x128 .f32 :=
  View.canon [⟨rA9, k9_pay1 (View.ld x0 rA9) (View.ld x1 rB9) (View.ld x2 rC9) (View.ld x3 rB9) (View.ld x4 rC9)⟩]

theorem cover9_5 (p0 : Vec F S5000x128 .f32) (y : S5000x128.Idx) :
    ∃ pc ∈ ([⟨rA9, p0⟩] : List (View.Piece (Elt F) S5000x128 .f32)), y ∈ pc.1.set :=
  View.cover_of_tiled [⟨rA9, p0⟩] S5000x128.size (by rfl) y

set_option maxHeartbeats 1000000 in
theorem sound_kernel9 (c : Dev nD) (E : Set ℕ) (i : grid9.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__proj_kernel i arg1 harg1 arg2 harg2 arg3 harg3 arg4 harg4 arg5 harg5 arg6 harg6) K := by
  simp only [cc9__proj_kernel_eq_skeleton]; unfold cc9__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A_eq9]; try rfl) t d).trans
    (by unfold Dat.fetched Dat.blockOf iblk9; rw [A_eq9]; try rfl)

theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A_eq9]; try rfl) t d).trans
    (by unfold Dat.fetched Dat.blockOf iblk9; rw [A_eq9]; try rfl)

theorem before9_4 (c : Dev nD) (t : Fin cfg9.N) (d) : (dat9 V c).before 4 t d = iblk9 V c 4 t :=
  ((dat9 V c).before_in_eq_fetched 4 rfl (fun _ => rfl) (fun _ _ _ => rfl) (fun t => by rw [after9_4]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

end Cert.Kernel.Rg

end
-- ==== Proof.KB.R10.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val % 20 = 0 :=
  (by decide +kernel : ∀ t : Fin grid10.N, cond10_0 (grid10.coords t) ↔ t.val % 20 = 0)

abbrev VO10_2 : View sig .tc .vmem S128x128 .f32 := (Memref.whole cc10_stg2_0 : Memref sig .tc .vmem S128x128 .f32).view

abbrev ms10_0 (t : Fin cfg10.N) : Memref sig .tc .vmem S5000x1 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)

set_option maxHeartbeats 1000000 in
noncomputable def kernelRun10_A (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) :
    { L2 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc10__pool_kernel i arg1 harg1 arg2 harg2 arg3 harg3) K } := by
  refine ⟨?_, fun E K => ?run⟩
  case run =>
    simp only [cc10__pool_kernel_eq_skeleton]; unfold cc10__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
noncomputable def kernelRun10_B (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) :
    { L2 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc10__pool_kernel i arg1 harg1 arg2 harg2 arg3 harg3) K } := by
  refine ⟨?_, fun E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover10_A_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) (y : S128x128.Idx) :
    ∃ pc ∈ (kernelRun10_A c i arg1 harg1 arg2 harg2 arg3 harg3 hc0 x0 x1).1, y ∈ pc.1.set :=
  View.cover_of_tiledL (kernelRun10_A c i arg1 harg1 arg2 harg2 arg3 harg3 hc0 x0 x1).1 S128x128.size (by sl_kernel_rfl) y

def out10_A_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) : Vec F S128x128 .f32 :=
  VO10_2.read (Elt F) (VO10_2.writes (Elt F) VO10_2.junk (kernelRun10_A c i arg1 harg1 arg2 harg2 arg3 harg3 hc0 x0 x1).1)

theorem cover10_B_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) (y : S128x128.Idx) :
    ∃ pc ∈ (kernelRun10_B c i arg1 harg1 arg2 harg2 arg3 harg3 hc0 x0 x1 xo2).1, y ∈ pc.1.set :=
  View.cover_of_tiledL (kernelRun10_B c i arg1 harg1 arg2 harg2 arg3 harg3 hc0 x0 x1 xo2).1 S128x128.size (by sl_kernel_rfl) y

def out10_B_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) : Vec F S128x128 .f32 :=
  VO10_2.read (Elt F) (VO10_2.writes (Elt F) VO10_2.junk (kernelRun10_B c i arg1 harg1 arg2 harg2 arg3 harg3 hc0 x0 x1 xo2).1)

def outsAt10 (c : Dev nD) : (n : ℕ) → n < cfg10.N → Vec F S128x128 .f32
  | 0, hn => out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) ((hcond10_0 ⟨0, hn⟩).mpr (Nat.zero_mod _)) (iblk10 V c 0 ⟨0, hn⟩) (iblk10 V c 1 ⟨0, hn⟩)
  | n + 1, hn =>
    if h0 : (n + 1) % 20 = 0 then
      out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) ((hcond10_0 ⟨n + 1, hn⟩).mpr h0) (iblk10 V c 0 ⟨n + 1, hn⟩) (iblk10 V c 1 ⟨n + 1, hn⟩)
    else
      out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (fun h => h0 ((hcond10_0 ⟨n + 1, hn⟩).mp h)) (iblk10 V c 0 ⟨n + 1, hn⟩) (iblk10 V c 1 ⟨n + 1, hn⟩) (outsAt10 c n (Nat.lt_of_succ_lt hn))

theorem outsAt10_A (c : Dev nD) (t : Fin cfg10.N) (h0 : t.val % 20 = 0) :
    outsAt10 V c t.val t.isLt = out10_A_2 c (grid10.coords t) (ms10_0 t) (hs10_0 t) (ms10_1 t) (hs10_1 t) (ms10_2 t) (hs10_2 t) ((hcond10_0 t).mpr h0) (iblk10 V c 0 t) (iblk10 V c 1 t) := by
  obtain ⟨n, hn⟩ := t
  cases n with
  | zero => exact rfl
  | succ n => exact (dif_pos h0).trans rfl

theorem outsAt10_B (c : Dev nD) (t : Fin cfg10.N) (h0 : ¬t.val % 20 = 0) :
    outsAt10 V c t.val t.isLt = out10_B_2 c (grid10.coords t) (ms10_0 t) (hs10_0 t) (ms10_1 t) (hs10_1 t) (ms10_2 t) (hs10_2 t) (fun h => h0 ((hcond10_0 t).mp h)) (iblk10 V c 0 t) (iblk10 V c 1 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A_eq10]; try rfl) t d).trans
    (by unfold Dat.fetched Dat.blockOf iblk10; rw [A_eq10]; try rfl)

theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A_eq10]; try rfl) t d).trans
    (by unfold Dat.fetched Dat.blockOf iblk10; rw [A_eq10]; try rfl)

theorem before10_2_B (c : Dev nD) (t : Fin cfg10.N) (h0 : ¬t.val % 20 = 0) (d) :
    (dat10 V c).before 2 t d = (outsAt10 V c (t.val - 1) (Nat.lt_of_le_of_lt (Nat.sub_le _ _) t.isLt)) := by
  have hN : t.val < 20 := lt_of_lt_of_eq t.isLt (show cfg10.N = 20 from N_10)
  rw [Dat.before_out_kept _ 2 rfl t (by omega) (Bool.eq_false_iff.mpr fun h => by have := (flush10_2 _).mp h; dsimp only at this; omega)
    (fun _ => rfl) (fun _ _ => rfl)]
  dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t))

set_option maxHeartbeats 800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  have hN : t.val < 20 := lt_of_lt_of_eq t.isLt (show cfg10.N = 20 from N_10)
  by_cases h0 : t.val % 20 = 0
  · rw [outsAt10_A V c t h0]
    unfold out10_A_2
    iintro ⟨HΦ, Ho, ⟨%d0, H0⟩, ⟨%d1, H1⟩, ⟨%d2, H2⟩⟩
    iapply ((kernelRun10_A c (grid10.coords t) _ _ _ _ _ _ ((hcond10_0 t).mpr h0) (iblk10 V c 0 t) (iblk10 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt10_B V c t h0]
    simp only [before10_2_B V c t h0]
    unfold out10_B_2
    iintro ⟨HΦ, Ho, ⟨%d0, H0⟩, ⟨%d1, H1⟩, ⟨%d2, H2⟩⟩
    iapply ((kernelRun10_B c (grid10.coords t) _ _ _ _ _ _ (fun h => h0 ((hcond10_0 t).mp h)) (iblk10 V c 0 t) (iblk10 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Cert.Kernel.Rg

end
-- ==== Proof.KB.R11.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R10

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev ms11_0 (t : Fin cfg11.N) : Memref sig .tc .vmem S5000x1 .i32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x128 .f32 := win11_2.stage (cfg11.slots t 2)
abbrev hs11_2 (t : Fin cfg11.N) : (ms11_2 t).IsWhole := hstage11_2 ((cfg11.slots t 2).cast nbuf11_2)

def outsAt11 (c : Dev nD) : (n : ℕ) → n < cfg11.N → Vec F S128x128 .f32
  | 0, hn => out10_A_2 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) ((hcond10_0 ⟨0, hn⟩).mpr (Nat.zero_mod _)) (iblk11 V c 0 ⟨0, hn⟩) (iblk11 V c 1 ⟨0, hn⟩)
  | n + 1, hn =>
    if h0 : (n + 1) % 20 = 0 then
      out10_A_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) ((hcond10_0 ⟨n + 1, hn⟩).mpr h0) (iblk11 V c 0 ⟨n + 1, hn⟩) (iblk11 V c 1 ⟨n + 1, hn⟩)
    else
      out10_B_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (fun h => h0 ((hcond10_0 ⟨n + 1, hn⟩).mp h)) (iblk11 V c 0 ⟨n + 1, hn⟩) (iblk11 V c 1 ⟨n + 1, hn⟩) (outsAt11 c n (Nat.lt_of_succ_lt hn))

theorem outsAt11_A (c : Dev nD) (t : Fin cfg11.N) (h0 : t.val % 20 = 0) :
    outsAt11 V c t.val t.isLt = out10_A_2 c (grid11.coords t) (ms11_0 t) (hs11_0 t) (ms11_1 t) (hs11_1 t) (ms11_2 t) (hs11_2 t) ((hcond10_0 t).mpr h0) (iblk11 V c 0 t) (iblk11 V c 1 t) := by
  obtain ⟨n, hn⟩ := t
  cases n with
  | zero => exact rfl
  | succ n => exact (dif_pos h0).trans rfl

theorem outsAt11_B (c : Dev nD) (t : Fin cfg11.N) (h0 : ¬t.val % 20 = 0) :
    outsAt11 V c t.val t.isLt = out10_B_2 c (grid11.coords t) (ms11_0 t) (hs11_0 t) (ms11_1 t) (hs11_1 t) (ms11_2 t) (hs11_2 t) (fun h => h0 ((hcond10_0 t).mp h)) (iblk11 V c 0 t) (iblk11 V c 1 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A_eq11]; try rfl) t d).trans
    (by unfold Dat.fetched Dat.blockOf iblk11; rw [A_eq11]; try rfl)

theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A_eq11]; try rfl) t d).trans
    (by unfold Dat.fetched Dat.blockOf iblk11; rw [A_eq11]; try rfl)

theorem before11_2_B (c : Dev nD) (t : Fin cfg11.N) (h0 : ¬t.val % 20 = 0) (d) :
    (dat11 V c).before 2 t d = (outsAt11 V c (t.val - 1) (Nat.lt_of_le_of_lt (Nat.sub_le _ _) t.isLt)) := by
  have hN : t.val < 20 := lt_of_lt_of_eq t.isLt (show cfg11.N = 20 from N_11)
  rw [Dat.before_out_kept _ 2 rfl t (by omega) (Bool.eq_false_iff.mpr fun h => by have := (flush11_2 _).mp h; dsimp only at this; omega)
    (fun _ => rfl) (fun _ _ => rfl)]
  dsimp only [dat11]

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t))

set_option maxHeartbeats 800000 in
theorem cc11__pool_kernel_eq : cc11__pool_kernel (F := F) = cc10__pool_kernel (F := F) :=
  cc11__pool_kernel_eq_skeleton.trans cc10__pool_kernel_eq_skeleton.symm

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [cc11__pool_kernel_eq]
  simp only [before11_0, before11_1]
  rw [show (dat11 V c).Φ t.succ = (dat11 V c).Φ t.castSucc from rfl,
    show (dat11 V c).owesAt () t.succ = (dat11 V c).owesAt () t.castSucc from rfl,
    after11_0, after11_1, after11_2]
  have hN : t.val < 20 := lt_of_lt_of_eq t.isLt (show cfg11.N = 20 from N_11)
  by_cases h0 : t.val % 20 = 0
  · rw [outsAt11_A V c t h0]
    unfold out10_A_2
    iintro ⟨HΦ, Ho, ⟨%d0, H0⟩, ⟨%d1, H1⟩, ⟨%d2, H2⟩⟩
    iapply ((kernelRun10_A c (grid11.coords t) _ _ _ _ _ _ ((hcond10_0 t).mpr h0) (iblk11 V c 0 t) (iblk11 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt11_B V c t h0]
    simp only [before11_2_B V c t h0]
    unfold out10_B_2
    iintro ⟨HΦ, Ho, ⟨%d0, H0⟩, ⟨%d1, H1⟩, ⟨%d2, H2⟩⟩
    iapply ((kernelRun10_B c (grid11.coords t) _ _ _ _ _ _ (fun h => h0 ((hcond10_0 t).mp h)) (iblk11 V c 0 t) (iblk11 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation11 (c : Dev nD) : BodyObligation (dat11 (F := F) V c) (defs₀ (F := F)) Variants.none () Set.univ := fun t => by
  rw [bigSep_W11, bigSep_W11]
  exact sound_body11 V c t

end Cert.Kernel.Rg

end
-- ==== Proof.KB.R12.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R10

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev ms12_0 (t : Fin cfg12.N) : Memref sig .tc .vmem S5000x1 .i32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S5000x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)

def outsAt12 (c : Dev nD) : (n : ℕ) → n < cfg12.N → Vec F S128x128 .f32
  | 0, hn => out10_A_2 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) ((hcond10_0 ⟨0, hn⟩).mpr (Nat.zero_mod _)) (iblk12 V c 0 ⟨0, hn⟩) (iblk12 V c 1 ⟨0, hn⟩)
  | n + 1, hn =>
    if h0 : (n + 1) % 20 = 0 then
      out10_A_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) ((hcond10_0 ⟨n + 1, hn⟩).mpr h0) (iblk12 V c 0 ⟨n + 1, hn⟩) (iblk12 V c 1 ⟨n + 1, hn⟩)
    else
      out10_B_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (fun h => h0 ((hcond10_0 ⟨n + 1, hn⟩).mp h)) (iblk12 V c 0 ⟨n + 1, hn⟩) (iblk12 V c 1 ⟨n + 1, hn⟩) (outsAt12 c n (Nat.lt_of_succ_lt hn))

theorem outsAt12_A (c : Dev nD) (t : Fin cfg12.N) (h0 : t.val % 20 = 0) :
    outsAt12 V c t.val t.isLt = out10_A_2 c (grid12.coords t) (ms12_0 t) (hs12_0 t) (ms12_1 t) (hs12_1 t) (ms12_2 t) (hs12_2 t) ((hcond10_0 t).mpr h0) (iblk12 V c 0 t) (iblk12 V c 1 t) := by
  obtain ⟨n, hn⟩ := t
  cases n with
  | zero => exact rfl
  | succ n => exact (dif_pos h0).trans rfl

theorem outsAt12_B (c : Dev nD) (t : Fin cfg12.N) (h0 : ¬t.val % 20 = 0) :
    outsAt12 V c t.val t.isLt = out10_B_2 c (grid12.coords t) (ms12_0 t) (hs12_0 t) (ms12_1 t) (hs12_1 t) (ms12_2 t) (hs12_2 t) (fun h => h0 ((hcond10_0 t).mp h)) (iblk12 V c 0 t) (iblk12 V c 1 t) (outsAt12 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt) := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A_eq12]; try rfl) t d).trans
    (by unfold Dat.fetched Dat.blockOf iblk12; rw [A_eq12]; try rfl)

theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A_eq12]; try rfl) t d).trans
    (by unfold Dat.fetched Dat.blockOf iblk12; rw [A_eq12]; try rfl)

theorem before12_2_B (c : Dev nD) (t : Fin cfg12.N) (h0 : ¬t.val % 20 = 0) (d) :
    (dat12 V c).before 2 t d = (outsAt12 V c (t.val - 1) (Nat.lt_of_le_of_lt (Nat.sub_le _ _) t.isLt)) := by
  have hN : t.val < 20 := lt_of_lt_of_eq t.isLt (show cfg12.N = 20 from N_12)
  rw [Dat.before_out_kept _ 2 rfl t (by omega) (Bool.eq_false_iff.mpr fun h => by have := (flush12_2 _).mp h; dsimp only at this; omega)
    (fun _ => rfl) (fun _ _ => rfl)]
  dsimp only [dat12]

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t))

set_option maxHeartbeats 800000 in
theorem cc12__pool_kernel_eq : cc12__pool_kernel (F := F) = cc10__pool_kernel (F := F) :=
  cc12__pool_kernel_eq_skeleton.trans cc10__pool_kernel_eq_skeleton.symm

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [cc12__pool_kernel_eq]
  simp only [before12_0, before12_1]
  rw [show (dat12 V c).Φ t.succ = (dat12 V c).Φ t.castSucc from rfl,
    show (dat12 V c).owesAt () t.succ = (dat12 V c).owesAt () t.castSucc from rfl,
    after12_0, after12_1, after12_2]
  have hN : t.val < 20 := lt_of_lt_of_eq t.isLt (show cfg12.N = 20 from N_12)
  by_cases h0 : t.val % 20 = 0
  · rw [outsAt12_A V c t h0]
    unfold out10_A_2
    iintro ⟨HΦ, Ho, ⟨%d0, H0⟩, ⟨%d1, H1⟩, ⟨%d2, H2⟩⟩
    iapply ((kernelRun10_A c (grid12.coords t) _ _ _ _ _ _ ((hcond10_0 t).mpr h0) (iblk12 V c 0 t) (iblk12 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt12_B V c t h0]
    simp only [before12_2_B V c t h0]
    unfold out10_B_2
    iintro ⟨HΦ, Ho, ⟨%d0, H0⟩, ⟨%d1, H1⟩, ⟨%d2, H2⟩⟩
    iapply ((kernelRun10_B c (grid12.coords t) _ _ _ _ _ _ (fun h => h0 ((hcond10_0 t).mp h)) (iblk12 V c 0 t) (iblk12 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation12 (c : Dev nD) : BodyObligation (dat12 (F := F) V c) (defs₀ (F := F)) Variants.none () Set.univ := fun t => by
  rw [bigSep_W12, bigSep_W12]
  exact sound_body12 V c t

end Cert.Kernel.Rg

end
-- ==== Proof.KB.R13.lean ====
import proofs.«409448_j71794673320215_1_alg».proof.Proof.Gen.Kernel.Launch
import proofs.«409448_j71794673320215_1_alg».proof.Proof.Gen.Kernel.Skeleton
import proofs.«409448_j71794673320215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KB.R10

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev ms13_0 (t : Fin cfg13.N) : Memref sig .tc .vmem S5000x1 .i32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x128 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S128x128 .f32 := win13_2.stage (cfg13.slots t 2)
abbrev hs13_2 (t : Fin cfg13.N) : (ms13_2 t).IsWhole := hstage13_2 ((cfg13.slots t 2).cast nbuf13_2)

def outsAt13 (c : Dev nD) : (n : ℕ) → n < cfg13.N → Vec F S128x128 .f32
  | 0, hn => out10_A_2 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) ((hcond10_0 ⟨0, hn⟩).mpr (Nat.zero_mod _)) (iblk13 V c 0 ⟨0, hn⟩) (iblk13 V c 1 ⟨0, hn⟩)
  | n + 1, hn =>
    if h0 : (n + 1) % 20 = 0 then
      out10_A_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) ((hcond10_0 ⟨n + 1, hn⟩).mpr h0) (iblk13 V c 0 ⟨n + 1, hn⟩) (iblk13 V c 1 ⟨n + 1, hn⟩)
    else
      out10_B_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (fun h => h0 ((hcond10_0 ⟨n + 1, hn⟩).mp h)) (iblk13 V c 0 ⟨n + 1, hn⟩) (iblk13 V c 1 ⟨n + 1, hn⟩) (outsAt13 c n (Nat.lt_of_succ_lt hn))

theorem outsAt13_A (c : Dev nD) (t : Fin cfg13.N) (h0 : t.val % 20 = 0) :
    outsAt13 V c t.val t.isLt = out10_A_2 c (grid13.coords t) (ms13_0 t) (hs13_0 t) (ms13_1 t) (hs13_1 t) (ms13_2 t) (hs13_2 t) ((hcond10_0 t).mpr h0) (iblk13 V c 0 t) (iblk13 V c 1 t) := by
  obtain ⟨n, hn⟩ := t
  cases n with
  | zero => exact rfl
  | succ n => exact (dif_pos h0).trans rfl

theorem outsAt13_B (c : Dev nD) (t : Fin cfg13.N) (h0 : ¬t.val % 20 = 0) :
    outsAt13 V c t.val t.isLt = out10_B_2 c (grid13.coords t) (ms13_0 t) (hs13_0 t) (ms13_1 t) (hs13_1 t) (ms13_2 t) (hs13_2 t) (fun h => h0 ((hcond10_0 t).mp h)) (iblk13 V c 0 t) (iblk13 V c 1 t) (outsAt13 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A_eq13]; try rfl) t d).trans
    (by unfold Dat.fetched Dat.blockOf iblk13; rw [A_eq13]; try rfl)

theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A_eq13]; try rfl) t d).trans
    (by unfold Dat.fetched Dat.blockOf iblk13; rw [A_eq13]; try rfl)

theorem before13_2_B (c : Dev nD) (t : Fin cfg13.N) (h0 : ¬t.val % 20 = 0) (d) :
    (dat13 V c).before 2 t d = (outsAt13 V c (t.val - 1) (Nat.lt_of_le_of_lt (Nat.sub_le _ _) t.isLt)) := by
  have hN : t.val < 20 := lt_of_lt_of_eq t.isLt (show cfg13.N = 20 from N_13)
  rw [Dat.before_out_kept _ 2 rfl t (by omega) (Bool.eq_false_iff.mpr fun h => by have := (flush13_2 _).mp h; dsimp only at this; omega)
    (fun _ => rfl) (fun _ _ => rfl)]
  dsimp only [dat13]

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t))

set_option maxHeartbeats 800000 in
theorem cc13__pool_kernel_eq : cc13__pool_kernel (F := F) = cc10__pool_kernel (F := F) :=
  cc13__pool_kernel_eq_skeleton.trans cc10__pool_kernel_eq_skeleton.symm

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [cc13__pool_kernel_eq]
  simp only [before13_0, before13_1]
  rw [show (dat13 V c).Φ t.succ = (dat13 V c).Φ t.castSucc from rfl,
    show (dat13 V c).owesAt () t.succ = (dat13 V c).owesAt () t.castSucc from rfl,
    after13_0, after13_1, after13_2]
  have hN : t.val < 20 := lt_of_lt_of_eq t.isLt (show cfg13.N = 20 from N_13)
  by_cases h0 : t.val % 20 = 0
  · rw [outsAt13_A V c t h0]
    unfold out10_A_2
    iintro ⟨HΦ, Ho, ⟨%d0, H0⟩, ⟨%d1, H1⟩, ⟨%d2, H2⟩⟩
    iapply ((kernelRun10_A c (grid13.coords t) _ _ _ _ _ _ ((hcond10_0 t).mpr h0) (iblk13 V c 0 t) (iblk13 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt13_B V c t h0]
    simp only [before13_2_B V c t h0]
    unfold out10_B_2
    iintro ⟨HΦ, Ho, ⟨%d0, H0⟩, ⟨%d1, H1⟩, ⟨%d2, H2⟩⟩
    iapply ((kernelRun10_B c (grid13.coords t) _ _ _ _ _ _ (fun h => h0 ((hcond10_0 t).mp h)) (iblk13 V c 0 t) (iblk13 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation13 (c : Dev nD) : BodyObligation (dat13 (F := F) V c) (defs₀ (F := F)) Variants.none () Set.univ := fun t => by
  rw [bigSep_W13, bigSep_W13]
  exact sound_body13 V c t

end Cert.Kernel.Rg

end
-- ==== Proof.KB.Fold.lean ====
import proofs.«409448_j71794673320215_1_alg».proof.Proof.KB.R0
import proofs.«409448_j71794673320215_1_alg».proof.Proof.KB.R1
import proofs.«409448_j71794673320215_1_alg».proof.Proof.KB.R2
import proofs.«409448_j71794673320215_1_alg».proof.Proof.KB.R3
import proofs.«409448_j71794673320215_1_alg».proof.Proof.KB.R4
import proofs.«409448_j71794673320215_1_alg».proof.Proof.KB.R5
import proofs.«409448_j71794673320215_1_alg».proof.Proof.KB.R6
import proofs.«409448_j71794673320215_1_alg».proof.Proof.KB.R7
import proofs.«409448_j71794673320215_1_alg».proof.Proof.KB.R8
import proofs.«409448_j71794673320215_1_alg».proof.Proof.KB.R9
import proofs.«409448_j71794673320215_1_alg».proof.Proof.KB.R10
import proofs.«409448_j71794673320215_1_alg».proof.Proof.KB.R11
import proofs.«409448_j71794673320215_1_alg».proof.Proof.KB.R12
import proofs.«409448_j71794673320215_1_alg».proof.Proof.KB.R13
import proofs.«409448_j71794673320215_1_alg».proof.Proof.Gen.Kernel.Regions

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev U0 : (c : Dev nD) → (b : Ref sig .tc) → Buf (Elt F) ((c : Thread nD τ).loc b) := fun c b => W0 m c b

abbrev W1 (c : Dev nD) : Valuation τ sig (Elt F) := StableHlo.after hostOps0 (W0 m c)
abbrev U1 : (c : Dev nD) → (b : Ref sig .tc) → Buf (Elt F) ((c : Thread nD τ).loc b) := fun c b => W1 m c b

def o2 (c : Dev nD) : Buf (Elt F) ((c : Thread nD τ).loc main_v31) := (dat0 (U1 m) c).arrAt 2 cfg0.N

abbrev W2 (c : Dev nD) : Valuation τ sig (Elt F) := Function.update (W1 m c) main_v31 (o2 m c)
abbrev U2 : (c : Dev nD) → (b : Ref sig .tc) → Buf (Elt F) ((c : Thread nD τ).loc b) := fun c b => W2 m c b

abbrev W3 (c : Dev nD) : Valuation τ sig (Elt F) := StableHlo.after hostOps1 (W2 m c)
abbrev U3 : (c : Dev nD) → (b : Ref sig .tc) → Buf (Elt F) ((c : Thread nD τ).loc b) := fun c b => W3 m c b

def o4 (c : Dev nD) : Buf (Elt F) ((c : Thread nD τ).loc main_v47) := (dat1 (U3 m) c).arrAt 4 cfg1.N

abbrev W4 (c : Dev nD) : Valuation τ sig (Elt F) := Function.update (W3 m c) main_v47 (o4 m c)
abbrev U4 : (c : Dev nD) → (b : Ref sig .tc) → Buf (Elt F) ((c : Thread nD τ).loc b) := fun c b => W4 m c b

abbrev W5 (c : Dev nD) : Valuation τ sig (Elt F) := StableHlo.after hostOps2 (W4 m c)
abbrev U5 : (c : Dev nD) → (b : Ref sig .tc) → Buf (Elt F) ((c : Thread nD τ).loc b) := fun c b => W5 m c b

abbrev W6 (c : Dev nD) : Valuation τ sig (Elt F) := StableHlo.after hostOps2_1 (W5 m c)
abbrev U6 : (c : Dev nD) → (b : Ref sig .tc) → Buf (Elt F) ((c : Thread nD τ).loc b) := fun c b => W6 m c b

abbrev W7 (c : Dev nD) : Valuation τ sig (Elt F) := StableHlo.after hostOps2_2 (W6 m c)
abbrev U7 : (c : Dev nD) → (b : Ref sig .tc) → Buf (Elt F) ((c : Thread nD τ).loc b) := fun c b => W7 m c b

def o8 (c : Dev nD) : Buf (Elt F) ((c : Thread nD τ).loc main_v62) := (dat2 (U7 m) c).arrAt 3 cfg2.N

abbrev W8 (c : Dev nD) : Valuation τ sig (Elt F) := Function.update (W7 m c) main_v62 (o8 m c)
abbrev U8 : (c : Dev nD) → (b : Ref sig .tc) → Buf (Elt F) ((c : Thread nD τ).loc b) := fun c b => W8 m c b

abbrev W9 (c : Dev nD) : Valuation τ sig (Elt F) := StableHlo.after hostOps3 (W8 m c)
abbrev U9 : (c : Dev nD) → (b : Ref sig .tc) → Buf (Elt F) ((c : Thread nD τ).loc b) := fun c b => W9 m c b

def o10 (c : Dev nD) : Buf (Elt F) ((c : Thread nD τ).loc main_v65) := (dat3 (U9 m) c).arrAt 2 cfg3.N

abbrev W10 (c : Dev nD) : Valuation τ sig (Elt F) := Function.update (W9 m c) main_v65 (o10 m c)
abbrev U10 : (c : Dev nD) → (b : Ref sig .tc) → Buf (Elt F) ((c : Thread nD τ).loc b) := fun c b => W10 m c b

abbrev W11 (c : Dev nD) : Valuation τ sig (Elt F) := StableHlo.after hostOps4 (W10 m c)
abbrev U11 : (c : Dev nD) → (b : Ref sig .tc) → Buf (Elt F) ((c : Thread nD τ).loc b) := fun c b => W11 m c b

def o12 (c : Dev nD) : Buf (Elt F) ((c : Thread nD τ).loc main_v81) := (dat4 (U11 m) c).arrAt 4 cfg4.N

abbrev W12 (c : Dev nD) : Valuation τ sig (Elt F) := Function.update (W11 m c) main_v81 (o12 m c)
abbrev U12 : (c : Dev nD) → (b : Ref sig .tc) → Buf (Elt F) ((c : Thread nD τ).loc b) := fun c b => W12 m c b

abbrev W13 (c : Dev nD) : Valuation τ sig (Elt F) := StableHlo.after hostOps5 (W12 m c)
abbrev U13 : (c : Dev nD) → (b : Ref sig .tc) → Buf (Elt F) ((c : Thread nD τ).loc b) := fun c b => W13 m c b

abbrev W14 (c : Dev nD) : Valuation τ sig (Elt F) := StableHlo.after hostOps5_1 (W13 m c)
abbrev U14 : (c : Dev nD) → (b : Ref sig .tc) → Buf (Elt F) ((c : Thread nD τ).loc b) := fun c b => W14 m c b

abbrev W15 (c : Dev nD) : Valuation τ sig (Elt F) := StableHlo.after hostOps5_2 (W14 m c)
abbrev U15 : (c : Dev nD) → (b : Ref sig .tc) → Buf (Elt F) ((c : Thread nD τ).loc b) := fun c b => W15 m c b

def o16 (c : Dev nD) : Buf (Elt F) ((c : Thread nD τ).loc main_v96) := (dat5 (U15 m) c).arrAt 3 cfg5.N

abbrev W16 (c : Dev nD) : Valuation τ sig (Elt F) := Function.update (W15 m c) main_v96 (o16 m c)
abbrev U16 : (c : Dev nD) → (b : Ref sig .tc) → Buf (Elt F) ((c : Thread nD τ).loc b) := fun c b => W16 m c b

abbrev W17 (c : Dev nD) : Valuation τ sig (Elt F) := StableHlo.after hostOps6 (W16 m c)
abbrev U17 : (c : Dev nD) → (b : Ref sig .tc) → Buf (Elt F) ((c : Thread nD τ).loc b) := fun c b => W17 m c b

def o18 (c : Dev nD) : Buf (Elt F) ((c : Thread nD τ).loc main_v99) := (dat6 (U17 m) c).arrAt 2 cfg6.N

abbrev W18 (c : Dev nD) : Valuation τ sig (Elt F) := Function.update (W17 m c) main_v99 (o18 m c)
abbrev U18 : (c : Dev nD) → (b : Ref sig .tc) → Buf (Elt F) ((c : Thread nD τ).loc b) := fun c b => W18 m c b

abbrev W19 (c : Dev nD) : Valuation τ sig (Elt F) := StableHlo.after hostOps7 (W18 m c)
abbrev U19 : (c : Dev nD) → (b : Ref sig .tc) → Buf (Elt F) ((c : Thread nD τ).loc b) := fun c b => W19 m c b

def o20 (c : Dev nD) : Buf (Elt F) ((c : Thread nD τ).loc main_v115) := (dat7 (U19 m) c).arrAt 4 cfg7.N

abbrev W20 (c : Dev nD) : Valuation τ sig (Elt F) := Function.update (W19 m c) main_v115 (o20 m c)
abbrev U20 : (c : Dev nD) → (b : Ref sig .tc) → Buf (Elt F) ((c : Thread nD τ).loc b) := fun c b => W20 m c b

abbrev W21 (c : Dev nD) : Valuation τ sig (Elt F) := StableHlo.after hostOps8 (W20 m c)
abbrev U21 : (c : Dev nD) → (b : Ref sig .tc) → Buf (Elt F) ((c : Thread nD τ).loc b) := fun c b => W21 m c b

abbrev W22 (c : Dev nD) : Valuation τ sig (Elt F) := StableHlo.after hostOps8_1 (W21 m c)
abbrev U22 : (c : Dev nD) → (b : Ref sig .tc) → Buf (Elt F) ((c : Thread nD τ).loc b) := fun c b => W22 m c b

abbrev W23 (c : Dev nD) : Valuation τ sig (Elt F) := StableHlo.after hostOps8_2 (W22 m c)
abbrev U23 : (c : Dev nD) → (b : Ref sig .tc) → Buf (Elt F) ((c : Thread nD τ).loc b) := fun c b => W23 m c b

def o24 (c : Dev nD) : Buf (Elt F) ((c : Thread nD τ).loc main_v130) := (dat8 (U23 m) c).arrAt 3 cfg8.N

abbrev W24 (c : Dev nD) : Valuation τ sig (Elt F) := Function.update (W23 m c) main_v130 (o24 m c)
abbrev U24 : (c : Dev nD) → (b : Ref sig .tc) → Buf (Elt F) ((c : Thread nD τ).loc b) := fun c b => W24 m c b

def o25 (c : Dev nD) : Buf (Elt F) ((c : Thread nD τ).loc main_v131) := (dat9 (U24 m) c).arrAt 5 cfg9.N

abbrev W25 (c : Dev nD) : Valuation τ sig (Elt F) := Function.update (W24 m c) main_v131 (o25 m c)
abbrev U25 : (c : Dev nD) → (b : Ref sig .tc) → Buf (Elt F) ((c : Thread nD τ).loc b) := fun c b => W25 m c b

abbrev W26 (c : Dev nD) : Valuation τ sig (Elt F) := StableHlo.after hostOps10 (W25 m c)
abbrev U26 : (c : Dev nD) → (b : Ref sig .tc) → Buf (Elt F) ((c : Thread nD τ).loc b) := fun c b => W26 m c b

def o27 (c : Dev nD) : Buf (Elt F) ((c : Thread nD τ).loc main_v133) := (dat10 (U26 m) c).arrAt 2 cfg10.N

abbrev W27 (c : Dev nD) : Valuation τ sig (Elt F) := Function.update (W26 m c) main_v133 (o27 m c)
abbrev U27 : (c : Dev nD) → (b : Ref sig .tc) → Buf (Elt F) ((c : Thread nD τ).loc b) := fun c b => W27 m c b

def o28 (c : Dev nD) : Buf (Elt F) ((c : Thread nD τ).loc main_v134) := (dat11 (U27 m) c).arrAt 2 cfg11.N

abbrev W28 (c : Dev nD) : Valuation τ sig (Elt F) := Function.update (W27 m c) main_v134 (o28 m c)
abbrev U28 : (c : Dev nD) → (b : Ref sig .tc) → Buf (Elt F) ((c : Thread nD τ).loc b) := fun c b => W28 m c b

def o29 (c : Dev nD) : Buf (Elt F) ((c : Thread nD τ).loc main_v135) := (dat12 (U28 m) c).arrAt 2 cfg12.N

abbrev W29 (c : Dev nD) : Valuation τ sig (Elt F) := Function.update (W28 m c) main_v135 (o29 m c)
abbrev U29 : (c : Dev nD) → (b : Ref sig .tc) → Buf (Elt F) ((c : Thread nD τ).loc b) := fun c b => W29 m c b

def o30 (c : Dev nD) : Buf (Elt F) ((c : Thread nD τ).loc main_v136) := (dat13 (U29 m) c).arrAt 2 cfg13.N

abbrev W30 (c : Dev nD) : Valuation τ sig (Elt F) := Function.update (W29 m c) main_v136 (o30 m c)
abbrev U30 : (c : Dev nD) → (b : Ref sig .tc) → Buf (Elt F) ((c : Thread nD τ).loc b) := fun c b => W30 m c b

abbrev W31 (c : Dev nD) : Valuation τ sig (Elt F) := StableHlo.after hostOps14 (W30 m c)
abbrev U31 : (c : Dev nD) → (b : Ref sig .tc) → Buf (Elt F) ((c : Thread nD τ).loc b) := fun c b => W31 m c b

def pdats : (p : Fin 14) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U7 m) c
  | ⟨3, _⟩ => fun c => dat3 (U9 m) c
  | ⟨4, _⟩ => fun c => dat4 (U11 m) c
  | ⟨5, _⟩ => fun c => dat5 (U15 m) c
  | ⟨6, _⟩ => fun c => dat6 (U17 m) c
  | ⟨7, _⟩ => fun c => dat7 (U19 m) c
  | ⟨8, _⟩ => fun c => dat8 (U23 m) c
  | ⟨9, _⟩ => fun c => dat9 (U24 m) c
  | ⟨10, _⟩ => fun c => dat10 (U26 m) c
  | ⟨11, _⟩ => fun c => dat11 (U27 m) c
  | ⟨12, _⟩ => fun c => dat12 (U28 m) c
  | ⟨13, _⟩ => fun c => dat13 (U29 m) c

def outs : Outs (F := F) := fun J r c => match J with
  | 2 => W2 m c r
  | 4 => W4 m c r
  | 8 => W8 m c r
  | 10 => W10 m c r
  | 12 => W12 m c r
  | 16 => W16 m c r
  | 18 => W18 m c r
  | 20 => W20 m c r
  | 24 => W24 m c r
  | 25 => W25 m c r
  | 27 => W27 m c r
  | 28 => W28 m c r
  | 29 => W29 m c r
  | 30 => W30 m c r
  | _ => W0 m c r

theorem V0_eq (c : Dev nD) : V0 m c = W0 m c := rfl
theorem V1_eq (c : Dev nD) : V1 m c = W1 m c := rfl
theorem V2_eq (c : Dev nD) : V2 m (outs m) c = W2 m c := by
  show Function.update (V1 m c) main_v31 (Function.update (W1 m c) main_v31 (o2 m c) main_v31) = _
  rw [V1_eq, Function.update_self]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v47 (Function.update (W3 m c) main_v47 (o4 m c) main_v47) = _
  rw [V3_eq, Function.update_self]
theorem V5_eq (c : Dev nD) : V5 m (outs m) c = W5 m c := by
  show StableHlo.after hostOps2 (V4 m (outs m) c) = _
  rw [V4_eq]
theorem V6_eq (c : Dev nD) : V6 m (outs m) c = W6 m c := by
  show StableHlo.after hostOps2_1 (V5 m (outs m) c) = _
  rw [V5_eq]
theorem V7_eq (c : Dev nD) : V7 m (outs m) c = W7 m c := by
  show StableHlo.after hostOps2_2 (V6 m (outs m) c) = _
  rw [V6_eq]
theorem V8_eq (c : Dev nD) : V8 m (outs m) c = W8 m c := by
  show Function.update (V7 m (outs m) c) main_v62 (Function.update (W7 m c) main_v62 (o8 m c) main_v62) = _
  rw [V7_eq, Function.update_self]
theorem V9_eq (c : Dev nD) : V9 m (outs m) c = W9 m c := by
  show StableHlo.after hostOps3 (V8 m (outs m) c) = _
  rw [V8_eq]
theorem V10_eq (c : Dev nD) : V10 m (outs m) c = W10 m c := by
  show Function.update (V9 m (outs m) c) main_v65 (Function.update (W9 m c) main_v65 (o10 m c) main_v65) = _
  rw [V9_eq, Function.update_self]
theorem V11_eq (c : Dev nD) : V11 m (outs m) c = W11 m c := by
  show StableHlo.after hostOps4 (V10 m (outs m) c) = _
  rw [V10_eq]
theorem V12_eq (c : Dev nD) : V12 m (outs m) c = W12 m c := by
  show Function.update (V11 m (outs m) c) main_v81 (Function.update (W11 m c) main_v81 (o12 m c) main_v81) = _
  rw [V11_eq, Function.update_self]
theorem V13_eq (c : Dev nD) : V13 m (outs m) c = W13 m c := by
  show StableHlo.after hostOps5 (V12 m (outs m) c) = _
  rw [V12_eq]
theorem V14_eq (c : Dev nD) : V14 m (outs m) c = W14 m c := by
  show StableHlo.after hostOps5_1 (V13 m (outs m) c) = _
  rw [V13_eq]
theorem V15_eq (c : Dev nD) : V15 m (outs m) c = W15 m c := by
  show StableHlo.after hostOps5_2 (V14 m (outs m) c) = _
  rw [V14_eq]
theorem V16_eq (c : Dev nD) : V16 m (outs m) c = W16 m c := by
  show Function.update (V15 m (outs m) c) main_v96 (Function.update (W15 m c) main_v96 (o16 m c) main_v96) = _
  rw [V15_eq, Function.update_self]
theorem V17_eq (c : Dev nD) : V17 m (outs m) c = W17 m c := by
  show StableHlo.after hostOps6 (V16 m (outs m) c) = _
  rw [V16_eq]
theorem V18_eq (c : Dev nD) : V18 m (outs m) c = W18 m c := by
  show Function.update (V17 m (outs m) c) main_v99 (Function.update (W17 m c) main_v99 (o18 m c) main_v99) = _
  rw [V17_eq, Function.update_self]
theorem V19_eq (c : Dev nD) : V19 m (outs m) c = W19 m c := by
  show StableHlo.after hostOps7 (V18 m (outs m) c) = _
  rw [V18_eq]
theorem V20_eq (c : Dev nD) : V20 m (outs m) c = W20 m c := by
  show Function.update (V19 m (outs m) c) main_v115 (Function.update (W19 m c) main_v115 (o20 m c) main_v115) = _
  rw [V19_eq, Function.update_self]
theorem V21_eq (c : Dev nD) : V21 m (outs m) c = W21 m c := by
  show StableHlo.after hostOps8 (V20 m (outs m) c) = _
  rw [V20_eq]
theorem V22_eq (c : Dev nD) : V22 m (outs m) c = W22 m c := by
  show StableHlo.after hostOps8_1 (V21 m (outs m) c) = _
  rw [V21_eq]
theorem V23_eq (c : Dev nD) : V23 m (outs m) c = W23 m c := by
  show StableHlo.after hostOps8_2 (V22 m (outs m) c) = _
  rw [V22_eq]
theorem V24_eq (c : Dev nD) : V24 m (outs m) c = W24 m c := by
  show Function.update (V23 m (outs m) c) main_v130 (Function.update (W23 m c) main_v130 (o24 m c) main_v130) = _
  rw [V23_eq, Function.update_self]
theorem V25_eq (c : Dev nD) : V25 m (outs m) c = W25 m c := by
  show Function.update (V24 m (outs m) c) main_v131 (Function.update (W24 m c) main_v131 (o25 m c) main_v131) = _
  rw [V24_eq, Function.update_self]
theorem V26_eq (c : Dev nD) : V26 m (outs m) c = W26 m c := by
  show StableHlo.after hostOps10 (V25 m (outs m) c) = _
  rw [V25_eq]
theorem V27_eq (c : Dev nD) : V27 m (outs m) c = W27 m c := by
  show Function.update (V26 m (outs m) c) main_v133 (Function.update (W26 m c) main_v133 (o27 m c) main_v133) = _
  rw [V26_eq, Function.update_self]
theorem V28_eq (c : Dev nD) : V28 m (outs m) c = W28 m c := by
  show Function.update (V27 m (outs m) c) main_v134 (Function.update (W27 m c) main_v134 (o28 m c) main_v134) = _
  rw [V27_eq, Function.update_self]
theorem V29_eq (c : Dev nD) : V29 m (outs m) c = W29 m c := by
  show Function.update (V28 m (outs m) c) main_v135 (Function.update (W28 m c) main_v135 (o29 m c) main_v135) = _
  rw [V28_eq, Function.update_self]
theorem V30_eq (c : Dev nD) : V30 m (outs m) c = W30 m c := by
  show Function.update (V29 m (outs m) c) main_v136 (Function.update (W29 m c) main_v136 (o30 m c) main_v136) = _
  rw [V29_eq, Function.update_self]
theorem V31_eq (c : Dev nD) : V31 m (outs m) c = W31 m c := by
  show StableHlo.after hostOps14 (V30 m (outs m) c) = _
  rw [V30_eq]

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Rg

end
-- ==== Proof.KB.Regs.lean ====
import proofs.«409448_j71794673320215_1_alg».proof.Proof.KB.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Region

variable (p : Fin 14) (o : Fin (cfgs p).W) (Win : (c : Dev nD) → Valuation τ sig (Elt F))

/-- The buffers after region `p`: the array of its one output window `o` replaced by the region's result, the rest unchanged. -/
abbrev leaves (c : Dev nD) : Valuation τ sig (Elt F) :=
  Function.update (Win c) (Proc.devRef .tc (Pipeline.arrRef (cfgs p).spec o)) ((pdats m p c).arrAt o (cfgs p).N)

variable (launch : Pipeline.LaunchFacts (nD := nD) (τ := τ) cfgs p)
  (hio : ∀ w, w ≠ o → ((cfgs p).win w).isOut = false)
  (hA : ∀ c w, (pdats m p c).A w = Win c (Pipeline.arrRef (cfgs p).spec w))
  (hΦ : ∀ c t, (pdats m p c).Φ t = Pipeline.ΦA (cfgs p).spec c)
  (hq : ∀ c w, (pdats m p c).q w = fullShare)
  (howed : ∀ c t, (pdats m p c).owed t = 0)
  (hrec : ∀ c t, (pdats m p c).recorded t = Set.univ)
  (hbody : ∀ c, BodyObligation (pdats m p c) (defs₀ (F := F)) Variants.none () Set.univ)

include launch hio hA in
/-- Inputs are never written and distinct windows name distinct arrays, so every array of the region ends at `leaves`. -/
theorem leaves_arr (c : Dev nD) (w : Fin (cfgs p).W) :
    (pdats m p c).arrAt w (cfgs p).N = leaves m p o Win c (Pipeline.arrRef (cfgs p).spec w) := by
  by_cases h : w = o
  · subst h
    show _ = Function.update (Win c) (Proc.devRef .tc (Pipeline.arrRef (cfgs p).spec w)) _ _
    rw [Function.update_self]
  · exact ((pdats m p c).arrAt_in w (hio w h) _).trans ((hA c w).trans
      (Function.update_of_ne (StableHlo.devRef_ne_of_ne fun e => h (launch.win.arr_inj e)) _ _).symm)

theorem leaves_rest (c : Dev nD) : ∀ b, b ∉ Finset.univ.image (Pipeline.arrRef (cfgs p).spec) → leaves m p o Win c b = Win c b :=
  fun b hb => Function.update_of_ne (StableHlo.devRef_ne_of_ne fun h => hb (by rw [h]; exact Finset.mem_image.mpr ⟨o, Finset.mem_univ _, rfl⟩)) _ _

set_option backward.isDefEq.respectTransparency.types false in
/-- Region `p` as a segment of the run, from the buffers `Win` to `leaves`. -/
def regOf : Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (leaves m p o Win c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Win c b) (fun b => leaves m p o Win c b) ((pdats m p c).arrAt · (cfgs p).N)
      (leaves_arr m p o Win launch hio hA c) (leaves_rest m p o Win c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Region

def reg0 := regOf m 0 2 (W1 m) launch0 (by decide) (fun _ _ => rfl) (fun _ _ => rfl) (fun _ _ => rfl) (fun _ _ => rfl) (fun _ _ => rfl) (body_obligation0 (U1 m))
def reg1 := regOf m 1 4 (W3 m) launch1 (by decide) (fun _ _ => rfl) (fun _ _ => rfl) (fun _ _ => rfl) (fun _ _ => rfl) (fun _ _ => rfl) (body_obligation1 (U3 m))
def reg2 := regOf m 2 3 (W7 m) launch2 (by decide) (fun _ _ => rfl) (fun _ _ => rfl) (fun _ _ => rfl) (fun _ _ => rfl) (fun _ _ => rfl) (body_obligation2 (U7 m))
def reg3 := regOf m 3 2 (W9 m) launch3 (by decide) (fun _ _ => rfl) (fun _ _ => rfl) (fun _ _ => rfl) (fun _ _ => rfl) (fun _ _ => rfl) (body_obligation3 (U9 m))
def reg4 := regOf m 4 4 (W11 m) launch4 (by decide) (fun _ _ => rfl) (fun _ _ => rfl) (fun _ _ => rfl) (fun _ _ => rfl) (fun _ _ => rfl) (body_obligation4 (U11 m))
def reg5 := regOf m 5 3 (W15 m) launch5 (by decide) (fun _ _ => rfl) (fun _ _ => rfl) (fun _ _ => rfl) (fun _ _ => rfl) (fun _ _ => rfl) (body_obligation5 (U15 m))
def reg6 := regOf m 6 2 (W17 m) launch6 (by decide) (fun _ _ => rfl) (fun _ _ => rfl) (fun _ _ => rfl) (fun _ _ => rfl) (fun _ _ => rfl) (body_obligation6 (U17 m))
def reg7 := regOf m 7 4 (W19 m) launch7 (by decide) (fun _ _ => rfl) (fun _ _ => rfl) (fun _ _ => rfl) (fun _ _ => rfl) (fun _ _ => rfl) (body_obligation7 (U19 m))
def reg8 := regOf m 8 3 (W23 m) launch8 (by decide) (fun _ _ => rfl) (fun _ _ => rfl) (fun _ _ => rfl) (fun _ _ => rfl) (fun _ _ => rfl) (body_obligation8 (U23 m))
def reg9 := regOf m 9 5 (W24 m) launch9 (by decide) (fun _ _ => rfl) (fun _ _ => rfl) (fun _ _ => rfl) (fun _ _ => rfl) (fun _ _ => rfl) (body_obligation9 (U24 m))
def reg10 := regOf m 10 2 (W26 m) launch10 (by decide) (fun _ _ => rfl) (fun _ _ => rfl) (fun _ _ => rfl) (fun _ _ => rfl) (fun _ _ => rfl) (body_obligation10 (U26 m))
def reg11 := regOf m 11 2 (W27 m) launch11 (by decide) (fun _ _ => rfl) (fun _ _ => rfl) (fun _ _ => rfl) (fun _ _ => rfl) (fun _ _ => rfl) (body_obligation11 (U27 m))
def reg12 := regOf m 12 2 (W28 m) launch12 (by decide) (fun _ _ => rfl) (fun _ _ => rfl) (fun _ _ => rfl) (fun _ _ => rfl) (fun _ _ => rfl) (body_obligation12 (U28 m))
def reg13 := regOf m 13 2 (W29 m) launch13 (by decide) (fun _ _ => rfl) (fun _ _ => rfl) (fun _ _ => rfl) (fun _ _ => rfl) (fun _ _ => rfl) (body_obligation13 (U29 m))

end Cert.Kernel.Rg

end
-- ==== Proof.KB.Frame.lean ====
import proofs.«409448_j71794673320215_1_alg».proof.Proof.KB.Regs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
set_option backward.isDefEq.respectTransparency.types false in
/-- No item of the program writes an argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V23_eq m c]; exact .rfl) (fun c => by rw [V24_eq m c]; exact .rfl)
    (reg9 m) (fun c => by rw [V24_eq m c]; exact .rfl) (fun c => by rw [V25_eq m c]; exact .rfl)
    (reg10 m) (fun c => by rw [V26_eq m c]; exact .rfl) (fun c => by rw [V27_eq m c]; exact .rfl)
    (reg11 m) (fun c => by rw [V27_eq m c]; exact .rfl) (fun c => by rw [V28_eq m c]; exact .rfl)
    (reg12 m) (fun c => by rw [V28_eq m c]; exact .rfl) (fun c => by rw [V29_eq m c]; exact .rfl)
    (reg13 m) (fun c => by rw [V29_eq m c]; exact .rfl) (fun c => by rw [V30_eq m c]; exact .rfl)

end Cert.Kernel.Rg

end
-- ==== Proof.KI.R0.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.R1.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S128 := Rect.unit (s := S128) ![0] S128.size inb_S128_S128_0

def out1_4 (x0 : Vec F S5000x128 .f32) (x1 : Vec F S5000x128 .f32) (x2 : Vec F S5000x1 .f32) (x3 : Vec F S128 .f32) : Vec F S5000x128 .f32 :=
  View.canon [⟨r1_0, k1_pay1 (View.ld x0 r1_0) (View.ld x1 r1_0) (View.ld x2 r1_2) (View.ld x3 r1_3)⟩]

theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (x3 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.R2.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0

abbrev r2_1 : Rect S128 := Rect.unit (s := S128) ![0] S128.size inb_S128_S128_0

def out2_3 (x0 : Vec F S5000x128 .f32) (x1 : Vec F S128 .f32) (x2 : Vec F S128 .f32) : Vec F S5000x128 .f32 :=
  View.canon [⟨r2_0, k2_pay1 (View.ld x0 r2_0) (View.ld x1 r2_1) (View.ld x2 r2_1)⟩]

theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
theorem sound_kernel2 (c : Dev nD) (E : Set ℕ) (i : grid2.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S5000x128 .f32) (harg4 : arg4.IsWhole)
    (x0 : Vec F S5000x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn_kernel i arg1 harg1 arg2 harg2 arg3 harg3 arg4 harg4) K := by
  simp only [cc2__bn_kernel_eq_skeleton]; unfold cc2__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.R3.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

def out3_2 (x0 : Vec F S5000x128 .f32) (x1 : Vec F S128x128 .f32) : Vec F S5000x128 .f32 :=
  View.canon [⟨r3_0, k3_pay1 (View.ld x0 r3_0) (View.ld x1 r3_1)⟩]

theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KI.R4.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R1

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out1_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out1_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem cc4__combine_kernel_eq : cc4__combine_kernel (F := F) = cc1__combine_kernel (F := F) :=
  cc4__combine_kernel_eq_skeleton.trans cc1__combine_kernel_eq_skeleton.symm

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4__combine_kernel_eq]
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.R5.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R2

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out2_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out2_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem cc5__bn_kernel_eq : cc5__bn_kernel (F := F) = cc2__bn_kernel (F := F) :=
  cc5__bn_kernel_eq_skeleton.trans cc2__bn_kernel_eq_skeleton.symm

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5__bn_kernel_eq]
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel2 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KI.R6.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R3

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out3_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out3_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem cc6__linear_kernel_eq : cc6__linear_kernel (F := F) = cc3__linear_kernel (F := F) :=
  cc6__linear_kernel_eq_skeleton.trans cc3__linear_kernel_eq_skeleton.symm

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6__linear_kernel_eq]
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel3 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KI.R7.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R1

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out1_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out1_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem cc7__combine_kernel_eq : cc7__combine_kernel (F := F) = cc1__combine_kernel (F := F) :=
  cc7__combine_kernel_eq_skeleton.trans cc1__combine_kernel_eq_skeleton.symm

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7__combine_kernel_eq]
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KI.R8.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R2

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out2_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out2_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)

theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem cc8__bn_kernel_eq : cc8__bn_kernel (F := F) = cc2__bn_kernel (F := F) :=
  cc8__bn_kernel_eq_skeleton.trans cc2__bn_kernel_eq_skeleton.symm

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8__bn_kernel_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel2 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Rg

end
-- ==== Proof.KI.R9.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S5000x128 := Rect.unit (s := S5000x128) ![0, 0] S5000x128.size inb_S5000x128_S5000x128_0_0
abbrev rB9 : Rect S128x128 := Rect.unit (s := S128x128) ![0, 0] S128x128.size inb_S128x128_S128x128_0_0
abbrev rC9 : Rect S128 := Rect.unit (s := S128) ![0] S128.size inb_S128_S128_0

def out9_5 (x0 : Vec F S5000x128 .f32) (x1 : Vec F S128x128 .f32) (x2 : Vec F S128 .f32) (x3 : Vec F S128x128 .f32) (x4 : Vec F S128 .f32) : Vec F S5000x128 .f32 :=
  View.canon [⟨rA9, k9_pay1 (View.ld x0 rA9) (View.ld x1 rB9) (View.ld x2 rC9) (View.ld x3 rB9) (View.ld x4 rC9)⟩]

theorem cover9_5 (p0 : Vec F S5000x128 .f32) (y : S5000x128.Idx) :
    ∃ pc ∈ ([⟨rA9, p0⟩] : List (View.Piece (Elt F) S5000x128 .f32)), y ∈ pc.1.set :=
  View.cover_of_tiled [⟨rA9, p0⟩] S5000x128.size (by rfl) y

set_option maxHeartbeats 1000000 in
theorem sound_kernel9 (c : Dev nD) (E : Set ℕ) (i : grid9.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__proj_kernel i arg1 harg1 arg2 harg2 arg3 harg3 arg4 harg4 arg5 harg5 arg6 harg6) K := by
  simp only [cc9__proj_kernel_eq_skeleton]; unfold cc9__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A_eq9]; try rfl) t d).trans
    (by unfold Dat.fetched Dat.blockOf iblk9; rw [A_eq9]; try rfl)

theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A_eq9]; try rfl) t d).trans
    (by unfold Dat.fetched Dat.blockOf iblk9; rw [A_eq9]; try rfl)

theorem before9_4 (c : Dev nD) (t : Fin cfg9.N) (d) : (dat9 V c).before 4 t d = iblk9 V c 4 t :=
  ((dat9 V c).before_in_eq_fetched 4 rfl (fun _ => rfl) (fun _ _ _ => rfl) (fun t => by rw [after9_4]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

end Cert.KernelIdeal.Rg

end
-- ==== Proof.KI.R10.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val % 20 = 0 :=
  (by decide +kernel : ∀ t : Fin grid10.N, cond10_0 (grid10.coords t) ↔ t.val % 20 = 0)

abbrev VO10_2 : View sig .tc .vmem S128x128 .f32 := (Memref.whole cc10_stg2_0 : Memref sig .tc .vmem S128x128 .f32).view

abbrev ms10_0 (t : Fin cfg10.N) : Memref sig .tc .vmem S5000x1 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)

set_option maxHeartbeats 1000000 in
noncomputable def kernelRun10_A (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) :
    { L2 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc10__pool_kernel i arg1 harg1 arg2 harg2 arg3 harg3) K } := by
  refine ⟨?_, fun E K => ?run⟩
  case run =>
    simp only [cc10__pool_kernel_eq_skeleton]; unfold cc10__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
noncomputable def kernelRun10_B (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) :
    { L2 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc10__pool_kernel i arg1 harg1 arg2 harg2 arg3 harg3) K } := by
  refine ⟨?_, fun E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover10_A_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) (y : S128x128.Idx) :
    ∃ pc ∈ (kernelRun10_A c i arg1 harg1 arg2 harg2 arg3 harg3 hc0 x0 x1).1, y ∈ pc.1.set :=
  View.cover_of_tiledL (kernelRun10_A c i arg1 harg1 arg2 harg2 arg3 harg3 hc0 x0 x1).1 S128x128.size (by sl_kernel_rfl) y

def out10_A_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : cond10_0 i)
    (x0 : Vec F S5000x1 .i32) (x1 : Vec F S5000x128 .f32) : Vec F S128x128 .f32 :=
  VO10_2.read (Elt F) (VO10_2.writes (Elt F) VO10_2.junk (kernelRun10_A c i arg1 harg1 arg2 harg2 arg3 harg3 hc0 x0 x1).1)

theorem cover10_B_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) (y : S128x128.Idx) :
    ∃ pc ∈ (kernelRun10_B c i arg1 harg1 arg2 harg2 arg3 harg3 hc0 x0 x1 xo2).1, y ∈ pc.1.set :=
  View.cover_of_tiledL (kernelRun10_B c i arg1 harg1 arg2 harg2 arg3 harg3 hc0 x0 x1 xo2).1 S128x128.size (by sl_kernel_rfl) y

def out10_B_2 (c : Dev nD) (i : grid10.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (hc0 : ¬cond10_0 i)
    (x0 : Vec F S5000x1 .i32) (x1 : Vec F S5000x128 .f32) (xo2 : Vec F S128x128 .f32) : Vec F S128x128 .f32 :=
  VO10_2.read (Elt F) (VO10_2.writes (Elt F) VO10_2.junk (kernelRun10_B c i arg1 harg1 arg2 harg2 arg3 harg3 hc0 x0 x1 xo2).1)

def outsAt10 (c : Dev nD) : (n : ℕ) → n < cfg10.N → Vec F S128x128 .f32
  | 0, hn => out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) ((hcond10_0 ⟨0, hn⟩).mpr (Nat.zero_mod _)) (iblk10 V c 0 ⟨0, hn⟩) (iblk10 V c 1 ⟨0, hn⟩)
  | n + 1, hn =>
    if h0 : (n + 1) % 20 = 0 then
      out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) ((hcond10_0 ⟨n + 1, hn⟩).mpr h0) (iblk10 V c 0 ⟨n + 1, hn⟩) (iblk10 V c 1 ⟨n + 1, hn⟩)
    else
      out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (fun h => h0 ((hcond10_0 ⟨n + 1, hn⟩).mp h)) (iblk10 V c 0 ⟨n + 1, hn⟩) (iblk10 V c 1 ⟨n + 1, hn⟩) (outsAt10 c n (Nat.lt_of_succ_lt hn))

theorem outsAt10_A (c : Dev nD) (t : Fin cfg10.N) (h0 : t.val % 20 = 0) :
    outsAt10 V c t.val t.isLt = out10_A_2 c (grid10.coords t) (ms10_0 t) (hs10_0 t) (ms10_1 t) (hs10_1 t) (ms10_2 t) (hs10_2 t) ((hcond10_0 t).mpr h0) (iblk10 V c 0 t) (iblk10 V c 1 t) := by
  obtain ⟨n, hn⟩ := t
  cases n with
  | zero => exact rfl
  | succ n => exact (dif_pos h0).trans rfl

theorem outsAt10_B (c : Dev nD) (t : Fin cfg10.N) (h0 : ¬t.val % 20 = 0) :
    outsAt10 V c t.val t.isLt = out10_B_2 c (grid10.coords t) (ms10_0 t) (hs10_0 t) (ms10_1 t) (hs10_1 t) (ms10_2 t) (hs10_2 t) (fun h => h0 ((hcond10_0 t).mp h)) (iblk10 V c 0 t) (iblk10 V c 1 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A_eq10]; try rfl) t d).trans
    (by unfold Dat.fetched Dat.blockOf iblk10; rw [A_eq10]; try rfl)

theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A_eq10]; try rfl) t d).trans
    (by unfold Dat.fetched Dat.blockOf iblk10; rw [A_eq10]; try rfl)

theorem before10_2_B (c : Dev nD) (t : Fin cfg10.N) (h0 : ¬t.val % 20 = 0) (d) :
    (dat10 V c).before 2 t d = (outsAt10 V c (t.val - 1) (Nat.lt_of_le_of_lt (Nat.sub_le _ _) t.isLt)) := by
  have hN : t.val < 20 := lt_of_lt_of_eq t.isLt (show cfg10.N = 20 from N_10)
  rw [Dat.before_out_kept _ 2 rfl t (by omega) (Bool.eq_false_iff.mpr fun h => by have := (flush10_2 _).mp h; dsimp only at this; omega)
    (fun _ => rfl) (fun _ _ => rfl)]
  dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t))

set_option maxHeartbeats 800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  have hN : t.val < 20 := lt_of_lt_of_eq t.isLt (show cfg10.N = 20 from N_10)
  by_cases h0 : t.val % 20 = 0
  · rw [outsAt10_A V c t h0]
    unfold out10_A_2
    iintro ⟨HΦ, Ho, ⟨%d0, H0⟩, ⟨%d1, H1⟩, ⟨%d2, H2⟩⟩
    iapply ((kernelRun10_A c (grid10.coords t) _ _ _ _ _ _ ((hcond10_0 t).mpr h0) (iblk10 V c 0 t) (iblk10 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt10_B V c t h0]
    simp only [before10_2_B V c t h0]
    unfold out10_B_2
    iintro ⟨HΦ, Ho, ⟨%d0, H0⟩, ⟨%d1, H1⟩, ⟨%d2, H2⟩⟩
    iapply ((kernelRun10_B c (grid10.coords t) _ _ _ _ _ _ (fun h => h0 ((hcond10_0 t).mp h)) (iblk10 V c 0 t) (iblk10 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Cert.KernelIdeal.Rg

end
-- ==== Proof.KI.R11.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R10

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev ms11_0 (t : Fin cfg11.N) : Memref sig .tc .vmem S5000x1 .i32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x128 .f32 := win11_2.stage (cfg11.slots t 2)
abbrev hs11_2 (t : Fin cfg11.N) : (ms11_2 t).IsWhole := hstage11_2 ((cfg11.slots t 2).cast nbuf11_2)

def outsAt11 (c : Dev nD) : (n : ℕ) → n < cfg11.N → Vec F S128x128 .f32
  | 0, hn => out10_A_2 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) ((hcond10_0 ⟨0, hn⟩).mpr (Nat.zero_mod _)) (iblk11 V c 0 ⟨0, hn⟩) (iblk11 V c 1 ⟨0, hn⟩)
  | n + 1, hn =>
    if h0 : (n + 1) % 20 = 0 then
      out10_A_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) ((hcond10_0 ⟨n + 1, hn⟩).mpr h0) (iblk11 V c 0 ⟨n + 1, hn⟩) (iblk11 V c 1 ⟨n + 1, hn⟩)
    else
      out10_B_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (fun h => h0 ((hcond10_0 ⟨n + 1, hn⟩).mp h)) (iblk11 V c 0 ⟨n + 1, hn⟩) (iblk11 V c 1 ⟨n + 1, hn⟩) (outsAt11 c n (Nat.lt_of_succ_lt hn))

theorem outsAt11_A (c : Dev nD) (t : Fin cfg11.N) (h0 : t.val % 20 = 0) :
    outsAt11 V c t.val t.isLt = out10_A_2 c (grid11.coords t) (ms11_0 t) (hs11_0 t) (ms11_1 t) (hs11_1 t) (ms11_2 t) (hs11_2 t) ((hcond10_0 t).mpr h0) (iblk11 V c 0 t) (iblk11 V c 1 t) := by
  obtain ⟨n, hn⟩ := t
  cases n with
  | zero => exact rfl
  | succ n => exact (dif_pos h0).trans rfl

theorem outsAt11_B (c : Dev nD) (t : Fin cfg11.N) (h0 : ¬t.val % 20 = 0) :
    outsAt11 V c t.val t.isLt = out10_B_2 c (grid11.coords t) (ms11_0 t) (hs11_0 t) (ms11_1 t) (hs11_1 t) (ms11_2 t) (hs11_2 t) (fun h => h0 ((hcond10_0 t).mp h)) (iblk11 V c 0 t) (iblk11 V c 1 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A_eq11]; try rfl) t d).trans
    (by unfold Dat.fetched Dat.blockOf iblk11; rw [A_eq11]; try rfl)

theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A_eq11]; try rfl) t d).trans
    (by unfold Dat.fetched Dat.blockOf iblk11; rw [A_eq11]; try rfl)

theorem before11_2_B (c : Dev nD) (t : Fin cfg11.N) (h0 : ¬t.val % 20 = 0) (d) :
    (dat11 V c).before 2 t d = (outsAt11 V c (t.val - 1) (Nat.lt_of_le_of_lt (Nat.sub_le _ _) t.isLt)) := by
  have hN : t.val < 20 := lt_of_lt_of_eq t.isLt (show cfg11.N = 20 from N_11)
  rw [Dat.before_out_kept _ 2 rfl t (by omega) (Bool.eq_false_iff.mpr fun h => by have := (flush11_2 _).mp h; dsimp only at this; omega)
    (fun _ => rfl) (fun _ _ => rfl)]
  dsimp only [dat11]

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t))

set_option maxHeartbeats 800000 in
theorem cc11__pool_kernel_eq : cc11__pool_kernel (F := F) = cc10__pool_kernel (F := F) :=
  cc11__pool_kernel_eq_skeleton.trans cc10__pool_kernel_eq_skeleton.symm

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [cc11__pool_kernel_eq]
  simp only [before11_0, before11_1]
  rw [show (dat11 V c).Φ t.succ = (dat11 V c).Φ t.castSucc from rfl,
    show (dat11 V c).owesAt () t.succ = (dat11 V c).owesAt () t.castSucc from rfl,
    after11_0, after11_1, after11_2]
  have hN : t.val < 20 := lt_of_lt_of_eq t.isLt (show cfg11.N = 20 from N_11)
  by_cases h0 : t.val % 20 = 0
  · rw [outsAt11_A V c t h0]
    unfold out10_A_2
    iintro ⟨HΦ, Ho, ⟨%d0, H0⟩, ⟨%d1, H1⟩, ⟨%d2, H2⟩⟩
    iapply ((kernelRun10_A c (grid11.coords t) _ _ _ _ _ _ ((hcond10_0 t).mpr h0) (iblk11 V c 0 t) (iblk11 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt11_B V c t h0]
    simp only [before11_2_B V c t h0]
    unfold out10_B_2
    iintro ⟨HΦ, Ho, ⟨%d0, H0⟩, ⟨%d1, H1⟩, ⟨%d2, H2⟩⟩
    iapply ((kernelRun10_B c (grid11.coords t) _ _ _ _ _ _ (fun h => h0 ((hcond10_0 t).mp h)) (iblk11 V c 0 t) (iblk11 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation11 (c : Dev nD) : BodyObligation (dat11 (F := F) V c) (defs₀ (F := F)) Variants.none () Set.univ := fun t => by
  rw [bigSep_W11, bigSep_W11]
  exact sound_body11 V c t

end Cert.KernelIdeal.Rg

end
-- ==== Proof.KI.R12.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R10

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev ms12_0 (t : Fin cfg12.N) : Memref sig .tc .vmem S5000x1 .i32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S5000x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)

def outsAt12 (c : Dev nD) : (n : ℕ) → n < cfg12.N → Vec F S128x128 .f32
  | 0, hn => out10_A_2 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) ((hcond10_0 ⟨0, hn⟩).mpr (Nat.zero_mod _)) (iblk12 V c 0 ⟨0, hn⟩) (iblk12 V c 1 ⟨0, hn⟩)
  | n + 1, hn =>
    if h0 : (n + 1) % 20 = 0 then
      out10_A_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) ((hcond10_0 ⟨n + 1, hn⟩).mpr h0) (iblk12 V c 0 ⟨n + 1, hn⟩) (iblk12 V c 1 ⟨n + 1, hn⟩)
    else
      out10_B_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (fun h => h0 ((hcond10_0 ⟨n + 1, hn⟩).mp h)) (iblk12 V c 0 ⟨n + 1, hn⟩) (iblk12 V c 1 ⟨n + 1, hn⟩) (outsAt12 c n (Nat.lt_of_succ_lt hn))

theorem outsAt12_A (c : Dev nD) (t : Fin cfg12.N) (h0 : t.val % 20 = 0) :
    outsAt12 V c t.val t.isLt = out10_A_2 c (grid12.coords t) (ms12_0 t) (hs12_0 t) (ms12_1 t) (hs12_1 t) (ms12_2 t) (hs12_2 t) ((hcond10_0 t).mpr h0) (iblk12 V c 0 t) (iblk12 V c 1 t) := by
  obtain ⟨n, hn⟩ := t
  cases n with
  | zero => exact rfl
  | succ n => exact (dif_pos h0).trans rfl

theorem outsAt12_B (c : Dev nD) (t : Fin cfg12.N) (h0 : ¬t.val % 20 = 0) :
    outsAt12 V c t.val t.isLt = out10_B_2 c (grid12.coords t) (ms12_0 t) (hs12_0 t) (ms12_1 t) (hs12_1 t) (ms12_2 t) (hs12_2 t) (fun h => h0 ((hcond10_0 t).mp h)) (iblk12 V c 0 t) (iblk12 V c 1 t) (outsAt12 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt) := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A_eq12]; try rfl) t d).trans
    (by unfold Dat.fetched Dat.blockOf iblk12; rw [A_eq12]; try rfl)

theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A_eq12]; try rfl) t d).trans
    (by unfold Dat.fetched Dat.blockOf iblk12; rw [A_eq12]; try rfl)

theorem before12_2_B (c : Dev nD) (t : Fin cfg12.N) (h0 : ¬t.val % 20 = 0) (d) :
    (dat12 V c).before 2 t d = (outsAt12 V c (t.val - 1) (Nat.lt_of_le_of_lt (Nat.sub_le _ _) t.isLt)) := by
  have hN : t.val < 20 := lt_of_lt_of_eq t.isLt (show cfg12.N = 20 from N_12)
  rw [Dat.before_out_kept _ 2 rfl t (by omega) (Bool.eq_false_iff.mpr fun h => by have := (flush12_2 _).mp h; dsimp only at this; omega)
    (fun _ => rfl) (fun _ _ => rfl)]
  dsimp only [dat12]

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t))

set_option maxHeartbeats 800000 in
theorem cc12__pool_kernel_eq : cc12__pool_kernel (F := F) = cc10__pool_kernel (F := F) :=
  cc12__pool_kernel_eq_skeleton.trans cc10__pool_kernel_eq_skeleton.symm

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [cc12__pool_kernel_eq]
  simp only [before12_0, before12_1]
  rw [show (dat12 V c).Φ t.succ = (dat12 V c).Φ t.castSucc from rfl,
    show (dat12 V c).owesAt () t.succ = (dat12 V c).owesAt () t.castSucc from rfl,
    after12_0, after12_1, after12_2]
  have hN : t.val < 20 := lt_of_lt_of_eq t.isLt (show cfg12.N = 20 from N_12)
  by_cases h0 : t.val % 20 = 0
  · rw [outsAt12_A V c t h0]
    unfold out10_A_2
    iintro ⟨HΦ, Ho, ⟨%d0, H0⟩, ⟨%d1, H1⟩, ⟨%d2, H2⟩⟩
    iapply ((kernelRun10_A c (grid12.coords t) _ _ _ _ _ _ ((hcond10_0 t).mpr h0) (iblk12 V c 0 t) (iblk12 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt12_B V c t h0]
    simp only [before12_2_B V c t h0]
    unfold out10_B_2
    iintro ⟨HΦ, Ho, ⟨%d0, H0⟩, ⟨%d1, H1⟩, ⟨%d2, H2⟩⟩
    iapply ((kernelRun10_B c (grid12.coords t) _ _ _ _ _ _ (fun h => h0 ((hcond10_0 t).mp h)) (iblk12 V c 0 t) (iblk12 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation12 (c : Dev nD) : BodyObligation (dat12 (F := F) V c) (defs₀ (F := F)) Variants.none () Set.univ := fun t => by
  rw [bigSep_W12, bigSep_W12]
  exact sound_body12 V c t

end Cert.KernelIdeal.Rg

end
-- ==== Proof.KI.R13.lean ====
import proofs.«409448_j71794673320215_1_alg».proof.Proof.Gen.KernelIdeal.Launch
import proofs.«409448_j71794673320215_1_alg».proof.Proof.Gen.KernelIdeal.Skeleton
import proofs.«409448_j71794673320215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409448_j71794673320215_1_alg».proof.Proof.KI.R10

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev ms13_0 (t : Fin cfg13.N) : Memref sig .tc .vmem S5000x1 .i32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x128 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S128x128 .f32 := win13_2.stage (cfg13.slots t 2)
abbrev hs13_2 (t : Fin cfg13.N) : (ms13_2 t).IsWhole := hstage13_2 ((cfg13.slots t 2).cast nbuf13_2)

def outsAt13 (c : Dev nD) : (n : ℕ) → n < cfg13.N → Vec F S128x128 .f32
  | 0, hn => out10_A_2 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) ((hcond10_0 ⟨0, hn⟩).mpr (Nat.zero_mod _)) (iblk13 V c 0 ⟨0, hn⟩) (iblk13 V c 1 ⟨0, hn⟩)
  | n + 1, hn =>
    if h0 : (n + 1) % 20 = 0 then
      out10_A_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) ((hcond10_0 ⟨n + 1, hn⟩).mpr h0) (iblk13 V c 0 ⟨n + 1, hn⟩) (iblk13 V c 1 ⟨n + 1, hn⟩)
    else
      out10_B_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (fun h => h0 ((hcond10_0 ⟨n + 1, hn⟩).mp h)) (iblk13 V c 0 ⟨n + 1, hn⟩) (iblk13 V c 1 ⟨n + 1, hn⟩) (outsAt13 c n (Nat.lt_of_succ_lt hn))

theorem outsAt13_A (c : Dev nD) (t : Fin cfg13.N) (h0 : t.val % 20 = 0) :
    outsAt13 V c t.val t.isLt = out10_A_2 c (grid13.coords t) (ms13_0 t) (hs13_0 t) (ms13_1 t) (hs13_1 t) (ms13_2 t) (hs13_2 t) ((hcond10_0 t).mpr h0) (iblk13 V c 0 t) (iblk13 V c 1 t) := by
  obtain ⟨n, hn⟩ := t
  cases n with
  | zero => exact rfl
  | succ n => exact (dif_pos h0).trans rfl

theorem outsAt13_B (c : Dev nD) (t : Fin cfg13.N) (h0 : ¬t.val % 20 = 0) :
    outsAt13 V c t.val t.isLt = out10_B_2 c (grid13.coords t) (ms13_0 t) (hs13_0 t) (ms13_1 t) (hs13_1 t) (ms13_2 t) (hs13_2 t) (fun h => h0 ((hcond10_0 t).mp h)) (iblk13 V c 0 t) (iblk13 V c 1 t) (outsAt13 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A_eq13]; try rfl) t d).trans
    (by unfold Dat.fetched Dat.blockOf iblk13; rw [A_eq13]; try rfl)

theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A_eq13]; try rfl) t d).trans
    (by unfold Dat.fetched Dat.blockOf iblk13; rw [A_eq13]; try rfl)

theorem before13_2_B (c : Dev nD) (t : Fin cfg13.N) (h0 : ¬t.val % 20 = 0) (d) :
    (dat13 V c).before 2 t d = (outsAt13 V c (t.val - 1) (Nat.lt_of_le_of_lt (Nat.sub_le _ _) t.isLt)) := by
  have hN : t.val < 20 := lt_of_lt_of_eq t.isLt (show cfg13.N = 20 from N_13)
  rw [Dat.before_out_kept _ 2 rfl t (by omega) (Bool.eq_false_iff.mpr fun h => by have := (flush13_2 _).mp h; dsimp only at this; omega)
    (fun _ => rfl) (fun _ _ => rfl)]
  dsimp only [dat13]

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t))

set_option maxHeartbeats 800000 in
theorem cc13__pool_kernel_eq : cc13__pool_kernel (F := F) = cc10__pool_kernel (F := F) :=
  cc13__pool_kernel_eq_skeleton.trans cc10__pool_kernel_eq_skeleton.symm

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [cc13__pool_kernel_eq]
  simp only [before13_0, before13_1]
  rw [show (dat13 V c).Φ t.succ = (dat13 V c).Φ t.castSucc from rfl,
    show (dat13 V c).owesAt () t.succ = (dat13 V c).owesAt () t.castSucc from rfl,
    after13_0, after13_1, after13_2]
  have hN : t.val < 20 := lt_of_lt_of_eq t.isLt (show cfg13.N = 20 from N_13)
  by_cases h0 : t.val % 20 = 0
  · rw [outsAt13_A V c t h0]
    unfold out10_A_2
    iintro ⟨HΦ, Ho, ⟨%d0, H0⟩, ⟨%d1, H1⟩, ⟨%d2, H2⟩⟩
    iapply ((kernelRun10_A c (grid13.coords t) _ _ _ _ _ _ ((hcond10_0 t).mpr h0) (iblk13 V c 0 t) (iblk13 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_A_2 c _ _ _ _ _ _ _ _ _ _)
  · rw [outsAt13_B V c t h0]
    simp only [before13_2_B V c t h0]
    unfold out10_B_2
    iintro ⟨HΦ, Ho, ⟨%d0, H0⟩, ⟨%d1, H1⟩, ⟨%d2, H2⟩⟩
    iapply ((kernelRun10_B c (grid13.coords t) _ _ _ _ _ _ (fun h => h0 ((hcond10_0 t).mp h)) (iblk13 V c 0 t) (iblk13 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _)

theorem body_obligation13 (c : Dev nD) : BodyObligation (dat13 (F := F) V c) (defs₀ (F := F)) Variants.none () Set.univ := fun t => by
  rw [bigSep_W13, bigSep_W13]
  exact sound_body13 V c t

end Cert.KernelIdeal.Rg

end
-- ==== Proof.KI.Fold.lean ====
import proofs.«409448_j71794673320215_1_alg».proof.Proof.KI.R0
import proofs.«409448_j71794673320215_1_alg».proof.Proof.KI.R1
import proofs.«409448_j71794673320215_1_alg».proof.Proof.KI.R2
import proofs.«409448_j71794673320215_1_alg».proof.Proof.KI.R3
import proofs.«409448_j71794673320215_1_alg».proof.Proof.KI.R4
import proofs.«409448_j71794673320215_1_alg».proof.Proof.KI.R5
import proofs.«409448_j71794673320215_1_alg».proof.Proof.KI.R6
import proofs.«409448_j71794673320215_1_alg».proof.Proof.KI.R7
import proofs.«409448_j71794673320215_1_alg».proof.Proof.KI.R8
import proofs.«409448_j71794673320215_1_alg».proof.Proof.KI.R9
import proofs.«409448_j71794673320215_1_alg».proof.Proof.KI.R10
import proofs.«409448_j71794673320215_1_alg».proof.Proof.KI.R11
import proofs.«409448_j71794673320215_1_alg».proof.Proof.KI.R12
import proofs.«409448_j71794673320215_1_alg».proof.Proof.KI.R13
import proofs.«409448_j71794673320215_1_alg».proof.Proof.Gen.KernelIdeal.Regions

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev U0 : (c : Dev nD) → (b : Ref sig .tc) → Buf (Elt F) ((c : Thread nD τ).loc b) := fun c b => W0 m c b

abbrev W1 (c : Dev nD) : Valuation τ sig (Elt F) := StableHlo.after hostOps0 (W0 m c)
abbrev U1 : (c : Dev nD) → (b : Ref sig .tc) → Buf (Elt F) ((c : Thread nD τ).loc b) := fun c b => W1 m c b

def o2 (c : Dev nD) : Buf (Elt F) ((c : Thread nD τ).loc main_v31) := (dat0 (U1 m) c).arrAt 2 cfg0.N

abbrev W2 (c : Dev nD) : Valuation τ sig (Elt F) := Function.update (W1 m c) main_v31 (o2 m c)
abbrev U2 : (c : Dev nD) → (b : Ref sig .tc) → Buf (Elt F) ((c : Thread nD τ).loc b) := fun c b => W2 m c b

abbrev W3 (c : Dev nD) : Valuation τ sig (Elt F) := StableHlo.after hostOps1 (W2 m c)
abbrev U3 : (c : Dev nD) → (b : Ref sig .tc) → Buf (Elt F) ((c : Thread nD τ).loc b) := fun c b => W3 m c b

def o4 (c : Dev nD) : Buf (Elt F) ((c : Thread nD τ).loc main_v47) := (dat1 (U3 m) c).arrAt 4 cfg1.N

abbrev W4 (c : Dev nD) : Valuation τ sig (Elt F) := Function.update (W3 m c) main_v47 (o4 m c)
abbrev U4 : (c : Dev nD) → (b : Ref sig .tc) → Buf (Elt F) ((c : Thread nD τ).loc b) := fun c b => W4 m c b

abbrev W5 (c : Dev nD) : Valuation τ sig (Elt F) := StableHlo.after hostOps2 (W4 m c)
abbrev U5 : (c : Dev nD) → (b : Ref sig .tc) → Buf (Elt F) ((c : Thread nD τ).loc b) := fun c b => W5 m c b

abbrev W6 (c : Dev nD) : Valuation τ sig (Elt F) := StableHlo.after hostOps2_1 (W5 m c)
abbrev U6 : (c : Dev nD) → (b : Ref sig .tc) → Buf (Elt F) ((c : Thread nD τ).loc b) := fun c b => W6 m c b

abbrev W7 (c : Dev nD) : Valuation τ sig (Elt F) := StableHlo.after hostOps2_2 (W6 m c)
abbrev U7 : (c : Dev nD) → (b : Ref sig .tc) → Buf (Elt F) ((c : Thread nD τ).loc b) := fun c b => W7 m c b

def o8 (c : Dev nD) : Buf (Elt F) ((c : Thread nD τ).loc main_v62) := (dat2 (U7 m) c).arrAt 3 cfg2.N

abbrev W8 (c : Dev nD) : Valuation τ sig (Elt F) := Function.update (W7 m c) main_v62 (o8 m c)
abbrev U8 : (c : Dev nD) → (b : Ref sig .tc) → Buf (Elt F) ((c : Thread nD τ).loc b) := fun c b => W8 m c b

abbrev W9 (c : Dev nD) : Valuation τ sig (Elt F) := StableHlo.after hostOps3 (W8 m c)
abbrev U9 : (c : Dev nD) → (b : Ref sig .tc) → Buf (Elt F) ((c : Thread nD τ).loc b) := fun c b => W9 m c b

def o10 (c : Dev nD) : Buf (Elt F) ((c : Thread nD τ).loc main_v65) := (dat3 (U9 m) c).arrAt 2 cfg3.N

abbrev W10 (c : Dev nD) : Valuation τ sig (Elt F) := Function.update (W9 m c) main_v65 (o10 m c)
abbrev U10 : (c : Dev nD) → (b : Ref sig .tc) → Buf (Elt F) ((c : Thread nD τ).loc b) := fun c b => W10 m c b

abbrev W11 (c : Dev nD) : Valuation τ sig (Elt F) := StableHlo.after hostOps4 (W10 m c)
abbrev U11 : (c : Dev nD) → (b : Ref sig .tc) → Buf (Elt F) ((c : Thread nD τ).loc b) := fun c b => W11 m c b

def o12 (c : Dev nD) : Buf (Elt F) ((c : Thread nD τ).loc main_v81) := (dat4 (U11 m) c).arrAt 4 cfg4.N

abbrev W12 (c : Dev nD) : Valuation τ sig (Elt F) := Function.update (W11 m c) main_v81 (o12 m c)
abbrev U12 : (c : Dev nD) → (b : Ref sig .tc) → Buf (Elt F) ((c : Thread nD τ).loc b) := fun c b => W12 m c b

abbrev W13 (c : Dev nD) : Valuation τ sig (Elt F) := StableHlo.after hostOps5 (W12 m c)
abbrev U13 : (c : Dev nD) → (b : Ref sig .tc) → Buf (Elt F) ((c : Thread nD τ).loc b) := fun c b => W13 m c b

abbrev W14 (c : Dev nD) : Valuation τ sig (Elt F) := StableHlo.after hostOps5_1 (W13 m c)
abbrev U14 : (c : Dev nD) → (b : Ref sig .tc) → Buf (Elt F) ((c : Thread nD τ).loc b) := fun c b => W14 m c b

abbrev W15 (c : Dev nD) : Valuation τ sig (Elt F) := StableHlo.after hostOps5_2 (W14 m c)
abbrev U15 : (c : Dev nD) → (b : Ref sig .tc) → Buf (Elt F) ((c : Thread nD τ).loc b) := fun c b => W15 m c b

def o16 (c : Dev nD) : Buf (Elt F) ((c : Thread nD τ).loc main_v96) := (dat5 (U15 m) c).arrAt 3 cfg5.N

abbrev W16 (c : Dev nD) : Valuation τ sig (Elt F) := Function.update (W15 m c) main_v96 (o16 m c)
abbrev U16 : (c : Dev nD) → (b : Ref sig .tc) → Buf (Elt F) ((c : Thread nD τ).loc b) := fun c b => W16 m c b

abbrev W17 (c : Dev nD) : Valuation τ sig (Elt F) := StableHlo.after hostOps6 (W16 m c)
abbrev U17 : (c : Dev nD) → (b : Ref sig .tc) → Buf (Elt F) ((c : Thread nD τ).loc b) := fun c b => W17 m c b

def o18 (c : Dev nD) : Buf (Elt F) ((c : Thread nD τ).loc main_v99) := (dat6 (U17 m) c).arrAt 2 cfg6.N

abbrev W18 (c : Dev nD) : Valuation τ sig (Elt F) := Function.update (W17 m c) main_v99 (o18 m c)
abbrev U18 : (c : Dev nD) → (b : Ref sig .tc) → Buf (Elt F) ((c : Thread nD τ).loc b) := fun c b => W18 m c b

abbrev W19 (c : Dev nD) : Valuation τ sig (Elt F) := StableHlo.after hostOps7 (W18 m c)
abbrev U19 : (c : Dev nD) → (b : Ref sig .tc) → Buf (Elt F) ((c : Thread nD τ).loc b) := fun c b => W19 m c b

def o20 (c : Dev nD) : Buf (Elt F) ((c : Thread nD τ).loc main_v115) := (dat7 (U19 m) c).arrAt 4 cfg7.N

abbrev W20 (c : Dev nD) : Valuation τ sig (Elt F) := Function.update (W19 m c) main_v115 (o20 m c)
abbrev U20 : (c : Dev nD) → (b : Ref sig .tc) → Buf (Elt F) ((c : Thread nD τ).loc b) := fun c b => W20 m c b

abbrev W21 (c : Dev nD) : Valuation τ sig (Elt F) := StableHlo.after hostOps8 (W20 m c)
abbrev U21 : (c : Dev nD) → (b : Ref sig .tc) → Buf (Elt F) ((c : Thread nD τ).loc b) := fun c b => W21 m c b

abbrev W22 (c : Dev nD) : Valuation τ sig (Elt F) := StableHlo.after hostOps8_1 (W21 m c)
abbrev U22 : (c : Dev nD) → (b : Ref sig .tc) → Buf (Elt F) ((c : Thread nD τ).loc b) := fun c b => W22 m c b

abbrev W23 (c : Dev nD) : Valuation τ sig (Elt F) := StableHlo.after hostOps8_2 (W22 m c)
abbrev U23 : (c : Dev nD) → (b : Ref sig .tc) → Buf (Elt F) ((c : Thread nD τ).loc b) := fun c b => W23 m c b

def o24 (c : Dev nD) : Buf (Elt F) ((c : Thread nD τ).loc main_v130) := (dat8 (U23 m) c).arrAt 3 cfg8.N

abbrev W24 (c : Dev nD) : Valuation τ sig (Elt F) := Function.update (W23 m c) main_v130 (o24 m c)
abbrev U24 : (c : Dev nD) → (b : Ref sig .tc) → Buf (Elt F) ((c : Thread nD τ).loc b) := fun c b => W24 m c b

def o25 (c : Dev nD) : Buf (Elt F) ((c : Thread nD τ).loc main_v131) := (dat9 (U24 m) c).arrAt 5 cfg9.N

abbrev W25 (c : Dev nD) : Valuation τ sig (Elt F) := Function.update (W24 m c) main_v131 (o25 m c)
abbrev U25 : (c : Dev nD) → (b : Ref sig .tc) → Buf (Elt F) ((c : Thread nD τ).loc b) := fun c b => W25 m c b

abbrev W26 (c : Dev nD) : Valuation τ sig (Elt F) := StableHlo.after hostOps10 (W25 m c)
abbrev U26 : (c : Dev nD) → (b : Ref sig .tc) → Buf (Elt F) ((c : Thread nD τ).loc b) := fun c b => W26 m c b

def o27 (c : Dev nD) : Buf (Elt F) ((c : Thread nD τ).loc main_v133) := (dat10 (U26 m) c).arrAt 2 cfg10.N

abbrev W27 (c : Dev nD) : Valuation τ sig (Elt F) := Function.update (W26 m c) main_v133 (o27 m c)
abbrev U27 : (c : Dev nD) → (b : Ref sig .tc) → Buf (Elt F) ((c : Thread nD τ).loc b) := fun c b => W27 m c b

def o28 (c : Dev nD) : Buf (Elt F) ((c : Thread nD τ).loc main_v134) := (dat11 (U27 m) c).arrAt 2 cfg11.N

abbrev W28 (c : Dev nD) : Valuation τ sig (Elt F) := Function.update (W27 m c) main_v134 (o28 m c)
abbrev U28 : (c : Dev nD) → (b : Ref sig .tc) → Buf (Elt F) ((c : Thread nD τ).loc b) := fun c b => W28 m c b

def o29 (c : Dev nD) : Buf (Elt F) ((c : Thread nD τ).loc main_v135) := (dat12 (U28 m) c).arrAt 2 cfg12.N

abbrev W29 (c : Dev nD) : Valuation τ sig (Elt F) := Function.update (W28 m c) main_v135 (o29 m c)
abbrev U29 : (c : Dev nD) → (b : Ref sig .tc) → Buf (Elt F) ((c : Thread nD τ).loc b) := fun c b => W29 m c b

def o30 (c : Dev nD) : Buf (Elt F) ((c : Thread nD τ).loc main_v136) := (dat13 (U29 m) c).arrAt 2 cfg13.N

abbrev W30 (c : Dev nD) : Valuation τ sig (Elt F) := Function.update (W29 m c) main_v136 (o30 m c)
abbrev U30 : (c : Dev nD) → (b : Ref sig .tc) → Buf (Elt F) ((c : Thread nD τ).loc b) := fun c b => W30 m c b

abbrev W31 (c : Dev nD) : Valuation τ sig (Elt F) := StableHlo.after hostOps14 (W30 m c)
abbrev U31 : (c : Dev nD) → (b : Ref sig .tc) → Buf (Elt F) ((c : Thread nD τ).loc b) := fun c b => W31 m c b

def pdats : (p : Fin 14) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U7 m) c
  | ⟨3, _⟩ => fun c => dat3 (U9 m) c
  | ⟨4, _⟩ => fun c => dat4 (U11 m) c
  | ⟨5, _⟩ => fun c => dat5 (U15 m) c
  | ⟨6, _⟩ => fun c => dat6 (U17 m) c
  | ⟨7, _⟩ => fun c => dat7 (U19 m) c
  | ⟨8, _⟩ => fun c => dat8 (U23 m) c
  | ⟨9, _⟩ => fun c => dat9 (U24 m) c
  | ⟨10, _⟩ => fun c => dat10 (U26 m) c
  | ⟨11, _⟩ => fun c => dat11 (U27 m) c
  | ⟨12, _⟩ => fun c => dat12 (U28 m) c
  | ⟨13, _⟩ => fun c => dat13 (U29 m) c

def outs : Outs (F := F) := fun J r c => match J with
  | 2 => W2 m c r
  | 4 => W4 m c r
  | 8 => W8 m c r
  | 10 => W10 m c r
  | 12 => W12 m c r
  | 16 => W16 m c r
  | 18 => W18 m c r
  | 20 => W20 m c r
  | 24 => W24 m c r
  | 25 => W25 m c r
  | 27 => W27 m c r
  | 28 => W28 m c r
  | 29 => W29 m c r
  | 30 => W30 m c r
  | _ => W0 m c r

theorem V0_eq (c : Dev nD) : V0 m c = W0 m c := rfl
theorem V1_eq (c : Dev nD) : V1 m c = W1 m c := rfl
theorem V2_eq (c : Dev nD) : V2 m (outs m) c = W2 m c := by
  show Function.update (V1 m c) main_v31 (Function.update (W1 m c) main_v31 (o2 m c) main_v31) = _
  rw [V1_eq, Function.update_self]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v47 (Function.update (W3 m c) main_v47 (o4 m c) main_v47) = _
  rw [V3_eq, Function.update_self]
theorem V5_eq (c : Dev nD) : V5 m (outs m) c = W5 m c := by
  show StableHlo.after hostOps2 (V4 m (outs m) c) = _
  rw [V4_eq]
theorem V6_eq (c : Dev nD) : V6 m (outs m) c = W6 m c := by
  show StableHlo.after hostOps2_1 (V5 m (outs m) c) = _
  rw [V5_eq]
theorem V7_eq (c : Dev nD) : V7 m (outs m) c = W7 m c := by
  show StableHlo.after hostOps2_2 (V6 m (outs m) c) = _
  rw [V6_eq]
theorem V8_eq (c : Dev nD) : V8 m (outs m) c = W8 m c := by
  show Function.update (V7 m (outs m) c) main_v62 (Function.update (W7 m c) main_v62 (o8 m c) main_v62) = _
  rw [V7_eq, Function.update_self]
theorem V9_eq (c : Dev nD) : V9 m (outs m) c = W9 m c := by
  show StableHlo.after hostOps3 (V8 m (outs m) c) = _
  rw [V8_eq]
theorem V10_eq (c : Dev nD) : V10 m (outs m) c = W10 m c := by
  show Function.update (V9 m (outs m) c) main_v65 (Function.update (W9 m c) main_v65 (o10 m c) main_v65) = _
  rw [V9_eq, Function.update_self]
theorem V11_eq (c : Dev nD) : V11 m (outs m) c = W11 m c := by
  show StableHlo.after hostOps4 (V10 m (outs m) c) = _
  rw [V10_eq]
theorem V12_eq (c : Dev nD) : V12 m (outs m) c = W12 m c := by
  show Function.update (V11 m (outs m) c) main_v81 (Function.update (W11 m c) main_v81 (o12 m c) main_v81) = _
  rw [V11_eq, Function.update_self]
theorem V13_eq (c : Dev nD) : V13 m (outs m) c = W13 m c := by
  show StableHlo.after hostOps5 (V12 m (outs m) c) = _
  rw [V12_eq]
theorem V14_eq (c : Dev nD) : V14 m (outs m) c = W14 m c := by
  show StableHlo.after hostOps5_1 (V13 m (outs m) c) = _
  rw [V13_eq]
theorem V15_eq (c : Dev nD) : V15 m (outs m) c = W15 m c := by
  show StableHlo.after hostOps5_2 (V14 m (outs m) c) = _
  rw [V14_eq]
theorem V16_eq (c : Dev nD) : V16 m (outs m) c = W16 m c := by
  show Function.update (V15 m (outs m) c) main_v96 (Function.update (W15 m c) main_v96 (o16 m c) main_v96) = _
  rw [V15_eq, Function.update_self]
theorem V17_eq (c : Dev nD) : V17 m (outs m) c = W17 m c := by
  show StableHlo.after hostOps6 (V16 m (outs m) c) = _
  rw [V16_eq]
theorem V18_eq (c : Dev nD) : V18 m (outs m) c = W18 m c := by
  show Function.update (V17 m (outs m) c) main_v99 (Function.update (W17 m c) main_v99 (o18 m c) main_v99) = _
  rw [V17_eq, Function.update_self]
theorem V19_eq (c : Dev nD) : V19 m (outs m) c = W19 m c := by
  show StableHlo.after hostOps7 (V18 m (outs m) c) = _
  rw [V18_eq]
theorem V20_eq (c : Dev nD) : V20 m (outs m) c = W20 m c := by
  show Function.update (V19 m (outs m) c) main_v115 (Function.update (W19 m c) main_v115 (o20 m c) main_v115) = _
  rw [V19_eq, Function.update_self]
theorem V21_eq (c : Dev nD) : V21 m (outs m) c = W21 m c := by
  show StableHlo.after hostOps8 (V20 m (outs m) c) = _
  rw [V20_eq]
theorem V22_eq (c : Dev nD) : V22 m (outs m) c = W22 m c := by
  show StableHlo.after hostOps8_1 (V21 m (outs m) c) = _
  rw [V21_eq]
theorem V23_eq (c : Dev nD) : V23 m (outs m) c = W23 m c := by
  show StableHlo.after hostOps8_2 (V22 m (outs m) c) = _
  rw [V22_eq]
theorem V24_eq (c : Dev nD) : V24 m (outs m) c = W24 m c := by
  show Function.update (V23 m (outs m) c) main_v130 (Function.update (W23 m c) main_v130 (o24 m c) main_v130) = _
  rw [V23_eq, Function.update_self]
theorem V25_eq (c : Dev nD) : V25 m (outs m) c = W25 m c := by
  show Function.update (V24 m (outs m) c) main_v131 (Function.update (W24 m c) main_v131 (o25 m c) main_v131) = _
  rw [V24_eq, Function.update_self]
theorem V26_eq (c : Dev nD) : V26 m (outs m) c = W26 m c := by
  show StableHlo.after hostOps10 (V25 m (outs m) c) = _
  rw [V25_eq]
theorem V27_eq (c : Dev nD) : V27 m (outs m) c = W27 m c := by
  show Function.update (V26 m (outs m) c) main_v133 (Function.update (W26 m c) main_v133 (o27 m c) main_v133) = _
  rw [V26_eq, Function.update_self]
theorem V28_eq (c : Dev nD) : V28 m (outs m) c = W28 m c := by
  show Function.update (V27 m (outs m) c) main_v134 (Function.update (W27 m c) main_v134 (o28 m c) main_v134) = _
  rw [V27_eq, Function.update_self]
theorem V29_eq (c : Dev nD) : V29 m (outs m) c = W29 m c := by
  show Function.update (V28 m (outs m) c) main_v135 (Function.update (W28 m c) main_v135 (o29 m c) main_v135) = _
  rw [V28_eq, Function.update_self]
theorem V30_eq (c : Dev nD) : V30 m (outs m) c = W30 m c := by
  show Function.update (V29 m (outs m) c) main_v136 (Function.update (W29 m c) main_v136 (o30 m c) main_v136) = _
  rw [V29_eq, Function.update_self]
theorem V31_eq (c : Dev nD) : V31 m (outs m) c = W31 m c := by
  show StableHlo.after hostOps14 (V30 m (outs m) c) = _
  rw [V30_eq]

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Rg

end
-- ==== Proof.KI.Regs.lean ====
import proofs.«409448_j71794673320215_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Region

variable (p : Fin 14) (o : Fin (cfgs p).W) (Win : (c : Dev nD) → Valuation τ sig (Elt F))

/-- The buffers after region `p`: the array of its one output window `o` replaced by the region's result, the rest unchanged. -/
abbrev leaves (c : Dev nD) : Valuation τ sig (Elt F) :=
  Function.update (Win c) (Proc.devRef .tc (Pipeline.arrRef (cfgs p).spec o)) ((pdats m p c).arrAt o (cfgs p).N)

variable (launch : Pipeline.LaunchFacts (nD := nD) (τ := τ) cfgs p)
  (hio : ∀ w, w ≠ o → ((cfgs p).win w).isOut = false)
  (hA : ∀ c w, (pdats m p c).A w = Win c (Pipeline.arrRef (cfgs p).spec w))
  (hΦ : ∀ c t, (pdats m p c).Φ t = Pipeline.ΦA (cfgs p).spec c)
  (hq : ∀ c w, (pdats m p c).q w = fullShare)
  (howed : ∀ c t, (pdats m p c).owed t = 0)
  (hrec : ∀ c t, (pdats m p c).recorded t = Set.univ)
  (hbody : ∀ c, BodyObligation (pdats m p c) (defs₀ (F := F)) Variants.none () Set.univ)

include launch hio hA in
/-- Inputs are never written and distinct windows name distinct arrays, so every array of the region ends at `leaves`. -/
theorem leaves_arr (c : Dev nD) (w : Fin (cfgs p).W) :
    (pdats m p c).arrAt w (cfgs p).N = leaves m p o Win c (Pipeline.arrRef (cfgs p).spec w) := by
  by_cases h : w = o
  · subst h
    show _ = Function.update (Win c) (Proc.devRef .tc (Pipeline.arrRef (cfgs p).spec w)) _ _
    rw [Function.update_self]
  · exact ((pdats m p c).arrAt_in w (hio w h) _).trans ((hA c w).trans
      (Function.update_of_ne (StableHlo.devRef_ne_of_ne fun e => h (launch.win.arr_inj e)) _ _).symm)

theorem leaves_rest (c : Dev nD) : ∀ b, b ∉ Finset.univ.image (Pipeline.arrRef (cfgs p).spec) → leaves m p o Win c b = Win c b :=
  fun b hb => Function.update_of_ne (StableHlo.devRef_ne_of_ne fun h => hb (by rw [h]; exact Finset.mem_image.mpr ⟨o, Finset.mem_univ _, rfl⟩)) _ _

set_option backward.isDefEq.respectTransparency.types false in
/-- Region `p` as a segment of the run, from the buffers `Win` to `leaves`. -/
def regOf : Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (leaves m p o Win c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Win c b) (fun b => leaves m p o Win c b) ((pdats m p c).arrAt · (cfgs p).N)
      (leaves_arr m p o Win launch hio hA c) (leaves_rest m p o Win c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Region

def reg0 := regOf m 0 2 (W1 m) launch0 (by decide) (fun _ _ => rfl) (fun _ _ => rfl) (fun _ _ => rfl) (fun _ _ => rfl) (fun _ _ => rfl) (body_obligation0 (U1 m))
def reg1 := regOf m 1 4 (W3 m) launch1 (by decide) (fun _ _ => rfl) (fun _ _ => rfl) (fun _ _ => rfl) (fun _ _ => rfl) (fun _ _ => rfl) (body_obligation1 (U3 m))
def reg2 := regOf m 2 3 (W7 m) launch2 (by decide) (fun _ _ => rfl) (fun _ _ => rfl) (fun _ _ => rfl) (fun _ _ => rfl) (fun _ _ => rfl) (body_obligation2 (U7 m))
def reg3 := regOf m 3 2 (W9 m) launch3 (by decide) (fun _ _ => rfl) (fun _ _ => rfl) (fun _ _ => rfl) (fun _ _ => rfl) (fun _ _ => rfl) (body_obligation3 (U9 m))
def reg4 := regOf m 4 4 (W11 m) launch4 (by decide) (fun _ _ => rfl) (fun _ _ => rfl) (fun _ _ => rfl) (fun _ _ => rfl) (fun _ _ => rfl) (body_obligation4 (U11 m))
def reg5 := regOf m 5 3 (W15 m) launch5 (by decide) (fun _ _ => rfl) (fun _ _ => rfl) (fun _ _ => rfl) (fun _ _ => rfl) (fun _ _ => rfl) (body_obligation5 (U15 m))
def reg6 := regOf m 6 2 (W17 m) launch6 (by decide) (fun _ _ => rfl) (fun _ _ => rfl) (fun _ _ => rfl) (fun _ _ => rfl) (fun _ _ => rfl) (body_obligation6 (U17 m))
def reg7 := regOf m 7 4 (W19 m) launch7 (by decide) (fun _ _ => rfl) (fun _ _ => rfl) (fun _ _ => rfl) (fun _ _ => rfl) (fun _ _ => rfl) (body_obligation7 (U19 m))
def reg8 := regOf m 8 3 (W23 m) launch8 (by decide) (fun _ _ => rfl) (fun _ _ => rfl) (fun _ _ => rfl) (fun _ _ => rfl) (fun _ _ => rfl) (body_obligation8 (U23 m))
def reg9 := regOf m 9 5 (W24 m) launch9 (by decide) (fun _ _ => rfl) (fun _ _ => rfl) (fun _ _ => rfl) (fun _ _ => rfl) (fun _ _ => rfl) (body_obligation9 (U24 m))
def reg10 := regOf m 10 2 (W26 m) launch10 (by decide) (fun _ _ => rfl) (fun _ _ => rfl) (fun _ _ => rfl) (fun _ _ => rfl) (fun _ _ => rfl) (body_obligation10 (U26 m))
def reg11 := regOf m 11 2 (W27 m) launch11 (by decide) (fun _ _ => rfl) (fun _ _ => rfl) (fun _ _ => rfl) (fun _ _ => rfl) (fun _ _ => rfl) (body_obligation11 (U27 m))
def reg12 := regOf m 12 2 (W28 m) launch12 (by decide) (fun _ _ => rfl) (fun _ _ => rfl) (fun _ _ => rfl) (fun _ _ => rfl) (fun _ _ => rfl) (body_obligation12 (U28 m))
def reg13 := regOf m 13 2 (W29 m) launch13 (by decide) (fun _ _ => rfl) (fun _ _ => rfl) (fun _ _ => rfl) (fun _ _ => rfl) (fun _ _ => rfl) (body_obligation13 (U29 m))

end Cert.KernelIdeal.Rg

end
-- ==== Proof.KI.Frame.lean ====
import proofs.«409448_j71794673320215_1_alg».proof.Proof.KI.Regs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
set_option backward.isDefEq.respectTransparency.types false in
/-- No item of the program writes an argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V23_eq m c]; exact .rfl) (fun c => by rw [V24_eq m c]; exact .rfl)
    (reg9 m) (fun c => by rw [V24_eq m c]; exact .rfl) (fun c => by rw [V25_eq m c]; exact .rfl)
    (reg10 m) (fun c => by rw [V26_eq m c]; exact .rfl) (fun c => by rw [V27_eq m c]; exact .rfl)
    (reg11 m) (fun c => by rw [V27_eq m c]; exact .rfl) (fun c => by rw [V28_eq m c]; exact .rfl)
    (reg12 m) (fun c => by rw [V28_eq m c]; exact .rfl) (fun c => by rw [V29_eq m c]; exact .rfl)
    (reg13 m) (fun c => by rw [V29_eq m c]; exact .rfl) (fun c => by rw [V30_eq m c]; exact .rfl)

end Cert.KernelIdeal.Rg

end
-- ==== Proof.KI.RunCond.lean ====
import proofs.«409448_j71794673320215_1_alg».proof.Proof.Gen.KernelIdeal.Regions

set_option maxRecDepth 1832

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V24 m outs c) ∗ E 9 c) ⊢ R9.pre c)
    (hpost9 : ∀ c : Dev nD, R9.post c ⊢ iprop(StableHlo.held (c : Thread nD τ) (Pipeline.ucRefs τ sig) (V25 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V26 m outs c) ∗ E 10 c) ⊢ R10.pre c)
    (hpost10 : ∀ c : Dev nD, R10.post c ⊢ iprop(StableHlo.held (c : Thread nD τ) (Pipeline.ucRefs τ sig) (V27 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V28 m outs c) ∗ E 12 c) ⊢ R12.pre c)
    (hpost12 : ∀ c : Dev nD, R12.post c ⊢ iprop(StableHlo.held (c : Thread nD τ) (Pipeline.ucRefs τ sig) (V29 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c)) :
    θ_run defs (onTc (τ := τ) (main (F := F))) ⟨m, fun _ => 0, ρ⟩ (fun r => ∀ c : Dev nD, ∀ b ∈ Pipeline.ucRefs τ sig, r.2.mem (((c : Dev nD) : Thread nD τ).1, b) = V31 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          Prog.lift (.customCall (Pipeline.entry 9) ()),
          StableHlo.seq hostOps10,
          Prog.lift (.customCall (Pipeline.entry 10) ()),
          Prog.lift (.customCall (Pipeline.entry 11) ()),
          Prog.lift (.customCall (Pipeline.entry 12) ()),
          Prog.lift (.customCall (Pipeline.entry 13) ()),
          StableHlo.seq hostOps14 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V31 m outs c))
    (hch := fun c => ⟨.rfl, hpre0 c, hpost0 c, hpre1 c, hpost1 c, .rfl, .rfl, hpre2 c, hpost2 c, hpre3 c, hpost3 c, hpre4 c, hpost4 c, .rfl, .rfl, hpre5 c, hpost5 c, hpre6 c, hpost6 c, hpre7 c, hpost7 c, .rfl, .rfl, hpre8 c, (hpost8 c).trans (hpre9 c), hpost9 c, hpre10 c, (hpost10 c).trans (hpre11 c), (hpost11 c).trans (hpre12 c), (hpost12 c).trans (hpre13 c), hpost13 c, sep_mono .rfl (hE14 c)⟩)
    (hinit := ?_) (QY := fun c s => ∀ b ∈ Pipeline.ucRefs τ sig, s.mem (((c : Dev nD) : Thread nD τ).1, b) = V31 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V31 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Run.lean ====
import proofs.«409448_j71794673320215_1_alg».proof.Proof.KI.Regs
import proofs.«409448_j71794673320215_1_alg».proof.Proof.KI.RunCond

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
theorem run : θ_run defs (onTc (τ := τ) (main (F := F))) ⟨m, fun _ => 0, ρ⟩
    (fun r => ∀ c : Dev nD, ∀ b ∈ Pipeline.ucRefs τ sig, r.2.mem (((c : Dev nD) : Thread nD τ).1, b) = W31 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V23_eq m c]; exact .rfl) (fun c => by rw [V24_eq m c]; exact .rfl)
    (reg9 m) (fun c => by rw [V24_eq m c]; exact .rfl) (fun c => by rw [V25_eq m c]; exact .rfl)
    (reg10 m) (fun c => by rw [V26_eq m c]; exact .rfl) (fun c => by rw [V27_eq m c]; exact .rfl)
    (reg11 m) (fun c => by rw [V27_eq m c]; exact .rfl) (fun c => by rw [V28_eq m c]; exact .rfl)
    (reg12 m) (fun c => by rw [V28_eq m c]; exact .rfl) (fun c => by rw [V29_eq m c]; exact .rfl)
    (reg13 m) (fun c => by rw [V29_eq m c]; exact .rfl) (fun c => by rw [V30_eq m c]; exact .rfl)
  exact (θ_run defs _ _).mono (fun r hr c b hb => (hr c b hb).trans (congrFun (V31_eq m c) b)) h

end Cert.KernelIdeal.Rg

end
-- ==== Proof.Ref.Ops.lean ====
import proofs.«409448_j71794673320215_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pre : List (HloOp τ sig (Elt F)) :=
  [ StableHlo.unary main_arg1 main_v0 ((extractStridedSlice S1x1600000 ![0, 0] · slices_S2x1600000_S1x1600000_0_0)),
    StableHlo.reshape main_v0 main_v1 rfl shapeCasts_S1x1600000_S1600000,
    StableHlo.unary main_arg1 main_v2 ((extractStridedSlice S1x1600000 ![1, 0] · slices_S2x1600000_S1x1600000_1_0)),
    StableHlo.reshape main_v2 main_v3 rfl shapeCasts_S1x1600000_S1600000,
    StableHlo.nullary main_cst (constant S_ .f32 0x00000000#32),
    StableHlo.unary main_cst main_v4 (broadcastInDim S100000 ![] bcast_S_S100000),
    StableHlo.unary main_v3 main_v5 (broadcastInDim S1600000x1 ![0] bcast_S1600000_S1600000x1_0),
    StableHlo.ternary main_v4 main_v5 main_arg2 main_v6 ((fun x i u => Host.scatterAdd scatter_S100000_S1600000x1_S1600000_n_0_0_1 x i u)),
    StableHlo.nullary main_cst_0 (constant S_ .f32 0x3F800000#32),
    StableHlo.unary main_cst_0 main_v7 (broadcastInDim S100000 ![] bcast_S_S100000),
    StableHlo.binary main_v6 main_v7 main_v8 (addf),
    StableHlo.unary main_v8 main_v9 (Host.rsqrt),
    StableHlo.nullary main_c (constantI S_ 32 0#32),
    StableHlo.unary main_c main_v10 (broadcastInDim S1600000 ![] bcast_S_S1600000),
    StableHlo.binary main_v1 main_v10 main_v11 (cmpi .slt),
    StableHlo.nullary main_c_1 (constantI S_ 32 100000#32),
    StableHlo.unary main_c_1 main_v12 (broadcastInDim S1600000 ![] bcast_S_S1600000),
    StableHlo.binary main_v1 main_v12 main_v13 (addi),
    StableHlo.ternary main_v11 main_v13 main_v1 main_v14 (select),
    StableHlo.unary main_v14 main_v15 (broadcastInDim S1600000x1 ![0] bcast_S1600000_S1600000x1_0),
    StableHlo.binary main_v9 main_v15 main_v16 ((fun x i => Host.gather gather_S100000_S1600000x1_S1600000_n_0_n_n_0_1_1 x i)),
    StableHlo.binary main_v16 main_arg2 main_v17 (mulf),
    StableHlo.nullary main_c_2 (constantI S_ 32 0#32),
    StableHlo.unary main_c_2 main_v18 (broadcastInDim S1600000 ![] bcast_S_S1600000),
    StableHlo.binary main_v3 main_v18 main_v19 (cmpi .slt),
    StableHlo.nullary main_c_3 (constantI S_ 32 100000#32),
    StableHlo.unary main_c_3 main_v20 (broadcastInDim S1600000 ![] bcast_S_S1600000),
    StableHlo.binary main_v3 main_v20 main_v21 (addi),
    StableHlo.ternary main_v19 main_v21 main_v3 main_v22 (select),
    StableHlo.unary main_v22 main_v23 (broadcastInDim S1600000x1 ![0] bcast_S1600000_S1600000x1_0),
    StableHlo.binary main_v9 main_v23 main_v24 ((fun x i => Host.gather gather_S100000_S1600000x1_S1600000_n_0_n_n_0_1_1 x i)),
    StableHlo.binary main_v17 main_v24 main_v25 (mulf),
    StableHlo.nullary main_cst_4 (constant S_ .f32 0x3F800000#32),
    StableHlo.unary main_cst_4 main_v26 (broadcastInDim S100000 ![] bcast_S_S100000),
    StableHlo.binary main_v26 main_v8 main_v27 (Host.divf),
    StableHlo.unary main_v27 main_v28 (broadcastInDim S100000x1 ![0] bcast_S100000_S100000x1_0) ]

abbrev layer0a : List (HloOp τ sig (Elt F)) :=
  [ StableHlo.unary main_arg4 main_v29 ((extractStridedSlice S1x128x128 ![0, 0, 0] · slices_S3x128x128_S1x128x128_0_0_0)),
    StableHlo.reshape main_v29 main_v30 rfl shapeCasts_S1x128x128_S128x128,
    StableHlo.binary main_arg0 main_v30 main_v31 ((fun l r => Host.dotGeneral dot_S100000x128_S128x128_S100000x128_1_0_0_1_n_n none l r)),
    StableHlo.unary main_v25 main_v32 (broadcastInDim S1600000x1 ![0] bcast_S1600000_S1600000x1_0),
    StableHlo.nullary main_c_5 (constantI S_ 32 0#32),
    StableHlo.unary main_c_5 main_v33 (broadcastInDim S1600000 ![] bcast_S_S1600000),
    StableHlo.binary main_v1 main_v33 main_v34 (cmpi .slt),
    StableHlo.nullary main_c_6 (constantI S_ 32 100000#32),
    StableHlo.unary main_c_6 main_v35 (broadcastInDim S1600000 ![] bcast_S_S1600000),
    StableHlo.binary main_v1 main_v35 main_v36 (addi),
    StableHlo.ternary main_v34 main_v36 main_v1 main_v37 (select),
    StableHlo.unary main_v37 main_v38 (broadcastInDim S1600000x1 ![0] bcast_S1600000_S1600000x1_0),
    StableHlo.binary main_v31 main_v38 main_v39 ((fun x i => Host.gather gather_S100000x128_S1600000x1_S1600000x128_1_0_n_n_0_1_1128 x i)),
    StableHlo.unary main_v32 main_v40 (broadcastInDim S1600000x128 ![0, 1] bcast_S1600000x1_S1600000x128_0_1),
    StableHlo.binary main_v40 main_v39 main_v41 (mulf),
    StableHlo.nullary main_cst_7 (constant S_ .f32 0x00000000#32),
    StableHlo.unary main_cst_7 main_v42 (broadcastInDim S100000x128 ![] bcast_S_S100000x128),
    StableHlo.unary main_v3 main_v43 (broadcastInDim S1600000x1 ![0] bcast_S1600000_S1600000x1_0),
    StableHlo.ternary main_v42 main_v43 main_v41 main_v44 ((fun x i u => Host.scatterAdd scatter_S100000x128_S1600000x1_S1600000x128_1_0_0_1 x i u)),
    StableHlo.unary main_v28 main_v45 (broadcastInDim S100000x128 ![0, 1] bcast_S100000x1_S100000x128_0_1),
    StableHlo.binary main_v45 main_v31 main_v46 (mulf),
    StableHlo.binary main_v44 main_v46 main_v47 (addf),
    StableHlo.unary main_arg5 main_v48 ((extractStridedSlice S1x128 ![0, 0] · slices_S3x128_S1x128_0_0)),
    StableHlo.reshape main_v48 main_v49 rfl shapeCasts_S1x128_S128 ]

abbrev layer0b : List (HloOp τ sig (Elt F)) :=
  [ StableHlo.unary main_v49 main_v50 (broadcastInDim S1x128 ![1] bcast_S128_S1x128_1),
    StableHlo.unary main_v50 main_v51 (broadcastInDim S100000x128 ![0, 1] bcast_S1x128_S100000x128_0_1),
    StableHlo.binary main_v47 main_v51 main_v52 (addf),
    StableHlo.TRef.nullary main_call0.cst (constant S_ .f32 0x00000000#32),
    StableHlo.TRef.unary main_call0.cst main_call0.v0 (broadcastInDim S100000x128 ![] bcast_S_S100000x128),
    StableHlo.TRef.binary (.of main_v52 : StableHlo.TRef sig ⟨S100000x128, .f32⟩) main_call0.v0 main_call0.v1 maximumf,
    StableHlo.nullary main_cst_8 (constant S_ .f32 0x00000000#32),
    StableHlo.binary main_v53 main_cst_8 main_v54 ((fun x v => Host.reduceAdd x v reducesTo_S100000x128_S128_d0 h_S_)),
    StableHlo.nullary main_cst_9 (constant S_ .f32 0x47C35000#32),
    StableHlo.unary main_cst_9 main_v55 (broadcastInDim S128 ![] bcast_S_S128),
    StableHlo.binary main_v54 main_v55 main_v56 (Host.divf),
    StableHlo.nullary main_c_10 (constantI S_ 32 0#32),
    StableHlo.TRef.nullary main_call1.cst (constant S_ .f32 0x00000000#32),
    StableHlo.TRef.binary (.of main_v53 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v53 : StableHlo.TRef sig ⟨S100000x128, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v56 main_v58 (broadcastInDim S1x128 ![1] bcast_S128_S1x128_1),
    StableHlo.unary main_v58 main_v59 (broadcastInDim S100000x128 ![0, 1] bcast_S1x128_S100000x128_0_1),
    StableHlo.binary main_v53 main_v59 main_v60 (subf),
    StableHlo.nullary main_cst_11 (constant S_ .f32 0x3727C5AC#32),
    StableHlo.unary main_cst_11 main_v61 (broadcastInDim S128 ![] bcast_S_S128),
    StableHlo.binary main_v57 main_v61 main_v62 (addf),
    StableHlo.unary main_v62 main_v63 (Host.rsqrt),
    StableHlo.unary main_v63 main_v64 (broadcastInDim S1x128 ![1] bcast_S128_S1x128_1),
    StableHlo.unary main_v64 main_v65 (broadcastInDim S100000x128 ![0, 1] bcast_S1x128_S100000x128_0_1),
    StableHlo.binary main_v60 main_v65 main_v66 (mulf),
    StableHlo.unary main_arg6 main_v67 ((extractStridedSlice S1x128 ![0, 0] · slices_S3x128_S1x128_0_0)),
    StableHlo.reshape main_v67 main_v68 rfl shapeCasts_S1x128_S128,
    StableHlo.unary main_v68 main_v69 (broadcastInDim S1x128 ![1] bcast_S128_S1x128_1),
    StableHlo.unary main_v69 main_v70 (broadcastInDim S100000x128 ![0, 1] bcast_S1x128_S100000x128_0_1),
    StableHlo.binary main_v66 main_v70 main_v71 (mulf),
    StableHlo.unary main_arg7 main_v72 ((extractStridedSlice S1x128 ![0, 0] · slices_S3x128_S1x128_0_0)),
    StableHlo.reshape main_v72 main_v73 rfl shapeCasts_S1x128_S128,
    StableHlo.unary main_v73 main_v74 (broadcastInDim S1x128 ![1] bcast_S128_S1x128_1),
    StableHlo.unary main_v74 main_v75 (broadcastInDim S100000x128 ![0, 1] bcast_S1x128_S100000x128_0_1),
    StableHlo.binary main_v71 main_v75 main_v76 (addf) ]

abbrev layer1a : List (HloOp τ sig (Elt F)) :=
  [ StableHlo.unary main_arg4 main_v77 ((extractStridedSlice S1x128x128 ![1, 0, 0] · slices_S3x128x128_S1x128x128_1_0_0)),
    StableHlo.reshape main_v77 main_v78 rfl shapeCasts_S1x128x128_S128x128,
    StableHlo.binary main_v76 main_v78 main_v79 ((fun l r => Host.dotGeneral dot_S100000x128_S128x128_S100000x128_1_0_0_1_n_n none l r)),
    StableHlo.unary main_v25 main_v80 (broadcastInDim S1600000x1 ![0] bcast_S1600000_S1600000x1_0),
    StableHlo.nullary main_c_12 (constantI S_ 32 0#32),
    StableHlo.unary main_c_12 main_v81 (broadcastInDim S1600000 ![] bcast_S_S1600000),
    StableHlo.binary main_v1 main_v81 main_v82 (cmpi .slt),
    StableHlo.nullary main_c_13 (constantI S_ 32 100000#32),
    StableHlo.unary main_c_13 main_v83 (broadcastInDim S1600000 ![] bcast_S_S1600000),
    StableHlo.binary main_v1 main_v83 main_v84 (addi),
    StableHlo.ternary main_v82 main_v84 main_v1 main_v85 (select),
    StableHlo.unary main_v85 main_v86 (broadcastInDim S1600000x1 ![0] bcast_S1600000_S1600000x1_0),
    StableHlo.binary main_v79 main_v86 main_v87 ((fun x i => Host.gather gather_S100000x128_S1600000x1_S1600000x128_1_0_n_n_0_1_1128 x i)),
    StableHlo.unary main_v80 main_v88 (broadcastInDim S1600000x128 ![0, 1] bcast_S1600000x1_S1600000x128_0_1),
    StableHlo.binary main_v88 main_v87 main_v89 (mulf),
    StableHlo.nullary main_cst_14 (constant S_ .f32 0x00000000#32),
    StableHlo.unary main_cst_14 main_v90 (broadcastInDim S100000x128 ![] bcast_S_S100000x128),
    StableHlo.unary main_v3 main_v91 (broadcastInDim S1600000x1 ![0] bcast_S1600000_S1600000x1_0),
    StableHlo.ternary main_v90 main_v91 main_v89 main_v92 ((fun x i u => Host.scatterAdd scatter_S100000x128_S1600000x1_S1600000x128_1_0_0_1 x i u)),
    StableHlo.unary main_v28 main_v93 (broadcastInDim S100000x128 ![0, 1] bcast_S100000x1_S100000x128_0_1),
    StableHlo.binary main_v93 main_v79 main_v94 (mulf),
    StableHlo.binary main_v92 main_v94 main_v95 (addf),
    StableHlo.unary main_arg5 main_v96 ((extractStridedSlice S1x128 ![1, 0] · slices_S3x128_S1x128_1_0)),
    StableHlo.reshape main_v96 main_v97 rfl shapeCasts_S1x128_S128,
    StableHlo.unary main_v97 main_v98 (broadcastInDim S1x128 ![1] bcast_S128_S1x128_1),
    StableHlo.unary main_v98 main_v99 (broadcastInDim S100000x128 ![0, 1] bcast_S1x128_S100000x128_0_1),
    StableHlo.binary main_v95 main_v99 main_v100 (addf),
    StableHlo.TRef.nullary main_call2.cst (constant S_ .f32 0x00000000#32),
    StableHlo.TRef.unary main_call2.cst main_call2.v0 (broadcastInDim S100000x128 ![] bcast_S_S100000x128),
    StableHlo.TRef.binary (.of main_v100 : StableHlo.TRef sig ⟨S100000x128, .f32⟩) main_call2.v0 main_call2.v1 maximumf,
    StableHlo.nullary main_cst_15 (constant S_ .f32 0x00000000#32) ]

abbrev layer1b : List (HloOp τ sig (Elt F)) :=
  [ StableHlo.binary main_v101 main_cst_15 main_v102 ((fun x v => Host.reduceAdd x v reducesTo_S100000x128_S128_d0 h_S_)),
    StableHlo.nullary main_cst_16 (constant S_ .f32 0x47C35000#32),
    StableHlo.unary main_cst_16 main_v103 (broadcastInDim S128 ![] bcast_S_S128),
    StableHlo.binary main_v102 main_v103 main_v104 (Host.divf),
    StableHlo.nullary main_c_17 (constantI S_ 32 0#32),
    StableHlo.TRef.nullary main_call3.cst (constant S_ .f32 0x00000000#32),
    StableHlo.TRef.binary (.of main_v101 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v101 : StableHlo.TRef sig ⟨S100000x128, .f32⟩) main_call3.v4 main_call3.v5 subf,
    StableHlo.TRef.binary main_call3.v5 main_call3.v5 main_call3.v6 mulf,
    StableHlo.TRef.unary (.of main_c_17 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v104 main_v106 (broadcastInDim S1x128 ![1] bcast_S128_S1x128_1),
    StableHlo.unary main_v106 main_v107 (broadcastInDim S100000x128 ![0, 1] bcast_S1x128_S100000x128_0_1),
    StableHlo.binary main_v101 main_v107 main_v108 (subf),
    StableHlo.nullary main_cst_18 (constant S_ .f32 0x3727C5AC#32),
    StableHlo.unary main_cst_18 main_v109 (broadcastInDim S128 ![] bcast_S_S128),
    StableHlo.binary main_v105 main_v109 main_v110 (addf),
    StableHlo.unary main_v110 main_v111 (Host.rsqrt),
    StableHlo.unary main_v111 main_v112 (broadcastInDim S1x128 ![1] bcast_S128_S1x128_1),
    StableHlo.unary main_v112 main_v113 (broadcastInDim S100000x128 ![0, 1] bcast_S1x128_S100000x128_0_1),
    StableHlo.binary main_v108 main_v113 main_v114 (mulf),
    StableHlo.unary main_arg6 main_v115 ((extractStridedSlice S1x128 ![1, 0] · slices_S3x128_S1x128_1_0)),
    StableHlo.reshape main_v115 main_v116 rfl shapeCasts_S1x128_S128,
    StableHlo.unary main_v116 main_v117 (broadcastInDim S1x128 ![1] bcast_S128_S1x128_1),
    StableHlo.unary main_v117 main_v118 (broadcastInDim S100000x128 ![0, 1] bcast_S1x128_S100000x128_0_1),
    StableHlo.binary main_v114 main_v118 main_v119 (mulf),
    StableHlo.unary main_arg7 main_v120 ((extractStridedSlice S1x128 ![1, 0] · slices_S3x128_S1x128_1_0)),
    StableHlo.reshape main_v120 main_v121 rfl shapeCasts_S1x128_S128,
    StableHlo.unary main_v121 main_v122 (broadcastInDim S1x128 ![1] bcast_S128_S1x128_1),
    StableHlo.unary main_v122 main_v123 (broadcastInDim S100000x128 ![0, 1] bcast_S1x128_S100000x128_0_1),
    StableHlo.binary main_v119 main_v123 main_v124 (addf) ]

abbrev layer2a : List (HloOp τ sig (Elt F)) :=
  [ StableHlo.unary main_arg4 main_v125 ((extractStridedSlice S1x128x128 ![2, 0, 0] · slices_S3x128x128_S1x128x128_2_0_0)),
    StableHlo.reshape main_v125 main_v126 rfl shapeCasts_S1x128x128_S128x128,
    StableHlo.binary main_v124 main_v126 main_v127 ((fun l r => Host.dotGeneral dot_S100000x128_S128x128_S100000x128_1_0_0_1_n_n none l r)),
    StableHlo.unary main_v25 main_v128 (broadcastInDim S1600000x1 ![0] bcast_S1600000_S1600000x1_0),
    StableHlo.nullary main_c_19 (constantI S_ 32 0#32),
    StableHlo.unary main_c_19 main_v129 (broadcastInDim S1600000 ![] bcast_S_S1600000),
    StableHlo.binary main_v1 main_v129 main_v130 (cmpi .slt),
    StableHlo.nullary main_c_20 (constantI S_ 32 100000#32),
    StableHlo.unary main_c_20 main_v131 (broadcastInDim S1600000 ![] bcast_S_S1600000),
    StableHlo.binary main_v1 main_v131 main_v132 (addi),
    StableHlo.ternary main_v130 main_v132 main_v1 main_v133 (select),
    StableHlo.unary main_v133 main_v134 (broadcastInDim S1600000x1 ![0] bcast_S1600000_S1600000x1_0),
    StableHlo.binary main_v127 main_v134 main_v135 ((fun x i => Host.gather gather_S100000x128_S1600000x1_S1600000x128_1_0_n_n_0_1_1128 x i)),
    StableHlo.unary main_v128 main_v136 (broadcastInDim S1600000x128 ![0, 1] bcast_S1600000x1_S1600000x128_0_1),
    StableHlo.binary main_v136 main_v135 main_v137 (mulf),
    StableHlo.nullary main_cst_21 (constant S_ .f32 0x00000000#32),
    StableHlo.unary main_cst_21 main_v138 (broadcastInDim S100000x128 ![] bcast_S_S100000x128),
    StableHlo.unary main_v3 main_v139 (broadcastInDim S1600000x1 ![0] bcast_S1600000_S1600000x1_0),
    StableHlo.ternary main_v138 main_v139 main_v137 main_v140 ((fun x i u => Host.scatterAdd scatter_S100000x128_S1600000x1_S1600000x128_1_0_0_1 x i u)),
    StableHlo.unary main_v28 main_v141 (broadcastInDim S100000x128 ![0, 1] bcast_S100000x1_S100000x128_0_1),
    StableHlo.binary main_v141 main_v127 main_v142 (mulf),
    StableHlo.binary main_v140 main_v142 main_v143 (addf),
    StableHlo.unary main_arg5 main_v144 ((extractStridedSlice S1x128 ![2, 0] · slices_S3x128_S1x128_2_0)),
    StableHlo.reshape main_v144 main_v145 rfl shapeCasts_S1x128_S128,
    StableHlo.unary main_v145 main_v146 (broadcastInDim S1x128 ![1] bcast_S128_S1x128_1),
    StableHlo.unary main_v146 main_v147 (broadcastInDim S100000x128 ![0, 1] bcast_S1x128_S100000x128_0_1),
    StableHlo.binary main_v143 main_v147 main_v148 (addf),
    StableHlo.TRef.nullary main_call4.cst (constant S_ .f32 0x00000000#32),
    StableHlo.TRef.unary main_call4.cst main_call4.v0 (broadcastInDim S100000x128 ![] bcast_S_S100000x128),
    StableHlo.TRef.binary (.of main_v148 : StableHlo.TRef sig ⟨S100000x128, .f32⟩) main_call4.v0 main_call4.v1 maximumf,
    StableHlo.nullary main_cst_22 (constant S_ .f32 0x00000000#32),
    StableHlo.binary main_v149 main_cst_22 main_v150 ((fun x v => Host.reduceAdd x v reducesTo_S100000x128_S128_d0 h_S_)),
    StableHlo.nullary main_cst_23 (constant S_ .f32 0x47C35000#32),
    StableHlo.unary main_cst_23 main_v151 (broadcastInDim S128 ![] bcast_S_S128),
    StableHlo.binary main_v150 main_v151 main_v152 (Host.divf),
    StableHlo.nullary main_c_24 (constantI S_ 32 0#32) ]

abbrev layer2b : List (HloOp τ sig (Elt F)) :=
  [ StableHlo.TRef.nullary main_call5.cst (constant S_ .f32 0x00000000#32),
    StableHlo.TRef.binary (.of main_v149 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v149 : StableHlo.TRef sig ⟨S100000x128, .f32⟩) main_call5.v4 main_call5.v5 subf,
    StableHlo.TRef.binary main_call5.v5 main_call5.v5 main_call5.v6 mulf,
    StableHlo.TRef.unary (.of main_c_24 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v152 main_v154 (broadcastInDim S1x128 ![1] bcast_S128_S1x128_1),
    StableHlo.unary main_v154 main_v155 (broadcastInDim S100000x128 ![0, 1] bcast_S1x128_S100000x128_0_1),
    StableHlo.binary main_v149 main_v155 main_v156 (subf),
    StableHlo.nullary main_cst_25 (constant S_ .f32 0x3727C5AC#32),
    StableHlo.unary main_cst_25 main_v157 (broadcastInDim S128 ![] bcast_S_S128),
    StableHlo.binary main_v153 main_v157 main_v158 (addf),
    StableHlo.unary main_v158 main_v159 (Host.rsqrt),
    StableHlo.unary main_v159 main_v160 (broadcastInDim S1x128 ![1] bcast_S128_S1x128_1),
    StableHlo.unary main_v160 main_v161 (broadcastInDim S100000x128 ![0, 1] bcast_S1x128_S100000x128_0_1),
    StableHlo.binary main_v156 main_v161 main_v162 (mulf),
    StableHlo.unary main_arg6 main_v163 ((extractStridedSlice S1x128 ![2, 0] · slices_S3x128_S1x128_2_0)),
    StableHlo.reshape main_v163 main_v164 rfl shapeCasts_S1x128_S128,
    StableHlo.unary main_v164 main_v165 (broadcastInDim S1x128 ![1] bcast_S128_S1x128_1),
    StableHlo.unary main_v165 main_v166 (broadcastInDim S100000x128 ![0, 1] bcast_S1x128_S100000x128_0_1),
    StableHlo.binary main_v162 main_v166 main_v167 (mulf),
    StableHlo.unary main_arg7 main_v168 ((extractStridedSlice S1x128 ![2, 0] · slices_S3x128_S1x128_2_0)),
    StableHlo.reshape main_v168 main_v169 rfl shapeCasts_S1x128_S128,
    StableHlo.unary main_v169 main_v170 (broadcastInDim S1x128 ![1] bcast_S128_S1x128_1),
    StableHlo.unary main_v170 main_v171 (broadcastInDim S100000x128 ![0, 1] bcast_S1x128_S100000x128_0_1),
    StableHlo.binary main_v167 main_v171 main_v172 (addf) ]

abbrev head : List (HloOp τ sig (Elt F)) :=
  [ StableHlo.binary main_v172 main_arg8 main_v173 ((fun l r => Host.dotGeneral dot_S100000x128_S128x128_S100000x128_1_0_0_1_n_n none l r)),
    StableHlo.unary main_arg9 main_v174 (broadcastInDim S1x128 ![1] bcast_S128_S1x128_1),
    StableHlo.unary main_v174 main_v175 (broadcastInDim S100000x128 ![0, 1] bcast_S1x128_S100000x128_0_1),
    StableHlo.binary main_v173 main_v175 main_v176 (addf),
    StableHlo.TRef.nullary main_call6.cst (constant S_ .f32 0x00000000#32),
    StableHlo.TRef.unary main_call6.cst main_call6.v0 (broadcastInDim S100000x128 ![] bcast_S_S100000x128),
    StableHlo.TRef.binary (.of main_v176 : StableHlo.TRef sig ⟨S100000x128, .f32⟩) main_call6.v0 main_call6.v1 maximumf,
    StableHlo.binary main_v177 main_arg10 main_v178 ((fun l r => Host.dotGeneral dot_S100000x128_S128x128_S100000x128_1_0_0_1_n_n none l r)),
    StableHlo.unary main_arg11 main_v179 (broadcastInDim S1x128 ![1] bcast_S128_S1x128_1),
    StableHlo.unary main_v179 main_v180 (broadcastInDim S100000x128 ![0, 1] bcast_S1x128_S100000x128_0_1),
    StableHlo.binary main_v178 main_v180 main_v181 (addf) ]

abbrev pools : List (HloOp τ sig (Elt F)) :=
  [ StableHlo.nullary main_cst_26 (constant S_ .f32 0x00000000#32),
    StableHlo.unary main_cst_26 main_v182 (broadcastInDim S128x128 ![] bcast_S_S128x128),
    StableHlo.unary main_arg3 main_v183 (broadcastInDim S100000x1 ![0] bcast_S100000_S100000x1_0),
    StableHlo.ternary main_v182 main_v183 main_v76 main_v184 ((fun x i u => Host.scatterAdd scatter_S128x128_S100000x1_S100000x128_1_0_0_1 x i u)),
    StableHlo.nullary main_cst_27 (constant S_ .f32 0x00000000#32),
    StableHlo.unary main_cst_27 main_v185 (broadcastInDim S128x128 ![] bcast_S_S128x128),
    StableHlo.unary main_arg3 main_v186 (broadcastInDim S100000x1 ![0] bcast_S100000_S100000x1_0),
    StableHlo.ternary main_v185 main_v186 main_v124 main_v187 ((fun x i u => Host.scatterAdd scatter_S128x128_S100000x1_S100000x128_1_0_0_1 x i u)),
    StableHlo.nullary main_cst_28 (constant S_ .f32 0x00000000#32),
    StableHlo.unary main_cst_28 main_v188 (broadcastInDim S128x128 ![] bcast_S_S128x128),
    StableHlo.unary main_arg3 main_v189 (broadcastInDim S100000x1 ![0] bcast_S100000_S100000x1_0),
    StableHlo.ternary main_v188 main_v189 main_v172 main_v190 ((fun x i u => Host.scatterAdd scatter_S128x128_S100000x1_S100000x128_1_0_0_1 x i u)),
    StableHlo.nullary main_cst_29 (constant S_ .f32 0x00000000#32),
    StableHlo.unary main_cst_29 main_v191 (broadcastInDim S128x128 ![] bcast_S_S128x128),
    StableHlo.unary main_arg3 main_v192 (broadcastInDim S100000x1 ![0] bcast_S100000_S100000x1_0),
    StableHlo.ternary main_v191 main_v192 main_v181 main_v193 ((fun x i u => Host.scatterAdd scatter_S128x128_S100000x1_S100000x128_1_0_0_1 x i u)) ]

abbrev concats : List (HloOp τ sig (Elt F)) :=
  [ StableHlo.nary ![main_v76, main_v124, main_v172, main_v181] main_v194 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.nary ![main_v184, main_v187, main_v190, main_v193] main_v195 (fun u => concatenate S128x512 1 [⟨S128x128, u 0⟩, ⟨S128x128, u 1⟩, ⟨S128x128, u 2⟩, ⟨S128x128, u 3⟩] concatenates_S128x128_S128x128_S128x128_S128x128_S128x512_d1) ]

abbrev layer0 : List (HloOp τ sig (Elt F)) := layer0a ++ layer0b

abbrev layer1 : List (HloOp τ sig (Elt F)) := layer1a ++ layer1b

abbrev layer2 : List (HloOp τ sig (Elt F)) := layer2a ++ layer2b

abbrev ops : List (HloOp τ sig (Elt F)) :=
  pre ++ (layer0 ++ (layer1 ++ (layer2 ++ (head ++ (pools ++ concats)))))

abbrev ops0 : List (HloOp τ sig (Elt F)) := pre ++ layer0a

abbrev ops1 : List (HloOp τ sig (Elt F)) := layer0b ++ layer1a

abbrev ops2 : List (HloOp τ sig (Elt F)) := layer1b ++ layer2a

abbrev ops3 : List (HloOp τ sig (Elt F)) := layer2b ++ (head ++ (pools ++ concats))

theorem ops_eq : (ops : List (HloOp τ sig (Elt F))) = pre ++ (layer0 ++ (layer1 ++ (layer2 ++ (head ++ (pools ++ concats))))) := rfl

theorem ops_eq_windows : (ops : List (HloOp τ sig (Elt F))) = ops0 ++ (ops1 ++ (ops2 ++ ops3)) := by
  simp only [ops, ops0, ops1, ops2, ops3, layer0, layer1, layer2, List.append_assoc]

theorem after_layer0 (V : Valuation τ sig (Elt F)) : after layer0 V = after layer0b (after layer0a V) := after_append _ _ _
theorem after_layer1 (V : Valuation τ sig (Elt F)) : after layer1 V = after layer1b (after layer1a V) := after_append _ _ _
theorem after_layer2 (V : Valuation τ sig (Elt F)) : after layer2 V = after layer2b (after layer2a V) := after_append _ _ _

theorem after_ops (V : Valuation τ sig (Elt F)) :
    after ops V = after concats (after pools (after head (after layer2 (after layer1 (after layer0 (after pre V)))))) := by
  rw [ops_eq, after_append, after_append, after_append, after_append, after_append, after_append]

theorem writes_sub_of_mem {op : HloOp τ sig (Elt F)} {y : Ref sig .tc} {W : List (Ref sig .tc)}
    (hw : op.writes = {(Proc.devRef .tc y : DevRef τ sig)}) (h : y ∈ W) :
    op.writes ⊆ (W.map (Proc.devRef (τ := τ) .tc)).toFinset := by
  rw [hw, Finset.singleton_subset_iff, List.mem_toFinset]; exact List.mem_map_of_mem h

set_option maxRecDepth 8192 in
theorem pre_sub : (pre : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub ..⟩
set_option maxRecDepth 8192 in
theorem pre_fresh : (pre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev pre_W : List (Ref sig .tc) := [main_v0, main_v1, main_v2, main_v3, main_cst, main_v4, main_v5, main_v6, main_cst_0, main_v7, main_v8, main_v9, main_c, main_v10, main_v11, main_c_1, main_v12, main_v13, main_v14, main_v15, main_v16, main_v17, main_c_2, main_v18, main_v19, main_c_3, main_v20, main_v21, main_v22, main_v23, main_v24, main_v25, main_cst_4, main_v26, main_v27, main_v28]
set_option maxRecDepth 8192 in
theorem pre_writes : (pre : List (HloOp τ sig (Elt F))).Forall fun op => op.writes ⊆ (pre_W.map (Proc.devRef (τ := τ) .tc)).toFinset :=
  ⟨writes_sub_of_mem (y := main_v0) rfl (by decide), writes_sub_of_mem (y := main_v1) rfl (by decide), writes_sub_of_mem (y := main_v2) rfl (by decide), writes_sub_of_mem (y := main_v3) rfl (by decide), writes_sub_of_mem (y := main_cst) rfl (by decide), writes_sub_of_mem (y := main_v4) rfl (by decide), writes_sub_of_mem (y := main_v5) rfl (by decide), writes_sub_of_mem (y := main_v6) rfl (by decide), writes_sub_of_mem (y := main_cst_0) rfl (by decide), writes_sub_of_mem (y := main_v7) rfl (by decide), writes_sub_of_mem (y := main_v8) rfl (by decide), writes_sub_of_mem (y := main_v9) rfl (by decide), writes_sub_of_mem (y := main_c) rfl (by decide), writes_sub_of_mem (y := main_v10) rfl (by decide), writes_sub_of_mem (y := main_v11) rfl (by decide), writes_sub_of_mem (y := main_c_1) rfl (by decide), writes_sub_of_mem (y := main_v12) rfl (by decide), writes_sub_of_mem (y := main_v13) rfl (by decide), writes_sub_of_mem (y := main_v14) rfl (by decide), writes_sub_of_mem (y := main_v15) rfl (by decide), writes_sub_of_mem (y := main_v16) rfl (by decide), writes_sub_of_mem (y := main_v17) rfl (by decide), writes_sub_of_mem (y := main_c_2) rfl (by decide), writes_sub_of_mem (y := main_v18) rfl (by decide), writes_sub_of_mem (y := main_v19) rfl (by decide), writes_sub_of_mem (y := main_c_3) rfl (by decide), writes_sub_of_mem (y := main_v20) rfl (by decide), writes_sub_of_mem (y := main_v21) rfl (by decide), writes_sub_of_mem (y := main_v22) rfl (by decide), writes_sub_of_mem (y := main_v23) rfl (by decide), writes_sub_of_mem (y := main_v24) rfl (by decide), writes_sub_of_mem (y := main_v25) rfl (by decide), writes_sub_of_mem (y := main_cst_4) rfl (by decide), writes_sub_of_mem (y := main_v26) rfl (by decide), writes_sub_of_mem (y := main_v27) rfl (by decide), writes_sub_of_mem (y := main_v28) rfl (by decide)⟩

theorem pre_keep (V : Valuation τ sig (Elt F)) (r : Ref sig .tc) (h : r ∉ pre_W) :
    after pre V (Proc.devRef .tc r) = V (Proc.devRef .tc r) :=
  after_of_writes_sub pre V pre_writes h

set_option maxRecDepth 8192 in
theorem layer0a_sub : (layer0a : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub ..⟩
set_option maxRecDepth 8192 in
theorem layer0a_fresh : (layer0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

abbrev layer0a_W : List (Ref sig .tc) := [main_v29, main_v30, main_v31, main_v32, main_c_5, main_v33, main_v34, main_c_6, main_v35, main_v36, main_v37, main_v38, main_v39, main_v40, main_v41, main_cst_7, main_v42, main_v43, main_v44, main_v45, main_v46, main_v47, main_v48, main_v49]
set_option maxRecDepth 8192 in
theorem layer0a_writes : (layer0a : List (HloOp τ sig (Elt F))).Forall fun op => op.writes ⊆ (layer0a_W.map (Proc.devRef (τ := τ) .tc)).toFinset :=
  ⟨writes_sub_of_mem (y := main_v29) rfl (by decide), writes_sub_of_mem (y := main_v30) rfl (by decide), writes_sub_of_mem (y := main_v31) rfl (by decide), writes_sub_of_mem (y := main_v32) rfl (by decide), writes_sub_of_mem (y := main_c_5) rfl (by decide), writes_sub_of_mem (y := main_v33) rfl (by decide), writes_sub_of_mem (y := main_v34) rfl (by decide), writes_sub_of_mem (y := main_c_6) rfl (by decide), writes_sub_of_mem (y := main_v35) rfl (by decide), writes_sub_of_mem (y := main_v36) rfl (by decide), writes_sub_of_mem (y := main_v37) rfl (by decide), writes_sub_of_mem (y := main_v38) rfl (by decide), writes_sub_of_mem (y := main_v39) rfl (by decide), writes_sub_of_mem (y := main_v40) rfl (by decide), writes_sub_of_mem (y := main_v41) rfl (by decide), writes_sub_of_mem (y := main_cst_7) rfl (by decide), writes_sub_of_mem (y := main_v42) rfl (by decide), writes_sub_of_mem (y := main_v43) rfl (by decide), writes_sub_of_mem (y := main_v44) rfl (by decide), writes_sub_of_mem (y := main_v45) rfl (by decide), writes_sub_of_mem (y := main_v46) rfl (by decide), writes_sub_of_mem (y := main_v47) rfl (by decide), writes_sub_of_mem (y := main_v48) rfl (by decide), writes_sub_of_mem (y := main_v49) rfl (by decide)⟩

theorem layer0a_keep (V : Valuation τ sig (Elt F)) (r : Ref sig .tc) (h : r ∉ layer0a_W) :
    after layer0a V (Proc.devRef .tc r) = V (Proc.devRef .tc r) :=
  after_of_writes_sub layer0a V layer0a_writes h

set_option maxRecDepth 8192 in
theorem layer0b_sub : (layer0b : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 8192 in
theorem layer0b_fresh : (layer0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev layer0b_W : List (Ref sig .tc) := [main_v50, main_v51, main_v52, main_call0_cst, main_call0_v0, main_v53, main_cst_8, main_v54, main_cst_9, main_v55, main_v56, main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v57, main_v58, main_v59, main_v60, main_cst_11, main_v61, main_v62, main_v63, main_v64, main_v65, main_v66, main_v67, main_v68, main_v69, main_v70, main_v71, main_v72, main_v73, main_v74, main_v75, main_v76]
set_option maxRecDepth 8192 in
theorem layer0b_writes : (layer0b : List (HloOp τ sig (Elt F))).Forall fun op => op.writes ⊆ (layer0b_W.map (Proc.devRef (τ := τ) .tc)).toFinset :=
  ⟨writes_sub_of_mem (y := main_v50) rfl (by decide), writes_sub_of_mem (y := main_v51) rfl (by decide), writes_sub_of_mem (y := main_v52) rfl (by decide), writes_sub_of_mem (y := main_call0_cst) rfl (by decide), writes_sub_of_mem (y := main_call0_v0) rfl (by decide), writes_sub_of_mem (y := main_v53) rfl (by decide), writes_sub_of_mem (y := main_cst_8) rfl (by decide), writes_sub_of_mem (y := main_v54) rfl (by decide), writes_sub_of_mem (y := main_cst_9) rfl (by decide), writes_sub_of_mem (y := main_v55) rfl (by decide), writes_sub_of_mem (y := main_v56) rfl (by decide), writes_sub_of_mem (y := main_c_10) rfl (by decide), writes_sub_of_mem (y := main_call1_cst) rfl (by decide), writes_sub_of_mem (y := main_call1_v0) rfl (by decide), writes_sub_of_mem (y := main_call1_v1) rfl (by decide), writes_sub_of_mem (y := main_call1_cst_0) rfl (by decide), writes_sub_of_mem (y := main_call1_v2) rfl (by decide), writes_sub_of_mem (y := main_call1_v3) rfl (by decide), writes_sub_of_mem (y := main_call1_v4) rfl (by decide), writes_sub_of_mem (y := main_call1_v5) rfl (by decide), writes_sub_of_mem (y := main_call1_v6) rfl (by decide), writes_sub_of_mem (y := main_call1_v7) rfl (by decide), writes_sub_of_mem (y := main_call1_cst_1) rfl (by decide), writes_sub_of_mem (y := main_call1_v8) rfl (by decide), writes_sub_of_mem (y := main_call1_cst_2) rfl (by decide), writes_sub_of_mem (y := main_call1_v9) rfl (by decide), writes_sub_of_mem (y := main_call1_v10) rfl (by decide), writes_sub_of_mem (y := main_call1_v11) rfl (by decide), writes_sub_of_mem (y := main_call1_cst_3) rfl (by decide), writes_sub_of_mem (y := main_call1_v12) rfl (by decide), writes_sub_of_mem (y := main_call1_cst_4) rfl (by decide), writes_sub_of_mem (y := main_call1_call0_v0) rfl (by decide), writes_sub_of_mem (y := main_call1_call0_v1) rfl (by decide), writes_sub_of_mem (y := main_v57) rfl (by decide), writes_sub_of_mem (y := main_v58) rfl (by decide), writes_sub_of_mem (y := main_v59) rfl (by decide), writes_sub_of_mem (y := main_v60) rfl (by decide), writes_sub_of_mem (y := main_cst_11) rfl (by decide), writes_sub_of_mem (y := main_v61) rfl (by decide), writes_sub_of_mem (y := main_v62) rfl (by decide), writes_sub_of_mem (y := main_v63) rfl (by decide), writes_sub_of_mem (y := main_v64) rfl (by decide), writes_sub_of_mem (y := main_v65) rfl (by decide), writes_sub_of_mem (y := main_v66) rfl (by decide), writes_sub_of_mem (y := main_v67) rfl (by decide), writes_sub_of_mem (y := main_v68) rfl (by decide), writes_sub_of_mem (y := main_v69) rfl (by decide), writes_sub_of_mem (y := main_v70) rfl (by decide), writes_sub_of_mem (y := main_v71) rfl (by decide), writes_sub_of_mem (y := main_v72) rfl (by decide), writes_sub_of_mem (y := main_v73) rfl (by decide), writes_sub_of_mem (y := main_v74) rfl (by decide), writes_sub_of_mem (y := main_v75) rfl (by decide), writes_sub_of_mem (y := main_v76) rfl (by decide)⟩

theorem layer0b_keep (V : Valuation τ sig (Elt F)) (r : Ref sig .tc) (h : r ∉ layer0b_W) :
    after layer0b V (Proc.devRef .tc r) = V (Proc.devRef .tc r) :=
  after_of_writes_sub layer0b V layer0b_writes h

set_option maxRecDepth 8192 in
theorem layer1a_sub : (layer1a : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub ..⟩
set_option maxRecDepth 8192 in
theorem layer1a_fresh : (layer1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev layer1a_W : List (Ref sig .tc) := [main_v77, main_v78, main_v79, main_v80, main_c_12, main_v81, main_v82, main_c_13, main_v83, main_v84, main_v85, main_v86, main_v87, main_v88, main_v89, main_cst_14, main_v90, main_v91, main_v92, main_v93, main_v94, main_v95, main_v96, main_v97, main_v98, main_v99, main_v100, main_call2_cst, main_call2_v0, main_v101, main_cst_15]
set_option maxRecDepth 8192 in
theorem layer1a_writes : (layer1a : List (HloOp τ sig (Elt F))).Forall fun op => op.writes ⊆ (layer1a_W.map (Proc.devRef (τ := τ) .tc)).toFinset :=
  ⟨writes_sub_of_mem (y := main_v77) rfl (by decide), writes_sub_of_mem (y := main_v78) rfl (by decide), writes_sub_of_mem (y := main_v79) rfl (by decide), writes_sub_of_mem (y := main_v80) rfl (by decide), writes_sub_of_mem (y := main_c_12) rfl (by decide), writes_sub_of_mem (y := main_v81) rfl (by decide), writes_sub_of_mem (y := main_v82) rfl (by decide), writes_sub_of_mem (y := main_c_13) rfl (by decide), writes_sub_of_mem (y := main_v83) rfl (by decide), writes_sub_of_mem (y := main_v84) rfl (by decide), writes_sub_of_mem (y := main_v85) rfl (by decide), writes_sub_of_mem (y := main_v86) rfl (by decide), writes_sub_of_mem (y := main_v87) rfl (by decide), writes_sub_of_mem (y := main_v88) rfl (by decide), writes_sub_of_mem (y := main_v89) rfl (by decide), writes_sub_of_mem (y := main_cst_14) rfl (by decide), writes_sub_of_mem (y := main_v90) rfl (by decide), writes_sub_of_mem (y := main_v91) rfl (by decide), writes_sub_of_mem (y := main_v92) rfl (by decide), writes_sub_of_mem (y := main_v93) rfl (by decide), writes_sub_of_mem (y := main_v94) rfl (by decide), writes_sub_of_mem (y := main_v95) rfl (by decide), writes_sub_of_mem (y := main_v96) rfl (by decide), writes_sub_of_mem (y := main_v97) rfl (by decide), writes_sub_of_mem (y := main_v98) rfl (by decide), writes_sub_of_mem (y := main_v99) rfl (by decide), writes_sub_of_mem (y := main_v100) rfl (by decide), writes_sub_of_mem (y := main_call2_cst) rfl (by decide), writes_sub_of_mem (y := main_call2_v0) rfl (by decide), writes_sub_of_mem (y := main_v101) rfl (by decide), writes_sub_of_mem (y := main_cst_15) rfl (by decide)⟩

theorem layer1a_keep (V : Valuation τ sig (Elt F)) (r : Ref sig .tc) (h : r ∉ layer1a_W) :
    after layer1a V (Proc.devRef .tc r) = V (Proc.devRef .tc r) :=
  after_of_writes_sub layer1a V layer1a_writes h

set_option maxRecDepth 8192 in
theorem layer1b_sub : (layer1b : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 8192 in
theorem layer1b_fresh : (layer1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev layer1b_W : List (Ref sig .tc) := [main_v102, main_cst_16, main_v103, main_v104, main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v105, main_v106, main_v107, main_v108, main_cst_18, main_v109, main_v110, main_v111, main_v112, main_v113, main_v114, main_v115, main_v116, main_v117, main_v118, main_v119, main_v120, main_v121, main_v122, main_v123, main_v124]
set_option maxRecDepth 8192 in
theorem layer1b_writes : (layer1b : List (HloOp τ sig (Elt F))).Forall fun op => op.writes ⊆ (layer1b_W.map (Proc.devRef (τ := τ) .tc)).toFinset :=
  ⟨writes_sub_of_mem (y := main_v102) rfl (by decide), writes_sub_of_mem (y := main_cst_16) rfl (by decide), writes_sub_of_mem (y := main_v103) rfl (by decide), writes_sub_of_mem (y := main_v104) rfl (by decide), writes_sub_of_mem (y := main_c_17) rfl (by decide), writes_sub_of_mem (y := main_call3_cst) rfl (by decide), writes_sub_of_mem (y := main_call3_v0) rfl (by decide), writes_sub_of_mem (y := main_call3_v1) rfl (by decide), writes_sub_of_mem (y := main_call3_cst_0) rfl (by decide), writes_sub_of_mem (y := main_call3_v2) rfl (by decide), writes_sub_of_mem (y := main_call3_v3) rfl (by decide), writes_sub_of_mem (y := main_call3_v4) rfl (by decide), writes_sub_of_mem (y := main_call3_v5) rfl (by decide), writes_sub_of_mem (y := main_call3_v6) rfl (by decide), writes_sub_of_mem (y := main_call3_v7) rfl (by decide), writes_sub_of_mem (y := main_call3_cst_1) rfl (by decide), writes_sub_of_mem (y := main_call3_v8) rfl (by decide), writes_sub_of_mem (y := main_call3_cst_2) rfl (by decide), writes_sub_of_mem (y := main_call3_v9) rfl (by decide), writes_sub_of_mem (y := main_call3_v10) rfl (by decide), writes_sub_of_mem (y := main_call3_v11) rfl (by decide), writes_sub_of_mem (y := main_call3_cst_3) rfl (by decide), writes_sub_of_mem (y := main_call3_v12) rfl (by decide), writes_sub_of_mem (y := main_call3_cst_4) rfl (by decide), writes_sub_of_mem (y := main_call3_call0_v0) rfl (by decide), writes_sub_of_mem (y := main_call3_call0_v1) rfl (by decide), writes_sub_of_mem (y := main_v105) rfl (by decide), writes_sub_of_mem (y := main_v106) rfl (by decide), writes_sub_of_mem (y := main_v107) rfl (by decide), writes_sub_of_mem (y := main_v108) rfl (by decide), writes_sub_of_mem (y := main_cst_18) rfl (by decide), writes_sub_of_mem (y := main_v109) rfl (by decide), writes_sub_of_mem (y := main_v110) rfl (by decide), writes_sub_of_mem (y := main_v111) rfl (by decide), writes_sub_of_mem (y := main_v112) rfl (by decide), writes_sub_of_mem (y := main_v113) rfl (by decide), writes_sub_of_mem (y := main_v114) rfl (by decide), writes_sub_of_mem (y := main_v115) rfl (by decide), writes_sub_of_mem (y := main_v116) rfl (by decide), writes_sub_of_mem (y := main_v117) rfl (by decide), writes_sub_of_mem (y := main_v118) rfl (by decide), writes_sub_of_mem (y := main_v119) rfl (by decide), writes_sub_of_mem (y := main_v120) rfl (by decide), writes_sub_of_mem (y := main_v121) rfl (by decide), writes_sub_of_mem (y := main_v122) rfl (by decide), writes_sub_of_mem (y := main_v123) rfl (by decide), writes_sub_of_mem (y := main_v124) rfl (by decide)⟩

theorem layer1b_keep (V : Valuation τ sig (Elt F)) (r : Ref sig .tc) (h : r ∉ layer1b_W) :
    after layer1b V (Proc.devRef .tc r) = V (Proc.devRef .tc r) :=
  after_of_writes_sub layer1b V layer1b_writes h

set_option maxRecDepth 8192 in
theorem layer2a_sub : (layer2a : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub ..⟩
set_option maxRecDepth 8192 in
theorem layer2a_fresh : (layer2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev layer2a_W : List (Ref sig .tc) := [main_v125, main_v126, main_v127, main_v128, main_c_19, main_v129, main_v130, main_c_20, main_v131, main_v132, main_v133, main_v134, main_v135, main_v136, main_v137, main_cst_21, main_v138, main_v139, main_v140, main_v141, main_v142, main_v143, main_v144, main_v145, main_v146, main_v147, main_v148, main_call4_cst, main_call4_v0, main_v149, main_cst_22, main_v150, main_cst_23, main_v151, main_v152, main_c_24]
set_option maxRecDepth 8192 in
theorem layer2a_writes : (layer2a : List (HloOp τ sig (Elt F))).Forall fun op => op.writes ⊆ (layer2a_W.map (Proc.devRef (τ := τ) .tc)).toFinset :=
  ⟨writes_sub_of_mem (y := main_v125) rfl (by decide), writes_sub_of_mem (y := main_v126) rfl (by decide), writes_sub_of_mem (y := main_v127) rfl (by decide), writes_sub_of_mem (y := main_v128) rfl (by decide), writes_sub_of_mem (y := main_c_19) rfl (by decide), writes_sub_of_mem (y := main_v129) rfl (by decide), writes_sub_of_mem (y := main_v130) rfl (by decide), writes_sub_of_mem (y := main_c_20) rfl (by decide), writes_sub_of_mem (y := main_v131) rfl (by decide), writes_sub_of_mem (y := main_v132) rfl (by decide), writes_sub_of_mem (y := main_v133) rfl (by decide), writes_sub_of_mem (y := main_v134) rfl (by decide), writes_sub_of_mem (y := main_v135) rfl (by decide), writes_sub_of_mem (y := main_v136) rfl (by decide), writes_sub_of_mem (y := main_v137) rfl (by decide), writes_sub_of_mem (y := main_cst_21) rfl (by decide), writes_sub_of_mem (y := main_v138) rfl (by decide), writes_sub_of_mem (y := main_v139) rfl (by decide), writes_sub_of_mem (y := main_v140) rfl (by decide), writes_sub_of_mem (y := main_v141) rfl (by decide), writes_sub_of_mem (y := main_v142) rfl (by decide), writes_sub_of_mem (y := main_v143) rfl (by decide), writes_sub_of_mem (y := main_v144) rfl (by decide), writes_sub_of_mem (y := main_v145) rfl (by decide), writes_sub_of_mem (y := main_v146) rfl (by decide), writes_sub_of_mem (y := main_v147) rfl (by decide), writes_sub_of_mem (y := main_v148) rfl (by decide), writes_sub_of_mem (y := main_call4_cst) rfl (by decide), writes_sub_of_mem (y := main_call4_v0) rfl (by decide), writes_sub_of_mem (y := main_v149) rfl (by decide), writes_sub_of_mem (y := main_cst_22) rfl (by decide), writes_sub_of_mem (y := main_v150) rfl (by decide), writes_sub_of_mem (y := main_cst_23) rfl (by decide), writes_sub_of_mem (y := main_v151) rfl (by decide), writes_sub_of_mem (y := main_v152) rfl (by decide), writes_sub_of_mem (y := main_c_24) rfl (by decide)⟩

theorem layer2a_keep (V : Valuation τ sig (Elt F)) (r : Ref sig .tc) (h : r ∉ layer2a_W) :
    after layer2a V (Proc.devRef .tc r) = V (Proc.devRef .tc r) :=
  after_of_writes_sub layer2a V layer2a_writes h

set_option maxRecDepth 8192 in
theorem layer2b_sub : (layer2b : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 8192 in
theorem layer2b_fresh : (layer2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev layer2b_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v153, main_v154, main_v155, main_v156, main_cst_25, main_v157, main_v158, main_v159, main_v160, main_v161, main_v162, main_v163, main_v164, main_v165, main_v166, main_v167, main_v168, main_v169, main_v170, main_v171, main_v172]
set_option maxRecDepth 8192 in
theorem layer2b_writes : (layer2b : List (HloOp τ sig (Elt F))).Forall fun op => op.writes ⊆ (layer2b_W.map (Proc.devRef (τ := τ) .tc)).toFinset :=
  ⟨writes_sub_of_mem (y := main_call5_cst) rfl (by decide), writes_sub_of_mem (y := main_call5_v0) rfl (by decide), writes_sub_of_mem (y := main_call5_v1) rfl (by decide), writes_sub_of_mem (y := main_call5_cst_0) rfl (by decide), writes_sub_of_mem (y := main_call5_v2) rfl (by decide), writes_sub_of_mem (y := main_call5_v3) rfl (by decide), writes_sub_of_mem (y := main_call5_v4) rfl (by decide), writes_sub_of_mem (y := main_call5_v5) rfl (by decide), writes_sub_of_mem (y := main_call5_v6) rfl (by decide), writes_sub_of_mem (y := main_call5_v7) rfl (by decide), writes_sub_of_mem (y := main_call5_cst_1) rfl (by decide), writes_sub_of_mem (y := main_call5_v8) rfl (by decide), writes_sub_of_mem (y := main_call5_cst_2) rfl (by decide), writes_sub_of_mem (y := main_call5_v9) rfl (by decide), writes_sub_of_mem (y := main_call5_v10) rfl (by decide), writes_sub_of_mem (y := main_call5_v11) rfl (by decide), writes_sub_of_mem (y := main_call5_cst_3) rfl (by decide), writes_sub_of_mem (y := main_call5_v12) rfl (by decide), writes_sub_of_mem (y := main_call5_cst_4) rfl (by decide), writes_sub_of_mem (y := main_call5_call0_v0) rfl (by decide), writes_sub_of_mem (y := main_call5_call0_v1) rfl (by decide), writes_sub_of_mem (y := main_v153) rfl (by decide), writes_sub_of_mem (y := main_v154) rfl (by decide), writes_sub_of_mem (y := main_v155) rfl (by decide), writes_sub_of_mem (y := main_v156) rfl (by decide), writes_sub_of_mem (y := main_cst_25) rfl (by decide), writes_sub_of_mem (y := main_v157) rfl (by decide), writes_sub_of_mem (y := main_v158) rfl (by decide), writes_sub_of_mem (y := main_v159) rfl (by decide), writes_sub_of_mem (y := main_v160) rfl (by decide), writes_sub_of_mem (y := main_v161) rfl (by decide), writes_sub_of_mem (y := main_v162) rfl (by decide), writes_sub_of_mem (y := main_v163) rfl (by decide), writes_sub_of_mem (y := main_v164) rfl (by decide), writes_sub_of_mem (y := main_v165) rfl (by decide), writes_sub_of_mem (y := main_v166) rfl (by decide), writes_sub_of_mem (y := main_v167) rfl (by decide), writes_sub_of_mem (y := main_v168) rfl (by decide), writes_sub_of_mem (y := main_v169) rfl (by decide), writes_sub_of_mem (y := main_v170) rfl (by decide), writes_sub_of_mem (y := main_v171) rfl (by decide), writes_sub_of_mem (y := main_v172) rfl (by decide)⟩

theorem layer2b_keep (V : Valuation τ sig (Elt F)) (r : Ref sig .tc) (h : r ∉ layer2b_W) :
    after layer2b V (Proc.devRef .tc r) = V (Proc.devRef .tc r) :=
  after_of_writes_sub layer2b V layer2b_writes h

set_option maxRecDepth 8192 in
theorem head_sub : (head : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem head_fresh : (head : List (HloOp τ sig (Elt F))).Forall fun op => op.fresh = ∅ :=
  ⟨rfl, rfl, rfl, rfl, rfl, rfl, rfl, rfl, rfl, rfl, rfl⟩

abbrev head_W : List (Ref sig .tc) := [main_v173, main_v174, main_v175, main_v176, main_call6_cst, main_call6_v0, main_v177, main_v178, main_v179, main_v180, main_v181]
set_option maxRecDepth 8192 in
theorem head_writes : (head : List (HloOp τ sig (Elt F))).Forall fun op => op.writes ⊆ (head_W.map (Proc.devRef (τ := τ) .tc)).toFinset :=
  ⟨writes_sub_of_mem (y := main_v173) rfl (by decide), writes_sub_of_mem (y := main_v174) rfl (by decide), writes_sub_of_mem (y := main_v175) rfl (by decide), writes_sub_of_mem (y := main_v176) rfl (by decide), writes_sub_of_mem (y := main_call6_cst) rfl (by decide), writes_sub_of_mem (y := main_call6_v0) rfl (by decide), writes_sub_of_mem (y := main_v177) rfl (by decide), writes_sub_of_mem (y := main_v178) rfl (by decide), writes_sub_of_mem (y := main_v179) rfl (by decide), writes_sub_of_mem (y := main_v180) rfl (by decide), writes_sub_of_mem (y := main_v181) rfl (by decide)⟩

theorem head_keep (V : Valuation τ sig (Elt F)) (r : Ref sig .tc) (h : r ∉ head_W) :
    after head V (Proc.devRef .tc r) = V (Proc.devRef .tc r) :=
  after_of_writes_sub head V head_writes h

set_option maxRecDepth 8192 in
theorem pools_sub : (pools : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub ..⟩
set_option maxRecDepth 8192 in
theorem pools_fresh : (pools : List (HloOp τ sig (Elt F))).Forall fun op => op.fresh = ∅ :=
  ⟨rfl, rfl, rfl, rfl, rfl, rfl, rfl, rfl, rfl, rfl, rfl, rfl, rfl, rfl, rfl, rfl⟩

abbrev pools_W : List (Ref sig .tc) := [main_cst_26, main_v182, main_v183, main_v184, main_cst_27, main_v185, main_v186, main_v187, main_cst_28, main_v188, main_v189, main_v190, main_cst_29, main_v191, main_v192, main_v193]
set_option maxRecDepth 8192 in
theorem pools_writes : (pools : List (HloOp τ sig (Elt F))).Forall fun op => op.writes ⊆ (pools_W.map (Proc.devRef (τ := τ) .tc)).toFinset :=
  ⟨writes_sub_of_mem (y := main_cst_26) rfl (by decide), writes_sub_of_mem (y := main_v182) rfl (by decide), writes_sub_of_mem (y := main_v183) rfl (by decide), writes_sub_of_mem (y := main_v184) rfl (by decide), writes_sub_of_mem (y := main_cst_27) rfl (by decide), writes_sub_of_mem (y := main_v185) rfl (by decide), writes_sub_of_mem (y := main_v186) rfl (by decide), writes_sub_of_mem (y := main_v187) rfl (by decide), writes_sub_of_mem (y := main_cst_28) rfl (by decide), writes_sub_of_mem (y := main_v188) rfl (by decide), writes_sub_of_mem (y := main_v189) rfl (by decide), writes_sub_of_mem (y := main_v190) rfl (by decide), writes_sub_of_mem (y := main_cst_29) rfl (by decide), writes_sub_of_mem (y := main_v191) rfl (by decide), writes_sub_of_mem (y := main_v192) rfl (by decide), writes_sub_of_mem (y := main_v193) rfl (by decide)⟩

theorem pools_keep (V : Valuation τ sig (Elt F)) (r : Ref sig .tc) (h : r ∉ pools_W) :
    after pools V (Proc.devRef .tc r) = V (Proc.devRef .tc r) :=
  after_of_writes_sub pools V pools_writes h

set_option maxRecDepth 8192 in
theorem concats_sub : (concats : List (HloOp τ sig (Elt F))).Forall fun op => op.bufs ⊆ tcRefs τ sig :=
  ⟨nary_bufs_sub .., nary_bufs_sub ..⟩
set_option maxRecDepth 8192 in
theorem concats_fresh : (concats : List (HloOp τ sig (Elt F))).Forall fun op => op.fresh = ∅ :=
  ⟨rfl, rfl⟩

abbrev concats_W : List (Ref sig .tc) := [main_v194, main_v195]
set_option maxRecDepth 8192 in
theorem concats_writes : (concats : List (HloOp τ sig (Elt F))).Forall fun op => op.writes ⊆ (concats_W.map (Proc.devRef (τ := τ) .tc)).toFinset :=
  ⟨writes_sub_of_mem (y := main_v194) rfl (by decide), writes_sub_of_mem (y := main_v195) rfl (by decide)⟩

theorem concats_keep (V : Valuation τ sig (Elt F)) (r : Ref sig .tc) (h : r ∉ concats_W) :
    after concats V (Proc.devRef .tc r) = V (Proc.devRef .tc r) :=
  after_of_writes_sub concats V concats_writes h

theorem ops_sub : (ops : List (HloOp τ sig (Elt F))).Forall fun op => op.bufs ⊆ tcRefs τ sig :=
  List.forall_iff_forall_mem.mpr fun op h => by
    simp only [ops, layer0, layer1, layer2, List.mem_append, or_assoc] at h
    rcases h with h | h | h | h | h | h | h | h | h | h
    exacts [List.forall_iff_forall_mem.mp pre_sub op h, List.forall_iff_forall_mem.mp layer0a_sub op h, List.forall_iff_forall_mem.mp layer0b_sub op h, List.forall_iff_forall_mem.mp layer1a_sub op h, List.forall_iff_forall_mem.mp layer1b_sub op h, List.forall_iff_forall_mem.mp layer2a_sub op h, List.forall_iff_forall_mem.mp layer2b_sub op h, List.forall_iff_forall_mem.mp head_sub op h, List.forall_iff_forall_mem.mp pools_sub op h, List.forall_iff_forall_mem.mp concats_sub op h]

theorem ops_fresh : (ops : List (HloOp τ sig (Elt F))).Forall fun op => op.fresh = ∅ :=
  List.forall_iff_forall_mem.mpr fun op h => by
    simp only [ops, layer0, layer1, layer2, List.mem_append, or_assoc] at h
    rcases h with h | h | h | h | h | h | h | h | h | h
    exacts [List.forall_iff_forall_mem.mp pre_fresh op h, List.forall_iff_forall_mem.mp layer0a_fresh op h, List.forall_iff_forall_mem.mp layer0b_fresh op h, List.forall_iff_forall_mem.mp layer1a_fresh op h, List.forall_iff_forall_mem.mp layer1b_fresh op h, List.forall_iff_forall_mem.mp layer2a_fresh op h, List.forall_iff_forall_mem.mp layer2b_fresh op h, List.forall_iff_forall_mem.mp head_fresh op h, List.forall_iff_forall_mem.mp pools_fresh op h, List.forall_iff_forall_mem.mp concats_fresh op h]

abbrev ops_W : List (Ref sig .tc) :=
  pre_W ++ (layer0a_W ++ (layer0b_W ++ (layer1a_W ++ (layer1b_W ++ (layer2a_W ++ (layer2b_W ++ (head_W ++ (pools_W ++ (concats_W)))))))))

theorem ops_keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3, h4, h5, h6, h7, h8, h9⟩ := h
  rw [after_ops, after_layer0, after_layer1, after_layer2, concats_keep _ r h9, pools_keep _ r h8, head_keep _ r h7, layer2b_keep _ r h6, layer2a_keep _ r h5,
    layer1b_keep _ r h4, layer1a_keep _ r h3, layer0b_keep _ r h2, layer0a_keep _ r h1, pre_keep _ r h0]

end Cert.ReferenceIdeal.RefRun

end
-- ==== Proof.Ref.Run.lean ====
import proofs.«409448_j71794673320215_1_alg».proof.Proof.Ref.Ops
import proofs.«409448_j71794673320215_1_alg».proof.Defs
import proofs.«409448_j71794673320215_1_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl

theorem main_eq (c : Dev nD) : main (F := F) c = seq ops := by
  rw [ops_eq_windows, seq_append ops0, seq_append ops1, seq_append ops2,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

theorem after_ops_arg (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) :=
  ⟨ops_keep V main_arg0 (by decide), ops_keep V main_arg1 (by decide), ops_keep V main_arg2 (by decide), ops_keep V main_arg3 (by decide), ops_keep V main_arg4 (by decide), ops_keep V main_arg5 (by decide), ops_keep V main_arg6 (by decide), ops_keep V main_arg7 (by decide), ops_keep V main_arg8 (by decide), ops_keep V main_arg9 (by decide), ops_keep V main_arg10 (by decide), ops_keep V main_arg11 (by decide)⟩

theorem frame : Cert.frame_ReferenceIdeal :=
  fun m ρ _ => (θ_run _ _ _).mono
    (fun _ h c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide))⟩)
    (run (F := Ideal) m ρ)

end Cert.ReferenceIdeal.RefRun

end
-- ==== Proof.Spec.Stages.lean ====
import Idealize.ShloMosaic.PureOps.Ideal
import Idealize.ShloMosaic.Lib.ValueIdx

noncomputable section

namespace Cert.Spec

open Idealize.ShloMosaic Idealize.ShloMosaic.ValueIdx

abbrev SNH : Shape := ⟨2, ![100000, 128]⟩

abbrev SHH : Shape := ⟨2, ![128, 128]⟩

abbrev SH : Shape := ⟨1, ![128]⟩

abbrev SN1 : Shape := ⟨2, ![100000, 1]⟩

def linF (x : SNH.Idx → EReal) (w : SHH.Idx → EReal) : SNH.Idx → EReal :=
  fun i => ∑ k : Fin 128, x (ix2 (i 0) k) * w (ix2 k (i 1))

def combF (agg h : SNH.Idx → EReal) (sn : SN1.Idx → EReal) (b : SH.Idx → EReal) : SNH.Idx → EReal :=
  fun i => max ((agg i + sn (ix2 (i 0) 0) * h i) + b (ix1 (i 1))) 0

def bnF (z : SNH.Idx → EReal) (scale shift : SH.Idx → EReal) : SNH.Idx → EReal :=
  fun i => z i * scale (ix1 (i 1)) + shift (ix1 (i 1))

def projF (z : SNH.Idx → EReal) (w1 : SHH.Idx → EReal) (b1 : SH.Idx → EReal) (w2 : SHH.Idx → EReal) (b2 : SH.Idx → EReal) :
    SNH.Idx → EReal :=
  fun i => (∑ k : Fin 128, max ((∑ j : Fin 128, z (ix2 (i 0) j) * w1 (ix2 j k)) + b1 (ix1 k)) 0 * w2 (ix2 k (i 1))) + b2 (ix1 (i 1))

def poolF (batch : SN1.Idx → BitVec 32) (z : SNH.Idx → EReal) : SHH.Idx → EReal :=
  fun i => ∑ n : Fin 100000, if batch (ix2 n 0) = BitVec.ofNat 32 (i 0).val then z (ix2 n (i 1)) else 0

end Cert.Spec

end
-- ==== Proof.KI.Val9.lean ====
import proofs.«409448_j71794673320215_1_alg».proof.Proof.KI.R9
import proofs.«409448_j71794673320215_1_alg».proof.Proof.Spec.Stages
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

theorem lhs9_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs9_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs9_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs9_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul9_apply {φ₁ φ₂ : FTy} (a : FVec Ideal S5000x128 φ₁) (b : FVec Ideal S128x128 φ₂) (p : Fin 5000) (o : Fin 128) :
    matmul dot_S5000x128_S128x128_S5000x128_1_0_0_1_n_n none a b (constant (F := Ideal) S5000x128 .f32 0x00000000#32) (ix2 p o)
      = ∑ k : Fin 128, a (ix2 p k) * b (ix2 k o) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p o) ((contrEquiv1 dot_S5000x128_S128x128_S5000x128_1_0_0_1_n_n 128 rfl rfl).symm k) = ix2 p k := funext fun a => Fin.ext (by
    match a with
    | ⟨0, _⟩ => exact lhs9_0 _ _
    | ⟨1, _⟩ => exact (lhs9_1 _ _).trans hk)
  have er : dot_S5000x128_S128x128_S5000x128_1_0_0_1_n_n.rhsIdx (ix2 p o) ((contrEquiv1 dot_S5000x128_S128x128_S5000x128_1_0_0_1_n_n 128 rfl rfl).symm k) = ix2 k o := funext fun a => Fin.ext (by
    match a with
    | ⟨0, _⟩ => exact (rhs9_0 _ _).trans hk
    | ⟨1, _⟩ => exact rhs9_1 _ _)
  rw [el, er]

theorem bias9_apply (b : FVec Ideal S128 .f32) (p : Fin 5000) (o : Fin 128) :
    broadcastTo S5000x128 (shapeCast S1x128 b shapeCasts_S128_S1x128) broadcasts_S1x128_S5000x128 (ix2 p o) = b (ix1 o) := by
  rw [broadcastTo_1b_ab_apply, shapeCast_a_1a_apply]

theorem pay9_apply (x : Vec Ideal S5000x128 .f32) (w1 : Vec Ideal S128x128 .f32) (b1 : Vec Ideal S128 .f32)
    (w2 : Vec Ideal S128x128 .f32) (b2 : Vec Ideal S128 .f32) (p : Fin 5000) (o : Fin 128) :
    k9_pay1 (F := Ideal) x w1 b1 w2 b2 (ix2 p o)
      = (∑ k : Fin 128, max ((∑ j : Fin 128, x (ix2 p j) * w1 (ix2 j k)) + b1 (ix1 k)) 0 * w2 (ix2 k o)) + b2 (ix1 o) := by
  unfold k9_pay1
  refine (addf_apply _ _ _).trans ?_
  refine congrArg₂ (· + ·) ?_ (bias9_apply b2 p o)
  refine (matmul9_apply _ _ p o).trans ?_
  refine Finset.sum_congr rfl fun k _ => ?_
  refine congrArg₂ (· * ·) ?_ rfl
  refine (maximumf_apply _ _ _).trans ?_
  refine congrArg₂ max ?_ Ideal.ofBits_zero_f32
  refine (addf_apply _ _ _).trans ?_
  refine congrArg₂ (· + ·) ?_ (bias9_apply b1 p k)
  refine (matmul9_apply _ _ p k).trans ?_
  refine Finset.sum_congr rfl fun j _ => ?_
  refine congrArg₂ (· * ·) ?_ rfl
  exact congrFun (shapeCast_self x shapeCasts_S5000x128_S5000x128) (ix2 p j)

variable (V : (c : Dev nD) → (b : Ref sig .tc) → Buf (Elt Ideal) ((c : Thread nD τ).loc b))

theorem hz9 : (![0, 0] : Fin 2 → Nat) = fun _ => 0 := funext fun a => by fin_cases a <;> rfl
theorem hz9' : (![0] : Fin 1 → Nat) = fun _ => 0 := funext fun a => by fin_cases a; rfl

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0
    ∧ win9_4.index t (0 : Fin 1) = 0
    ∧ win9_5.index t (0 : Fin 2) = t.val ∧ win9_5.index t (1 : Fin 2) = 0 :=
  (by decide +kernel : ∀ t : Fin grid9.N, _)

theorem lt9 (t : Fin cfg9.N) (p : Fin 5000) : t.val * 5000 + p.val < 100000 := by
  have ht : t.val < 20 := Nat.lt_of_lt_of_eq t.isLt (show cfg9.N = 20 from N_9)
  omega

theorem emb9_0 (t : Fin cfg9.N) (p : Fin 5000) (j : Fin 128) :
    (((cfg9.win 0).blk t).view.emb (ix2 p j) : S100000x128.Idx) = ix2 (⟨t.val * 5000 + p.val, lt9 t p⟩ : Fin 100000) j := by
  obtain ⟨e00, e01, -⟩ := idx_facts9 t
  funext a; apply Fin.ext
  match a with
  | ⟨0, _⟩ => show win9_0.index t (0 : Fin 2) * 5000 + 1 * p.val = t.val * 5000 + p.val; rw [e00]; omega
  | ⟨1, _⟩ => show win9_0.index t (1 : Fin 2) * 128 + 1 * j.val = j.val; rw [e01]; omega

theorem emb9_5 (t : Fin cfg9.N) (p : Fin 5000) (o : Fin 128) :
    (((cfg9.win 5).blk t).view.emb (ix2 p o) : S100000x128.Idx) = ix2 (⟨t.val * 5000 + p.val, lt9 t p⟩ : Fin 100000) o := by
  obtain ⟨-, -, -, -, -, -, -, -, e50, e51⟩ := idx_facts9 t
  funext a; apply Fin.ext
  match a with
  | ⟨0, _⟩ => show win9_5.index t (0 : Fin 2) * 5000 + 1 * p.val = t.val * 5000 + p.val; rw [e50]; omega
  | ⟨1, _⟩ => show win9_5.index t (1 : Fin 2) * 128 + 1 * o.val = o.val; rw [e51]; omega

theorem emb9_1 (t : Fin cfg9.N) (j k : Fin 128) :
    (((cfg9.win 1).blk t).view.emb (ix2 j k) : S128x128.Idx) = ix2 j k := by
  obtain ⟨-, -, e10, e11, -⟩ := idx_facts9 t
  funext a; apply Fin.ext
  match a with
  | ⟨0, _⟩ => show win9_1.index t (0 : Fin 2) * 128 + 1 * j.val = j.val; rw [e10]; omega
  | ⟨1, _⟩ => show win9_1.index t (1 : Fin 2) * 128 + 1 * k.val = k.val; rw [e11]; omega
theorem emb9_2 (t : Fin cfg9.N) (k : Fin 128) :
    (((cfg9.win 2).blk t).view.emb (ix1 k) : S128.Idx) = ix1 k := by
  obtain ⟨-, -, -, -, e20, -⟩ := idx_facts9 t
  funext a; apply Fin.ext
  match a with
  | ⟨0, _⟩ => show win9_2.index t (0 : Fin 1) * 128 + 1 * k.val = k.val; rw [e20]; omega
theorem emb9_3 (t : Fin cfg9.N) (j k : Fin 128) :
    (((cfg9.win 3).blk t).view.emb (ix2 j k) : S128x128.Idx) = ix2 j k := by
  obtain ⟨-, -, -, -, -, e30, e31, -⟩ := idx_facts9 t
  funext a; apply Fin.ext
  match a with
  | ⟨0, _⟩ => show win9_3.index t (0 : Fin 2) * 128 + 1 * j.val = j.val; rw [e30]; omega
  | ⟨1, _⟩ => show win9_3.index t (1 : Fin 2) * 128 + 1 * k.val = k.val; rw [e31]; omega
theorem emb9_4 (t : Fin cfg9.N) (k : Fin 128) :
    (((cfg9.win 4).blk t).view.emb (ix1 k) : S128.Idx) = ix1 k := by
  obtain ⟨-, -, -, -, -, -, -, e40, -⟩ := idx_facts9 t
  funext a; apply Fin.ext
  match a with
  | ⟨0, _⟩ => show win9_4.index t (0 : Fin 1) * 128 + 1 * k.val = k.val; rw [e40]; omega

theorem iblk9_0_apply (c : Dev nD) (t : Fin cfg9.N) (p : Fin 5000) (j : Fin 128) :
    Rg.iblk9 V c 0 t (ix2 p j) = (V c (Pipeline.arrRef spec9 0) : S100000x128.Idx → EReal) (ix2 (⟨t.val * 5000 + p.val, lt9 t p⟩ : Fin 100000) j) :=
  congrArg (V c (Pipeline.arrRef spec9 0) : S100000x128.Idx → EReal) (emb9_0 t p j)
theorem iblk9_1_apply (c : Dev nD) (t : Fin cfg9.N) (j k : Fin 128) :
    Rg.iblk9 V c 1 t (ix2 j k) = (V c (Pipeline.arrRef spec9 1) : S128x128.Idx → EReal) (ix2 j k) :=
  congrArg (V c (Pipeline.arrRef spec9 1) : S128x128.Idx → EReal) (emb9_1 t j k)
theorem iblk9_2_apply (c : Dev nD) (t : Fin cfg9.N) (k : Fin 128) :
    Rg.iblk9 V c 2 t (ix1 k) = (V c (Pipeline.arrRef spec9 2) : S128.Idx → EReal) (ix1 k) :=
  congrArg (V c (Pipeline.arrRef spec9 2) : S128.Idx → EReal) (emb9_2 t k)
theorem iblk9_3_apply (c : Dev nD) (t : Fin cfg9.N) (j k : Fin 128) :
    Rg.iblk9 V c 3 t (ix2 j k) = (V c (Pipeline.arrRef spec9 3) : S128x128.Idx → EReal) (ix2 j k) :=
  congrArg (V c (Pipeline.arrRef spec9 3) : S128x128.Idx → EReal) (emb9_3 t j k)
theorem iblk9_4_apply (c : Dev nD) (t : Fin cfg9.N) (k : Fin 128) :
    Rg.iblk9 V c 4 t (ix1 k) = (V c (Pipeline.arrRef spec9 4) : S128.Idx → EReal) (ix1 k) :=
  congrArg (V c (Pipeline.arrRef spec9 4) : S128.Idx → EReal) (emb9_4 t k)

theorem tile9_apply (c : Dev nD) (t : Fin cfg9.N) (p : Fin 5000) (o : Fin 128) :
    k9_pay1 (F := Ideal) (Rg.iblk9 V c 0 t) (Rg.iblk9 V c 1 t) (Rg.iblk9 V c 2 t) (Rg.iblk9 V c 3 t) (Rg.iblk9 V c 4 t) (ix2 p o)
      = Cert.Spec.projF (V c (Pipeline.arrRef spec9 0)) (V c (Pipeline.arrRef spec9 1)) (V c (Pipeline.arrRef spec9 2)) (V c (Pipeline.arrRef spec9 3)) (V c (Pipeline.arrRef spec9 4))
          (ix2 (⟨t.val * 5000 + p.val, lt9 t p⟩ : Fin 100000) o) := by
  refine (pay9_apply (Rg.iblk9 V c 0 t) (Rg.iblk9 V c 1 t) (Rg.iblk9 V c 2 t) (Rg.iblk9 V c 3 t) (Rg.iblk9 V c 4 t) p o).trans ?_
  unfold Cert.Spec.projF
  exact congrArg₂ (· + ·) (Finset.sum_congr rfl fun k _ => congrArg₂ (· * ·) (congrArg₂ max (congrArg₂ (· + ·)
    (Finset.sum_congr rfl fun j _ => congrArg₂ (· * ·) (iblk9_0_apply V c t p j) (iblk9_1_apply V c t j k)) (iblk9_2_apply V c t k)) rfl)
    (iblk9_3_apply V c t k o)) (iblk9_4_apply V c t o)

theorem flushed9_eq (c : Dev nD) (t : Fin cfg9.N) :
    (Rg.dat9 (F := Ideal) V c).flushed 5 t = ((cfg9.win 5).blk t).view.read (Elt Ideal)
      (Cert.Spec.projF (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((Rg.dat9 (F := Ideal) V c).after 5 t) = _
  rw [Rg.after9_5]
  unfold Rg.out9_5
  rw [View.canon_unit_zero hz9]
  simp only [View.ld_unit_zero (S := S5000x128) hz9, View.ld_unit_zero (S := S128x128) hz9, View.ld_unit_zero (S := S128) hz9']
  funext j
  obtain ⟨p, o, rfl⟩ : ∃ (p : Fin 5000) (o : Fin 128), j = ix2 p o := ⟨j 0, j 1, eq_ix2 j⟩
  refine (tile9_apply V c t p o).trans ?_
  exact (congrArg (Cert.Spec.projF (V c (Pipeline.arrRef spec9 0)) (V c (Pipeline.arrRef spec9 1)) (V c (Pipeline.arrRef spec9 2)) (V c (Pipeline.arrRef spec9 3)) (V c (Pipeline.arrRef spec9 4))) (emb9_5 t p o)).symm

theorem mem_blk9 (t : Fin cfg9.N) (i : S100000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v131).slice (win9_5.rect t)).set ↔ _
  rw [View.set_slice_whole, Rect.mem_set_unit]
  exact Iff.rfl

theorem cover9 (i : S100000x128.Idx) :
    ∃ t : Fin cfg9.N, (cfg9.win 5).flush t = true ∧ i ∈ ((cfg9.win 5).blk t).view.set := by
  have hi0 : (i 0).val < 100000 := idx2_lt0 i
  have hi1 : (i 1).val < 128 := idx2_lt1 i
  obtain ⟨t, ht⟩ : ∃ t : Fin cfg9.N, t.val = (i 0).val / 5000 :=
    ⟨⟨(i 0).val / 5000, Nat.lt_of_lt_of_eq (by omega : (i 0).val / 5000 < 20) (show 20 = cfg9.N from N_9.symm)⟩, rfl⟩
  obtain ⟨-, -, -, -, -, -, -, -, e50, e51⟩ := idx_facts9 t
  refine ⟨t, flush9_5 t, ?_⟩
  rw [mem_blk9]
  intro a
  match a with
  | ⟨0, _⟩ =>
    show win9_5.index t (0 : Fin 2) * 5000 ≤ (i 0).val ∧ (i 0).val < win9_5.index t (0 : Fin 2) * 5000 + 5000
    rw [e50, ht]; omega
  | ⟨1, _⟩ =>
    show win9_5.index t (1 : Fin 2) * 128 ≤ (i 1).val ∧ (i 1).val < win9_5.index t (1 : Fin 2) * 128 + 128
    rw [e51]; omega

theorem arrAt_out9 (c : Dev nD) :
    (Rg.dat9 (F := Ideal) V c).arrAt 5 cfg9.N
      = Cert.Spec.projF (V c (Pipeline.arrRef spec9 0)) (V c (Pipeline.arrRef spec9 1)) (V c (Pipeline.arrRef spec9 2)) (V c (Pipeline.arrRef spec9 3)) (V c (Pipeline.arrRef spec9 4)) :=
  (Rg.dat9 (F := Ideal) V c).arrAt_eq_of_cover 5
    (Cert.Spec.projF (V c (Pipeline.arrRef spec9 0)) (V c (Pipeline.arrRef spec9 1)) (V c (Pipeline.arrRef spec9 2)) (V c (Pipeline.arrRef spec9 3)) (V c (Pipeline.arrRef spec9 4)))
    (fun t _ => flushed9_eq V c t) cover9

end Cert.KernelIdeal.Val

end
-- ==== Proof.KI.Val10.lean ====
import proofs.«409448_j71794673320215_1_alg».proof.Proof.KI.R10
import proofs.«409448_j71794673320215_1_alg».proof.Proof.Spec.Stages
import Idealize.ShloMosaic.Lib.Pipeline.Value
import Idealize.ShloMosaic.PureOps.Ideal.Laws
import Idealize.ShloMosaic.Lib.ValueIdx
import Idealize.ShloMosaic.Lib.Tactic
import Mathlib.Data.Fintype.BigOperators
import Mathlib.Algebra.BigOperators.Group.Finset.Basic

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.Tactic Idealize.SL.Sem
open Idealize.ShloMosaic.Pipeline (Dat)
open Idealize.ShloMosaic.ValueIdx

section AnyInstance10

variable {F : FTy → Type} [FloatOps F]

theorem origin10 : (![0, 0] : Fin 2 → Nat) = fun _ => 0 := by
  funext a
  fin_cases a <;> rfl

theorem out10_B_val (c : Dev nD) (i : grid10.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond10_0 i) (x0 : Vec F S5000x1 .i32) (x1 : Vec F S5000x128 .f32) (xo : Vec F S128x128 .f32) :
    out10_B_2 c i a1 h1 a2 h2 a3 h3 hc x0 x1 xo = k10_pay2 x0 x1 xo := by
  unfold out10_B_2
  rw [View.read_writes_eq_canon _ _ _ (cover10_B_2 c i a1 h1 a2 h2 a3 h3 hc x0 x1 xo)]
  unfold kernelRun10_B
  dsimp only
  sl_unfold_words
  rw [View.canon_unit_zero origin10]
  simp only [View.readAt_eq_ld, h1.read_unread, h2.read_unread, h3.read_unread, View.ld_unit_zero (S := S5000x1) origin10,
    View.ld_unit_zero (S := S5000x128) origin10, View.ld_unit_zero (S := S128x128) origin10]

theorem out10_A_val (c : Dev nD) (i : grid10.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond10_0 i) (x0 : Vec F S5000x1 .i32) (x1 : Vec F S5000x128 .f32) :
    out10_A_2 c i a1 h1 a2 h2 a3 h3 hc x0 x1 = k10_pay2 x0 x1 (k10_pay1 (F := F)) := by
  unfold out10_A_2
  rw [View.read_writes_eq_canon _ _ _ (cover10_A_2 c i a1 h1 a2 h2 a3 h3 hc x0 x1)]
  unfold kernelRun10_A
  dsimp only
  sl_unfold_words
  rw [View.canon_cons_unit_zero (S := S128x128) origin10]
  simp only [View.readAt_eq_ld, h1.read_unread, h2.read_unread, View.ld_unit_zero (S := S5000x1) origin10,
    View.ld_unit_zero (S := S5000x128) origin10, View.readCov_unit_zero (S := S128x128) _ origin10]

end AnyInstance10

theorem onehot10 (a b : BitVec 32) :
    (((BitVec.setWidth 32 (IntOp.cmpi .eq a b)).toInt : ℝ) : EReal) = if a = b then 1 else 0 := by
  by_cases h : a = b
  · have e : IntOp.cmpi .eq a b = 1#1 := by simp [IntOp.cmpi, h]
    rw [if_pos h, e]
    norm_num
  · have hb : (a == b) = false := by simpa using h
    have e : IntOp.cmpi .eq a b = 0#1 := by simp [IntOp.cmpi, hb]
    rw [if_neg h, e]
    norm_num

theorem pay1_apply10 (y : S128x128.Idx) : k10_pay1 (F := Ideal) y = 0 := by
  unfold k10_pay1
  exact Ideal.ofBits_zero_f32

theorem lhsIdx10 (g j : Fin 128) (r : Fin 5000) :
    dot_S5000x128_S5000x128_S128x128_0_0_1_1_n_n.lhsIdx (ix2 g j)
      ((contrEquiv1 dot_S5000x128_S5000x128_S128x128_0_0_1_1_n_n 5000 rfl rfl).symm r) = ix2 r g := by
  have cr := contrEquiv1_symm_val dot_S5000x128_S5000x128_S128x128_0_0_1_1_n_n 5000 rfl rfl r
  refine Shape.idx_ext₂ ?_ ?_
  · simp [DotDims.lhsIdx, dot_S5000x128_S5000x128_S128x128_0_0_1_1_n_n]; exact cr
  · simp [DotDims.lhsIdx, dot_S5000x128_S5000x128_S128x128_0_0_1_1_n_n]; rfl

theorem rhsIdx10 (g j : Fin 128) (r : Fin 5000) :
    dot_S5000x128_S5000x128_S128x128_0_0_1_1_n_n.rhsIdx (ix2 g j)
      ((contrEquiv1 dot_S5000x128_S5000x128_S128x128_0_0_1_1_n_n 5000 rfl rfl).symm r) = ix2 r j := by
  have cr := contrEquiv1_symm_val dot_S5000x128_S5000x128_S128x128_0_0_1_1_n_n 5000 rfl rfl r
  refine Shape.idx_ext₂ ?_ ?_
  · simp [DotDims.rhsIdx, dot_S5000x128_S5000x128_S128x128_0_0_1_1_n_n]; exact cr
  · simp [DotDims.rhsIdx, dot_S5000x128_S5000x128_S128x128_0_0_1_1_n_n]; rfl

theorem bcast_apply10 (v : S5000x1.Idx → BitVec 32) (h : S5000x1.Broadcasts S5000x128) (r : Fin 5000) (g : Fin 128) :
    broadcastTo S5000x128 v h (ix2 r g) = v (ix2 r 0) :=
  broadcastTo_apply v h (ix2 r g) (ix2 r 0) fun a => by
    match a with
    | ⟨0, _⟩ => rfl
    | ⟨1, _⟩ => rfl

theorem iota_apply10 (h : S5000x128.Iotas .tc 32 [1]) (r : Fin 5000) (g : Fin 128) :
    iota .tc S5000x128 32 [1] h (ix2 r g) = BitVec.ofNat 32 g.val :=
  iota_single_apply .tc S5000x128 32 1 h (ix2 r g)

theorem pay2_apply10 (v3 : Vec Ideal S5000x1 .i32) (v5 : Vec Ideal S5000x128 .f32) (v15 : Vec Ideal S128x128 .f32) (g j : Fin 128) :
    k10_pay2 (F := Ideal) v3 v5 v15 (ix2 g j)
      = v15 (ix2 g j) + ∑ r : Fin 5000, if (v3 (ix2 r 0) : BitVec 32) = BitVec.ofNat 32 g.val then v5 (ix2 r j) else 0 := by
  unfold k10_pay2
  simp only [shapeCast_self]
  refine congrArg (v15 (ix2 g j) + ·) ?_
  refine (Ideal.matmul_constant_zero_apply _ none _ _ (ix2 g j)).trans ?_
  rw [← Equiv.sum_comp (contrEquiv1 dot_S5000x128_S5000x128_S128x128_0_0_1_1_n_n 5000 rfl rfl).symm]
  refine Finset.sum_congr rfl fun r _ => ?_
  rw [lhsIdx10, rhsIdx10]
  show (((BitVec.setWidth 32 (IntOp.cmpi .eq (broadcastTo S5000x128 v3 _ (ix2 r g)) (iota .tc S5000x128 32 [1] _ (ix2 r g)))).toInt : ℝ) : EReal)
    * v5 (ix2 r j) = _
  rw [bcast_apply10, iota_apply10, onehot10]
  by_cases h : (v3 (ix2 r 0) : BitVec 32) = BitVec.ofNat 32 g.val
  · rw [if_pos h, if_pos h, one_mul]
  · rw [if_neg h, if_neg h, zero_mul]

section AtExact10

variable (V : (c : Dev nD) → (b : Ref sig .tc) → Buf (Elt Ideal) ((c : Thread nD τ).loc b))

abbrev ids10 (c : Dev nD) : Cert.Spec.SN1.Idx → BitVec 32 := V c (Pipeline.arrRef spec10 0)

abbrev rows10 (c : Dev nD) : Cert.Spec.SNH.Idx → EReal := V c (Pipeline.arrRef spec10 1)

abbrev idsBlk10 (c : Dev nD) (t : Fin cfg10.N) : S5000x1.Idx → BitVec 32 := iblk10 V c 0 t

abbrev rowsBlk10 (c : Dev nD) (t : Fin cfg10.N) : S5000x128.Idx → EReal := iblk10 V c 1 t

abbrev acc10 (c : Dev nD) (n : ℕ) (h : n < cfg10.N) : S128x128.Idx → EReal := outsAt10 V c n h

theorem index10_0 : ∀ t : Fin cfg10.N, win10_0.index t 0 = t.val ∧ win10_0.index t 1 = 0 :=
  (by decide +kernel : ∀ t : Fin grid10.N, win10_0.index t 0 = t.val ∧ win10_0.index t 1 = 0)
theorem index10_1 : ∀ t : Fin cfg10.N, win10_1.index t 0 = t.val ∧ win10_1.index t 1 = 0 :=
  (by decide +kernel : ∀ t : Fin grid10.N, win10_1.index t 0 = t.val ∧ win10_1.index t 1 = 0)

theorem index10_2 : ∀ t : Fin cfg10.N, win10_2.index t 0 = 0 ∧ win10_2.index t 1 = 0 :=
  (by decide +kernel : ∀ t : Fin grid10.N, win10_2.index t 0 = 0 ∧ win10_2.index t 1 = 0)

theorem idsBlk10_apply (c : Dev nD) (t : Fin cfg10.N) (r : Fin 5000) (h : 5000 * t.val + r.val < 100000) :
    idsBlk10 V c t (ix2 r 0) = ids10 V c (ix2 ⟨5000 * t.val + r.val, h⟩ 0) := by
  have hi := index10_0 t
  show ids10 V c ((win10_0.rect t).emb (ix2 r 0)) = _
  refine congrArg (ids10 V c) (Shape.idx_ext₂ ?_ ?_)
  · rw [Pipeline.Window.rect_emb_val, hi.1]
    show t.val * 5000 + r.val = 5000 * t.val + r.val
    omega
  · rw [Pipeline.Window.rect_emb_val, hi.2]
    rfl

theorem rowsBlk10_apply (c : Dev nD) (t : Fin cfg10.N) (r : Fin 5000) (j : Fin 128) (h : 5000 * t.val + r.val < 100000) :
    rowsBlk10 V c t (ix2 r j) = rows10 V c (ix2 ⟨5000 * t.val + r.val, h⟩ j) := by
  have hi := index10_1 t
  show rows10 V c ((win10_1.rect t).emb (ix2 r j)) = _
  refine congrArg (rows10 V c) (Shape.idx_ext₂ ?_ ?_)
  · rw [Pipeline.Window.rect_emb_val, hi.1]
    show t.val * 5000 + r.val = 5000 * t.val + r.val
    omega
  · rw [Pipeline.Window.rect_emb_val, hi.2]
    show 0 * 128 + j.val = j.val
    omega

def term10 (c : Dev nD) (g j : Fin 128) (n : ℕ) : EReal :=
  if h : n < 100000 then (if ids10 V c (ix2 ⟨n, h⟩ 0) = BitVec.ofNat 32 g.val then rows10 V c (ix2 ⟨n, h⟩ j) else 0) else 0

theorem tile_sum10 (c : Dev nD) (n : ℕ) (hn : n < cfg10.N) (g j : Fin 128) :
    (∑ r : Fin 5000, if idsBlk10 V c ⟨n, hn⟩ (ix2 r 0) = BitVec.ofNat 32 g.val then rowsBlk10 V c ⟨n, hn⟩ (ix2 r j) else 0)
      = ∑ r ∈ Finset.range 5000, term10 V c g j (5000 * n + r) := by
  have hN : n < 20 := lt_of_lt_of_eq hn (show cfg10.N = 20 from N_10)
  rw [← Fin.sum_univ_eq_sum_range (fun r => term10 V c g j (5000 * n + r)) 5000]
  refine Finset.sum_congr rfl fun r _ => ?_
  have h : 5000 * n + r.val < 100000 := by have := r.isLt; omega
  rw [idsBlk10_apply V c ⟨n, hn⟩ r h, rowsBlk10_apply V c ⟨n, hn⟩ r j h]
  unfold term10
  rw [dif_pos h]

theorem acc10_eq (c : Dev nD) : ∀ (n : ℕ) (h : n < cfg10.N) (g j : Fin 128),
    acc10 V c n h (ix2 g j) = ∑ s ∈ Finset.range (5000 * (n + 1)), term10 V c g j s
  | 0, h, g, j => by
    have e1 := outsAt10_A V c ⟨0, h⟩ (Nat.zero_mod 20)
    have e2 := out10_A_val (F := Ideal) c (grid10.coords ⟨0, h⟩) (ms10_0 ⟨0, h⟩) (hs10_0 ⟨0, h⟩) (ms10_1 ⟨0, h⟩) (hs10_1 ⟨0, h⟩)
      (ms10_2 ⟨0, h⟩) (hs10_2 ⟨0, h⟩) ((hcond10_0 ⟨0, h⟩).mpr (Nat.zero_mod 20)) (iblk10 V c 0 ⟨0, h⟩) (iblk10 V c 1 ⟨0, h⟩)
    refine (congrFun (e1.trans e2) (ix2 g j)).trans ?_
    refine (pay2_apply10 (idsBlk10 V c ⟨0, h⟩) (rowsBlk10 V c ⟨0, h⟩) (k10_pay1 (F := Ideal)) g j).trans ?_
    rw [pay1_apply10, zero_add, tile_sum10 V c 0 h g j]
    refine Finset.sum_congr rfl fun r _ => ?_
    rw [Nat.mul_zero, Nat.zero_add]
  | n + 1, h, g, j => by
    have hN : cfg10.N = 20 := N_10
    have hB : ¬(⟨n + 1, h⟩ : Fin cfg10.N).val % 20 = 0 := by dsimp only; omega
    have e1 := outsAt10_B V c ⟨n + 1, h⟩ hB
    have e2 := out10_B_val (F := Ideal) c (grid10.coords ⟨n + 1, h⟩) (ms10_0 ⟨n + 1, h⟩) (hs10_0 ⟨n + 1, h⟩) (ms10_1 ⟨n + 1, h⟩)
      (hs10_1 ⟨n + 1, h⟩) (ms10_2 ⟨n + 1, h⟩) (hs10_2 ⟨n + 1, h⟩) (fun hh => hB ((hcond10_0 ⟨n + 1, h⟩).mp hh))
      (iblk10 V c 0 ⟨n + 1, h⟩) (iblk10 V c 1 ⟨n + 1, h⟩) (outsAt10 V c n (Nat.lt_of_succ_lt h))
    refine (congrFun (e1.trans e2) (ix2 g j)).trans ?_
    refine (pay2_apply10 (idsBlk10 V c ⟨n + 1, h⟩) (rowsBlk10 V c ⟨n + 1, h⟩) (acc10 V c n (Nat.lt_of_succ_lt h)) g j).trans ?_
    rw [acc10_eq c n (Nat.lt_of_succ_lt h) g j, tile_sum10 V c (n + 1) h g j,
      show 5000 * (n + 1 + 1) = 5000 * (n + 1) + 5000 from by omega, Finset.sum_range_add]

theorem pool_sum10 (c : Dev nD) (g j : Fin 128) :
    ∑ s ∈ Finset.range 100000, term10 V c g j s = Cert.Spec.poolF (ids10 V c) (rows10 V c) (ix2 g j) := by
  rw [← Fin.sum_univ_eq_sum_range (fun s => term10 V c g j s) 100000]
  unfold Cert.Spec.poolF
  refine Finset.sum_congr rfl fun n _ => ?_
  unfold term10
  rw [dif_pos n.isLt]

theorem out_final10 (c : Dev nD) (hn : 19 < cfg10.N) (y : S128x128.Idx) :
    acc10 V c 19 hn y = Cert.Spec.poolF (ids10 V c) (rows10 V c) y := by
  obtain ⟨g, j, rfl⟩ : ∃ g j : Fin 128, y = ix2 g j := ⟨y 0, y 1, eq_ix2 y⟩
  exact (acc10_eq V c 19 hn g j).trans (pool_sum10 V c g j)

theorem emb10_2 (t : Fin cfg10.N) (y : S128x128.Idx) : (win10_2.rect t).emb y = y := by
  have hi := index10_2 t
  exact Shape.idx_ext₂ (Pipeline.Window.rect_emb_val_of_index_zero win10_2 t 0 hi.1 y)
    (Pipeline.Window.rect_emb_val_of_index_zero win10_2 t 1 hi.2 y)

theorem flushed_of10 (c : Dev nD) (t : Fin cfg10.N) (G : S128x128.Idx → EReal)
    (hG : ∀ y : S128x128.Idx, acc10 V c t.val t.isLt y = G y) :
    (dat10 V c).flushed 2 t = ((cfg10.win 2).blk t).view.read (Elt Ideal) G := by
  have key : acc10 V c t.val t.isLt = fun y : S128x128.Idx => G ((win10_2.rect t).emb y) :=
    funext fun y => (hG y).trans (congrArg G (emb10_2 t y).symm)
  show (cfg10.win 2).cut (grid10.coords t) ((dat10 V c).after 2 t) = _
  rw [after10_2 V c t]
  exact key

theorem flushed10 (c : Dev nD) (t : Fin cfg10.N) (hf : (cfg10.win 2).flush t = true) :
    (dat10 V c).flushed 2 t = ((cfg10.win 2).blk t).view.read (Elt Ideal) (Cert.Spec.poolF (ids10 V c) (rows10 V c)) := by
  have hN : cfg10.N = 20 := N_10
  have h19 : t.val = 19 := by have := (flush10_2 t).mp hf; have := t.isLt; omega
  have hlast : ∀ (n : ℕ) (hn : n < cfg10.N), n = 19 → ∀ y : S128x128.Idx,
      acc10 V c n hn y = Cert.Spec.poolF (ids10 V c) (rows10 V c) y := by
    intro n hn e y
    subst e
    exact out_final10 V c hn y
  exact flushed_of10 V c t (Cert.Spec.poolF (ids10 V c) (rows10 V c)) (hlast t.val t.isLt h19)

theorem cover10 (t : Fin cfg10.N) (i : S128x128.Idx) : i ∈ ((cfg10.win 2).blk t).view.set := by
  have hi := index10_2 t
  show i ∈ ((View.whole (Pipeline.arrRef spec10 2)).slice (win10_2.rect t)).set
  rw [View.set_slice_whole, Rect.mem_set_unit]
  intro a
  match a with
  | ⟨0, _⟩ =>
    show win10_2.index t 0 * 128 ≤ (i 0).val ∧ (i 0).val < win10_2.index t 0 * 128 + 128
    rw [hi.1]
    have := idx2_lt0 i
    omega
  | ⟨1, _⟩ =>
    show win10_2.index t 1 * 128 ≤ (i 1).val ∧ (i 1).val < win10_2.index t 1 * 128 + 128
    rw [hi.2]
    have := idx2_lt1 i
    omega

end AtExact10

theorem arrAt_out10 (V : (c : Dev nD) → (b : Ref sig .tc) → Buf (Elt Ideal) ((c : Thread nD τ).loc b)) (c : Dev nD) :
    (Rg.dat10 (F := Ideal) V c).arrAt 2 cfg10.N = Cert.Spec.poolF (V c (Pipeline.arrRef spec10 0)) (V c (Pipeline.arrRef spec10 1)) :=
  (dat10 V c).arrAt_eq_of_cover 2 (Cert.Spec.poolF (ids10 V c) (rows10 V c)) (flushed10 V c) fun i =>
    ⟨⟨19, by rw [show cfg10.N = 20 from N_10]; omega⟩, (flush10_2 _).mpr rfl, cover10 _ i⟩

end Cert.KernelIdeal.Val

end
-- ==== Proof.KI.Val11.lean ====
import proofs.«409448_j71794673320215_1_alg».proof.Proof.KI.R11
import proofs.«409448_j71794673320215_1_alg».proof.Proof.Spec.Stages
import Idealize.ShloMosaic.Lib.Pipeline.Value
import Idealize.ShloMosaic.PureOps.Ideal.Laws
import Idealize.ShloMosaic.Lib.ValueIdx
import Idealize.ShloMosaic.Lib.Tactic
import Mathlib.Data.Fintype.BigOperators
import Mathlib.Algebra.BigOperators.Group.Finset.Basic
import proofs.«409448_j71794673320215_1_alg».proof.Proof.KI.Val10

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.Tactic Idealize.SL.Sem
open Idealize.ShloMosaic.Pipeline (Dat)
open Idealize.ShloMosaic.ValueIdx

section AnyInstance11

variable {F : FTy → Type} [FloatOps F]

end AnyInstance11

section AtExact11

variable (V : (c : Dev nD) → (b : Ref sig .tc) → Buf (Elt Ideal) ((c : Thread nD τ).loc b))

abbrev ids11 (c : Dev nD) : Cert.Spec.SN1.Idx → BitVec 32 := V c (Pipeline.arrRef spec11 0)

abbrev rows11 (c : Dev nD) : Cert.Spec.SNH.Idx → EReal := V c (Pipeline.arrRef spec11 1)

abbrev idsBlk11 (c : Dev nD) (t : Fin cfg11.N) : S5000x1.Idx → BitVec 32 := iblk11 V c 0 t

abbrev rowsBlk11 (c : Dev nD) (t : Fin cfg11.N) : S5000x128.Idx → EReal := iblk11 V c 1 t

abbrev acc11 (c : Dev nD) (n : ℕ) (h : n < cfg11.N) : S128x128.Idx → EReal := outsAt11 V c n h

theorem index11_0 : ∀ t : Fin cfg11.N, win11_0.index t 0 = t.val ∧ win11_0.index t 1 = 0 :=
  (by decide +kernel : ∀ t : Fin grid11.N, win11_0.index t 0 = t.val ∧ win11_0.index t 1 = 0)
theorem index11_1 : ∀ t : Fin cfg11.N, win11_1.index t 0 = t.val ∧ win11_1.index t 1 = 0 :=
  (by decide +kernel : ∀ t : Fin grid11.N, win11_1.index t 0 = t.val ∧ win11_1.index t 1 = 0)

theorem index11_2 : ∀ t : Fin cfg11.N, win11_2.index t 0 = 0 ∧ win11_2.index t 1 = 0 :=
  (by decide +kernel : ∀ t : Fin grid11.N, win11_2.index t 0 = 0 ∧ win11_2.index t 1 = 0)

theorem idsBlk11_apply (c : Dev nD) (t : Fin cfg11.N) (r : Fin 5000) (h : 5000 * t.val + r.val < 100000) :
    idsBlk11 V c t (ix2 r 0) = ids11 V c (ix2 ⟨5000 * t.val + r.val, h⟩ 0) := by
  have hi := index11_0 t
  show ids11 V c ((win11_0.rect t).emb (ix2 r 0)) = _
  refine congrArg (ids11 V c) (Shape.idx_ext₂ ?_ ?_)
  · rw [Pipeline.Window.rect_emb_val, hi.1]
    show t.val * 5000 + r.val = 5000 * t.val + r.val
    omega
  · rw [Pipeline.Window.rect_emb_val, hi.2]
    rfl

theorem rowsBlk11_apply (c : Dev nD) (t : Fin cfg11.N) (r : Fin 5000) (j : Fin 128) (h : 5000 * t.val + r.val < 100000) :
    rowsBlk11 V c t (ix2 r j) = rows11 V c (ix2 ⟨5000 * t.val + r.val, h⟩ j) := by
  have hi := index11_1 t
  show rows11 V c ((win11_1.rect t).emb (ix2 r j)) = _
  refine congrArg (rows11 V c) (Shape.idx_ext₂ ?_ ?_)
  · rw [Pipeline.Window.rect_emb_val, hi.1]
    show t.val * 5000 + r.val = 5000 * t.val + r.val
    omega
  · rw [Pipeline.Window.rect_emb_val, hi.2]
    show 0 * 128 + j.val = j.val
    omega

def term11 (c : Dev nD) (g j : Fin 128) (n : ℕ) : EReal :=
  if h : n < 100000 then (if ids11 V c (ix2 ⟨n, h⟩ 0) = BitVec.ofNat 32 g.val then rows11 V c (ix2 ⟨n, h⟩ j) else 0) else 0

theorem tile_sum11 (c : Dev nD) (n : ℕ) (hn : n < cfg11.N) (g j : Fin 128) :
    (∑ r : Fin 5000, if idsBlk11 V c ⟨n, hn⟩ (ix2 r 0) = BitVec.ofNat 32 g.val then rowsBlk11 V c ⟨n, hn⟩ (ix2 r j) else 0)
      = ∑ r ∈ Finset.range 5000, term11 V c g j (5000 * n + r) := by
  have hN : n < 20 := lt_of_lt_of_eq hn (show cfg11.N = 20 from N_11)
  rw [← Fin.sum_univ_eq_sum_range (fun r => term11 V c g j (5000 * n + r)) 5000]
  refine Finset.sum_congr rfl fun r _ => ?_
  have h : 5000 * n + r.val < 100000 := by have := r.isLt; omega
  rw [idsBlk11_apply V c ⟨n, hn⟩ r h, rowsBlk11_apply V c ⟨n, hn⟩ r j h]
  unfold term11
  rw [dif_pos h]

theorem acc11_eq (c : Dev nD) : ∀ (n : ℕ) (h : n < cfg11.N) (g j : Fin 128),
    acc11 V c n h (ix2 g j) = ∑ s ∈ Finset.range (5000 * (n + 1)), term11 V c g j s
  | 0, h, g, j => by
    have e1 := outsAt11_A V c ⟨0, h⟩ (Nat.zero_mod 20)
    have e2 := out10_A_val (F := Ideal) c (grid11.coords ⟨0, h⟩) (ms11_0 ⟨0, h⟩) (hs11_0 ⟨0, h⟩) (ms11_1 ⟨0, h⟩) (hs11_1 ⟨0, h⟩)
      (ms11_2 ⟨0, h⟩) (hs11_2 ⟨0, h⟩) ((hcond10_0 ⟨0, h⟩).mpr (Nat.zero_mod 20)) (iblk11 V c 0 ⟨0, h⟩) (iblk11 V c 1 ⟨0, h⟩)
    refine (congrFun (e1.trans e2) (ix2 g j)).trans ?_
    refine (pay2_apply10 (idsBlk11 V c ⟨0, h⟩) (rowsBlk11 V c ⟨0, h⟩) (k10_pay1 (F := Ideal)) g j).trans ?_
    rw [pay1_apply10, zero_add, tile_sum11 V c 0 h g j]
    refine Finset.sum_congr rfl fun r _ => ?_
    rw [Nat.mul_zero, Nat.zero_add]
  | n + 1, h, g, j => by
    have hN : cfg11.N = 20 := N_11
    have hB : ¬(⟨n + 1, h⟩ : Fin cfg11.N).val % 20 = 0 := by dsimp only; omega
    have e1 := outsAt11_B V c ⟨n + 1, h⟩ hB
    have e2 := out10_B_val (F := Ideal) c (grid11.coords ⟨n + 1, h⟩) (ms11_0 ⟨n + 1, h⟩) (hs11_0 ⟨n + 1, h⟩) (ms11_1 ⟨n + 1, h⟩)
      (hs11_1 ⟨n + 1, h⟩) (ms11_2 ⟨n + 1, h⟩) (hs11_2 ⟨n + 1, h⟩) (fun hh => hB ((hcond10_0 ⟨n + 1, h⟩).mp hh))
      (iblk11 V c 0 ⟨n + 1, h⟩) (iblk11 V c 1 ⟨n + 1, h⟩) (outsAt11 V c n (Nat.lt_of_succ_lt h))
    refine (congrFun (e1.trans e2) (ix2 g j)).trans ?_
    refine (pay2_apply10 (idsBlk11 V c ⟨n + 1, h⟩) (rowsBlk11 V c ⟨n + 1, h⟩) (acc11 V c n (Nat.lt_of_succ_lt h)) g j).trans ?_
    rw [acc11_eq c n (Nat.lt_of_succ_lt h) g j, tile_sum11 V c (n + 1) h g j,
      show 5000 * (n + 1 + 1) = 5000 * (n + 1) + 5000 from by omega, Finset.sum_range_add]

theorem pool_sum11 (c : Dev nD) (g j : Fin 128) :
    ∑ s ∈ Finset.range 100000, term11 V c g j s = Cert.Spec.poolF (ids11 V c) (rows11 V c) (ix2 g j) := by
  rw [← Fin.sum_univ_eq_sum_range (fun s => term11 V c g j s) 100000]
  unfold Cert.Spec.poolF
  refine Finset.sum_congr rfl fun n _ => ?_
  unfold term11
  rw [dif_pos n.isLt]

theorem out_final11 (c : Dev nD) (hn : 19 < cfg11.N) (y : S128x128.Idx) :
    acc11 V c 19 hn y = Cert.Spec.poolF (ids11 V c) (rows11 V c) y := by
  obtain ⟨g, j, rfl⟩ : ∃ g j : Fin 128, y = ix2 g j := ⟨y 0, y 1, eq_ix2 y⟩
  exact (acc11_eq V c 19 hn g j).trans (pool_sum11 V c g j)

theorem emb11_2 (t : Fin cfg11.N) (y : S128x128.Idx) : (win11_2.rect t).emb y = y := by
  have hi := index11_2 t
  exact Shape.idx_ext₂ (Pipeline.Window.rect_emb_val_of_index_zero win11_2 t 0 hi.1 y)
    (Pipeline.Window.rect_emb_val_of_index_zero win11_2 t 1 hi.2 y)

theorem flushed_of11 (c : Dev nD) (t : Fin cfg11.N) (G : S128x128.Idx → EReal)
    (hG : ∀ y : S128x128.Idx, acc11 V c t.val t.isLt y = G y) :
    (dat11 V c).flushed 2 t = ((cfg11.win 2).blk t).view.read (Elt Ideal) G := by
  have key : acc11 V c t.val t.isLt = fun y : S128x128.Idx => G ((win11_2.rect t).emb y) :=
    funext fun y => (hG y).trans (congrArg G (emb11_2 t y).symm)
  show (cfg11.win 2).cut (grid11.coords t) ((dat11 V c).after 2 t) = _
  rw [after11_2 V c t]
  exact key

theorem flushed11 (c : Dev nD) (t : Fin cfg11.N) (hf : (cfg11.win 2).flush t = true) :
    (dat11 V c).flushed 2 t = ((cfg11.win 2).blk t).view.read (Elt Ideal) (Cert.Spec.poolF (ids11 V c) (rows11 V c)) := by
  have hN : cfg11.N = 20 := N_11
  have h19 : t.val = 19 := by have := (flush11_2 t).mp hf; have := t.isLt; omega
  have hlast : ∀ (n : ℕ) (hn : n < cfg11.N), n = 19 → ∀ y : S128x128.Idx,
      acc11 V c n hn y = Cert.Spec.poolF (ids11 V c) (rows11 V c) y := by
    intro n hn e y
    subst e
    exact out_final11 V c hn y
  exact flushed_of11 V c t (Cert.Spec.poolF (ids11 V c) (rows11 V c)) (hlast t.val t.isLt h19)

theorem cover11 (t : Fin cfg11.N) (i : S128x128.Idx) : i ∈ ((cfg11.win 2).blk t).view.set := by
  have hi := index11_2 t
  show i ∈ ((View.whole (Pipeline.arrRef spec11 2)).slice (win11_2.rect t)).set
  rw [View.set_slice_whole, Rect.mem_set_unit]
  intro a
  match a with
  | ⟨0, _⟩ =>
    show win11_2.index t 0 * 128 ≤ (i 0).val ∧ (i 0).val < win11_2.index t 0 * 128 + 128
    rw [hi.1]
    have := idx2_lt0 i
    omega
  | ⟨1, _⟩ =>
    show win11_2.index t 1 * 128 ≤ (i 1).val ∧ (i 1).val < win11_2.index t 1 * 128 + 128
    rw [hi.2]
    have := idx2_lt1 i
    omega

end AtExact11

theorem arrAt_out11 (V : (c : Dev nD) → (b : Ref sig .tc) → Buf (Elt Ideal) ((c : Thread nD τ).loc b)) (c : Dev nD) :
    (Rg.dat11 (F := Ideal) V c).arrAt 2 cfg11.N = Cert.Spec.poolF (V c (Pipeline.arrRef spec11 0)) (V c (Pipeline.arrRef spec11 1)) :=
  (dat11 V c).arrAt_eq_of_cover 2 (Cert.Spec.poolF (ids11 V c) (rows11 V c)) (flushed11 V c) fun i =>
    ⟨⟨19, by rw [show cfg11.N = 20 from N_11]; omega⟩, (flush11_2 _).mpr rfl, cover11 _ i⟩

end Cert.KernelIdeal.Val

end
-- ==== Proof.KI.Val12.lean ====
import proofs.«409448_j71794673320215_1_alg».proof.Proof.KI.R12
import proofs.«409448_j71794673320215_1_alg».proof.Proof.Spec.Stages
import Idealize.ShloMosaic.Lib.Pipeline.Value
import Idealize.ShloMosaic.PureOps.Ideal.Laws
import Idealize.ShloMosaic.Lib.ValueIdx
import Idealize.ShloMosaic.Lib.Tactic
import Mathlib.Data.Fintype.BigOperators
import Mathlib.Algebra.BigOperators.Group.Finset.Basic
import proofs.«409448_j71794673320215_1_alg».proof.Proof.KI.Val10

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.Tactic Idealize.SL.Sem
open Idealize.ShloMosaic.Pipeline (Dat)
open Idealize.ShloMosaic.ValueIdx

section AnyInstance12

variable {F : FTy → Type} [FloatOps F]

end AnyInstance12

section AtExact12

variable (V : (c : Dev nD) → (b : Ref sig .tc) → Buf (Elt Ideal) ((c : Thread nD τ).loc b))

abbrev ids12 (c : Dev nD) : Cert.Spec.SN1.Idx → BitVec 32 := V c (Pipeline.arrRef spec12 0)

abbrev rows12 (c : Dev nD) : Cert.Spec.SNH.Idx → EReal := V c (Pipeline.arrRef spec12 1)

abbrev idsBlk12 (c : Dev nD) (t : Fin cfg12.N) : S5000x1.Idx → BitVec 32 := iblk12 V c 0 t

abbrev rowsBlk12 (c : Dev nD) (t : Fin cfg12.N) : S5000x128.Idx → EReal := iblk12 V c 1 t

abbrev acc12 (c : Dev nD) (n : ℕ) (h : n < cfg12.N) : S128x128.Idx → EReal := outsAt12 V c n h

theorem index12_0 : ∀ t : Fin cfg12.N, win12_0.index t 0 = t.val ∧ win12_0.index t 1 = 0 :=
  (by decide +kernel : ∀ t : Fin grid12.N, win12_0.index t 0 = t.val ∧ win12_0.index t 1 = 0)
theorem index12_1 : ∀ t : Fin cfg12.N, win12_1.index t 0 = t.val ∧ win12_1.index t 1 = 0 :=
  (by decide +kernel : ∀ t : Fin grid12.N, win12_1.index t 0 = t.val ∧ win12_1.index t 1 = 0)

theorem index12_2 : ∀ t : Fin cfg12.N, win12_2.index t 0 = 0 ∧ win12_2.index t 1 = 0 :=
  (by decide +kernel : ∀ t : Fin grid12.N, win12_2.index t 0 = 0 ∧ win12_2.index t 1 = 0)

theorem idsBlk12_apply (c : Dev nD) (t : Fin cfg12.N) (r : Fin 5000) (h : 5000 * t.val + r.val < 100000) :
    idsBlk12 V c t (ix2 r 0) = ids12 V c (ix2 ⟨5000 * t.val + r.val, h⟩ 0) := by
  have hi := index12_0 t
  show ids12 V c ((win12_0.rect t).emb (ix2 r 0)) = _
  refine congrArg (ids12 V c) (Shape.idx_ext₂ ?_ ?_)
  · rw [Pipeline.Window.rect_emb_val, hi.1]
    show t.val * 5000 + r.val = 5000 * t.val + r.val
    omega
  · rw [Pipeline.Window.rect_emb_val, hi.2]
    rfl

theorem rowsBlk12_apply (c : Dev nD) (t : Fin cfg12.N) (r : Fin 5000) (j : Fin 128) (h : 5000 * t.val + r.val < 100000) :
    rowsBlk12 V c t (ix2 r j) = rows12 V c (ix2 ⟨5000 * t.val + r.val, h⟩ j) := by
  have hi := index12_1 t
  show rows12 V c ((win12_1.rect t).emb (ix2 r j)) = _
  refine congrArg (rows12 V c) (Shape.idx_ext₂ ?_ ?_)
  · rw [Pipeline.Window.rect_emb_val, hi.1]
    show t.val * 5000 + r.val = 5000 * t.val + r.val
    omega
  · rw [Pipeline.Window.rect_emb_val, hi.2]
    show 0 * 128 + j.val = j.val
    omega

def term12 (c : Dev nD) (g j : Fin 128) (n : ℕ) : EReal :=
  if h : n < 100000 then (if ids12 V c (ix2 ⟨n, h⟩ 0) = BitVec.ofNat 32 g.val then rows12 V c (ix2 ⟨n, h⟩ j) else 0) else 0

theorem tile_sum12 (c : Dev nD) (n : ℕ) (hn : n < cfg12.N) (g j : Fin 128) :
    (∑ r : Fin 5000, if idsBlk12 V c ⟨n, hn⟩ (ix2 r 0) = BitVec.ofNat 32 g.val then rowsBlk12 V c ⟨n, hn⟩ (ix2 r j) else 0)
      = ∑ r ∈ Finset.range 5000, term12 V c g j (5000 * n + r) := by
  have hN : n < 20 := lt_of_lt_of_eq hn (show cfg12.N = 20 from N_12)
  rw [← Fin.sum_univ_eq_sum_range (fun r => term12 V c g j (5000 * n + r)) 5000]
  refine Finset.sum_congr rfl fun r _ => ?_
  have h : 5000 * n + r.val < 100000 := by have := r.isLt; omega
  rw [idsBlk12_apply V c ⟨n, hn⟩ r h, rowsBlk12_apply V c ⟨n, hn⟩ r j h]
  unfold term12
  rw [dif_pos h]

theorem acc12_eq (c : Dev nD) : ∀ (n : ℕ) (h : n < cfg12.N) (g j : Fin 128),
    acc12 V c n h (ix2 g j) = ∑ s ∈ Finset.range (5000 * (n + 1)), term12 V c g j s
  | 0, h, g, j => by
    have e1 := outsAt12_A V c ⟨0, h⟩ (Nat.zero_mod 20)
    have e2 := out10_A_val (F := Ideal) c (grid12.coords ⟨0, h⟩) (ms12_0 ⟨0, h⟩) (hs12_0 ⟨0, h⟩) (ms12_1 ⟨0, h⟩) (hs12_1 ⟨0, h⟩)
      (ms12_2 ⟨0, h⟩) (hs12_2 ⟨0, h⟩) ((hcond10_0 ⟨0, h⟩).mpr (Nat.zero_mod 20)) (iblk12 V c 0 ⟨0, h⟩) (iblk12 V c 1 ⟨0, h⟩)
    refine (congrFun (e1.trans e2) (ix2 g j)).trans ?_
    refine (pay2_apply10 (idsBlk12 V c ⟨0, h⟩) (rowsBlk12 V c ⟨0, h⟩) (k10_pay1 (F := Ideal)) g j).trans ?_
    rw [pay1_apply10, zero_add, tile_sum12 V c 0 h g j]
    refine Finset.sum_congr rfl fun r _ => ?_
    rw [Nat.mul_zero, Nat.zero_add]
  | n + 1, h, g, j => by
    have hN : cfg12.N = 20 := N_12
    have hB : ¬(⟨n + 1, h⟩ : Fin cfg12.N).val % 20 = 0 := by dsimp only; omega
    have e1 := outsAt12_B V c ⟨n + 1, h⟩ hB
    have e2 := out10_B_val (F := Ideal) c (grid12.coords ⟨n + 1, h⟩) (ms12_0 ⟨n + 1, h⟩) (hs12_0 ⟨n + 1, h⟩) (ms12_1 ⟨n + 1, h⟩)
      (hs12_1 ⟨n + 1, h⟩) (ms12_2 ⟨n + 1, h⟩) (hs12_2 ⟨n + 1, h⟩) (fun hh => hB ((hcond10_0 ⟨n + 1, h⟩).mp hh))
      (iblk12 V c 0 ⟨n + 1, h⟩) (iblk12 V c 1 ⟨n + 1, h⟩) (outsAt12 V c n (Nat.lt_of_succ_lt h))
    refine (congrFun (e1.trans e2) (ix2 g j)).trans ?_
    refine (pay2_apply10 (idsBlk12 V c ⟨n + 1, h⟩) (rowsBlk12 V c ⟨n + 1, h⟩) (acc12 V c n (Nat.lt_of_succ_lt h)) g j).trans ?_
    rw [acc12_eq c n (Nat.lt_of_succ_lt h) g j, tile_sum12 V c (n + 1) h g j,
      show 5000 * (n + 1 + 1) = 5000 * (n + 1) + 5000 from by omega, Finset.sum_range_add]

theorem pool_sum12 (c : Dev nD) (g j : Fin 128) :
    ∑ s ∈ Finset.range 100000, term12 V c g j s = Cert.Spec.poolF (ids12 V c) (rows12 V c) (ix2 g j) := by
  rw [← Fin.sum_univ_eq_sum_range (fun s => term12 V c g j s) 100000]
  unfold Cert.Spec.poolF
  refine Finset.sum_congr rfl fun n _ => ?_
  unfold term12
  rw [dif_pos n.isLt]

theorem out_final12 (c : Dev nD) (hn : 19 < cfg12.N) (y : S128x128.Idx) :
    acc12 V c 19 hn y = Cert.Spec.poolF (ids12 V c) (rows12 V c) y := by
  obtain ⟨g, j, rfl⟩ : ∃ g j : Fin 128, y = ix2 g j := ⟨y 0, y 1, eq_ix2 y⟩
  exact (acc12_eq V c 19 hn g j).trans (pool_sum12 V c g j)

theorem emb12_2 (t : Fin cfg12.N) (y : S128x128.Idx) : (win12_2.rect t).emb y = y := by
  have hi := index12_2 t
  exact Shape.idx_ext₂ (Pipeline.Window.rect_emb_val_of_index_zero win12_2 t 0 hi.1 y)
    (Pipeline.Window.rect_emb_val_of_index_zero win12_2 t 1 hi.2 y)

theorem flushed_of12 (c : Dev nD) (t : Fin cfg12.N) (G : S128x128.Idx → EReal)
    (hG : ∀ y : S128x128.Idx, acc12 V c t.val t.isLt y = G y) :
    (dat12 V c).flushed 2 t = ((cfg12.win 2).blk t).view.read (Elt Ideal) G := by
  have key : acc12 V c t.val t.isLt = fun y : S128x128.Idx => G ((win12_2.rect t).emb y) :=
    funext fun y => (hG y).trans (congrArg G (emb12_2 t y).symm)
  show (cfg12.win 2).cut (grid12.coords t) ((dat12 V c).after 2 t) = _
  rw [after12_2 V c t]
  exact key

theorem flushed12 (c : Dev nD) (t : Fin cfg12.N) (hf : (cfg12.win 2).flush t = true) :
    (dat12 V c).flushed 2 t = ((cfg12.win 2).blk t).view.read (Elt Ideal) (Cert.Spec.poolF (ids12 V c) (rows12 V c)) := by
  have hN : cfg12.N = 20 := N_12
  have h19 : t.val = 19 := by have := (flush12_2 t).mp hf; have := t.isLt; omega
  have hlast : ∀ (n : ℕ) (hn : n < cfg12.N), n = 19 → ∀ y : S128x128.Idx,
      acc12 V c n hn y = Cert.Spec.poolF (ids12 V c) (rows12 V c) y := by
    intro n hn e y
    subst e
    exact out_final12 V c hn y
  exact flushed_of12 V c t (Cert.Spec.poolF (ids12 V c) (rows12 V c)) (hlast t.val t.isLt h19)

theorem cover12 (t : Fin cfg12.N) (i : S128x128.Idx) : i ∈ ((cfg12.win 2).blk t).view.set := by
  have hi := index12_2 t
  show i ∈ ((View.whole (Pipeline.arrRef spec12 2)).slice (win12_2.rect t)).set
  rw [View.set_slice_whole, Rect.mem_set_unit]
  intro a
  match a with
  | ⟨0, _⟩ =>
    show win12_2.index t 0 * 128 ≤ (i 0).val ∧ (i 0).val < win12_2.index t 0 * 128 + 128
    rw [hi.1]
    have := idx2_lt0 i
    omega
  | ⟨1, _⟩ =>
    show win12_2.index t 1 * 128 ≤ (i 1).val ∧ (i 1).val < win12_2.index t 1 * 128 + 128
    rw [hi.2]
    have := idx2_lt1 i
    omega

end AtExact12

theorem arrAt_out12 (V : (c : Dev nD) → (b : Ref sig .tc) → Buf (Elt Ideal) ((c : Thread nD τ).loc b)) (c : Dev nD) :
    (Rg.dat12 (F := Ideal) V c).arrAt 2 cfg12.N = Cert.Spec.poolF (V c (Pipeline.arrRef spec12 0)) (V c (Pipeline.arrRef spec12 1)) :=
  (dat12 V c).arrAt_eq_of_cover 2 (Cert.Spec.poolF (ids12 V c) (rows12 V c)) (flushed12 V c) fun i =>
    ⟨⟨19, by rw [show cfg12.N = 20 from N_12]; omega⟩, (flush12_2 _).mpr rfl, cover12 _ i⟩

end Cert.KernelIdeal.Val

end
-- ==== Proof.KI.Val13.lean ====
import proofs.«409448_j71794673320215_1_alg».proof.Proof.KI.R13
import proofs.«409448_j71794673320215_1_alg».proof.Proof.Spec.Stages
import Idealize.ShloMosaic.Lib.Pipeline.Value
import Idealize.ShloMosaic.PureOps.Ideal.Laws
import Idealize.ShloMosaic.Lib.ValueIdx
import Idealize.ShloMosaic.Lib.Tactic
import Mathlib.Data.Fintype.BigOperators
import Mathlib.Algebra.BigOperators.Group.Finset.Basic
import proofs.«409448_j71794673320215_1_alg».proof.Proof.KI.Val10

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.Tactic Idealize.SL.Sem
open Idealize.ShloMosaic.Pipeline (Dat)
open Idealize.ShloMosaic.ValueIdx

section AnyInstance13

variable {F : FTy → Type} [FloatOps F]

end AnyInstance13

section AtExact13

variable (V : (c : Dev nD) → (b : Ref sig .tc) → Buf (Elt Ideal) ((c : Thread nD τ).loc b))

abbrev ids13 (c : Dev nD) : Cert.Spec.SN1.Idx → BitVec 32 := V c (Pipeline.arrRef spec13 0)

abbrev rows13 (c : Dev nD) : Cert.Spec.SNH.Idx → EReal := V c (Pipeline.arrRef spec13 1)

abbrev idsBlk13 (c : Dev nD) (t : Fin cfg13.N) : S5000x1.Idx → BitVec 32 := iblk13 V c 0 t

abbrev rowsBlk13 (c : Dev nD) (t : Fin cfg13.N) : S5000x128.Idx → EReal := iblk13 V c 1 t

abbrev acc13 (c : Dev nD) (n : ℕ) (h : n < cfg13.N) : S128x128.Idx → EReal := outsAt13 V c n h

theorem index13_0 : ∀ t : Fin cfg13.N, win13_0.index t 0 = t.val ∧ win13_0.index t 1 = 0 :=
  (by decide +kernel : ∀ t : Fin grid13.N, win13_0.index t 0 = t.val ∧ win13_0.index t 1 = 0)
theorem index13_1 : ∀ t : Fin cfg13.N, win13_1.index t 0 = t.val ∧ win13_1.index t 1 = 0 :=
  (by decide +kernel : ∀ t : Fin grid13.N, win13_1.index t 0 = t.val ∧ win13_1.index t 1 = 0)

theorem index13_2 : ∀ t : Fin cfg13.N, win13_2.index t 0 = 0 ∧ win13_2.index t 1 = 0 :=
  (by decide +kernel : ∀ t : Fin grid13.N, win13_2.index t 0 = 0 ∧ win13_2.index t 1 = 0)

theorem idsBlk13_apply (c : Dev nD) (t : Fin cfg13.N) (r : Fin 5000) (h : 5000 * t.val + r.val < 100000) :
    idsBlk13 V c t (ix2 r 0) = ids13 V c (ix2 ⟨5000 * t.val + r.val, h⟩ 0) := by
  have hi := index13_0 t
  show ids13 V c ((win13_0.rect t).emb (ix2 r 0)) = _
  refine congrArg (ids13 V c) (Shape.idx_ext₂ ?_ ?_)
  · rw [Pipeline.Window.rect_emb_val, hi.1]
    show t.val * 5000 + r.val = 5000 * t.val + r.val
    omega
  · rw [Pipeline.Window.rect_emb_val, hi.2]
    rfl

theorem rowsBlk13_apply (c : Dev nD) (t : Fin cfg13.N) (r : Fin 5000) (j : Fin 128) (h : 5000 * t.val + r.val < 100000) :
    rowsBlk13 V c t (ix2 r j) = rows13 V c (ix2 ⟨5000 * t.val + r.val, h⟩ j) := by
  have hi := index13_1 t
  show rows13 V c ((win13_1.rect t).emb (ix2 r j)) = _
  refine congrArg (rows13 V c) (Shape.idx_ext₂ ?_ ?_)
  · rw [Pipeline.Window.rect_emb_val, hi.1]
    show t.val * 5000 + r.val = 5000 * t.val + r.val
    omega
  · rw [Pipeline.Window.rect_emb_val, hi.2]
    show 0 * 128 + j.val = j.val
    omega

def term13 (c : Dev nD) (g j : Fin 128) (n : ℕ) : EReal :=
  if h : n < 100000 then (if ids13 V c (ix2 ⟨n, h⟩ 0) = BitVec.ofNat 32 g.val then rows13 V c (ix2 ⟨n, h⟩ j) else 0) else 0

theorem tile_sum13 (c : Dev nD) (n : ℕ) (hn : n < cfg13.N) (g j : Fin 128) :
    (∑ r : Fin 5000, if idsBlk13 V c ⟨n, hn⟩ (ix2 r 0) = BitVec.ofNat 32 g.val then rowsBlk13 V c ⟨n, hn⟩ (ix2 r j) else 0)
      = ∑ r ∈ Finset.range 5000, term13 V c g j (5000 * n + r) := by
  have hN : n < 20 := lt_of_lt_of_eq hn (show cfg13.N = 20 from N_13)
  rw [← Fin.sum_univ_eq_sum_range (fun r => term13 V c g j (5000 * n + r)) 5000]
  refine Finset.sum_congr rfl fun r _ => ?_
  have h : 5000 * n + r.val < 100000 := by have := r.isLt; omega
  rw [idsBlk13_apply V c ⟨n, hn⟩ r h, rowsBlk13_apply V c ⟨n, hn⟩ r j h]
  unfold term13
  rw [dif_pos h]

theorem acc13_eq (c : Dev nD) : ∀ (n : ℕ) (h : n < cfg13.N) (g j : Fin 128),
    acc13 V c n h (ix2 g j) = ∑ s ∈ Finset.range (5000 * (n + 1)), term13 V c g j s
  | 0, h, g, j => by
    have e1 := outsAt13_A V c ⟨0, h⟩ (Nat.zero_mod 20)
    have e2 := out10_A_val (F := Ideal) c (grid13.coords ⟨0, h⟩) (ms13_0 ⟨0, h⟩) (hs13_0 ⟨0, h⟩) (ms13_1 ⟨0, h⟩) (hs13_1 ⟨0, h⟩)
      (ms13_2 ⟨0, h⟩) (hs13_2 ⟨0, h⟩) ((hcond10_0 ⟨0, h⟩).mpr (Nat.zero_mod 20)) (iblk13 V c 0 ⟨0, h⟩) (iblk13 V c 1 ⟨0, h⟩)
    refine (congrFun (e1.trans e2) (ix2 g j)).trans ?_
    refine (pay2_apply10 (idsBlk13 V c ⟨0, h⟩) (rowsBlk13 V c ⟨0, h⟩) (k10_pay1 (F := Ideal)) g j).trans ?_
    rw [pay1_apply10, zero_add, tile_sum13 V c 0 h g j]
    refine Finset.sum_congr rfl fun r _ => ?_
    rw [Nat.mul_zero, Nat.zero_add]
  | n + 1, h, g, j => by
    have hN : cfg13.N = 20 := N_13
    have hB : ¬(⟨n + 1, h⟩ : Fin cfg13.N).val % 20 = 0 := by dsimp only; omega
    have e1 := outsAt13_B V c ⟨n + 1, h⟩ hB
    have e2 := out10_B_val (F := Ideal) c (grid13.coords ⟨n + 1, h⟩) (ms13_0 ⟨n + 1, h⟩) (hs13_0 ⟨n + 1, h⟩) (ms13_1 ⟨n + 1, h⟩)
      (hs13_1 ⟨n + 1, h⟩) (ms13_2 ⟨n + 1, h⟩) (hs13_2 ⟨n + 1, h⟩) (fun hh => hB ((hcond10_0 ⟨n + 1, h⟩).mp hh))
      (iblk13 V c 0 ⟨n + 1, h⟩) (iblk13 V c 1 ⟨n + 1, h⟩) (outsAt13 V c n (Nat.lt_of_succ_lt h))
    refine (congrFun (e1.trans e2) (ix2 g j)).trans ?_
    refine (pay2_apply10 (idsBlk13 V c ⟨n + 1, h⟩) (rowsBlk13 V c ⟨n + 1, h⟩) (acc13 V c n (Nat.lt_of_succ_lt h)) g j).trans ?_
    rw [acc13_eq c n (Nat.lt_of_succ_lt h) g j, tile_sum13 V c (n + 1) h g j,
      show 5000 * (n + 1 + 1) = 5000 * (n + 1) + 5000 from by omega, Finset.sum_range_add]

theorem pool_sum13 (c : Dev nD) (g j : Fin 128) :
    ∑ s ∈ Finset.range 100000, term13 V c g j s = Cert.Spec.poolF (ids13 V c) (rows13 V c) (ix2 g j) := by
  rw [← Fin.sum_univ_eq_sum_range (fun s => term13 V c g j s) 100000]
  unfold Cert.Spec.poolF
  refine Finset.sum_congr rfl fun n _ => ?_
  unfold term13
  rw [dif_pos n.isLt]

theorem out_final13 (c : Dev nD) (hn : 19 < cfg13.N) (y : S128x128.Idx) :
    acc13 V c 19 hn y = Cert.Spec.poolF (ids13 V c) (rows13 V c) y := by
  obtain ⟨g, j, rfl⟩ : ∃ g j : Fin 128, y = ix2 g j := ⟨y 0, y 1, eq_ix2 y⟩
  exact (acc13_eq V c 19 hn g j).trans (pool_sum13 V c g j)

theorem emb13_2 (t : Fin cfg13.N) (y : S128x128.Idx) : (win13_2.rect t).emb y = y := by
  have hi := index13_2 t
  exact Shape.idx_ext₂ (Pipeline.Window.rect_emb_val_of_index_zero win13_2 t 0 hi.1 y)
    (Pipeline.Window.rect_emb_val_of_index_zero win13_2 t 1 hi.2 y)

theorem flushed_of13 (c : Dev nD) (t : Fin cfg13.N) (G : S128x128.Idx → EReal)
    (hG : ∀ y : S128x128.Idx, acc13 V c t.val t.isLt y = G y) :
    (dat13 V c).flushed 2 t = ((cfg13.win 2).blk t).view.read (Elt Ideal) G := by
  have key : acc13 V c t.val t.isLt = fun y : S128x128.Idx => G ((win13_2.rect t).emb y) :=
    funext fun y => (hG y).trans (congrArg G (emb13_2 t y).symm)
  show (cfg13.win 2).cut (grid13.coords t) ((dat13 V c).after 2 t) = _
  rw [after13_2 V c t]
  exact key

theorem flushed13 (c : Dev nD) (t : Fin cfg13.N) (hf : (cfg13.win 2).flush t = true) :
    (dat13 V c).flushed 2 t = ((cfg13.win 2).blk t).view.read (Elt Ideal) (Cert.Spec.poolF (ids13 V c) (rows13 V c)) := by
  have hN : cfg13.N = 20 := N_13
  have h19 : t.val = 19 := by have := (flush13_2 t).mp hf; have := t.isLt; omega
  have hlast : ∀ (n : ℕ) (hn : n < cfg13.N), n = 19 → ∀ y : S128x128.Idx,
      acc13 V c n hn y = Cert.Spec.poolF (ids13 V c) (rows13 V c) y := by
    intro n hn e y
    subst e
    exact out_final13 V c hn y
  exact flushed_of13 V c t (Cert.Spec.poolF (ids13 V c) (rows13 V c)) (hlast t.val t.isLt h19)

theorem cover13 (t : Fin cfg13.N) (i : S128x128.Idx) : i ∈ ((cfg13.win 2).blk t).view.set := by
  have hi := index13_2 t
  show i ∈ ((View.whole (Pipeline.arrRef spec13 2)).slice (win13_2.rect t)).set
  rw [View.set_slice_whole, Rect.mem_set_unit]
  intro a
  match a with
  | ⟨0, _⟩ =>
    show win13_2.index t 0 * 128 ≤ (i 0).val ∧ (i 0).val < win13_2.index t 0 * 128 + 128
    rw [hi.1]
    have := idx2_lt0 i
    omega
  | ⟨1, _⟩ =>
    show win13_2.index t 1 * 128 ≤ (i 1).val ∧ (i 1).val < win13_2.index t 1 * 128 + 128
    rw [hi.2]
    have := idx2_lt1 i
    omega

end AtExact13

theorem arrAt_out13 (V : (c : Dev nD) → (b : Ref sig .tc) → Buf (Elt Ideal) ((c : Thread nD τ).loc b)) (c : Dev nD) :
    (Rg.dat13 (F := Ideal) V c).arrAt 2 cfg13.N = Cert.Spec.poolF (V c (Pipeline.arrRef spec13 0)) (V c (Pipeline.arrRef spec13 1)) :=
  (dat13 V c).arrAt_eq_of_cover 2 (Cert.Spec.poolF (ids13 V c) (rows13 V c)) (flushed13 V c) fun i =>
    ⟨⟨19, by rw [show cfg13.N = 20 from N_13]; omega⟩, (flush13_2 _).mpr rfl, cover13 _ i⟩

end Cert.KernelIdeal.Val

end
-- ==== Proof.KI.Tail.lean ====
import proofs.«409448_j71794673320215_1_alg».proof.Proof.KI.Fold
import proofs.«409448_j71794673320215_1_alg».proof.Proof.KI.Val9
import proofs.«409448_j71794673320215_1_alg».proof.Proof.KI.Val10
import proofs.«409448_j71794673320215_1_alg».proof.Proof.KI.Val11
import proofs.«409448_j71794673320215_1_alg».proof.Proof.KI.Val12
import proofs.«409448_j71794673320215_1_alg».proof.Proof.KI.Val13
import proofs.«409448_j71794673320215_1_alg».proof.Proof.Spec.Stages
import Idealize.ShloMosaic.Lib.StableHlo.Run

set_option maxRecDepth 16384

noncomputable section

namespace Cert.KernelIdeal.Ly

open Cert.KernelIdeal Cert.KernelIdeal.Gen Cert.KernelIdeal.Rg
open Idealize.ShloMosaic Idealize.ShloMosaic.TcCoe Idealize.SL.Sem
open Idealize.ShloMosaic.Pipeline (Dat)

variable (m : (ℓ : Loc nD τ sig) → Buf (Elt Ideal) ℓ)

theorem W25_of (c : Dev nD) (r : Ref sig .tc) (h : r ≠ main_v131) : W25 m c r = W24 m c r :=
  Function.update_of_ne (StableHlo.devRef_ne_of_ne h) _ _
theorem W26_of (c : Dev nD) (r : Ref sig .tc) (h : r ∉ hostOps10_W) : W26 m c r = W25 m c r :=
  StableHlo.after_of_writes_sub hostOps10 _ hostOps10_writes h
theorem W27_of (c : Dev nD) (r : Ref sig .tc) (h : r ≠ main_v133) : W27 m c r = W26 m c r :=
  Function.update_of_ne (StableHlo.devRef_ne_of_ne h) _ _
theorem W28_of (c : Dev nD) (r : Ref sig .tc) (h : r ≠ main_v134) : W28 m c r = W27 m c r :=
  Function.update_of_ne (StableHlo.devRef_ne_of_ne h) _ _
theorem W29_of (c : Dev nD) (r : Ref sig .tc) (h : r ≠ main_v135) : W29 m c r = W28 m c r :=
  Function.update_of_ne (StableHlo.devRef_ne_of_ne h) _ _
theorem W30_of (c : Dev nD) (r : Ref sig .tc) (h : r ≠ main_v136) : W30 m c r = W29 m c r :=
  Function.update_of_ne (StableHlo.devRef_ne_of_ne h) _ _
theorem W31_of (c : Dev nD) (r : Ref sig .tc) (h : r ∉ hostOps14_W) : W31 m c r = W30 m c r :=
  StableHlo.after_of_writes_sub hostOps14 _ hostOps14_writes h

theorem W30_of_tail (c : Dev nD) (r : Ref sig .tc)
    (h : r ∉ ([main_v131, main_v132, main_v133, main_v134, main_v135, main_v136] : List (Ref sig .tc))) :
    W30 m c r = W24 m c r := by
  simp only [List.mem_cons, List.not_mem_nil, or_false, not_or] at h
  obtain ⟨h1, h2, h3, h4, h5, h6⟩ := h
  exact (W30_of m c r h6).trans <| (W29_of m c r h5).trans <| (W28_of m c r h4).trans <| (W27_of m c r h3).trans <|
    (W26_of m c r (by simp only [hostOps10_W, List.mem_cons, List.not_mem_nil, or_false]; exact h2)).trans <| W25_of m c r h1

theorem W31_of_tail (c : Dev nD) (r : Ref sig .tc)
    (h : r ∉ ([main_v131, main_v132, main_v133, main_v134, main_v135, main_v136, main_v137, main_v138] : List (Ref sig .tc))) :
    W31 m c r = W24 m c r := by
  simp only [List.mem_cons, List.not_mem_nil, or_false, not_or] at h
  obtain ⟨h1, h2, h3, h4, h5, h6, h7, h8⟩ := h
  exact (W31_of m c r (by simp only [hostOps14_W, List.mem_cons, List.not_mem_nil, or_false, not_or]; exact ⟨h7, h8⟩)).trans <|
    W30_of_tail m c r (by simp only [List.mem_cons, List.not_mem_nil, or_false, not_or]; exact ⟨h1, h2, h3, h4, h5, h6⟩)

theorem W24_main_arg3 (c : Dev nD) : W24 m c main_arg3 = m ((c : Thread nD τ).loc main_arg3) :=
  (W31_of_tail m c main_arg3 (by decide)).symm.trans ((congrFun (V31_eq m c) main_arg3).symm.trans (V31_main_arg3 m (outs m) c))
theorem W24_main_arg8 (c : Dev nD) : W24 m c main_arg8 = m ((c : Thread nD τ).loc main_arg8) :=
  (W31_of_tail m c main_arg8 (by decide)).symm.trans ((congrFun (V31_eq m c) main_arg8).symm.trans (V31_main_arg8 m (outs m) c))
theorem W24_main_arg9 (c : Dev nD) : W24 m c main_arg9 = m ((c : Thread nD τ).loc main_arg9) :=
  (W31_of_tail m c main_arg9 (by decide)).symm.trans ((congrFun (V31_eq m c) main_arg9).symm.trans (V31_main_arg9 m (outs m) c))
theorem W24_main_arg10 (c : Dev nD) : W24 m c main_arg10 = m ((c : Thread nD τ).loc main_arg10) :=
  (W31_of_tail m c main_arg10 (by decide)).symm.trans ((congrFun (V31_eq m c) main_arg10).symm.trans (V31_main_arg10 m (outs m) c))
theorem W24_main_arg11 (c : Dev nD) : W24 m c main_arg11 = m ((c : Thread nD τ).loc main_arg11) :=
  (W31_of_tail m c main_arg11 (by decide)).symm.trans ((congrFun (V31_eq m c) main_arg11).symm.trans (V31_main_arg11 m (outs m) c))

abbrev z1 (c : Dev nD) : Cert.Spec.SNH.Idx → EReal := W24 m c main_v62

abbrev z2 (c : Dev nD) : Cert.Spec.SNH.Idx → EReal := W24 m c main_v96

abbrev z3 (c : Dev nD) : Cert.Spec.SNH.Idx → EReal := W24 m c main_v130

abbrev hw1 (c : Dev nD) : Cert.Spec.SHH.Idx → EReal := m ((c : Thread nD τ).loc main_arg8)

abbrev hb1 (c : Dev nD) : Cert.Spec.SH.Idx → EReal := m ((c : Thread nD τ).loc main_arg9)

abbrev hw2 (c : Dev nD) : Cert.Spec.SHH.Idx → EReal := m ((c : Thread nD τ).loc main_arg10)

abbrev hb2 (c : Dev nD) : Cert.Spec.SH.Idx → EReal := m ((c : Thread nD τ).loc main_arg11)

abbrev zp (c : Dev nD) : Cert.Spec.SNH.Idx → EReal := Cert.Spec.projF (z3 m c) (hw1 m c) (hb1 m c) (hw2 m c) (hb2 m c)

abbrev bt (c : Dev nD) : Cert.Spec.SN1.Idx → BitVec 32 :=
  broadcastInDim S100000x1 ![0] bcast_S100000_S100000x1_0 (m ((c : Thread nD τ).loc main_arg3))

theorem after10_v132 (X : Valuation τ sig (Elt Ideal)) :
    StableHlo.after hostOps10 X main_v132 = broadcastInDim S100000x1 ![0] bcast_S100000_S100000x1_0 (X main_arg3) := by
  after_results <;> rfl

theorem after14_v137 (X : Valuation τ sig (Elt Ideal)) :
    StableHlo.after hostOps14 X main_v137
      = concatenate S100000x512 1 [⟨S100000x128, X main_v62⟩, ⟨S100000x128, X main_v96⟩, ⟨S100000x128, X main_v130⟩, ⟨S100000x128, X main_v131⟩]
          concatenates_S100000x128_S100000x128_S100000x128_S100000x128_S100000x512_d1 := by
  after_results <;> rfl

theorem after14_v138 (X : Valuation τ sig (Elt Ideal)) :
    StableHlo.after hostOps14 X main_v138
      = concatenate S128x512 1 [⟨S128x128, X main_v133⟩, ⟨S128x128, X main_v134⟩, ⟨S128x128, X main_v135⟩, ⟨S128x128, X main_v136⟩]
          concatenates_S128x128_S128x128_S128x128_S128x128_S128x512_d1 := by
  after_results <;> rfl

theorem W25_v131 (c : Dev nD) : W25 m c main_v131 = zp m c := by
  show Function.update (W24 m c) main_v131 (o25 m c) main_v131 = _
  rw [Function.update_self]
  unfold o25
  rw [Val.arrAt_out9 (U24 m) c]
  show Cert.Spec.projF (W24 m c main_v130) (W24 m c main_arg8) (W24 m c main_arg9) (W24 m c main_arg10) (W24 m c main_arg11) = _
  rw [W24_main_arg8, W24_main_arg9, W24_main_arg10, W24_main_arg11]

theorem W26_v132 (c : Dev nD) : W26 m c main_v132 = bt m c := by
  show StableHlo.after hostOps10 (W25 m c) main_v132 = _
  rw [after10_v132, W25_of m c main_arg3 (by decide), W24_main_arg3]

theorem W27_v133 (c : Dev nD) : W27 m c main_v133 = Cert.Spec.poolF (bt m c) (z1 m c) := by
  show Function.update (W26 m c) main_v133 (o27 m c) main_v133 = _
  rw [Function.update_self]
  unfold o27
  rw [Val.arrAt_out10 (U26 m) c]
  show Cert.Spec.poolF (W26 m c main_v132) (W26 m c main_v62) = _
  rw [W26_v132, W26_of m c main_v62 (by decide), W25_of m c main_v62 (by decide)]

theorem W28_v134 (c : Dev nD) : W28 m c main_v134 = Cert.Spec.poolF (bt m c) (z2 m c) := by
  show Function.update (W27 m c) main_v134 (o28 m c) main_v134 = _
  rw [Function.update_self]
  unfold o28
  rw [Val.arrAt_out11 (U27 m) c]
  show Cert.Spec.poolF (W27 m c main_v132) (W27 m c main_v96) = _
  rw [W27_of m c main_v132 (by decide), W26_v132, W27_of m c main_v96 (by decide), W26_of m c main_v96 (by decide),
    W25_of m c main_v96 (by decide)]

theorem W29_v135 (c : Dev nD) : W29 m c main_v135 = Cert.Spec.poolF (bt m c) (z3 m c) := by
  show Function.update (W28 m c) main_v135 (o29 m c) main_v135 = _
  rw [Function.update_self]
  unfold o29
  rw [Val.arrAt_out12 (U28 m) c]
  show Cert.Spec.poolF (W28 m c main_v132) (W28 m c main_v130) = _
  rw [W28_of m c main_v132 (by decide), W27_of m c main_v132 (by decide), W26_v132,
    W28_of m c main_v130 (by decide), W27_of m c main_v130 (by decide), W26_of m c main_v130 (by decide),
    W25_of m c main_v130 (by decide)]

theorem W30_v136 (c : Dev nD) : W30 m c main_v136 = Cert.Spec.poolF (bt m c) (zp m c) := by
  show Function.update (W29 m c) main_v136 (o30 m c) main_v136 = _
  rw [Function.update_self]
  unfold o30
  rw [Val.arrAt_out13 (U29 m) c]
  show Cert.Spec.poolF (W29 m c main_v132) (W29 m c main_v131) = _
  rw [W29_of m c main_v132 (by decide), W28_of m c main_v132 (by decide), W27_of m c main_v132 (by decide), W26_v132,
    W29_of m c main_v131 (by decide), W28_of m c main_v131 (by decide), W27_of m c main_v131 (by decide),
    W26_of m c main_v131 (by decide), W25_v131]

theorem W31_v137 (c : Dev nD) :
    W31 m c main_v137
      = concatenate S100000x512 1 [⟨S100000x128, z1 m c⟩, ⟨S100000x128, z2 m c⟩, ⟨S100000x128, z3 m c⟩, ⟨S100000x128, zp m c⟩]
          concatenates_S100000x128_S100000x128_S100000x128_S100000x128_S100000x512_d1 := by
  show StableHlo.after hostOps14 (W30 m c) main_v137 = _
  rw [after14_v137, W30_of_tail m c main_v62 (by decide), W30_of_tail m c main_v96 (by decide), W30_of_tail m c main_v130 (by decide),
    W30_of m c main_v131 (by decide), W29_of m c main_v131 (by decide), W28_of m c main_v131 (by decide),
    W27_of m c main_v131 (by decide), W26_of m c main_v131 (by decide), W25_v131]

theorem W31_v138 (c : Dev nD) :
    W31 m c main_v138
      = concatenate S128x512 1 [⟨S128x128, Cert.Spec.poolF (bt m c) (z1 m c)⟩, ⟨S128x128, Cert.Spec.poolF (bt m c) (z2 m c)⟩,
            ⟨S128x128, Cert.Spec.poolF (bt m c) (z3 m c)⟩, ⟨S128x128, Cert.Spec.poolF (bt m c) (zp m c)⟩]
          concatenates_S128x128_S128x128_S128x128_S128x128_S128x512_d1 := by
  show StableHlo.after hostOps14 (W30 m c) main_v138 = _
  rw [after14_v138,
    W30_of m c main_v133 (by decide), W29_of m c main_v133 (by decide), W28_of m c main_v133 (by decide), W27_v133,
    W30_of m c main_v134 (by decide), W29_of m c main_v134 (by decide), W28_v134,
    W30_of m c main_v135 (by decide), W29_v135, W30_v136]

end Cert.KernelIdeal.Ly

end
-- ==== Proof.KI.Val0.lean ====
import proofs.«409448_j71794673320215_1_alg».proof.Proof.KI.R0
import proofs.«409448_j71794673320215_1_alg».proof.Proof.Spec.Stages
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

theorem lhs0_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬ (0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs0_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  DotDims.lhsIdx_val_of_single (d := dot_S5000x128_S128x128_S5000x128_1_0_0_1_n_n) (cl := 1) rfl j k

theorem rhs0_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  DotDims.rhsIdx_val_of_single (d := dot_S5000x128_S128x128_S5000x128_1_0_0_1_n_n) (cr := 0) rfl j k

theorem rhs0_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬ (1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 dot_S5000x128_S128x128_S5000x128_1_0_0_1_n_n 128 rfl rfl).symm k) = ix2 p k := by
    funext a; apply Fin.ext
    match a with
    | ⟨0, _⟩ => exact lhs0_0 _ _
    | ⟨1, _⟩ => exact (lhs0_1 _ _).trans ck
  have hr : dot_S5000x128_S128x128_S5000x128_1_0_0_1_n_n.rhsIdx (ix2 p q) ((contrEquiv1 dot_S5000x128_S128x128_S5000x128_1_0_0_1_n_n 128 rfl rfl).symm k) = ix2 k q := by
    funext a; apply Fin.ext
    match a with
    | ⟨0, _⟩ => exact (rhs0_0 _ _).trans ck
    | ⟨1, _⟩ => exact rhs0_1 _ _
  rw [hl, hr]
  rfl

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (V : (c : Dev nD) → (b : Ref sig .tc) → Buf (Elt Ideal) ((c : Thread nD τ).loc b)) (c : Dev nD)
    (t : Fin cfg0.N) (y : S5000x128.Idx) (i : S100000x128.Idx)
    (h0 : (i 0).val = t.val * 5000 + (y 0).val) (h1 : (i 1).val = (y 1).val) :
    (Rg.iblk0 V c 0 t : Vec Ideal S5000x128 .f32) y = (V c (Pipeline.arrRef spec0 0) : S100000x128.Idx → EReal) i := by
  obtain ⟨e0, e1, -, -, -, -⟩ := idx_facts0 t
  unfold Rg.iblk0
  rw [View.read_apply]
  show V c main_arg0 (((cfg0.win 0).blk t).view.emb y) = V c main_arg0 i
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

theorem iblk0_1_apply (V : (c : Dev nD) → (b : Ref sig .tc) → Buf (Elt Ideal) ((c : Thread nD τ).loc b)) (c : Dev nD)
    (t : Fin cfg0.N) (y : S128x128.Idx) :
    (Rg.iblk0 V c 1 t : Vec Ideal S128x128 .f32) y = (V c (Pipeline.arrRef spec0 1) : S128x128.Idx → EReal) y := by
  obtain ⟨-, -, e2, e3, -, -⟩ := idx_facts0 t
  unfold Rg.iblk0
  rw [View.read_apply]
  show V c main_v30 (((cfg0.win 1).blk t).view.emb y) = V c main_v30 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem pay0_linF (A0 : S100000x128.Idx → EReal) (A1 : S128x128.Idx → EReal)
    (x0 : Vec Ideal S5000x128 .f32) (x1 : Vec Ideal S128x128 .f32) (n : ℕ)
    (hx0 : ∀ (y : S5000x128.Idx) (i : S100000x128.Idx), (i 0).val = n * 5000 + (y 0).val → (i 1).val = (y 1).val → x0 y = A0 i)
    (hx1 : ∀ y : S128x128.Idx, x1 y = A1 y)
    (j : S5000x128.Idx) (i : S100000x128.Idx) (hi0 : (i 0).val = n * 5000 + (j 0).val) (hi1 : (i 1).val = (j 1).val) :
    k0_pay1 (F := Ideal) x0 x1 j = Cert.Spec.linF A0 A1 i := by
  obtain ⟨p, q, rfl⟩ : ∃ (p : Fin 5000) (q : Fin 128), j = ix2 p q := ⟨j 0, j 1, eq_ix2 j⟩
  rw [pay0_apply]
  unfold Cert.Spec.linF
  refine Finset.sum_congr rfl fun k _ => ?_
  rw [hx0 (ix2 p k) (ix2 (i 0) k) hi0 rfl, hx1 (ix2 k q)]
  have hq : (i 1) = q := Fin.ext hi1
  rw [hq]

theorem flushed0_eq (V : (c : Dev nD) → (b : Ref sig .tc) → Buf (Elt Ideal) ((c : Thread nD τ).loc b)) (c : Dev nD) (t : Fin cfg0.N) :
    (Rg.dat0 (F := Ideal) V c).flushed 2 t
      = ((cfg0.win 2).blk t).view.read (Elt Ideal) (Cert.Spec.linF (V c (Pipeline.arrRef spec0 0)) (V c (Pipeline.arrRef spec0 1))) := by
  show (cfg0.win 2).cut (grid0.coords t) ((Rg.dat0 V c).after 2 t) = _
  rw [Rg.after0_2]
  unfold Rg.out0_2
  rw [View.canon_unit_zero hz0]
  simp only [View.ld_unit_zero (S := S5000x128) hz0, View.ld_unit_zero (S := S128x128) hz0]
  obtain ⟨-, -, -, -, e4, e5⟩ := idx_facts0 t
  funext j
  rw [View.read_apply]
  refine pay0_linF _ _ _ _ t.val (fun y i h0 h1 => iblk0_0_apply V c t y i h0 h1) (fun y => iblk0_1_apply V c t y) j _ ?_ ?_
  · show win0_2.index t (0 : Fin 2) * 5000 + 1 * (j 0).val = t.val * 5000 + (j 0).val; omega
  · show win0_2.index t (1 : Fin 2) * 128 + 1 * (j 1).val = (j 1).val; omega

theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem arrAt_out0 (V : (c : Dev nD) → (b : Ref sig .tc) → Buf (Elt Ideal) ((c : Thread nD τ).loc b)) (c : Dev nD) :
    (Rg.dat0 (F := Ideal) V c).arrAt 2 cfg0.N = Cert.Spec.linF (V c (Pipeline.arrRef spec0 0)) (V c (Pipeline.arrRef spec0 1)) :=
  (Rg.dat0 (F := Ideal) V c).arrAt_eq_of_cover 2 _ (fun t _ => flushed0_eq V c t) cover0

end Cert.KernelIdeal.Val

end
-- ==== Proof.KI.Val1.lean ====
import proofs.«409448_j71794673320215_1_alg».proof.Proof.KI.R1
import proofs.«409448_j71794673320215_1_alg».proof.Proof.Spec.Stages
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem hz2_1 : (![0, 0] : Fin 2 → Nat) = fun _ => 0 := funext fun a => by fin_cases a <;> rfl
theorem hz1_1 : (![0] : Fin 1 → Nat) = fun _ => 0 := funext fun a => by fin_cases a; rfl

theorem broadcastTo_a1_ab_apply1 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay1_apply1 (x0 x1 : Vec Ideal S5000x128 .f32) (x2 : Vec Ideal S5000x1 .f32) (x3 : Vec Ideal S128 .f32)
    (p : Fin 5000) (q : Fin 128) :
    (k1_pay1 x0 x1 x2 x3 (ix2 p q) : EReal)
      = max (((x0 (ix2 p q) : EReal) + (x2 (ix2 p (0 : Fin 1)) : EReal) * (x1 (ix2 p q) : EReal)) + (x3 (ix1 q) : EReal)) 0 := by
  unfold k1_pay1
  simp only [shapeCast_self]
  rw [maximumf_apply, addf_apply, addf_apply, mulf_apply, broadcast_apply,
    broadcastTo_a1_ab_apply1, broadcastTo_1b_ab_apply, shapeCast_a_1a_apply]
  rw [show Scalar.ofBits (F := Ideal) .f32 0x00000000#32 = (0 : EReal) from Ideal.ofBits_zero_f32]

variable (V : (c : Dev nD) → (b : Ref sig .tc) → Buf (Elt Ideal) ((c : Thread nD τ).loc b))

abbrev agg1 (c : Dev nD) : Cert.Spec.SNH.Idx → EReal := V c (Pipeline.arrRef spec1 0)
abbrev feat1 (c : Dev nD) : Cert.Spec.SNH.Idx → EReal := V c (Pipeline.arrRef spec1 1)
abbrev sn1 (c : Dev nD) : Cert.Spec.SN1.Idx → EReal := V c (Pipeline.arrRef spec1 2)
abbrev bias1 (c : Dev nD) : Cert.Spec.SH.Idx → EReal := V c (Pipeline.arrRef spec1 3)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem iblk1_0_apply1 (c : Dev nD) (t : Fin cfg1.N) (p : Fin 5000) (q : Fin 128) (k : Cert.Spec.SNH.Idx)
    (hk0 : (k 0).val = 5000 * t.val + p.val) (hk1 : (k 1).val = q.val) :
    (iblk1 V c 0 t : Vec Ideal S5000x128 .f32) (ix2 p q) = agg1 V c k := by
  obtain ⟨e0, e1, -⟩ := idx_facts1 t
  unfold iblk1
  rw [View.read_apply]
  show V c (Pipeline.arrRef spec1 0) _ = V c (Pipeline.arrRef spec1 0) k
  congr 1
  funext a
  apply Fin.ext
  match a with
  | ⟨0, _⟩ => show win1_0.index t (0 : Fin 2) * 5000 + 1 * p.val = (k 0).val; omega
  | ⟨1, _⟩ => show win1_0.index t (1 : Fin 2) * 128 + 1 * q.val = (k 1).val; omega

theorem iblk1_1_apply1 (c : Dev nD) (t : Fin cfg1.N) (p : Fin 5000) (q : Fin 128) (k : Cert.Spec.SNH.Idx)
    (hk0 : (k 0).val = 5000 * t.val + p.val) (hk1 : (k 1).val = q.val) :
    (iblk1 V c 1 t : Vec Ideal S5000x128 .f32) (ix2 p q) = feat1 V c k := by
  obtain ⟨-, -, e0, e1, -⟩ := idx_facts1 t
  unfold iblk1
  rw [View.read_apply]
  show V c (Pipeline.arrRef spec1 1) _ = V c (Pipeline.arrRef spec1 1) k
  congr 1
  funext a
  apply Fin.ext
  match a with
  | ⟨0, _⟩ => show win1_1.index t (0 : Fin 2) * 5000 + 1 * p.val = (k 0).val; omega
  | ⟨1, _⟩ => show win1_1.index t (1 : Fin 2) * 128 + 1 * q.val = (k 1).val; omega

theorem iblk1_2_apply1 (c : Dev nD) (t : Fin cfg1.N) (p : Fin 5000) (k : Cert.Spec.SN1.Idx)
    (hk0 : (k 0).val = 5000 * t.val + p.val) (hk1 : (k 1).val = 0) :
    (iblk1 V c 2 t : Vec Ideal S5000x1 .f32) (ix2 p (0 : Fin 1)) = sn1 V c k := by
  obtain ⟨-, -, -, -, e0, e1, -⟩ := idx_facts1 t
  unfold iblk1
  rw [View.read_apply]
  show V c (Pipeline.arrRef spec1 2) _ = V c (Pipeline.arrRef spec1 2) k
  congr 1
  funext a
  apply Fin.ext
  match a with
  | ⟨0, _⟩ => show win1_2.index t (0 : Fin 2) * 5000 + 1 * p.val = (k 0).val; omega
  | ⟨1, _⟩ => show win1_2.index t (1 : Fin 2) * 1 + 1 * 0 = (k 1).val; omega

theorem iblk1_3_apply1 (c : Dev nD) (t : Fin cfg1.N) (q : Fin 128) (k : Cert.Spec.SH.Idx)
    (hk : (k 0).val = q.val) :
    (iblk1 V c 3 t : Vec Ideal S128 .f32) (ix1 q) = bias1 V c k := by
  obtain ⟨-, -, -, -, -, -, e0, -⟩ := idx_facts1 t
  unfold iblk1
  rw [View.read_apply]
  show V c (Pipeline.arrRef spec1 3) _ = V c (Pipeline.arrRef spec1 3) k
  congr 1
  funext a
  apply Fin.ext
  match a with
  | ⟨0, _⟩ => show win1_3.index t (0 : Fin 1) * 128 + 1 * q.val = (k 0).val; omega

theorem flushed_eq1 (c : Dev nD) (t : Fin cfg1.N) :
    (dat1 (F := Ideal) V c).flushed 4 t
      = ((cfg1.win 4).blk t).view.read (Elt Ideal) (Cert.Spec.combF (agg1 V c) (feat1 V c) (sn1 V c) (bias1 V c)) := by
  show (cfg1.win 4).cut (grid1.coords t) ((dat1 V c).after 4 t) = _
  rw [after1_4]
  unfold out1_4
  rw [View.canon_unit_zero hz2_1]
  simp only [View.ld_unit_zero (S := S5000x128) hz2_1, View.ld_unit_zero (S := S5000x1) hz2_1, View.ld_unit_zero (S := S128) hz1_1]
  obtain ⟨-, -, -, -, -, -, -, e0, e1⟩ := idx_facts1 t
  funext j
  obtain ⟨p, q, rfl⟩ : ∃ (p : Fin 5000) (q : Fin 128), j = ix2 p q := ⟨j 0, j 1, eq_ix2 j⟩
  refine (pay1_apply1 (iblk1 V c 0 t) (iblk1 V c 1 t) (iblk1 V c 2 t) (iblk1 V c 3 t) p q).trans ?_
  show _ = Cert.Spec.combF (agg1 V c) (feat1 V c) (sn1 V c) (bias1 V c) (((cfg1.win 4).blk t).view.emb (ix2 p q))
  have hi0 : ((((cfg1.win 4).blk t).view.emb (ix2 p q) : Cert.Spec.SNH.Idx) 0).val = 5000 * t.val + p.val := by
    show win1_4.index t (0 : Fin 2) * 5000 + 1 * p.val = _; omega
  have hi1 : ((((cfg1.win 4).blk t).view.emb (ix2 p q) : Cert.Spec.SNH.Idx) 1).val = q.val := by
    show win1_4.index t (1 : Fin 2) * 128 + 1 * q.val = _; omega
  unfold Cert.Spec.combF
  rw [iblk1_0_apply1 V c t p q _ hi0 hi1, iblk1_1_apply1 V c t p q _ hi0 hi1,
    iblk1_2_apply1 V c t p (ix2 ((((cfg1.win 4).blk t).view.emb (ix2 p q) : Cert.Spec.SNH.Idx) 0) (0 : Fin 1)) hi0 rfl,
    iblk1_3_apply1 V c t q (ix1 ((((cfg1.win 4).blk t).view.emb (ix2 p q) : Cert.Spec.SNH.Idx) 1)) hi1]

theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

theorem cover_out1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, e0, e1⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem arrAt_out1 (V : (c : Dev nD) → (b : Ref sig .tc) → Buf (Elt Ideal) ((c : Thread nD τ).loc b)) (c : Dev nD) :
    (Rg.dat1 (F := Ideal) V c).arrAt 4 cfg1.N
      = Cert.Spec.combF (V c (Pipeline.arrRef spec1 0)) (V c (Pipeline.arrRef spec1 1)) (V c (Pipeline.arrRef spec1 2)) (V c (Pipeline.arrRef spec1 3)) :=
  (Rg.dat1 (F := Ideal) V c).arrAt_eq_of_cover 4 (Cert.Spec.combF (agg1 V c) (feat1 V c) (sn1 V c) (bias1 V c))
    (fun t _ => flushed_eq1 V c t) cover_out1

end Cert.KernelIdeal.Val

end
-- ==== Proof.KI.Val2.lean ====
import proofs.«409448_j71794673320215_1_alg».proof.Proof.KI.R2
import proofs.«409448_j71794673320215_1_alg».proof.Proof.Spec.Stages
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev zarr2 (c : Dev nD) : Cert.Spec.SNH.Idx → EReal := V c (Pipeline.arrRef spec2 0)

abbrev sarr2 (c : Dev nD) : Cert.Spec.SH.Idx → EReal := V c (Pipeline.arrRef spec2 1)

abbrev harr2 (c : Dev nD) : Cert.Spec.SH.Idx → EReal := V c (Pipeline.arrRef spec2 2)

abbrev zblk2 (c : Dev nD) (t : Fin cfg2.N) : Vec Ideal S5000x128 .f32 := iblk2 V c 0 t

abbrev sblk2 (c : Dev nD) (t : Fin cfg2.N) : Vec Ideal S128 .f32 := iblk2 V c 1 t

abbrev hblk2 (c : Dev nD) (t : Fin cfg2.N) : Vec Ideal S128 .f32 := iblk2 V c 2 t

theorem hz2_2 : (![0, 0] : Fin 2 → Nat) = fun _ => 0 := funext fun a => by fin_cases a <;> rfl
theorem hz1_2 : (![0] : Fin 1 → Nat) = fun _ => 0 := funext fun a => by fin_cases a; rfl

theorem pay2_apply (x0 : Vec Ideal S5000x128 .f32) (x1 x2 : Vec Ideal S128 .f32) (p : Fin 5000) (q : Fin 128) :
    k2_pay1 x0 x1 x2 (ix2 p q) = x0 (ix2 p q) * x1 (ix1 q) + x2 (ix1 q) := by
  unfold k2_pay1
  rw [addf_apply, mulf_apply, broadcastTo_1b_ab_apply, broadcastTo_1b_ab_apply, shapeCast_a_1a_apply, shapeCast_a_1a_apply]
  simp only [shapeCast_self]

theorem idx_facts2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 :=
  (by decide +kernel : ∀ t : Fin grid2.N, _)

theorem zblk2_apply (c : Dev nD) (t : Fin cfg2.N) (p : Fin 5000) (q : Fin 128) (k : Cert.Spec.SNH.Idx)
    (hk0 : (k 0).val = 5000 * t.val + p.val) (hk1 : (k 1).val = q.val) :
    zblk2 V c t (ix2 p q) = zarr2 V c k := by
  obtain ⟨e0, e1, -, -, -, -⟩ := idx_facts2 t
  unfold zblk2 iblk2
  rw [View.read_apply]
  show zarr2 V c _ = zarr2 V c k
  congr 1
  funext a
  apply Fin.ext
  match a with
  | ⟨0, _⟩ => show win2_0.index t (0 : Fin 2) * 5000 + 1 * p.val = (k 0).val; rw [e0, hk0]; omega
  | ⟨1, _⟩ => show win2_0.index t (1 : Fin 2) * 128 + 1 * q.val = (k 1).val; rw [e1, hk1]; omega

theorem sblk2_apply (c : Dev nD) (t : Fin cfg2.N) (q : Fin 128) :
    sblk2 V c t (ix1 q) = sarr2 V c (ix1 q) := by
  obtain ⟨-, -, e2, -, -, -⟩ := idx_facts2 t
  unfold sblk2 iblk2
  rw [View.read_apply]
  show sarr2 V c _ = sarr2 V c (ix1 q)
  congr 1
  funext a
  apply Fin.ext
  match a with
  | ⟨0, _⟩ => show win2_1.index t (0 : Fin 1) * 128 + 1 * q.val = q.val; rw [e2]; omega

theorem hblk2_apply (c : Dev nD) (t : Fin cfg2.N) (q : Fin 128) :
    hblk2 V c t (ix1 q) = harr2 V c (ix1 q) := by
  obtain ⟨-, -, -, e3, -, -⟩ := idx_facts2 t
  unfold hblk2 iblk2
  rw [View.read_apply]
  show harr2 V c _ = harr2 V c (ix1 q)
  congr 1
  funext a
  apply Fin.ext
  match a with
  | ⟨0, _⟩ => show win2_2.index t (0 : Fin 1) * 128 + 1 * q.val = q.val; rw [e3]; omega

theorem oblk2_apply (G : Cert.Spec.SNH.Idx → EReal) (t : Fin cfg2.N) (p : Fin 5000) (q : Fin 128) (k : Cert.Spec.SNH.Idx)
    (hk0 : (k 0).val = 5000 * t.val + p.val) (hk1 : (k 1).val = q.val) :
    (((cfg2.win 3).blk t).view.read (Elt Ideal) G : Vec Ideal S5000x128 .f32) (ix2 p q) = G k := by
  obtain ⟨-, -, -, -, e4, e5⟩ := idx_facts2 t
  rw [View.read_apply]
  show G _ = G k
  congr 1
  funext a
  apply Fin.ext
  match a with
  | ⟨0, _⟩ => show win2_3.index t (0 : Fin 2) * 5000 + 1 * p.val = (k 0).val; rw [e4, hk0]; omega
  | ⟨1, _⟩ => show win2_3.index t (1 : Fin 2) * 128 + 1 * q.val = (k 1).val; rw [e5, hk1]; omega

theorem flushed2_eq (c : Dev nD) (t : Fin cfg2.N) :
    (dat2 V c).flushed 3 t = ((cfg2.win 3).blk t).view.read (Elt Ideal) (Cert.Spec.bnF (zarr2 V c) (sarr2 V c) (harr2 V c)) := by
  show (cfg2.win 3).cut (grid2.coords t) ((dat2 V c).after 3 t) = _
  rw [after2_3]
  unfold out2_3
  rw [View.canon_unit_zero hz2_2]
  simp only [View.ld_unit_zero (S := S5000x128) hz2_2, View.ld_unit_zero (S := S128) hz1_2]
  funext j
  obtain ⟨p, q, rfl⟩ : ∃ (p : Fin 5000) (q : Fin 128), j = ix2 p q := ⟨j 0, j 1, eq_ix2 j⟩
  have hp : 5000 * t.val + p.val < 100000 := by
    have h1 := t.isLt; have h2 : cfg2.N = 20 := N_2; have h3 := p.isLt; omega
  refine ((pay2_apply (zblk2 V c t) (sblk2 V c t) (hblk2 V c t) p q).trans ?_).trans
    (oblk2_apply (Cert.Spec.bnF (zarr2 V c) (sarr2 V c) (harr2 V c)) t p q (ix2 ⟨5000 * t.val + p.val, hp⟩ q) rfl rfl).symm
  rw [zblk2_apply V c t p q (ix2 ⟨5000 * t.val + p.val, hp⟩ q) rfl rfl, sblk2_apply V c t q, hblk2_apply V c t q]
  rfl

theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, e4, e5⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e4]; show (i 0).val / 5000 * 5000 ≤ (i 0).val ∧ (i 0).val < (i 0).val / 5000 * 5000 + 5000; omega
  | ⟨1, _⟩ => show win2_3.index t (1 : Fin 2) * 128 ≤ (i 1).val ∧ (i 1).val < win2_3.index t (1 : Fin 2) * 128 + 128; rw [e5]; omega

theorem arrAt_out2 (c : Dev nD) :
    (dat2 (F := Ideal) V c).arrAt 3 cfg2.N = Cert.Spec.bnF (V c (Pipeline.arrRef spec2 0)) (V c (Pipeline.arrRef spec2 1)) (V c (Pipeline.arrRef spec2 2)) :=
  (dat2 V c).arrAt_eq_of_cover 3 (Cert.Spec.bnF (zarr2 V c) (sarr2 V c) (harr2 V c)) (fun t _ => flushed2_eq V c t) cover2

end Cert.KernelIdeal.Val

end
-- ==== Proof.Model.Defs.lean ====
import proofs.«409448_j71794673320215_1_alg».proof.Proof.Gen.ReferenceIdeal
import Idealize.ShloMosaic.PureOps
import Idealize.ShloMosaic.PureOps.Ideal

noncomputable section

namespace Cert.Model

open Cert.ReferenceIdeal Cert.ReferenceIdeal.Gen Idealize.ShloMosaic

def rowOf (ei : IVec S2x1600000 32) : IVec S1600000 32 :=
  shapeCast S1600000 (extractStridedSlice S1x1600000 ![0, 0] ei slices_S2x1600000_S1x1600000_0_0) shapeCasts_S1x1600000_S1600000

def colOf (ei : IVec S2x1600000 32) : IVec S1600000 32 :=
  shapeCast S1600000 (extractStridedSlice S1x1600000 ![1, 0] ei slices_S2x1600000_S1x1600000_1_0) shapeCasts_S1x1600000_S1600000

def nidx (x : IVec S1600000 32) : IVec S1600000x1 32 :=
  broadcastInDim S1600000x1 ![0] bcast_S1600000_S1600000x1_0 (select (cmpi .slt x (broadcastInDim S1600000 ![] bcast_S_S1600000 (constantI S_ 32 0#32))) (addi x (broadcastInDim S1600000 ![] bcast_S_S1600000 (constantI S_ 32 100000#32))) x)

def colIdx (c : IVec S1600000 32) : IVec S1600000x1 32 :=
  broadcastInDim S1600000x1 ![0] bcast_S1600000_S1600000x1_0 c

def degOf (ea : FVec Ideal S1600000 .f32) (col : IVec S1600000 32) : FVec Ideal S100000 .f32 :=
  addf (F := Ideal) (Host.scatterAdd (F := Ideal) scatter_S100000_S1600000x1_S1600000_n_0_0_1 (broadcastInDim S100000 ![] bcast_S_S100000 (constant (F := Ideal) S_ .f32 0x00000000#32)) (colIdx col) ea) (broadcastInDim S100000 ![] bcast_S_S100000 (constant (F := Ideal) S_ .f32 0x3F800000#32))

def normOf (ea : FVec Ideal S1600000 .f32) (row : IVec S1600000 32) (col : IVec S1600000 32) : FVec Ideal S1600000 .f32 :=
  mulf (F := Ideal) (mulf (F := Ideal) (Host.gather gather_S100000_S1600000x1_S1600000_n_0_n_n_0_1_1 (Host.rsqrt (F := Ideal) (degOf ea col)) (nidx row)) ea) (Host.gather gather_S100000_S1600000x1_S1600000_n_0_n_n_0_1_1 (Host.rsqrt (F := Ideal) (degOf ea col)) (nidx col))

def snOf (ea : FVec Ideal S1600000 .f32) (col : IVec S1600000 32) : FVec Ideal S100000x1 .f32 :=
  broadcastInDim S100000x1 ![0] bcast_S100000_S100000x1_0 (Host.divf (F := Ideal) (broadcastInDim S100000 ![] bcast_S_S100000 (constant (F := Ideal) S_ .f32 0x3F800000#32)) (degOf ea col))

def wSl0 (W : FVec Ideal S3x128x128 .f32) : FVec Ideal S128x128 .f32 :=
  shapeCast S128x128 (extractStridedSlice S1x128x128 ![0, 0, 0] W slices_S3x128x128_S1x128x128_0_0_0) shapeCasts_S1x128x128_S128x128

def wSl1 (W : FVec Ideal S3x128x128 .f32) : FVec Ideal S128x128 .f32 :=
  shapeCast S128x128 (extractStridedSlice S1x128x128 ![1, 0, 0] W slices_S3x128x128_S1x128x128_1_0_0) shapeCasts_S1x128x128_S128x128

def wSl2 (W : FVec Ideal S3x128x128 .f32) : FVec Ideal S128x128 .f32 :=
  shapeCast S128x128 (extractStridedSlice S1x128x128 ![2, 0, 0] W slices_S3x128x128_S1x128x128_2_0_0) shapeCasts_S1x128x128_S128x128

def vSl0 (b : FVec Ideal S3x128 .f32) : FVec Ideal S128 .f32 :=
  shapeCast S128 (extractStridedSlice S1x128 ![0, 0] b slices_S3x128_S1x128_0_0) shapeCasts_S1x128_S128

def vSl1 (b : FVec Ideal S3x128 .f32) : FVec Ideal S128 .f32 :=
  shapeCast S128 (extractStridedSlice S1x128 ![1, 0] b slices_S3x128_S1x128_1_0) shapeCasts_S1x128_S128

def vSl2 (b : FVec Ideal S3x128 .f32) : FVec Ideal S128 .f32 :=
  shapeCast S128 (extractStridedSlice S1x128 ![2, 0] b slices_S3x128_S1x128_2_0) shapeCasts_S1x128_S128

def dotOf (x : FVec Ideal S100000x128 .f32) (w : FVec Ideal S128x128 .f32) : FVec Ideal S100000x128 .f32 :=
  Host.dotGeneral (F := Ideal) dot_S100000x128_S128x128_S100000x128_1_0_0_1_n_n none x w

def aggOf (h : FVec Ideal S100000x128 .f32) (norm : FVec Ideal S1600000 .f32) (row : IVec S1600000 32) (col : IVec S1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (colIdx col) (mulf (F := Ideal) (broadcastInDim S1600000x128 ![0, 1] bcast_S1600000x1_S1600000x128_0_1 (broadcastInDim S1600000x1 ![0] bcast_S1600000_S1600000x1_0 norm)) (Host.gather gather_S100000x128_S1600000x1_S1600000x128_1_0_n_n_0_1_1128 h (nidx row)))

def preAct (agg : FVec Ideal S100000x128 .f32) (h : FVec Ideal S100000x128 .f32) (sn : FVec Ideal S100000x1 .f32) (b : FVec Ideal S128 .f32) : FVec Ideal S100000x128 .f32 :=
  addf (F := Ideal) (addf (F := Ideal) agg (mulf (F := Ideal) (broadcastInDim S100000x128 ![0, 1] bcast_S100000x1_S100000x128_0_1 sn) h)) (broadcastInDim S100000x128 ![0, 1] bcast_S1x128_S100000x128_0_1 (broadcastInDim S1x128 ![1] bcast_S128_S1x128_1 b))

def reluOf (x : FVec Ideal S100000x128 .f32) : FVec Ideal S100000x128 .f32 :=
  maximumf (F := Ideal) x (broadcastInDim S100000x128 ![] bcast_S_S100000x128 (constant (F := Ideal) S_ .f32 0x00000000#32))

def meanOf (zr : FVec Ideal S100000x128 .f32) : FVec Ideal S128 .f32 :=
  Host.divf (F := Ideal) (Host.reduceAdd (F := Ideal) zr (constant (F := Ideal) S_ .f32 0x00000000#32) reducesTo_S100000x128_S128_d0 h_S_) (broadcastInDim S128 ![] bcast_S_S128 (constant (F := Ideal) S_ .f32 0x47C35000#32))

def ctrOf (zr : FVec Ideal S100000x128 .f32) : FVec Ideal S100000x128 .f32 :=
  subf (F := Ideal) zr (broadcastInDim S100000x128 ![0, 1] bcast_S1x128_S100000x128_0_1 (Host.divf (F := Ideal) (broadcastInDim S1x128 ![1] bcast_S128_S1x128_1 (Host.reduceAdd (F := Ideal) zr (constant (F := Ideal) S_ .f32 0x00000000#32) reducesTo_S100000x128_S128_d0 h_S_)) (broadcastInDim S1x128 ![] bcast_S_S1x128 (constant (F := Ideal) S_ .f32 0x47C35000#32))))

def varOf (zr : FVec Ideal S100000x128 .f32) : FVec Ideal S128 .f32 :=
  select (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (ctrOf zr) (ctrOf zr)) (constant (F := Ideal) S_ .f32 0x00000000#32) reducesTo_S100000x128_S128_d0 h_S_) (broadcastInDim S128 ![] bcast_S_S128 (subf (F := Ideal) (constant (F := Ideal) S_ .f32 0x47C35000#32) (sitofp (F := Ideal) .f32 (constantI S_ 32 0#32))))) (broadcastInDim S128 ![] bcast_S_S128 (id (constant (F := Ideal) S_ .f32 0x7FC00000#32)))

def invOf (zr : FVec Ideal S100000x128 .f32) : FVec Ideal S128 .f32 :=
  Host.rsqrt (F := Ideal) (addf (F := Ideal) (varOf zr) (broadcastInDim S128 ![] bcast_S_S128 (constant (F := Ideal) S_ .f32 0x3727C5AC#32)))

def bnRef (zr : FVec Ideal S100000x128 .f32) (γ : FVec Ideal S128 .f32) (β : FVec Ideal S128 .f32) : FVec Ideal S100000x128 .f32 :=
  addf (F := Ideal) (mulf (F := Ideal) (mulf (F := Ideal) (subf (F := Ideal) zr (broadcastInDim S100000x128 ![0, 1] bcast_S1x128_S100000x128_0_1 (broadcastInDim S1x128 ![1] bcast_S128_S1x128_1 (meanOf zr)))) (broadcastInDim S100000x128 ![0, 1] bcast_S1x128_S100000x128_0_1 (broadcastInDim S1x128 ![1] bcast_S128_S1x128_1 (invOf zr)))) (broadcastInDim S100000x128 ![0, 1] bcast_S1x128_S100000x128_0_1 (broadcastInDim S1x128 ![1] bcast_S128_S1x128_1 (γ)))) (broadcastInDim S100000x128 ![0, 1] bcast_S1x128_S100000x128_0_1 (broadcastInDim S1x128 ![1] bcast_S128_S1x128_1 (β)))

def headOf (z : FVec Ideal S100000x128 .f32) (w1 : FVec Ideal S128x128 .f32) (b1 : FVec Ideal S128 .f32) (w2 : FVec Ideal S128x128 .f32) (b2 : FVec Ideal S128 .f32) : FVec Ideal S100000x128 .f32 :=
  addf (F := Ideal) (dotOf (reluOf (addf (F := Ideal) (dotOf z w1) (broadcastInDim S100000x128 ![0, 1] bcast_S1x128_S100000x128_0_1 (broadcastInDim S1x128 ![1] bcast_S128_S1x128_1 b1)))) w2) (broadcastInDim S100000x128 ![0, 1] bcast_S1x128_S100000x128_0_1 (broadcastInDim S1x128 ![1] bcast_S128_S1x128_1 b2))

def poolOf (batch : IVec S100000 32) (z : FVec Ideal S100000x128 .f32) : FVec Ideal S128x128 .f32 :=
  Host.scatterAdd (F := Ideal) scatter_S128x128_S100000x1_S100000x128_1_0_0_1 (broadcastInDim S128x128 ![] bcast_S_S128x128 (constant (F := Ideal) S_ .f32 0x00000000#32)) (broadcastInDim S100000x1 ![0] bcast_S100000_S100000x1_0 batch) z

def cat4 (a : FVec Ideal S100000x128 .f32) (b : FVec Ideal S100000x128 .f32) (c : FVec Ideal S100000x128 .f32) (d : FVec Ideal S100000x128 .f32) : FVec Ideal S100000x512 .f32 :=
  concatenate S100000x512 1 [⟨S100000x128, a⟩, ⟨S100000x128, b⟩, ⟨S100000x128, c⟩, ⟨S100000x128, d⟩] concatenates_S100000x128_S100000x128_S100000x128_S100000x128_S100000x512_d1

def cat4g (a : FVec Ideal S128x128 .f32) (b : FVec Ideal S128x128 .f32) (c : FVec Ideal S128x128 .f32) (d : FVec Ideal S128x128 .f32) : FVec Ideal S128x512 .f32 :=
  concatenate S128x512 1 [⟨S128x128, a⟩, ⟨S128x128, b⟩, ⟨S128x128, c⟩, ⟨S128x128, d⟩] concatenates_S128x128_S128x128_S128x128_S128x128_S128x512_d1

def layerRef (z : FVec Ideal S100000x128 .f32) (w : FVec Ideal S128x128 .f32) (b γ β : FVec Ideal S128 .f32) (norm : FVec Ideal S1600000 .f32)
    (sn : FVec Ideal S100000x1 .f32) (row col : IVec S1600000 32) : FVec Ideal S100000x128 .f32 :=
  bnRef (reluOf (preAct (aggOf (dotOf z w) norm row col) (dotOf z w) sn b)) γ β

def z1 (x : FVec Ideal S100000x128 .f32) (ei : IVec S2x1600000 32) (ea : FVec Ideal S1600000 .f32) (W : FVec Ideal S3x128x128 .f32) (b γ β : FVec Ideal S3x128 .f32) : FVec Ideal S100000x128 .f32 :=
  layerRef x (wSl0 W) (vSl0 b) (vSl0 γ) (vSl0 β) (normOf ea (rowOf ei) (colOf ei)) (snOf ea (colOf ei)) (rowOf ei) (colOf ei)

def z2 (x : FVec Ideal S100000x128 .f32) (ei : IVec S2x1600000 32) (ea : FVec Ideal S1600000 .f32) (W : FVec Ideal S3x128x128 .f32) (b γ β : FVec Ideal S3x128 .f32) : FVec Ideal S100000x128 .f32 :=
  layerRef (z1 x ei ea W b γ β) (wSl1 W) (vSl1 b) (vSl1 γ) (vSl1 β) (normOf ea (rowOf ei) (colOf ei)) (snOf ea (colOf ei)) (rowOf ei) (colOf ei)

def z3 (x : FVec Ideal S100000x128 .f32) (ei : IVec S2x1600000 32) (ea : FVec Ideal S1600000 .f32) (W : FVec Ideal S3x128x128 .f32) (b γ β : FVec Ideal S3x128 .f32) : FVec Ideal S100000x128 .f32 :=
  layerRef (z2 x ei ea W b γ β) (wSl2 W) (vSl2 b) (vSl2 γ) (vSl2 β) (normOf ea (rowOf ei) (colOf ei)) (snOf ea (colOf ei)) (rowOf ei) (colOf ei)

def zh (x : FVec Ideal S100000x128 .f32) (ei : IVec S2x1600000 32) (ea : FVec Ideal S1600000 .f32) (W : FVec Ideal S3x128x128 .f32) (b γ β : FVec Ideal S3x128 .f32)
    (w1 : FVec Ideal S128x128 .f32) (b1 : FVec Ideal S128 .f32) (w2 : FVec Ideal S128x128 .f32) (b2 : FVec Ideal S128 .f32) : FVec Ideal S100000x128 .f32 :=
  headOf (z3 x ei ea W b γ β) w1 b1 w2 b2

def out0 (x : FVec Ideal S100000x128 .f32) (ei : IVec S2x1600000 32) (ea : FVec Ideal S1600000 .f32) (batch : IVec S100000 32) (W : FVec Ideal S3x128x128 .f32)
    (b γ β : FVec Ideal S3x128 .f32) (w1 : FVec Ideal S128x128 .f32) (b1 : FVec Ideal S128 .f32) (w2 : FVec Ideal S128x128 .f32) (b2 : FVec Ideal S128 .f32) :
    FVec Ideal S100000x512 .f32 :=
  cat4 (z1 x ei ea W b γ β) (z2 x ei ea W b γ β) (z3 x ei ea W b γ β) (zh x ei ea W b γ β w1 b1 w2 b2)

def out1 (x : FVec Ideal S100000x128 .f32) (ei : IVec S2x1600000 32) (ea : FVec Ideal S1600000 .f32) (batch : IVec S100000 32) (W : FVec Ideal S3x128x128 .f32)
    (b γ β : FVec Ideal S3x128 .f32) (w1 : FVec Ideal S128x128 .f32) (b1 : FVec Ideal S128 .f32) (w2 : FVec Ideal S128x128 .f32) (b2 : FVec Ideal S128 .f32) :
    FVec Ideal S128x512 .f32 :=
  cat4g (poolOf batch (z1 x ei ea W b γ β)) (poolOf batch (z2 x ei ea W b γ β)) (poolOf batch (z3 x ei ea W b γ β))
    (poolOf batch (zh x ei ea W b γ β w1 b1 w2 b2))

end Cert.Model

end
-- ==== Proof.KI.PreRead.lean ====
import proofs.«409448_j71794673320215_1_alg».proof.Proof.Gen.KernelIdeal.Launch
import proofs.«409448_j71794673320215_1_alg».proof.Proof.Gen.KernelIdeal.Regions
import proofs.«409448_j71794673320215_1_alg».proof.Proof.Model.Defs
import Idealize.ShloMosaic.Lib.StableHlo.Run

noncomputable section

namespace Cert.KernelIdeal.Ly

open Cert.KernelIdeal Cert.KernelIdeal.Gen
open Idealize.ShloMosaic Idealize.ShloMosaic.TcCoe Idealize.SL.Sem

theorem pre_row (X : Valuation τ sig (Elt Ideal)) :
    StableHlo.after (hostOps0 (F := Ideal)) X main_v1 = Cert.Model.rowOf (X main_arg1) := by
  after_results_simp
  unfold Cert.Model.rowOf
  rfl

theorem pre_col (X : Valuation τ sig (Elt Ideal)) :
    StableHlo.after (hostOps0 (F := Ideal)) X main_v3 = Cert.Model.colOf (X main_arg1) := by
  after_results_simp
  unfold Cert.Model.colOf
  rfl

theorem pre_norm (X : Valuation τ sig (Elt Ideal)) :
    StableHlo.after (hostOps0 (F := Ideal)) X main_v25
      = Cert.Model.normOf (X main_arg2) (Cert.Model.rowOf (X main_arg1)) (Cert.Model.colOf (X main_arg1)) := by
  after_results_simp
  unfold Cert.Model.normOf Cert.Model.degOf Cert.Model.nidx Cert.Model.colIdx Cert.Model.rowOf Cert.Model.colOf
  rfl

theorem pre_sn (X : Valuation τ sig (Elt Ideal)) :
    StableHlo.after (hostOps0 (F := Ideal)) X main_v28 = Cert.Model.snOf (X main_arg2) (Cert.Model.colOf (X main_arg1)) := by
  after_results_simp
  unfold Cert.Model.snOf Cert.Model.degOf Cert.Model.colIdx Cert.Model.colOf
  rfl

theorem pre_w0 (X : Valuation τ sig (Elt Ideal)) :
    StableHlo.after (hostOps0 (F := Ideal)) X main_v30 = Cert.Model.wSl0 (X main_arg4) := by
  after_results_simp
  unfold Cert.Model.wSl0
  rfl

theorem pre_keep (X : Valuation τ sig (Elt Ideal)) (r : Ref sig .tc) (h : r ∉ hostOps0_W) :
    StableHlo.after (hostOps0 (F := Ideal)) X r = X r :=
  StableHlo.after_of_writes_sub hostOps0 _ hostOps0_writes h

end Cert.KernelIdeal.Ly

end
-- ==== Proof.Spec.BnPoint.lean ====
import Mathlib.Data.EReal.Operations
import Mathlib.Tactic.Ring

namespace Cert.Spec

theorem bn_point_real (z μ s γ β : ℝ) :
    (((z : EReal) - (μ : EReal)) * (s : EReal)) * (γ : EReal) + (β : EReal)
      = (z : EReal) * ((γ : EReal) * (s : EReal)) + ((β : EReal) - (μ : EReal) * ((γ : EReal) * (s : EReal))) := by
  have h : ((z - μ) * s) * γ + β = z * (γ * s) + (β - μ * (γ * s)) := by ring
  exact_mod_cast congrArg (fun r : ℝ => (r : EReal)) h

theorem bn_point_zero (z μ γ β : EReal) :
    ((z - μ) * 0) * γ + β = z * (γ * 0) + (β - μ * (γ * 0)) := by
  simp

theorem bn_point (z μ s γ β : EReal) (hγt : γ ≠ ⊤) (hγb : γ ≠ ⊥) (hβt : β ≠ ⊤) (hβb : β ≠ ⊥)
    (h : (z ≠ ⊤ ∧ z ≠ ⊥ ∧ μ ≠ ⊤ ∧ μ ≠ ⊥ ∧ s ≠ ⊤ ∧ s ≠ ⊥) ∨ s = 0) :
    ((z - μ) * s) * γ + β = z * (γ * s) + (β - μ * (γ * s)) := by
  rcases h with ⟨hzt, hzb, hμt, hμb, hst, hsb⟩ | hs
  · lift z to ℝ using ⟨hzt, hzb⟩
    lift μ to ℝ using ⟨hμt, hμb⟩
    lift s to ℝ using ⟨hst, hsb⟩
    lift γ to ℝ using ⟨hγt, hγb⟩
    lift β to ℝ using ⟨hβt, hβb⟩
    exact bn_point_real z μ s γ β
  · subst hs
    exact bn_point_zero z μ γ β

end Cert.Spec
-- ==== Proof.Spec.BnColumn.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«409448_j71794673320215_1_alg».proof.Proof.Spec.Stages
import proofs.«409448_j71794673320215_1_alg».proof.Proof.Spec.BnPoint

noncomputable section

namespace Cert.Spec

open Idealize.ShloMosaic Idealize.ShloMosaic.ValueIdx

theorem ofBits_1e5 : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

theorem coe_sum {ι : Type} (s : Finset ι) (g : ι → ℝ) :
    ((∑ i ∈ s, g i : ℝ) : EReal) = ∑ i ∈ s, (g i : EReal) :=
  map_sum (⟨⟨Real.toEReal, EReal.coe_zero⟩, EReal.coe_add⟩ : ℝ →+ EReal) g s

theorem sum_eq_top {ι : Type} [Fintype ι] (f : ι → EReal) (hf : ∀ i, 0 ≤ f i) (i₀ : ι) (h₀ : f i₀ = ⊤) :
    ∑ i, f i = ⊤ :=
  top_le_iff.mp (h₀ ▸ Finset.single_le_sum (fun i _ => hf i) (Finset.mem_univ i₀))

theorem column_cases {N : ℕ} (c : Fin N → EReal) (hc : ∀ n, 0 ≤ c n) (D e : ℝ) (hD : 0 < D) (he : 0 < e)
    (μ v s : EReal) (hμ : μ = Ideal.div (∑ n, c n) (D : EReal))
    (hv : v = Ideal.div (∑ n, (c n - μ) * (c n - μ)) (D : EReal)) (hs : s = Ideal.rsqrt (v + (e : EReal))) :
    ((∀ n, c n ≠ ⊤ ∧ c n ≠ ⊥) ∧ μ ≠ ⊤ ∧ μ ≠ ⊥ ∧ s ≠ ⊤ ∧ s ≠ ⊥) ∨ s = 0 := by
  have hD' : (0 : ℝ) < 1 / D := one_div_pos.mpr hD
  rw [Ideal.div_coe hD.ne'] at hμ hv
  by_cases h : ∃ n, c n = ⊤
  · obtain ⟨n₀, h₀⟩ := h
    right
    have hμt : μ = ⊤ := by rw [hμ, sum_eq_top c hc n₀ h₀, EReal.top_mul_coe_of_pos hD']
    have hsq : ∀ n, (c n - μ) * (c n - μ) = ⊤ := fun n => by rw [hμt, EReal.sub_top, EReal.bot_mul_bot]
    have hvt : v = ⊤ := by
      rw [hv, sum_eq_top _ (fun n => by rw [hsq n]; exact le_top) n₀ (hsq n₀), EReal.top_mul_coe_of_pos hD']
    rw [hs, hvt, EReal.top_add_coe, Ideal.rsqrt_top]
  · left
    have hfin : ∀ n, c n = (((c n).toReal : ℝ) : EReal) := fun n =>
      (EReal.coe_toReal (fun ht => h ⟨n, ht⟩) (ne_of_gt (lt_of_lt_of_le EReal.bot_lt_zero (hc n)))).symm
    obtain ⟨r, rfl⟩ : ∃ r : Fin N → ℝ, c = fun n => (r n : EReal) := ⟨_, funext hfin⟩
    have hμr : μ = (((∑ n, r n) * (1 / D) : ℝ) : EReal) := by rw [hμ, ← coe_sum, ← EReal.coe_mul]
    have hvr : v = (((∑ n, (r n - (∑ n, r n) * (1 / D)) * (r n - (∑ n, r n) * (1 / D))) * (1 / D) : ℝ) : EReal) := by
      rw [hv, hμr]
      simp only [← EReal.coe_sub, ← EReal.coe_mul, ← coe_sum]
    have hpos : 0 < (∑ n, (r n - (∑ n, r n) * (1 / D)) * (r n - (∑ n, r n) * (1 / D))) * (1 / D) + e :=
      add_pos_of_nonneg_of_pos (mul_nonneg (Finset.sum_nonneg fun n _ => mul_self_nonneg _) hD'.le) he
    have hsr : s = (((Real.sqrt ((∑ n, (r n - (∑ n, r n) * (1 / D)) * (r n - (∑ n, r n) * (1 / D))) * (1 / D) + e))⁻¹ : ℝ) : EReal) := by
      rw [hs, hvr, ← EReal.coe_add, Ideal.rsqrt_coe, if_neg (not_lt.mpr hpos.le), if_neg hpos.ne']
    refine ⟨fun n => ⟨EReal.coe_ne_top _, EReal.coe_ne_bot _⟩, ?_, ?_, ?_, ?_⟩
    · rw [hμr]; exact EReal.coe_ne_top _
    · rw [hμr]; exact EReal.coe_ne_bot _
    · rw [hsr]; exact EReal.coe_ne_top _
    · rw [hsr]; exact EReal.coe_ne_bot _

abbrev S1H : Shape := ⟨2, ![1, 128]⟩

abbrev S0 : Shape := ⟨0, ![]⟩

theorem row_apply {α : Type} (b1 : SH.BroadcastsInDim S1H ![1]) (v : SH.Idx → α) (k : S1H.Idx) :
    broadcastInDim S1H ![1] b1 v k = v (ix1 (k 1)) :=
  broadcastInDim_apply _ b1 v k (ix1 (k 1)) (fun a => by match a with | ⟨0, _⟩ => rfl)

theorem down_apply {α : Type} (b2 : S1H.BroadcastsInDim SNH ![0, 1]) (w : S1H.Idx → α) (i : SNH.Idx) :
    broadcastInDim SNH ![0, 1] b2 w i = w (ix2 0 (i 1)) :=
  broadcastInDim_apply _ b2 w i (ix2 0 (i 1)) (fun a => by match a with | ⟨0, _⟩ => rfl | ⟨1, _⟩ => rfl)

theorem bc_apply {α : Type} (b1 : SH.BroadcastsInDim S1H ![1]) (b2 : S1H.BroadcastsInDim SNH ![0, 1]) (v : SH.Idx → α)
    (i : SNH.Idx) : broadcastInDim SNH ![0, 1] b2 (broadcastInDim S1H ![1] b1 v) i = v (ix1 (i 1)) :=
  (down_apply b2 _ i).trans (row_apply b1 v _)

theorem colsum_apply (hR : SNH.ReducesTo [0] SH) (hS : 0 < S0.numel) (x : FVec Ideal SNH .f32) (j : SH.Idx) :
    Host.reduceAdd x (constant S0 .f32 0x00000000#32) hR hS j = ∑ n : Fin 100000, x (ix2 n (j 0)) := by
  rw [hostReduceAdd_apply, Ideal.hostReduceAdd_single hR (by decide), constant_apply, Ideal.ofBits_zero_f32, zero_add]
  exact Finset.sum_congr rfl fun k _ => congrArg x (funext fun a => by match a with | ⟨0, _⟩ => exact Fin.ext rfl | ⟨1, _⟩ => exact Fin.ext rfl)

section Printed
variable (hR : SNH.ReducesTo [0] SH) (hS : 0 < S0.numel) (b0 b0' : S0.BroadcastsInDim SH ![])
  (b1 : SH.BroadcastsInDim S1H ![1]) (b2 : S1H.BroadcastsInDim SNH ![0, 1]) (b3 : S0.BroadcastsInDim S1H ![])
  (zr : FVec Ideal SNH .f32)

abbrev bnMean : FVec Ideal SH .f32 :=
  Host.divf (Host.reduceAdd zr (constant S0 .f32 0x00000000#32) hR hS)
    (broadcastInDim SH ![] b0 (constant S0 .f32 0x47C35000#32))

abbrev bnM1 : FVec Ideal S1H .f32 :=
  Host.divf (broadcastInDim S1H ![1] b1 (Host.reduceAdd zr (constant S0 .f32 0x00000000#32) hR hS))
    (broadcastInDim S1H ![] b3 (constant S0 .f32 0x47C35000#32))

abbrev bnN : FVec Ideal S0 .f32 :=
  subf (constant S0 .f32 0x47C35000#32) (sitofp .f32 (constantI S0 32 0#32))

abbrev bnSq : FVec Ideal SNH .f32 :=
  mulf (subf zr (broadcastInDim SNH ![0, 1] b2 (bnM1 hR hS b1 b3 zr)))
    (subf zr (broadcastInDim SNH ![0, 1] b2 (bnM1 hR hS b1 b3 zr)))

abbrev bnVar : FVec Ideal SH .f32 :=
  select (broadcastInDim SH ![] b0' (cmpf .ogt bnN (constant S0 .f32 0x00000000#32)))
    (Host.divf (Host.reduceAdd (bnSq hR hS b1 b2 b3 zr) (constant S0 .f32 0x00000000#32) hR hS) (broadcastInDim SH ![] b0 bnN))
    (broadcastInDim SH ![] b0 (id (constant S0 .f32 0x7FC00000#32)))

abbrev bnInv : FVec Ideal SH .f32 :=
  Host.rsqrt (addf (bnVar hR hS b0 b0' b1 b2 b3 zr) (broadcastInDim SH ![] b0 (constant S0 .f32 0x3727C5AC#32)))

theorem bnN_apply (k : S0.Idx) : bnN k = ((100000 : ℝ) : EReal) := by
  show Ideal.ofBits .f32 0x47C35000#32 - ((((0#32 : BitVec 32).toInt : ℝ)) : EReal) = _
  rw [ofBits_1e5]; simp

theorem bnMean_apply (j : SH.Idx) :
    bnMean hR hS b0 zr j = Ideal.div (∑ n : Fin 100000, zr (ix2 n (j 0))) ((100000 : ℝ) : EReal) := by
  show Ideal.div (Host.reduceAdd zr (constant S0 .f32 0x00000000#32) hR hS j)
    (broadcastInDim SH ![] b0 (constant (F := Ideal) S0 .f32 0x47C35000#32) j) = _
  rw [colsum_apply, broadcastInDim_scalar_apply, constant_apply, ofBits_1e5]

theorem bnM1_apply (k : S1H.Idx) :
    bnM1 hR hS b1 b3 zr k = Ideal.div (∑ n : Fin 100000, zr (ix2 n (k 1))) ((100000 : ℝ) : EReal) := by
  show Ideal.div (broadcastInDim S1H ![1] b1 (Host.reduceAdd zr (constant S0 .f32 0x00000000#32) hR hS) k)
    (broadcastInDim S1H ![] b3 (constant (F := Ideal) S0 .f32 0x47C35000#32) k) = _
  rw [row_apply, colsum_apply, broadcastInDim_scalar_apply, constant_apply, ofBits_1e5]

theorem bnSq_apply (i : SNH.Idx) :
    bnSq hR hS b1 b2 b3 zr i
      = (zr i - Ideal.div (∑ n : Fin 100000, zr (ix2 n (i 1))) ((100000 : ℝ) : EReal))
        * (zr i - Ideal.div (∑ n : Fin 100000, zr (ix2 n (i 1))) ((100000 : ℝ) : EReal)) := by
  show (zr i - broadcastInDim SNH ![0, 1] b2 (bnM1 hR hS b1 b3 zr) i)
    * (zr i - broadcastInDim SNH ![0, 1] b2 (bnM1 hR hS b1 b3 zr) i) = _
  rw [down_apply, bnM1_apply]

theorem bnSq_apply' (n : Fin 100000) (c : Fin 128) :
    bnSq hR hS b1 b2 b3 zr (ix2 n c)
      = (zr (ix2 n c) - Ideal.div (∑ n : Fin 100000, zr (ix2 n c)) ((100000 : ℝ) : EReal))
        * (zr (ix2 n c) - Ideal.div (∑ n : Fin 100000, zr (ix2 n c)) ((100000 : ℝ) : EReal)) :=
  bnSq_apply hR hS b1 b2 b3 zr (ix2 n c)

theorem bnVar_apply (j : SH.Idx) :
    bnVar hR hS b0 b0' b1 b2 b3 zr j
      = Ideal.div (∑ n : Fin 100000,
          (zr (ix2 n (j 0)) - Ideal.div (∑ n : Fin 100000, zr (ix2 n (j 0))) ((100000 : ℝ) : EReal))
          * (zr (ix2 n (j 0)) - Ideal.div (∑ n : Fin 100000, zr (ix2 n (j 0))) ((100000 : ℝ) : EReal)))
        ((100000 : ℝ) : EReal) := by
  show Scalar.select (broadcastInDim SH ![] b0' (cmpf .ogt bnN (constant S0 .f32 0x00000000#32)) j)
    (Ideal.div (Host.reduceAdd (bnSq hR hS b1 b2 b3 zr) (constant S0 .f32 0x00000000#32) hR hS j) (broadcastInDim SH ![] b0 bnN j))
    (broadcastInDim SH ![] b0 (id (constant (F := Ideal) S0 .f32 0x7FC00000#32)) j) = _
  have hc : broadcastInDim SH ![] b0' (cmpf .ogt bnN (constant S0 .f32 0x00000000#32)) j = 1#1 := by
    rw [broadcastInDim_scalar_apply]
    show Ideal.cmp .ogt (bnN ix0) (Ideal.ofBits .f32 0x00000000#32) = 1#1
    rw [bnN_apply, Ideal.ofBits_zero_f32]
    simp [Ideal.cmp]
  rw [hc, select_one, colsum_apply, broadcastInDim_scalar_apply, bnN_apply]
  exact congrArg (fun t : EReal => Ideal.div t ((100000 : ℝ) : EReal))
    (Finset.sum_congr rfl fun n _ => bnSq_apply' hR hS b1 b2 b3 zr n (j 0))

theorem bnInv_apply (j : SH.Idx) :
    bnInv hR hS b0 b0' b1 b2 b3 zr j
      = Ideal.rsqrt (bnVar hR hS b0 b0' b1 b2 b3 zr j + Ideal.ofBits .f32 0x3727C5AC#32) := by
  show Ideal.rsqrt (bnVar hR hS b0 b0' b1 b2 b3 zr j + broadcastInDim SH ![] b0 (constant (F := Ideal) S0 .f32 0x3727C5AC#32) j) = _
  rw [broadcastInDim_scalar_apply, constant_apply]

theorem bn_column (hz : ∀ i, 0 ≤ zr i) (γ β : FVec Ideal SH .f32) (hγ : ∀ j, γ j ≠ ⊤ ∧ γ j ≠ ⊥)
    (hβ : ∀ j, β j ≠ ⊤ ∧ β j ≠ ⊥) :
    addf (mulf (mulf (subf zr (broadcastInDim SNH ![0, 1] b2 (broadcastInDim S1H ![1] b1 (bnMean hR hS b0 zr))))
        (broadcastInDim SNH ![0, 1] b2 (broadcastInDim S1H ![1] b1 (bnInv hR hS b0 b0' b1 b2 b3 zr))))
        (broadcastInDim SNH ![0, 1] b2 (broadcastInDim S1H ![1] b1 γ)))
      (broadcastInDim SNH ![0, 1] b2 (broadcastInDim S1H ![1] b1 β))
    = bnF zr (mulf γ (bnInv hR hS b0 b0' b1 b2 b3 zr))
        (subf β (mulf (bnMean hR hS b0 zr) (mulf γ (bnInv hR hS b0 b0' b1 b2 b3 zr)))) := by
  funext i
  obtain ⟨e, he, hε⟩ := ofBits_eps
  show ((zr i - broadcastInDim SNH ![0, 1] b2 (broadcastInDim S1H ![1] b1 (bnMean hR hS b0 zr)) i)
        * broadcastInDim SNH ![0, 1] b2 (broadcastInDim S1H ![1] b1 (bnInv hR hS b0 b0' b1 b2 b3 zr)) i)
        * broadcastInDim SNH ![0, 1] b2 (broadcastInDim S1H ![1] b1 γ) i
      + broadcastInDim SNH ![0, 1] b2 (broadcastInDim S1H ![1] b1 β) i
    = zr i * (γ (ix1 (i 1)) * bnInv hR hS b0 b0' b1 b2 b3 zr (ix1 (i 1)))
      + (β (ix1 (i 1)) - bnMean hR hS b0 zr (ix1 (i 1)) * (γ (ix1 (i 1)) * bnInv hR hS b0 b0' b1 b2 b3 zr (ix1 (i 1))))
  rw [bc_apply, bc_apply, bc_apply, bc_apply]
  have key := column_cases (fun n => zr (ix2 n (i 1))) (fun n => hz _) 100000 e (by norm_num) he
    (bnMean hR hS b0 zr (ix1 (i 1))) (bnVar hR hS b0 b0' b1 b2 b3 zr (ix1 (i 1))) (bnInv hR hS b0 b0' b1 b2 b3 zr (ix1 (i 1)))
    (bnMean_apply hR hS b0 zr _)
    (by rw [bnVar_apply, bnMean_apply]) (by rw [bnInv_apply, hε])
  have hi : zr i = zr (ix2 (i 0) (i 1)) := congrArg zr (eq_ix2 i)
  exact bn_point _ _ _ _ _ (hγ _).1 (hγ _).2 (hβ _).1 (hβ _).2
    (key.imp (fun h => ⟨hi ▸ (h.1 (i 0)).1, hi ▸ (h.1 (i 0)).2, h.2⟩) id)

end Printed

end Cert.Spec

end
-- ==== Proof.KI.Layer0.lean ====
import proofs.«409448_j71794673320215_1_alg».proof.Proof.KI.Fold
import proofs.«409448_j71794673320215_1_alg».proof.Proof.KI.Val0
import proofs.«409448_j71794673320215_1_alg».proof.Proof.KI.Val1
import proofs.«409448_j71794673320215_1_alg».proof.Proof.KI.Val2
import proofs.«409448_j71794673320215_1_alg».proof.Proof.KI.PreRead
import proofs.«409448_j71794673320215_1_alg».proof.Proof.Spec.Stages
import proofs.«409448_j71794673320215_1_alg».proof.Proof.Spec.BnColumn
import proofs.«409448_j71794673320215_1_alg».proof.Proof.Model.Defs
import Idealize.ShloMosaic.Lib.StableHlo.Run

set_option maxRecDepth 16384

noncomputable section

namespace Cert.KernelIdeal.Ly

open Cert.KernelIdeal Cert.KernelIdeal.Gen Cert.KernelIdeal.Rg
open Idealize.ShloMosaic Idealize.ShloMosaic.TcCoe Idealize.SL.Sem

section Shared

abbrev meanK (zr : FVec Ideal S100000x128 .f32) : FVec Ideal S128 .f32 :=
  Cert.Spec.bnMean reducesTo_S100000x128_S128_d0 h_S_ bcast_S_S128 zr

abbrev invK (zr : FVec Ideal S100000x128 .f32) : FVec Ideal S128 .f32 :=
  Cert.Spec.bnInv reducesTo_S100000x128_S128_d0 h_S_ bcast_S_S128 bcast_S_S128 bcast_S128_S1x128_1
    bcast_S1x128_S100000x128_0_1 bcast_S_S1x128 zr

abbrev invOfVar (v : FVec Ideal S128 .f32) : FVec Ideal S128 .f32 :=
  Host.rsqrt (F := Ideal) (addf (F := Ideal) v (broadcastInDim S128 ![] bcast_S_S128 (constant (F := Ideal) S_ .f32 0x3727C5AC#32)))

def zrK (z : FVec Ideal S100000x128 .f32) (w : FVec Ideal S128x128 .f32) (b : FVec Ideal S128 .f32)
    (norm : FVec Ideal S1600000 .f32) (sn : FVec Ideal S100000x1 .f32) (row col : IVec S1600000 32) : FVec Ideal S100000x128 .f32 :=
  Cert.Spec.combF (Cert.Model.aggOf (Cert.Spec.linF z w) norm row col) (Cert.Spec.linF z w) sn b

def layerK (z : FVec Ideal S100000x128 .f32) (w : FVec Ideal S128x128 .f32) (b γ β : FVec Ideal S128 .f32)
    (norm : FVec Ideal S1600000 .f32) (sn : FVec Ideal S100000x1 .f32) (row col : IVec S1600000 32) : FVec Ideal S100000x128 .f32 :=
  Cert.Spec.bnF (zrK z w b norm sn row col) (mulf (F := Ideal) γ (invK (zrK z w b norm sn row col)))
    (subf (F := Ideal) β (mulf (F := Ideal) (meanK (zrK z w b norm sn row col)) (mulf (F := Ideal) γ (invK (zrK z w b norm sn row col)))))

variable (m : (ℓ : Loc nD τ sig) → Buf (Elt Ideal) ℓ) (c : Dev nD)

abbrev aX : FVec Ideal S100000x128 .f32 := m ((c : Thread nD τ).loc main_arg0)
abbrev aEi : IVec S2x1600000 32 := m ((c : Thread nD τ).loc main_arg1)
abbrev aEa : FVec Ideal S1600000 .f32 := m ((c : Thread nD τ).loc main_arg2)
abbrev aW : FVec Ideal S3x128x128 .f32 := m ((c : Thread nD τ).loc main_arg4)
abbrev aB : FVec Ideal S3x128 .f32 := m ((c : Thread nD τ).loc main_arg5)
abbrev aG : FVec Ideal S3x128 .f32 := m ((c : Thread nD τ).loc main_arg6)
abbrev aBt : FVec Ideal S3x128 .f32 := m ((c : Thread nD τ).loc main_arg7)

abbrev row0 : IVec S1600000 32 := Cert.Model.rowOf (aEi m c)
abbrev col0 : IVec S1600000 32 := Cert.Model.colOf (aEi m c)
abbrev norm0 : FVec Ideal S1600000 .f32 := Cert.Model.normOf (aEa m c) (row0 m c) (col0 m c)
abbrev sn0 : FVec Ideal S100000x1 .f32 := Cert.Model.snOf (aEa m c) (col0 m c)

abbrev zin0 : FVec Ideal S100000x128 .f32 := aX m c
abbrev w0 : FVec Ideal S128x128 .f32 := Cert.Model.wSl0 (aW m c)
abbrev b0 : FVec Ideal S128 .f32 := Cert.Model.vSl0 (aB m c)
abbrev g0 : FVec Ideal S128 .f32 := Cert.Model.vSl0 (aG m c)
abbrev bt0 : FVec Ideal S128 .f32 := Cert.Model.vSl0 (aBt m c)

abbrev zout0 : FVec Ideal S100000x128 .f32 :=
  layerK (zin0 m c) (w0 m c) (b0 m c) (g0 m c) (bt0 m c) (norm0 m c) (sn0 m c) (row0 m c) (col0 m c)

end Shared

section Reads
variable (X : Valuation τ sig (Elt Ideal))

theorem ops1_agg : StableHlo.after (hostOps1 (F := Ideal)) X main_v44
    = Cert.Model.aggOf (X main_v31) (X main_v25) (X main_v1) (X main_v3) := by
  after_results_simp
  try rfl

theorem ops1_bias : StableHlo.after (hostOps1 (F := Ideal)) X main_v46 = Cert.Model.vSl0 (X main_arg5) := by
  after_results_simp
  try rfl

theorem ops1_keep (r : Ref sig .tc) (h : r ∉ hostOps1_W) : StableHlo.after (hostOps1 (F := Ideal)) X r = X r :=
  StableHlo.after_of_writes_sub hostOps1 _ hostOps1_writes h

theorem ops2_mean : StableHlo.after (hostOps2 (F := Ideal)) X main_v50 = meanK (X main_v47) := by
  after_results_simp
  try rfl

theorem ops2_ddof : StableHlo.after (hostOps2 (F := Ideal)) X main_c_10 = constantI S_ 32 0#32 := by
  after_results_simp
  try rfl

theorem ops2_keep (r : Ref sig .tc) (h : r ∉ hostOps2_W) : StableHlo.after (hostOps2 (F := Ideal)) X r = X r :=
  StableHlo.after_of_writes_sub hostOps2 _ hostOps2_writes h

theorem ops2_1_var (hc : X main_c_10 = constantI S_ 32 0#32) : StableHlo.after (hostOps2_1 (F := Ideal)) X main_v51
    = Cert.Spec.bnVar reducesTo_S100000x128_S128_d0 h_S_ bcast_S_S128 bcast_S_S128 bcast_S128_S1x128_1
        bcast_S1x128_S100000x128_0_1 bcast_S_S1x128 (X main_v47) := by
  after_results_simp
  rw [hc]
  try rfl

theorem ops2_1_keep (r : Ref sig .tc) (h : r ∉ hostOps2_1_W) : StableHlo.after (hostOps2_1 (F := Ideal)) X r = X r :=
  StableHlo.after_of_writes_sub hostOps2_1 _ hostOps2_1_writes h

theorem ops2_2_scale : StableHlo.after (hostOps2_2 (F := Ideal)) X main_v57
    = mulf (F := Ideal) (Cert.Model.vSl0 (X main_arg6)) (invOfVar (X main_v51)) := by
  after_results_simp
  try rfl

theorem ops2_2_shift : StableHlo.after (hostOps2_2 (F := Ideal)) X main_v61
    = subf (F := Ideal) (Cert.Model.vSl0 (X main_arg7))
        (mulf (F := Ideal) (X main_v50) (mulf (F := Ideal) (Cert.Model.vSl0 (X main_arg6)) (invOfVar (X main_v51)))) := by
  after_results_simp
  try rfl

theorem ops2_2_keep (r : Ref sig .tc) (h : r ∉ hostOps2_2_W) : StableHlo.after (hostOps2_2 (F := Ideal)) X r = X r :=
  StableHlo.after_of_writes_sub hostOps2_2 _ hostOps2_2_writes h

theorem bn3_zr_l0 : StableHlo.after (hostOps2_2 (F := Ideal)) (StableHlo.after (hostOps2_1 (F := Ideal)) (StableHlo.after (hostOps2 (F := Ideal)) X)) main_v47
    = X main_v47 := by
  rw [ops2_2_keep _ main_v47 (by decide), ops2_1_keep _ main_v47 (by decide), ops2_keep _ main_v47 (by decide)]

theorem bn3_var_l0 : StableHlo.after (hostOps2_1 (F := Ideal)) (StableHlo.after (hostOps2 (F := Ideal)) X) main_v51
    = Cert.Spec.bnVar reducesTo_S100000x128_S128_d0 h_S_ bcast_S_S128 bcast_S_S128 bcast_S128_S1x128_1
        bcast_S1x128_S100000x128_0_1 bcast_S_S1x128 (X main_v47) := by
  rw [ops2_1_var _ (ops2_ddof X), ops2_keep _ main_v47 (by decide)]

theorem bn3_scale_l0 : StableHlo.after (hostOps2_2 (F := Ideal)) (StableHlo.after (hostOps2_1 (F := Ideal)) (StableHlo.after (hostOps2 (F := Ideal)) X)) main_v57
    = mulf (F := Ideal) (Cert.Model.vSl0 (X main_arg6)) (invK (X main_v47)) := by
  rw [ops2_2_scale, bn3_var_l0, ops2_1_keep _ main_arg6 (by decide), ops2_keep _ main_arg6 (by decide)]

theorem bn3_shift_l0 : StableHlo.after (hostOps2_2 (F := Ideal)) (StableHlo.after (hostOps2_1 (F := Ideal)) (StableHlo.after (hostOps2 (F := Ideal)) X)) main_v61
    = subf (F := Ideal) (Cert.Model.vSl0 (X main_arg7))
        (mulf (F := Ideal) (meanK (X main_v47)) (mulf (F := Ideal) (Cert.Model.vSl0 (X main_arg6)) (invK (X main_v47)))) := by
  rw [ops2_2_shift, bn3_var_l0, ops2_1_keep _ main_arg6 (by decide), ops2_keep _ main_arg6 (by decide),
    ops2_1_keep _ main_arg7 (by decide), ops2_keep _ main_arg7 (by decide),
    ops2_1_keep _ main_v50 (by decide), ops2_mean]

end Reads

section Entry
variable (m : (ℓ : Loc nD τ sig) → Buf (Elt Ideal) ℓ) (c : Dev nD)

theorem ent0_z : W1 m c main_arg0 = zin0 m c := pre_keep (W0 m c) main_arg0 (by decide)
theorem ent0_w : W1 m c main_v30 = w0 m c := pre_w0 (W0 m c)
theorem ent0_row : W1 m c main_v1 = row0 m c := pre_row (W0 m c)
theorem ent0_col : W1 m c main_v3 = col0 m c := pre_col (W0 m c)
theorem ent0_norm : W1 m c main_v25 = norm0 m c := pre_norm (W0 m c)
theorem ent0_sn : W1 m c main_v28 = sn0 m c := pre_sn (W0 m c)
theorem ent0_aw : W1 m c main_arg4 = aW m c := pre_keep (W0 m c) main_arg4 (by decide)
theorem ent0_b : W1 m c main_arg5 = aB m c := pre_keep (W0 m c) main_arg5 (by decide)
theorem ent0_g : W1 m c main_arg6 = aG m c := pre_keep (W0 m c) main_arg6 (by decide)
theorem ent0_bt : W1 m c main_arg7 = aBt m c := pre_keep (W0 m c) main_arg7 (by decide)

end Entry

section Layer
variable (m : (ℓ : Loc nD τ sig) → Buf (Elt Ideal) ℓ) (c : Dev nD)

theorem W2_keep (r : Ref sig .tc) (h : r ≠ main_v31) : W2 m c r = W1 m c r :=
  Function.update_of_ne (StableHlo.devRef_ne_of_ne h : (Proc.devRef .tc r : DevRef τ sig) ≠ Proc.devRef .tc main_v31) _ _
theorem W4_keep (r : Ref sig .tc) (h : r ≠ main_v47) : W4 m c r = W3 m c r :=
  Function.update_of_ne (StableHlo.devRef_ne_of_ne h : (Proc.devRef .tc r : DevRef τ sig) ≠ Proc.devRef .tc main_v47) _ _
theorem W8_keep (r : Ref sig .tc) (h : r ≠ main_v62) : W8 m c r = W7 m c r :=
  Function.update_of_ne (StableHlo.devRef_ne_of_ne h : (Proc.devRef .tc r : DevRef τ sig) ≠ Proc.devRef .tc main_v62) _ _

theorem W3_keep (r : Ref sig .tc) (h : r ∉ hostOps1_W) : W3 m c r = W2 m c r := ops1_keep (W2 m c) r h
theorem W5_keep (r : Ref sig .tc) (h : r ∉ hostOps2_W) : W5 m c r = W4 m c r := ops2_keep (W4 m c) r h
theorem W6_keep (r : Ref sig .tc) (h : r ∉ hostOps2_1_W) : W6 m c r = W5 m c r := ops2_1_keep (W5 m c) r h
theorem W7_keep (r : Ref sig .tc) (h : r ∉ hostOps2_2_W) : W7 m c r = W6 m c r := ops2_2_keep (W6 m c) r h

theorem W2_lin : W2 m c main_v31 = Cert.Spec.linF (W1 m c main_arg0) (W1 m c main_v30) := by
  show Function.update (W1 m c) main_v31 (o2 m c) main_v31 = _
  rw [Function.update_self]
  unfold o2
  exact Val.arrAt_out0 (U1 m) c

theorem W4_comb : W4 m c main_v47
    = Cert.Spec.combF (W3 m c main_v44) (W3 m c main_v31) (W3 m c main_v28) (W3 m c main_v46) := by
  show Function.update (W3 m c) main_v47 (o4 m c) main_v47 = _
  rw [Function.update_self]
  unfold o4
  exact Val.arrAt_out1 (U3 m) c

theorem W8_bn : W8 m c main_v62 = Cert.Spec.bnF (W7 m c main_v47) (W7 m c main_v57) (W7 m c main_v61) := by
  show Function.update (W7 m c) main_v62 (o8 m c) main_v62 = _
  rw [Function.update_self]
  unfold o8
  exact Val.arrAt_out2 (U7 m) c

theorem W3_agg : W3 m c main_v44 = Cert.Model.aggOf (W2 m c main_v31) (W2 m c main_v25) (W2 m c main_v1) (W2 m c main_v3) :=
  ops1_agg (W2 m c)
theorem W3_bias : W3 m c main_v46 = Cert.Model.vSl0 (W2 m c main_arg5) := ops1_bias (W2 m c)

theorem W2_h : W2 m c main_v31 = Cert.Spec.linF (zin0 m c) (w0 m c) := by
  rw [W2_lin, ent0_z, ent0_w]

theorem W4_zr : W4 m c main_v47 = zrK (zin0 m c) (w0 m c) (b0 m c) (norm0 m c) (sn0 m c) (row0 m c) (col0 m c) := by
  rw [W4_comb, W3_agg, W3_bias, W3_keep m c main_v31 (by decide), W3_keep m c main_v28 (by decide), W2_h,
    W2_keep m c main_v25 (by decide), W2_keep m c main_v1 (by decide), W2_keep m c main_v3 (by decide),
    W2_keep m c main_v28 (by decide), W2_keep m c main_arg5 (by decide),
    ent0_norm, ent0_row, ent0_col, ent0_sn, ent0_b]
  rfl

theorem W4_arg (r : Ref sig .tc) (h4 : r ≠ main_v47) (h3 : r ∉ hostOps1_W) (h2 : r ≠ main_v31) : W4 m c r = W1 m c r := by
  rw [W4_keep m c r h4, W3_keep m c r h3, W2_keep m c r h2]

theorem W7_zr : W7 m c main_v47 = zrK (zin0 m c) (w0 m c) (b0 m c) (norm0 m c) (sn0 m c) (row0 m c) (col0 m c) :=
  (bn3_zr_l0 (W4 m c)).trans (W4_zr m c)
theorem W7_scale : W7 m c main_v57
    = mulf (F := Ideal) (g0 m c) (invK (zrK (zin0 m c) (w0 m c) (b0 m c) (norm0 m c) (sn0 m c) (row0 m c) (col0 m c))) := by
  refine (bn3_scale_l0 (W4 m c)).trans ?_
  rw [W4_zr, W4_arg m c main_arg6 (by decide) (by decide) (by decide), ent0_g]
theorem W7_shift : W7 m c main_v61
    = subf (F := Ideal) (bt0 m c)
        (mulf (F := Ideal) (meanK (zrK (zin0 m c) (w0 m c) (b0 m c) (norm0 m c) (sn0 m c) (row0 m c) (col0 m c)))
          (mulf (F := Ideal) (g0 m c) (invK (zrK (zin0 m c) (w0 m c) (b0 m c) (norm0 m c) (sn0 m c) (row0 m c) (col0 m c))))) := by
  refine (bn3_shift_l0 (W4 m c)).trans ?_
  rw [W4_zr, W4_arg m c main_arg6 (by decide) (by decide) (by decide), ent0_g,
    W4_arg m c main_arg7 (by decide) (by decide) (by decide), ent0_bt]

theorem zout0_eq : W8 m c main_v62 = zout0 m c := by
  rw [W8_bn, W7_zr, W7_scale, W7_shift]
  rfl

end Layer

section Exit
variable (m : (ℓ : Loc nD τ sig) → Buf (Elt Ideal) ℓ) (c : Dev nD)

theorem lay0_keep (r : Ref sig .tc) (h8 : r ≠ main_v62) (h7 : r ∉ hostOps2_2_W) (h6 : r ∉ hostOps2_1_W) (h5 : r ∉ hostOps2_W)
    (h4 : r ≠ main_v47) (h3 : r ∉ hostOps1_W) (h2 : r ≠ main_v31) : W8 m c r = W1 m c r := by
  rw [W8_keep m c r h8, W7_keep m c r h7, W6_keep m c r h6, W5_keep m c r h5, W4_arg m c r h4 h3 h2]

theorem exit0_row : W8 m c main_v1 = row0 m c :=
  (lay0_keep m c main_v1 (by decide) (by decide) (by decide) (by decide) (by decide) (by decide) (by decide)).trans (ent0_row m c)
theorem exit0_col : W8 m c main_v3 = col0 m c :=
  (lay0_keep m c main_v3 (by decide) (by decide) (by decide) (by decide) (by decide) (by decide) (by decide)).trans (ent0_col m c)
theorem exit0_norm : W8 m c main_v25 = norm0 m c :=
  (lay0_keep m c main_v25 (by decide) (by decide) (by decide) (by decide) (by decide) (by decide) (by decide)).trans (ent0_norm m c)
theorem exit0_sn : W8 m c main_v28 = sn0 m c :=
  (lay0_keep m c main_v28 (by decide) (by decide) (by decide) (by decide) (by decide) (by decide) (by decide)).trans (ent0_sn m c)
theorem exit0_aw : W8 m c main_arg4 = aW m c :=
  (lay0_keep m c main_arg4 (by decide) (by decide) (by decide) (by decide) (by decide) (by decide) (by decide)).trans (ent0_aw m c)
theorem exit0_b : W8 m c main_arg5 = aB m c :=
  (lay0_keep m c main_arg5 (by decide) (by decide) (by decide) (by decide) (by decide) (by decide) (by decide)).trans (ent0_b m c)
theorem exit0_g : W8 m c main_arg6 = aG m c :=
  (lay0_keep m c main_arg6 (by decide) (by decide) (by decide) (by decide) (by decide) (by decide) (by decide)).trans (ent0_g m c)
theorem exit0_bt : W8 m c main_arg7 = aBt m c :=
  (lay0_keep m c main_arg7 (by decide) (by decide) (by decide) (by decide) (by decide) (by decide) (by decide)).trans (ent0_bt m c)

end Exit

section Stated
variable (m : (ℓ : Loc nD τ sig) → Buf (Elt Ideal) ℓ) (c : Dev nD)

theorem z1_eq : W8 m c main_v62
    = Cert.Spec.bnF (zrK (aX m c) (Cert.Model.wSl0 (aW m c)) (Cert.Model.vSl0 (aB m c)) (norm0 m c) (sn0 m c) (row0 m c) (col0 m c))
        (mulf (F := Ideal) (Cert.Model.vSl0 (aG m c))
          (invK (zrK (aX m c) (Cert.Model.wSl0 (aW m c)) (Cert.Model.vSl0 (aB m c)) (norm0 m c) (sn0 m c) (row0 m c) (col0 m c))))
        (subf (F := Ideal) (Cert.Model.vSl0 (aBt m c))
          (mulf (F := Ideal) (meanK (zrK (aX m c) (Cert.Model.wSl0 (aW m c)) (Cert.Model.vSl0 (aB m c)) (norm0 m c) (sn0 m c) (row0 m c) (col0 m c)))
            (mulf (F := Ideal) (Cert.Model.vSl0 (aG m c))
              (invK (zrK (aX m c) (Cert.Model.wSl0 (aW m c)) (Cert.Model.vSl0 (aB m c)) (norm0 m c) (sn0 m c) (row0 m c) (col0 m c)))))) :=
  zout0_eq m c

end Stated

end Cert.KernelIdeal.Ly

end
-- ==== Proof.KI.Val3.lean ====
import proofs.«409448_j71794673320215_1_alg».proof.Proof.KI.R3
import proofs.«409448_j71794673320215_1_alg».proof.Proof.Spec.Stages
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

theorem lhs3_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬ (0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs3_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  DotDims.lhsIdx_val_of_single (d := dot_S5000x128_S128x128_S5000x128_1_0_0_1_n_n) (cl := 1) rfl j k

theorem rhs3_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  DotDims.rhsIdx_val_of_single (d := dot_S5000x128_S128x128_S5000x128_1_0_0_1_n_n) (cr := 0) rfl j k

theorem rhs3_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬ (1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem pay3_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 dot_S5000x128_S128x128_S5000x128_1_0_0_1_n_n 128 rfl rfl).symm k) = ix2 p k := by
    funext a; apply Fin.ext
    match a with
    | ⟨0, _⟩ => exact lhs3_0 _ _
    | ⟨1, _⟩ => exact (lhs3_1 _ _).trans ck
  have hr : dot_S5000x128_S128x128_S5000x128_1_0_0_1_n_n.rhsIdx (ix2 p q) ((contrEquiv1 dot_S5000x128_S128x128_S5000x128_1_0_0_1_n_n 128 rfl rfl).symm k) = ix2 k q := by
    funext a; apply Fin.ext
    match a with
    | ⟨0, _⟩ => exact (rhs3_0 _ _).trans ck
    | ⟨1, _⟩ => exact rhs3_1 _ _
  rw [hl, hr]
  rfl

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem iblk3_0_apply (V : (c : Dev nD) → (b : Ref sig .tc) → Buf (Elt Ideal) ((c : Thread nD τ).loc b)) (c : Dev nD)
    (t : Fin cfg3.N) (y : S5000x128.Idx) (i : S100000x128.Idx)
    (h0 : (i 0).val = t.val * 5000 + (y 0).val) (h1 : (i 1).val = (y 1).val) :
    (Rg.iblk3 V c 0 t : Vec Ideal S5000x128 .f32) y = (V c (Pipeline.arrRef spec3 0) : S100000x128.Idx → EReal) i := by
  obtain ⟨e0, e1, -, -, -, -⟩ := idx_facts3 t
  unfold Rg.iblk3
  rw [View.read_apply]
  show V c main_v62 (((cfg3.win 0).blk t).view.emb y) = V c main_v62 i
  congr 1
  funext a
  apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

theorem iblk3_1_apply (V : (c : Dev nD) → (b : Ref sig .tc) → Buf (Elt Ideal) ((c : Thread nD τ).loc b)) (c : Dev nD)
    (t : Fin cfg3.N) (y : S128x128.Idx) :
    (Rg.iblk3 V c 1 t : Vec Ideal S128x128 .f32) y = (V c (Pipeline.arrRef spec3 1) : S128x128.Idx → EReal) y := by
  obtain ⟨-, -, e2, e3, -, -⟩ := idx_facts3 t
  unfold Rg.iblk3
  rw [View.read_apply]
  show V c main_v64 (((cfg3.win 1).blk t).view.emb y) = V c main_v64 y
  congr 1
  funext a
  apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem pay3_linF (A0 : S100000x128.Idx → EReal) (A1 : S128x128.Idx → EReal)
    (x0 : Vec Ideal S5000x128 .f32) (x1 : Vec Ideal S128x128 .f32) (n : ℕ)
    (hx0 : ∀ (y : S5000x128.Idx) (i : S100000x128.Idx), (i 0).val = n * 5000 + (y 0).val → (i 1).val = (y 1).val → x0 y = A0 i)
    (hx1 : ∀ y : S128x128.Idx, x1 y = A1 y)
    (j : S5000x128.Idx) (i : S100000x128.Idx) (hi0 : (i 0).val = n * 5000 + (j 0).val) (hi1 : (i 1).val = (j 1).val) :
    k3_pay1 (F := Ideal) x0 x1 j = Cert.Spec.linF A0 A1 i := by
  obtain ⟨p, q, rfl⟩ : ∃ (p : Fin 5000) (q : Fin 128), j = ix2 p q := ⟨j 0, j 1, eq_ix2 j⟩
  rw [pay3_apply]
  unfold Cert.Spec.linF
  refine Finset.sum_congr rfl fun k _ => ?_
  rw [hx0 (ix2 p k) (ix2 (i 0) k) hi0 rfl, hx1 (ix2 k q)]
  have hq : (i 1) = q := Fin.ext hi1
  rw [hq]

theorem flushed3_eq (V : (c : Dev nD) → (b : Ref sig .tc) → Buf (Elt Ideal) ((c : Thread nD τ).loc b)) (c : Dev nD) (t : Fin cfg3.N) :
    (Rg.dat3 (F := Ideal) V c).flushed 2 t
      = ((cfg3.win 2).blk t).view.read (Elt Ideal) (Cert.Spec.linF (V c (Pipeline.arrRef spec3 0)) (V c (Pipeline.arrRef spec3 1))) := by
  show (cfg3.win 2).cut (grid3.coords t) ((Rg.dat3 V c).after 2 t) = _
  rw [Rg.after3_2]
  unfold Rg.out3_2
  rw [View.canon_unit_zero hz3]
  simp only [View.ld_unit_zero (S := S5000x128) hz3, View.ld_unit_zero (S := S128x128) hz3]
  obtain ⟨-, -, -, -, e4, e5⟩ := idx_facts3 t
  funext j
  rw [View.read_apply]
  refine pay3_linF _ _ _ _ t.val (fun y i h0 h1 => iblk3_0_apply V c t y i h0 h1) (fun y => iblk3_1_apply V c t y) j _ ?_ ?_
  · show win3_2.index t (0 : Fin 2) * 5000 + 1 * (j 0).val = t.val * 5000 + (j 0).val; omega
  · show win3_2.index t (1 : Fin 2) * 128 + 1 * (j 1).val = (j 1).val; omega

theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem arrAt_out3 (V : (c : Dev nD) → (b : Ref sig .tc) → Buf (Elt Ideal) ((c : Thread nD τ).loc b)) (c : Dev nD) :
    (Rg.dat3 (F := Ideal) V c).arrAt 2 cfg3.N = Cert.Spec.linF (V c (Pipeline.arrRef spec3 0)) (V c (Pipeline.arrRef spec3 1)) :=
  (Rg.dat3 (F := Ideal) V c).arrAt_eq_of_cover 2 _ (fun t _ => flushed3_eq V c t) cover3

end Cert.KernelIdeal.Val

end
-- ==== Proof.KI.Val4.lean ====
import proofs.«409448_j71794673320215_1_alg».proof.Proof.KI.R4
import proofs.«409448_j71794673320215_1_alg».proof.Proof.Spec.Stages
import Idealize.ShloMosaic.Lib.Pipeline.Value
import Idealize.ShloMosaic.Lib.ValueLayout
import Idealize.ShloMosaic.PureOps.Ideal.Laws
import proofs.«409448_j71794673320215_1_alg».proof.Proof.KI.Val1

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev agg4 (c : Dev nD) : Cert.Spec.SNH.Idx → EReal := V c (Pipeline.arrRef spec4 0)
abbrev feat4 (c : Dev nD) : Cert.Spec.SNH.Idx → EReal := V c (Pipeline.arrRef spec4 1)
abbrev sn4 (c : Dev nD) : Cert.Spec.SN1.Idx → EReal := V c (Pipeline.arrRef spec4 2)
abbrev bias4 (c : Dev nD) : Cert.Spec.SH.Idx → EReal := V c (Pipeline.arrRef spec4 3)

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

theorem iblk4_0_apply4 (c : Dev nD) (t : Fin cfg4.N) (p : Fin 5000) (q : Fin 128) (k : Cert.Spec.SNH.Idx)
    (hk0 : (k 0).val = 5000 * t.val + p.val) (hk1 : (k 1).val = q.val) :
    (iblk4 V c 0 t : Vec Ideal S5000x128 .f32) (ix2 p q) = agg4 V c k := by
  obtain ⟨e0, e1, -⟩ := idx_facts4 t
  unfold iblk4
  rw [View.read_apply]
  show V c (Pipeline.arrRef spec4 0) _ = V c (Pipeline.arrRef spec4 0) k
  congr 1
  funext a
  apply Fin.ext
  match a with
  | ⟨0, _⟩ => show win4_0.index t (0 : Fin 2) * 5000 + 1 * p.val = (k 0).val; omega
  | ⟨1, _⟩ => show win4_0.index t (1 : Fin 2) * 128 + 1 * q.val = (k 1).val; omega

theorem iblk4_1_apply4 (c : Dev nD) (t : Fin cfg4.N) (p : Fin 5000) (q : Fin 128) (k : Cert.Spec.SNH.Idx)
    (hk0 : (k 0).val = 5000 * t.val + p.val) (hk1 : (k 1).val = q.val) :
    (iblk4 V c 1 t : Vec Ideal S5000x128 .f32) (ix2 p q) = feat4 V c k := by
  obtain ⟨-, -, e0, e1, -⟩ := idx_facts4 t
  unfold iblk4
  rw [View.read_apply]
  show V c (Pipeline.arrRef spec4 1) _ = V c (Pipeline.arrRef spec4 1) k
  congr 1
  funext a
  apply Fin.ext
  match a with
  | ⟨0, _⟩ => show win4_1.index t (0 : Fin 2) * 5000 + 1 * p.val = (k 0).val; omega
  | ⟨1, _⟩ => show win4_1.index t (1 : Fin 2) * 128 + 1 * q.val = (k 1).val; omega

theorem iblk4_2_apply4 (c : Dev nD) (t : Fin cfg4.N) (p : Fin 5000) (k : Cert.Spec.SN1.Idx)
    (hk0 : (k 0).val = 5000 * t.val + p.val) (hk1 : (k 1).val = 0) :
    (iblk4 V c 2 t : Vec Ideal S5000x1 .f32) (ix2 p (0 : Fin 1)) = sn4 V c k := by
  obtain ⟨-, -, -, -, e0, e1, -⟩ := idx_facts4 t
  unfold iblk4
  rw [View.read_apply]
  show V c (Pipeline.arrRef spec4 2) _ = V c (Pipeline.arrRef spec4 2) k
  congr 1
  funext a
  apply Fin.ext
  match a with
  | ⟨0, _⟩ => show win4_2.index t (0 : Fin 2) * 5000 + 1 * p.val = (k 0).val; omega
  | ⟨1, _⟩ => show win4_2.index t (1 : Fin 2) * 1 + 1 * 0 = (k 1).val; omega

theorem iblk4_3_apply4 (c : Dev nD) (t : Fin cfg4.N) (q : Fin 128) (k : Cert.Spec.SH.Idx)
    (hk : (k 0).val = q.val) :
    (iblk4 V c 3 t : Vec Ideal S128 .f32) (ix1 q) = bias4 V c k := by
  obtain ⟨-, -, -, -, -, -, e0, -⟩ := idx_facts4 t
  unfold iblk4
  rw [View.read_apply]
  show V c (Pipeline.arrRef spec4 3) _ = V c (Pipeline.arrRef spec4 3) k
  congr 1
  funext a
  apply Fin.ext
  match a with
  | ⟨0, _⟩ => show win4_3.index t (0 : Fin 1) * 128 + 1 * q.val = (k 0).val; omega

theorem flushed_eq4 (c : Dev nD) (t : Fin cfg4.N) :
    (dat4 (F := Ideal) V c).flushed 4 t
      = ((cfg4.win 4).blk t).view.read (Elt Ideal) (Cert.Spec.combF (agg4 V c) (feat4 V c) (sn4 V c) (bias4 V c)) := by
  show (cfg4.win 4).cut (grid4.coords t) ((dat4 V c).after 4 t) = _
  rw [after4_4]
  unfold out1_4
  rw [View.canon_unit_zero hz2_1]
  simp only [View.ld_unit_zero (S := S5000x128) hz2_1, View.ld_unit_zero (S := S5000x1) hz2_1, View.ld_unit_zero (S := S128) hz1_1]
  obtain ⟨-, -, -, -, -, -, -, e0, e1⟩ := idx_facts4 t
  funext j
  obtain ⟨p, q, rfl⟩ : ∃ (p : Fin 5000) (q : Fin 128), j = ix2 p q := ⟨j 0, j 1, eq_ix2 j⟩
  refine (pay1_apply1 (iblk4 V c 0 t) (iblk4 V c 1 t) (iblk4 V c 2 t) (iblk4 V c 3 t) p q).trans ?_
  show _ = Cert.Spec.combF (agg4 V c) (feat4 V c) (sn4 V c) (bias4 V c) (((cfg4.win 4).blk t).view.emb (ix2 p q))
  have hi0 : ((((cfg4.win 4).blk t).view.emb (ix2 p q) : Cert.Spec.SNH.Idx) 0).val = 5000 * t.val + p.val := by
    show win4_4.index t (0 : Fin 2) * 5000 + 1 * p.val = _; omega
  have hi1 : ((((cfg4.win 4).blk t).view.emb (ix2 p q) : Cert.Spec.SNH.Idx) 1).val = q.val := by
    show win4_4.index t (1 : Fin 2) * 128 + 1 * q.val = _; omega
  unfold Cert.Spec.combF
  rw [iblk4_0_apply4 V c t p q _ hi0 hi1, iblk4_1_apply4 V c t p q _ hi0 hi1,
    iblk4_2_apply4 V c t p (ix2 ((((cfg4.win 4).blk t).view.emb (ix2 p q) : Cert.Spec.SNH.Idx) 0) (0 : Fin 1)) hi0 rfl,
    iblk4_3_apply4 V c t q (ix1 ((((cfg4.win 4).blk t).view.emb (ix2 p q) : Cert.Spec.SNH.Idx) 1)) hi1]

theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

theorem cover_out4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, e0, e1⟩ := idx_facts4 t
  have ht : t.val = (i 0).val / 5000 := rfl
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

theorem arrAt_out4 (V : (c : Dev nD) → (b : Ref sig .tc) → Buf (Elt Ideal) ((c : Thread nD τ).loc b)) (c : Dev nD) :
    (Rg.dat4 (F := Ideal) V c).arrAt 4 cfg4.N
      = Cert.Spec.combF (V c (Pipeline.arrRef spec4 0)) (V c (Pipeline.arrRef spec4 1)) (V c (Pipeline.arrRef spec4 2)) (V c (Pipeline.arrRef spec4 3)) :=
  (Rg.dat4 (F := Ideal) V c).arrAt_eq_of_cover 4 (Cert.Spec.combF (agg4 V c) (feat4 V c) (sn4 V c) (bias4 V c))
    (fun t _ => flushed_eq4 V c t) cover_out4

end Cert.KernelIdeal.Val

end
-- ==== Proof.KI.Val5.lean ====
import proofs.«409448_j71794673320215_1_alg».proof.Proof.KI.R5
import proofs.«409448_j71794673320215_1_alg».proof.Proof.Spec.Stages
import Idealize.ShloMosaic.Lib.Pipeline.Value
import Idealize.ShloMosaic.Lib.ValueLayout
import Idealize.ShloMosaic.Lib.ValueIdx
import proofs.«409448_j71794673320215_1_alg».proof.Proof.KI.Val2

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev zarr5 (c : Dev nD) : Cert.Spec.SNH.Idx → EReal := V c (Pipeline.arrRef spec5 0)

abbrev sarr5 (c : Dev nD) : Cert.Spec.SH.Idx → EReal := V c (Pipeline.arrRef spec5 1)

abbrev harr5 (c : Dev nD) : Cert.Spec.SH.Idx → EReal := V c (Pipeline.arrRef spec5 2)

abbrev zblk5 (c : Dev nD) (t : Fin cfg5.N) : Vec Ideal S5000x128 .f32 := iblk5 V c 0 t

abbrev sblk5 (c : Dev nD) (t : Fin cfg5.N) : Vec Ideal S128 .f32 := iblk5 V c 1 t

abbrev hblk5 (c : Dev nD) (t : Fin cfg5.N) : Vec Ideal S128 .f32 := iblk5 V c 2 t

theorem idx_facts5 : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 2) = t.val ∧ win5_3.index t (1 : Fin 2) = 0 :=
  (by decide +kernel : ∀ t : Fin grid5.N, _)

theorem zblk5_apply (c : Dev nD) (t : Fin cfg5.N) (p : Fin 5000) (q : Fin 128) (k : Cert.Spec.SNH.Idx)
    (hk0 : (k 0).val = 5000 * t.val + p.val) (hk1 : (k 1).val = q.val) :
    zblk5 V c t (ix2 p q) = zarr5 V c k := by
  obtain ⟨e0, e1, -, -, -, -⟩ := idx_facts5 t
  unfold zblk5 iblk5
  rw [View.read_apply]
  show zarr5 V c _ = zarr5 V c k
  congr 1
  funext a
  apply Fin.ext
  match a with
  | ⟨0, _⟩ => show win5_0.index t (0 : Fin 2) * 5000 + 1 * p.val = (k 0).val; rw [e0, hk0]; omega
  | ⟨1, _⟩ => show win5_0.index t (1 : Fin 2) * 128 + 1 * q.val = (k 1).val; rw [e1, hk1]; omega

theorem sblk5_apply (c : Dev nD) (t : Fin cfg5.N) (q : Fin 128) :
    sblk5 V c t (ix1 q) = sarr5 V c (ix1 q) := by
  obtain ⟨-, -, e2, -, -, -⟩ := idx_facts5 t
  unfold sblk5 iblk5
  rw [View.read_apply]
  show sarr5 V c _ = sarr5 V c (ix1 q)
  congr 1
  funext a
  apply Fin.ext
  match a with
  | ⟨0, _⟩ => show win5_1.index t (0 : Fin 1) * 128 + 1 * q.val = q.val; rw [e2]; omega

theorem hblk5_apply (c : Dev nD) (t : Fin cfg5.N) (q : Fin 128) :
    hblk5 V c t (ix1 q) = harr5 V c (ix1 q) := by
  obtain ⟨-, -, -, e3, -, -⟩ := idx_facts5 t
  unfold hblk5 iblk5
  rw [View.read_apply]
  show harr5 V c _ = harr5 V c (ix1 q)
  congr 1
  funext a
  apply Fin.ext
  match a with
  | ⟨0, _⟩ => show win5_2.index t (0 : Fin 1) * 128 + 1 * q.val = q.val; rw [e3]; omega

theorem oblk5_apply (G : Cert.Spec.SNH.Idx → EReal) (t : Fin cfg5.N) (p : Fin 5000) (q : Fin 128) (k : Cert.Spec.SNH.Idx)
    (hk0 : (k 0).val = 5000 * t.val + p.val) (hk1 : (k 1).val = q.val) :
    (((cfg5.win 3).blk t).view.read (Elt Ideal) G : Vec Ideal S5000x128 .f32) (ix2 p q) = G k := by
  obtain ⟨-, -, -, -, e4, e5⟩ := idx_facts5 t
  rw [View.read_apply]
  show G _ = G k
  congr 1
  funext a
  apply Fin.ext
  match a with
  | ⟨0, _⟩ => show win5_3.index t (0 : Fin 2) * 5000 + 1 * p.val = (k 0).val; rw [e4, hk0]; omega
  | ⟨1, _⟩ => show win5_3.index t (1 : Fin 2) * 128 + 1 * q.val = (k 1).val; rw [e5, hk1]; omega

theorem flushed5_eq (c : Dev nD) (t : Fin cfg5.N) :
    (dat5 V c).flushed 3 t = ((cfg5.win 3).blk t).view.read (Elt Ideal) (Cert.Spec.bnF (zarr5 V c) (sarr5 V c) (harr5 V c)) := by
  show (cfg5.win 3).cut (grid5.coords t) ((dat5 V c).after 3 t) = _
  rw [after5_3]
  unfold out2_3
  rw [View.canon_unit_zero hz2_2]
  simp only [View.ld_unit_zero (S := S5000x128) hz2_2, View.ld_unit_zero (S := S128) hz1_2]
  funext j
  obtain ⟨p, q, rfl⟩ : ∃ (p : Fin 5000) (q : Fin 128), j = ix2 p q := ⟨j 0, j 1, eq_ix2 j⟩
  have hp : 5000 * t.val + p.val < 100000 := by
    have h1 := t.isLt; have h2 : cfg5.N = 20 := N_5; have h3 := p.isLt; omega
  refine ((pay2_apply (zblk5 V c t) (sblk5 V c t) (hblk5 V c t) p q).trans ?_).trans
    (oblk5_apply (Cert.Spec.bnF (zarr5 V c) (sarr5 V c) (harr5 V c)) t p q (ix2 ⟨5000 * t.val + p.val, hp⟩ q) rfl rfl).symm
  rw [zblk5_apply V c t p q (ix2 ⟨5000 * t.val + p.val, hp⟩ q) rfl rfl, sblk5_apply V c t q, hblk5_apply V c t q]
  rfl

theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  let t : Fin cfg5.N := ⟨(i 0).val / 5000, by omega⟩
  obtain ⟨-, -, -, -, e4, e5⟩ := idx_facts5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e4]; show (i 0).val / 5000 * 5000 ≤ (i 0).val ∧ (i 0).val < (i 0).val / 5000 * 5000 + 5000; omega
  | ⟨1, _⟩ => show win5_3.index t (1 : Fin 2) * 128 ≤ (i 1).val ∧ (i 1).val < win5_3.index t (1 : Fin 2) * 128 + 128; rw [e5]; omega

theorem arrAt_out5 (c : Dev nD) :
    (dat5 (F := Ideal) V c).arrAt 3 cfg5.N = Cert.Spec.bnF (V c (Pipeline.arrRef spec5 0)) (V c (Pipeline.arrRef spec5 1)) (V c (Pipeline.arrRef spec5 2)) :=
  (dat5 V c).arrAt_eq_of_cover 3 (Cert.Spec.bnF (zarr5 V c) (sarr5 V c) (harr5 V c)) (fun t _ => flushed5_eq V c t) cover5

end Cert.KernelIdeal.Val

end
-- ==== Proof.KI.Layer1.lean ====
import proofs.«409448_j71794673320215_1_alg».proof.Proof.KI.Fold
import proofs.«409448_j71794673320215_1_alg».proof.Proof.KI.Val3
import proofs.«409448_j71794673320215_1_alg».proof.Proof.KI.Val4
import proofs.«409448_j71794673320215_1_alg».proof.Proof.KI.Val5
import proofs.«409448_j71794673320215_1_alg».proof.Proof.KI.Layer0
import proofs.«409448_j71794673320215_1_alg».proof.Proof.Spec.Stages
import proofs.«409448_j71794673320215_1_alg».proof.Proof.Spec.BnColumn
import proofs.«409448_j71794673320215_1_alg».proof.Proof.Model.Defs
import Idealize.ShloMosaic.Lib.StableHlo.Run

set_option maxRecDepth 16384

noncomputable section

namespace Cert.KernelIdeal.Ly

open Cert.KernelIdeal Cert.KernelIdeal.Gen Cert.KernelIdeal.Rg
open Idealize.ShloMosaic Idealize.ShloMosaic.TcCoe Idealize.SL.Sem

section Params
variable (m : (ℓ : Loc nD τ sig) → Buf (Elt Ideal) ℓ) (c : Dev nD)

abbrev zin1 : FVec Ideal S100000x128 .f32 := zout0 m c
abbrev w1 : FVec Ideal S128x128 .f32 := Cert.Model.wSl1 (aW m c)
abbrev b1 : FVec Ideal S128 .f32 := Cert.Model.vSl1 (aB m c)
abbrev g1 : FVec Ideal S128 .f32 := Cert.Model.vSl1 (aG m c)
abbrev bt1 : FVec Ideal S128 .f32 := Cert.Model.vSl1 (aBt m c)

abbrev zout1 : FVec Ideal S100000x128 .f32 :=
  layerK (zin1 m c) (w1 m c) (b1 m c) (g1 m c) (bt1 m c) (norm0 m c) (sn0 m c) (row0 m c) (col0 m c)

end Params

section Entry

theorem ops3_w (X : Valuation τ sig (Elt Ideal)) :
    StableHlo.after (hostOps3 (F := Ideal)) X main_v64 = Cert.Model.wSl1 (X main_arg4) := by
  after_results_simp
  try rfl
theorem ops3_keep (X : Valuation τ sig (Elt Ideal)) (r : Ref sig .tc) (h : r ∉ hostOps3_W) :
    StableHlo.after (hostOps3 (F := Ideal)) X r = X r :=
  StableHlo.after_of_writes_sub hostOps3 _ hostOps3_writes h

variable (m : (ℓ : Loc nD τ sig) → Buf (Elt Ideal) ℓ) (c : Dev nD)

theorem ent1_z : W9 m c main_v62 = zin1 m c := (ops3_keep (W8 m c) main_v62 (by decide)).trans (zout0_eq m c)
theorem ent1_w : W9 m c main_v64 = w1 m c :=
  (ops3_w (W8 m c)).trans (congrArg Cert.Model.wSl1 (exit0_aw m c))
theorem ent1_row : W9 m c main_v1 = row0 m c := (ops3_keep (W8 m c) main_v1 (by decide)).trans (exit0_row m c)
theorem ent1_col : W9 m c main_v3 = col0 m c := (ops3_keep (W8 m c) main_v3 (by decide)).trans (exit0_col m c)
theorem ent1_norm : W9 m c main_v25 = norm0 m c := (ops3_keep (W8 m c) main_v25 (by decide)).trans (exit0_norm m c)
theorem ent1_sn : W9 m c main_v28 = sn0 m c := (ops3_keep (W8 m c) main_v28 (by decide)).trans (exit0_sn m c)
theorem ent1_aw : W9 m c main_arg4 = aW m c := (ops3_keep (W8 m c) main_arg4 (by decide)).trans (exit0_aw m c)
theorem ent1_b : W9 m c main_arg5 = aB m c := (ops3_keep (W8 m c) main_arg5 (by decide)).trans (exit0_b m c)
theorem ent1_g : W9 m c main_arg6 = aG m c := (ops3_keep (W8 m c) main_arg6 (by decide)).trans (exit0_g m c)
theorem ent1_bt : W9 m c main_arg7 = aBt m c := (ops3_keep (W8 m c) main_arg7 (by decide)).trans (exit0_bt m c)

end Entry

section Reads
variable (X : Valuation τ sig (Elt Ideal))

theorem ops4_agg : StableHlo.after (hostOps4 (F := Ideal)) X main_v78
    = Cert.Model.aggOf (X main_v65) (X main_v25) (X main_v1) (X main_v3) := by
  after_results_simp
  try rfl

theorem ops4_bias : StableHlo.after (hostOps4 (F := Ideal)) X main_v80 = Cert.Model.vSl1 (X main_arg5) := by
  after_results_simp
  try rfl

theorem ops4_keep (r : Ref sig .tc) (h : r ∉ hostOps4_W) : StableHlo.after (hostOps4 (F := Ideal)) X r = X r :=
  StableHlo.after_of_writes_sub hostOps4 _ hostOps4_writes h

theorem ops5_mean : StableHlo.after (hostOps5 (F := Ideal)) X main_v84 = meanK (X main_v81) := by
  after_results_simp
  try rfl

theorem ops5_ddof : StableHlo.after (hostOps5 (F := Ideal)) X main_c_17 = constantI S_ 32 0#32 := by
  after_results_simp
  try rfl

theorem ops5_keep (r : Ref sig .tc) (h : r ∉ hostOps5_W) : StableHlo.after (hostOps5 (F := Ideal)) X r = X r :=
  StableHlo.after_of_writes_sub hostOps5 _ hostOps5_writes h

theorem ops5_1_var (hc : X main_c_17 = constantI S_ 32 0#32) : StableHlo.after (hostOps5_1 (F := Ideal)) X main_v85
    = Cert.Spec.bnVar reducesTo_S100000x128_S128_d0 h_S_ bcast_S_S128 bcast_S_S128 bcast_S128_S1x128_1
        bcast_S1x128_S100000x128_0_1 bcast_S_S1x128 (X main_v81) := by
  after_results_simp
  rw [hc]
  try rfl

theorem ops5_1_keep (r : Ref sig .tc) (h : r ∉ hostOps5_1_W) : StableHlo.after (hostOps5_1 (F := Ideal)) X r = X r :=
  StableHlo.after_of_writes_sub hostOps5_1 _ hostOps5_1_writes h

theorem ops5_2_scale : StableHlo.after (hostOps5_2 (F := Ideal)) X main_v91
    = mulf (F := Ideal) (Cert.Model.vSl1 (X main_arg6)) (invOfVar (X main_v85)) := by
  after_results_simp
  try rfl

theorem ops5_2_shift : StableHlo.after (hostOps5_2 (F := Ideal)) X main_v95
    = subf (F := Ideal) (Cert.Model.vSl1 (X main_arg7))
        (mulf (F := Ideal) (X main_v84) (mulf (F := Ideal) (Cert.Model.vSl1 (X main_arg6)) (invOfVar (X main_v85)))) := by
  after_results_simp
  try rfl

theorem ops5_2_keep (r : Ref sig .tc) (h : r ∉ hostOps5_2_W) : StableHlo.after (hostOps5_2 (F := Ideal)) X r = X r :=
  StableHlo.after_of_writes_sub hostOps5_2 _ hostOps5_2_writes h

theorem bn3_zr_l1 : StableHlo.after (hostOps5_2 (F := Ideal)) (StableHlo.after (hostOps5_1 (F := Ideal)) (StableHlo.after (hostOps5 (F := Ideal)) X)) main_v81
    = X main_v81 := by
  rw [ops5_2_keep _ main_v81 (by decide), ops5_1_keep _ main_v81 (by decide), ops5_keep _ main_v81 (by decide)]

theorem bn3_var_l1 : StableHlo.after (hostOps5_1 (F := Ideal)) (StableHlo.after (hostOps5 (F := Ideal)) X) main_v85
    = Cert.Spec.bnVar reducesTo_S100000x128_S128_d0 h_S_ bcast_S_S128 bcast_S_S128 bcast_S128_S1x128_1
        bcast_S1x128_S100000x128_0_1 bcast_S_S1x128 (X main_v81) := by
  rw [ops5_1_var _ (ops5_ddof X), ops5_keep _ main_v81 (by decide)]

theorem bn3_scale_l1 : StableHlo.after (hostOps5_2 (F := Ideal)) (StableHlo.after (hostOps5_1 (F := Ideal)) (StableHlo.after (hostOps5 (F := Ideal)) X)) main_v91
    = mulf (F := Ideal) (Cert.Model.vSl1 (X main_arg6)) (invK (X main_v81)) := by
  rw [ops5_2_scale, bn3_var_l1, ops5_1_keep _ main_arg6 (by decide), ops5_keep _ main_arg6 (by decide)]

theorem bn3_shift_l1 : StableHlo.after (hostOps5_2 (F := Ideal)) (StableHlo.after (hostOps5_1 (F := Ideal)) (StableHlo.after (hostOps5 (F := Ideal)) X)) main_v95
    = subf (F := Ideal) (Cert.Model.vSl1 (X main_arg7))
        (mulf (F := Ideal) (meanK (X main_v81)) (mulf (F := Ideal) (Cert.Model.vSl1 (X main_arg6)) (invK (X main_v81)))) := by
  rw [ops5_2_shift, bn3_var_l1, ops5_1_keep _ main_arg6 (by decide), ops5_keep _ main_arg6 (by decide),
    ops5_1_keep _ main_arg7 (by decide), ops5_keep _ main_arg7 (by decide),
    ops5_1_keep _ main_v84 (by decide), ops5_mean]

end Reads

section Layer
variable (m : (ℓ : Loc nD τ sig) → Buf (Elt Ideal) ℓ) (c : Dev nD)

theorem W10_keep (r : Ref sig .tc) (h : r ≠ main_v65) : W10 m c r = W9 m c r :=
  Function.update_of_ne (StableHlo.devRef_ne_of_ne h : (Proc.devRef .tc r : DevRef τ sig) ≠ Proc.devRef .tc main_v65) _ _
theorem W12_keep (r : Ref sig .tc) (h : r ≠ main_v81) : W12 m c r = W11 m c r :=
  Function.update_of_ne (StableHlo.devRef_ne_of_ne h : (Proc.devRef .tc r : DevRef τ sig) ≠ Proc.devRef .tc main_v81) _ _
theorem W16_keep (r : Ref sig .tc) (h : r ≠ main_v96) : W16 m c r = W15 m c r :=
  Function.update_of_ne (StableHlo.devRef_ne_of_ne h : (Proc.devRef .tc r : DevRef τ sig) ≠ Proc.devRef .tc main_v96) _ _

theorem W11_keep (r : Ref sig .tc) (h : r ∉ hostOps4_W) : W11 m c r = W10 m c r := ops4_keep (W10 m c) r h
theorem W13_keep (r : Ref sig .tc) (h : r ∉ hostOps5_W) : W13 m c r = W12 m c r := ops5_keep (W12 m c) r h
theorem W14_keep (r : Ref sig .tc) (h : r ∉ hostOps5_1_W) : W14 m c r = W13 m c r := ops5_1_keep (W13 m c) r h
theorem W15_keep (r : Ref sig .tc) (h : r ∉ hostOps5_2_W) : W15 m c r = W14 m c r := ops5_2_keep (W14 m c) r h

theorem W10_lin : W10 m c main_v65 = Cert.Spec.linF (W9 m c main_v62) (W9 m c main_v64) := by
  show Function.update (W9 m c) main_v65 (o10 m c) main_v65 = _
  rw [Function.update_self]
  unfold o10
  exact Val.arrAt_out3 (U9 m) c

theorem W12_comb : W12 m c main_v81
    = Cert.Spec.combF (W11 m c main_v78) (W11 m c main_v65) (W11 m c main_v28) (W11 m c main_v80) := by
  show Function.update (W11 m c) main_v81 (o12 m c) main_v81 = _
  rw [Function.update_self]
  unfold o12
  exact Val.arrAt_out4 (U11 m) c

theorem W16_bn : W16 m c main_v96 = Cert.Spec.bnF (W15 m c main_v81) (W15 m c main_v91) (W15 m c main_v95) := by
  show Function.update (W15 m c) main_v96 (o16 m c) main_v96 = _
  rw [Function.update_self]
  unfold o16
  exact Val.arrAt_out5 (U15 m) c

theorem W11_agg : W11 m c main_v78 = Cert.Model.aggOf (W10 m c main_v65) (W10 m c main_v25) (W10 m c main_v1) (W10 m c main_v3) :=
  ops4_agg (W10 m c)
theorem W11_bias : W11 m c main_v80 = Cert.Model.vSl1 (W10 m c main_arg5) := ops4_bias (W10 m c)

theorem W10_h : W10 m c main_v65 = Cert.Spec.linF (zin1 m c) (w1 m c) := by
  rw [W10_lin, ent1_z, ent1_w]

theorem W12_zr : W12 m c main_v81 = zrK (zin1 m c) (w1 m c) (b1 m c) (norm0 m c) (sn0 m c) (row0 m c) (col0 m c) := by
  rw [W12_comb, W11_agg, W11_bias, W11_keep m c main_v65 (by decide), W11_keep m c main_v28 (by decide), W10_h,
    W10_keep m c main_v25 (by decide), W10_keep m c main_v1 (by decide), W10_keep m c main_v3 (by decide),
    W10_keep m c main_v28 (by decide), W10_keep m c main_arg5 (by decide),
    ent1_norm, ent1_row, ent1_col, ent1_sn, ent1_b]
  rfl

theorem W12_arg (r : Ref sig .tc) (h4 : r ≠ main_v81) (h3 : r ∉ hostOps4_W) (h2 : r ≠ main_v65) : W12 m c r = W9 m c r := by
  rw [W12_keep m c r h4, W11_keep m c r h3, W10_keep m c r h2]

theorem W15_zr : W15 m c main_v81 = zrK (zin1 m c) (w1 m c) (b1 m c) (norm0 m c) (sn0 m c) (row0 m c) (col0 m c) :=
  (bn3_zr_l1 (W12 m c)).trans (W12_zr m c)
theorem W15_scale : W15 m c main_v91
    = mulf (F := Ideal) (g1 m c) (invK (zrK (zin1 m c) (w1 m c) (b1 m c) (norm0 m c) (sn0 m c) (row0 m c) (col0 m c))) := by
  refine (bn3_scale_l1 (W12 m c)).trans ?_
  rw [W12_zr, W12_arg m c main_arg6 (by decide) (by decide) (by decide), ent1_g]
theorem W15_shift : W15 m c main_v95
    = subf (F := Ideal) (bt1 m c)
        (mulf (F := Ideal) (meanK (zrK (zin1 m c) (w1 m c) (b1 m c) (norm0 m c) (sn0 m c) (row0 m c) (col0 m c)))
          (mulf (F := Ideal) (g1 m c) (invK (zrK (zin1 m c) (w1 m c) (b1 m c) (norm0 m c) (sn0 m c) (row0 m c) (col0 m c))))) := by
  refine (bn3_shift_l1 (W12 m c)).trans ?_
  rw [W12_zr, W12_arg m c main_arg6 (by decide) (by decide) (by decide), ent1_g,
    W12_arg m c main_arg7 (by decide) (by decide) (by decide), ent1_bt]

theorem zout1_eq : W16 m c main_v96 = zout1 m c := by
  rw [W16_bn, W15_zr, W15_scale, W15_shift]
  rfl

end Layer

section Exit
variable (m : (ℓ : Loc nD τ sig) → Buf (Elt Ideal) ℓ) (c : Dev nD)

theorem lay1_keep (r : Ref sig .tc) (h8 : r ≠ main_v96) (h7 : r ∉ hostOps5_2_W) (h6 : r ∉ hostOps5_1_W) (h5 : r ∉ hostOps5_W)
    (h4 : r ≠ main_v81) (h3 : r ∉ hostOps4_W) (h2 : r ≠ main_v65) : W16 m c r = W9 m c r := by
  rw [W16_keep m c r h8, W15_keep m c r h7, W14_keep m c r h6, W13_keep m c r h5, W12_arg m c r h4 h3 h2]

theorem exit1_row : W16 m c main_v1 = row0 m c :=
  (lay1_keep m c main_v1 (by decide) (by decide) (by decide) (by decide) (by decide) (by decide) (by decide)).trans (ent1_row m c)
theorem exit1_col : W16 m c main_v3 = col0 m c :=
  (lay1_keep m c main_v3 (by decide) (by decide) (by decide) (by decide) (by decide) (by decide) (by decide)).trans (ent1_col m c)
theorem exit1_norm : W16 m c main_v25 = norm0 m c :=
  (lay1_keep m c main_v25 (by decide) (by decide) (by decide) (by decide) (by decide) (by decide) (by decide)).trans (ent1_norm m c)
theorem exit1_sn : W16 m c main_v28 = sn0 m c :=
  (lay1_keep m c main_v28 (by decide) (by decide) (by decide) (by decide) (by decide) (by decide) (by decide)).trans (ent1_sn m c)
theorem exit1_aw : W16 m c main_arg4 = aW m c :=
  (lay1_keep m c main_arg4 (by decide) (by decide) (by decide) (by decide) (by decide) (by decide) (by decide)).trans (ent1_aw m c)
theorem exit1_b : W16 m c main_arg5 = aB m c :=
  (lay1_keep m c main_arg5 (by decide) (by decide) (by decide) (by decide) (by decide) (by decide) (by decide)).trans (ent1_b m c)
theorem exit1_g : W16 m c main_arg6 = aG m c :=
  (lay1_keep m c main_arg6 (by decide) (by decide) (by decide) (by decide) (by decide) (by decide) (by decide)).trans (ent1_g m c)
theorem exit1_bt : W16 m c main_arg7 = aBt m c :=
  (lay1_keep m c main_arg7 (by decide) (by decide) (by decide) (by decide) (by decide) (by decide) (by decide)).trans (ent1_bt m c)

end Exit

end Cert.KernelIdeal.Ly

end
-- ==== Proof.KI.Val6.lean ====
import proofs.«409448_j71794673320215_1_alg».proof.Proof.KI.R6
import proofs.«409448_j71794673320215_1_alg».proof.Proof.Spec.Stages
import Idealize.ShloMosaic.PureOps.Ideal.Laws
import Idealize.ShloMosaic.Lib.ValueIdx
import Idealize.ShloMosaic.Lib.Pipeline.Value
import proofs.«409448_j71794673320215_1_alg».proof.Proof.KI.Val3

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_apply (V : (c : Dev nD) → (b : Ref sig .tc) → Buf (Elt Ideal) ((c : Thread nD τ).loc b)) (c : Dev nD)
    (t : Fin cfg6.N) (y : S5000x128.Idx) (i : S100000x128.Idx)
    (h0 : (i 0).val = t.val * 5000 + (y 0).val) (h1 : (i 1).val = (y 1).val) :
    (Rg.iblk6 V c 0 t : Vec Ideal S5000x128 .f32) y = (V c (Pipeline.arrRef spec6 0) : S100000x128.Idx → EReal) i := by
  obtain ⟨e0, e1, -, -, -, -⟩ := idx_facts6 t
  unfold Rg.iblk6
  rw [View.read_apply]
  show V c main_v96 (((cfg6.win 0).blk t).view.emb y) = V c main_v96 i
  congr 1
  funext a
  apply Fin.ext
  match a with
  | ⟨0, _⟩ => show win6_0.index t (0 : Fin 2) * 5000 + 1 * (y 0).val = (i 0).val; omega
  | ⟨1, _⟩ => show win6_0.index t (1 : Fin 2) * 128 + 1 * (y 1).val = (i 1).val; omega

theorem iblk6_1_apply (V : (c : Dev nD) → (b : Ref sig .tc) → Buf (Elt Ideal) ((c : Thread nD τ).loc b)) (c : Dev nD)
    (t : Fin cfg6.N) (y : S128x128.Idx) :
    (Rg.iblk6 V c 1 t : Vec Ideal S128x128 .f32) y = (V c (Pipeline.arrRef spec6 1) : S128x128.Idx → EReal) y := by
  obtain ⟨-, -, e2, e3, -, -⟩ := idx_facts6 t
  unfold Rg.iblk6
  rw [View.read_apply]
  show V c main_v98 (((cfg6.win 1).blk t).view.emb y) = V c main_v98 y
  congr 1
  funext a
  apply Fin.ext
  match a with
  | ⟨0, _⟩ => show win6_1.index t (0 : Fin 2) * 128 + 1 * (y 0).val = (y 0).val; omega
  | ⟨1, _⟩ => show win6_1.index t (1 : Fin 2) * 128 + 1 * (y 1).val = (y 1).val; omega

theorem flushed6_eq (V : (c : Dev nD) → (b : Ref sig .tc) → Buf (Elt Ideal) ((c : Thread nD τ).loc b)) (c : Dev nD) (t : Fin cfg6.N) :
    (Rg.dat6 (F := Ideal) V c).flushed 2 t
      = ((cfg6.win 2).blk t).view.read (Elt Ideal) (Cert.Spec.linF (V c (Pipeline.arrRef spec6 0)) (V c (Pipeline.arrRef spec6 1))) := by
  show (cfg6.win 2).cut (grid6.coords t) ((Rg.dat6 V c).after 2 t) = _
  rw [Rg.after6_2]
  unfold Rg.out3_2
  rw [View.canon_unit_zero hz3]
  simp only [View.ld_unit_zero (S := S5000x128) hz3, View.ld_unit_zero (S := S128x128) hz3]
  obtain ⟨-, -, -, -, e4, e5⟩ := idx_facts6 t
  funext j
  rw [View.read_apply]
  refine pay3_linF _ _ _ _ t.val (fun y i h0 h1 => iblk6_0_apply V c t y i h0 h1) (fun y => iblk6_1_apply V c t y) j _ ?_ ?_
  · show win6_2.index t (0 : Fin 2) * 5000 + 1 * (j 0).val = t.val * 5000 + (j 0).val; omega
  · show win6_2.index t (1 : Fin 2) * 128 + 1 * (j 1).val = (j 1).val; omega

theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v99).slice (win6_2.rect t)).set ↔ _
  rw [View.set_slice_whole, Rect.mem_set_unit]
  exact Iff.rfl

theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  have ht : t.val = (i 0).val / 5000 := rfl
  obtain ⟨-, -, -, -, e4, e5⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

theorem arrAt_out6 (V : (c : Dev nD) → (b : Ref sig .tc) → Buf (Elt Ideal) ((c : Thread nD τ).loc b)) (c : Dev nD) :
    (Rg.dat6 (F := Ideal) V c).arrAt 2 cfg6.N = Cert.Spec.linF (V c (Pipeline.arrRef spec6 0)) (V c (Pipeline.arrRef spec6 1)) :=
  (Rg.dat6 (F := Ideal) V c).arrAt_eq_of_cover 2 _ (fun t _ => flushed6_eq V c t) cover6

end Cert.KernelIdeal.Val

end
-- ==== Proof.KI.Val7.lean ====
import proofs.«409448_j71794673320215_1_alg».proof.Proof.KI.R7
import proofs.«409448_j71794673320215_1_alg».proof.Proof.Spec.Stages
import Idealize.ShloMosaic.Lib.Pipeline.Value
import Idealize.ShloMosaic.Lib.ValueLayout
import Idealize.ShloMosaic.PureOps.Ideal.Laws
import proofs.«409448_j71794673320215_1_alg».proof.Proof.KI.Val1

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev agg7 (c : Dev nD) : Cert.Spec.SNH.Idx → EReal := V c (Pipeline.arrRef spec7 0)
abbrev feat7 (c : Dev nD) : Cert.Spec.SNH.Idx → EReal := V c (Pipeline.arrRef spec7 1)
abbrev sn7 (c : Dev nD) : Cert.Spec.SN1.Idx → EReal := V c (Pipeline.arrRef spec7 2)
abbrev bias7 (c : Dev nD) : Cert.Spec.SH.Idx → EReal := V c (Pipeline.arrRef spec7 3)

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 1) = 0
    ∧ win7_4.index t (0 : Fin 2) = t.val ∧ win7_4.index t (1 : Fin 2) = 0 :=
  (by decide +kernel : ∀ t : Fin grid7.N, _)

theorem iblk7_0_apply7 (c : Dev nD) (t : Fin cfg7.N) (p : Fin 5000) (q : Fin 128) (k : Cert.Spec.SNH.Idx)
    (hk0 : (k 0).val = 5000 * t.val + p.val) (hk1 : (k 1).val = q.val) :
    (iblk7 V c 0 t : Vec Ideal S5000x128 .f32) (ix2 p q) = agg7 V c k := by
  obtain ⟨e0, e1, -⟩ := idx_facts7 t
  unfold iblk7
  rw [View.read_apply]
  show V c (Pipeline.arrRef spec7 0) _ = V c (Pipeline.arrRef spec7 0) k
  congr 1
  funext a
  apply Fin.ext
  match a with
  | ⟨0, _⟩ => show win7_0.index t (0 : Fin 2) * 5000 + 1 * p.val = (k 0).val; omega
  | ⟨1, _⟩ => show win7_0.index t (1 : Fin 2) * 128 + 1 * q.val = (k 1).val; omega

theorem iblk7_1_apply7 (c : Dev nD) (t : Fin cfg7.N) (p : Fin 5000) (q : Fin 128) (k : Cert.Spec.SNH.Idx)
    (hk0 : (k 0).val = 5000 * t.val + p.val) (hk1 : (k 1).val = q.val) :
    (iblk7 V c 1 t : Vec Ideal S5000x128 .f32) (ix2 p q) = feat7 V c k := by
  obtain ⟨-, -, e0, e1, -⟩ := idx_facts7 t
  unfold iblk7
  rw [View.read_apply]
  show V c (Pipeline.arrRef spec7 1) _ = V c (Pipeline.arrRef spec7 1) k
  congr 1
  funext a
  apply Fin.ext
  match a with
  | ⟨0, _⟩ => show win7_1.index t (0 : Fin 2) * 5000 + 1 * p.val = (k 0).val; omega
  | ⟨1, _⟩ => show win7_1.index t (1 : Fin 2) * 128 + 1 * q.val = (k 1).val; omega

theorem iblk7_2_apply7 (c : Dev nD) (t : Fin cfg7.N) (p : Fin 5000) (k : Cert.Spec.SN1.Idx)
    (hk0 : (k 0).val = 5000 * t.val + p.val) (hk1 : (k 1).val = 0) :
    (iblk7 V c 2 t : Vec Ideal S5000x1 .f32) (ix2 p (0 : Fin 1)) = sn7 V c k := by
  obtain ⟨-, -, -, -, e0, e1, -⟩ := idx_facts7 t
  unfold iblk7
  rw [View.read_apply]
  show V c (Pipeline.arrRef spec7 2) _ = V c (Pipeline.arrRef spec7 2) k
  congr 1
  funext a
  apply Fin.ext
  match a with
  | ⟨0, _⟩ => show win7_2.index t (0 : Fin 2) * 5000 + 1 * p.val = (k 0).val; omega
  | ⟨1, _⟩ => show win7_2.index t (1 : Fin 2) * 1 + 1 * 0 = (k 1).val; omega

theorem iblk7_3_apply7 (c : Dev nD) (t : Fin cfg7.N) (q : Fin 128) (k : Cert.Spec.SH.Idx)
    (hk : (k 0).val = q.val) :
    (iblk7 V c 3 t : Vec Ideal S128 .f32) (ix1 q) = bias7 V c k := by
  obtain ⟨-, -, -, -, -, -, e0, -⟩ := idx_facts7 t
  unfold iblk7
  rw [View.read_apply]
  show V c (Pipeline.arrRef spec7 3) _ = V c (Pipeline.arrRef spec7 3) k
  congr 1
  funext a
  apply Fin.ext
  match a with
  | ⟨0, _⟩ => show win7_3.index t (0 : Fin 1) * 128 + 1 * q.val = (k 0).val; omega

theorem flushed_eq7 (c : Dev nD) (t : Fin cfg7.N) :
    (dat7 (F := Ideal) V c).flushed 4 t
      = ((cfg7.win 4).blk t).view.read (Elt Ideal) (Cert.Spec.combF (agg7 V c) (feat7 V c) (sn7 V c) (bias7 V c)) := by
  show (cfg7.win 4).cut (grid7.coords t) ((dat7 V c).after 4 t) = _
  rw [after7_4]
  unfold out1_4
  rw [View.canon_unit_zero hz2_1]
  simp only [View.ld_unit_zero (S := S5000x128) hz2_1, View.ld_unit_zero (S := S5000x1) hz2_1, View.ld_unit_zero (S := S128) hz1_1]
  obtain ⟨-, -, -, -, -, -, -, e0, e1⟩ := idx_facts7 t
  funext j
  obtain ⟨p, q, rfl⟩ : ∃ (p : Fin 5000) (q : Fin 128), j = ix2 p q := ⟨j 0, j 1, eq_ix2 j⟩
  refine (pay1_apply1 (iblk7 V c 0 t) (iblk7 V c 1 t) (iblk7 V c 2 t) (iblk7 V c 3 t) p q).trans ?_
  show _ = Cert.Spec.combF (agg7 V c) (feat7 V c) (sn7 V c) (bias7 V c) (((cfg7.win 4).blk t).view.emb (ix2 p q))
  have hi0 : ((((cfg7.win 4).blk t).view.emb (ix2 p q) : Cert.Spec.SNH.Idx) 0).val = 5000 * t.val + p.val := by
    show win7_4.index t (0 : Fin 2) * 5000 + 1 * p.val = _; omega
  have hi1 : ((((cfg7.win 4).blk t).view.emb (ix2 p q) : Cert.Spec.SNH.Idx) 1).val = q.val := by
    show win7_4.index t (1 : Fin 2) * 128 + 1 * q.val = _; omega
  unfold Cert.Spec.combF
  rw [iblk7_0_apply7 V c t p q _ hi0 hi1, iblk7_1_apply7 V c t p q _ hi0 hi1,
    iblk7_2_apply7 V c t p (ix2 ((((cfg7.win 4).blk t).view.emb (ix2 p q) : Cert.Spec.SNH.Idx) 0) (0 : Fin 1)) hi0 rfl,
    iblk7_3_apply7 V c t q (ix1 ((((cfg7.win 4).blk t).view.emb (ix2 p q) : Cert.Spec.SNH.Idx) 1)) hi1]

theorem mem_blk7 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole (Pipeline.arrRef spec7 4)).slice (win7_4.rect t)).set ↔ _
  rw [View.set_slice_whole, Rect.mem_set_unit]
  exact Iff.rfl

theorem cover_out7 (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  obtain ⟨-, -, -, -, -, -, -, e0, e1⟩ := idx_facts7 t
  have ht : t.val = (i 0).val / 5000 := rfl
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

theorem arrAt_out7 (V : (c : Dev nD) → (b : Ref sig .tc) → Buf (Elt Ideal) ((c : Thread nD τ).loc b)) (c : Dev nD) :
    (Rg.dat7 (F := Ideal) V c).arrAt 4 cfg7.N
      = Cert.Spec.combF (V c (Pipeline.arrRef spec7 0)) (V c (Pipeline.arrRef spec7 1)) (V c (Pipeline.arrRef spec7 2)) (V c (Pipeline.arrRef spec7 3)) :=
  (Rg.dat7 (F := Ideal) V c).arrAt_eq_of_cover 4 (Cert.Spec.combF (agg7 V c) (feat7 V c) (sn7 V c) (bias7 V c))
    (fun t _ => flushed_eq7 V c t) cover_out7

end Cert.KernelIdeal.Val

end
-- ==== Proof.KI.Val8.lean ====
import proofs.«409448_j71794673320215_1_alg».proof.Proof.KI.R8
import proofs.«409448_j71794673320215_1_alg».proof.Proof.Spec.Stages
import Idealize.ShloMosaic.Lib.Pipeline.Value
import Idealize.ShloMosaic.Lib.ValueLayout
import Idealize.ShloMosaic.Lib.ValueIdx
import proofs.«409448_j71794673320215_1_alg».proof.Proof.KI.Val2

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev zarr8 (c : Dev nD) : Cert.Spec.SNH.Idx → EReal := V c (Pipeline.arrRef spec8 0)

abbrev sarr8 (c : Dev nD) : Cert.Spec.SH.Idx → EReal := V c (Pipeline.arrRef spec8 1)

abbrev harr8 (c : Dev nD) : Cert.Spec.SH.Idx → EReal := V c (Pipeline.arrRef spec8 2)

abbrev zblk8 (c : Dev nD) (t : Fin cfg8.N) : Vec Ideal S5000x128 .f32 := iblk8 V c 0 t

abbrev sblk8 (c : Dev nD) (t : Fin cfg8.N) : Vec Ideal S128 .f32 := iblk8 V c 1 t

abbrev hblk8 (c : Dev nD) (t : Fin cfg8.N) : Vec Ideal S128 .f32 := iblk8 V c 2 t

theorem idx_facts8 : ∀ t : Fin cfg8.N, win8_0.index t (0 : Fin 2) = t.val ∧ win8_0.index t (1 : Fin 2) = 0
    ∧ win8_1.index t (0 : Fin 1) = 0 ∧ win8_2.index t (0 : Fin 1) = 0
    ∧ win8_3.index t (0 : Fin 2) = t.val ∧ win8_3.index t (1 : Fin 2) = 0 :=
  (by decide +kernel : ∀ t : Fin grid8.N, _)

theorem zblk8_apply (c : Dev nD) (t : Fin cfg8.N) (p : Fin 5000) (q : Fin 128) (k : Cert.Spec.SNH.Idx)
    (hk0 : (k 0).val = 5000 * t.val + p.val) (hk1 : (k 1).val = q.val) :
    zblk8 V c t (ix2 p q) = zarr8 V c k := by
  obtain ⟨e0, e1, -, -, -, -⟩ := idx_facts8 t
  unfold zblk8 iblk8
  rw [View.read_apply]
  show zarr8 V c _ = zarr8 V c k
  congr 1
  funext a
  apply Fin.ext
  match a with
  | ⟨0, _⟩ => show win8_0.index t (0 : Fin 2) * 5000 + 1 * p.val = (k 0).val; rw [e0, hk0]; omega
  | ⟨1, _⟩ => show win8_0.index t (1 : Fin 2) * 128 + 1 * q.val = (k 1).val; rw [e1, hk1]; omega

theorem sblk8_apply (c : Dev nD) (t : Fin cfg8.N) (q : Fin 128) :
    sblk8 V c t (ix1 q) = sarr8 V c (ix1 q) := by
  obtain ⟨-, -, e2, -, -, -⟩ := idx_facts8 t
  unfold sblk8 iblk8
  rw [View.read_apply]
  show sarr8 V c _ = sarr8 V c (ix1 q)
  congr 1
  funext a
  apply Fin.ext
  match a with
  | ⟨0, _⟩ => show win8_1.index t (0 : Fin 1) * 128 + 1 * q.val = q.val; rw [e2]; omega

theorem hblk8_apply (c : Dev nD) (t : Fin cfg8.N) (q : Fin 128) :
    hblk8 V c t (ix1 q) = harr8 V c (ix1 q) := by
  obtain ⟨-, -, -, e3, -, -⟩ := idx_facts8 t
  unfold hblk8 iblk8
  rw [View.read_apply]
  show harr8 V c _ = harr8 V c (ix1 q)
  congr 1
  funext a
  apply Fin.ext
  match a with
  | ⟨0, _⟩ => show win8_2.index t (0 : Fin 1) * 128 + 1 * q.val = q.val; rw [e3]; omega

theorem oblk8_apply (G : Cert.Spec.SNH.Idx → EReal) (t : Fin cfg8.N) (p : Fin 5000) (q : Fin 128) (k : Cert.Spec.SNH.Idx)
    (hk0 : (k 0).val = 5000 * t.val + p.val) (hk1 : (k 1).val = q.val) :
    (((cfg8.win 3).blk t).view.read (Elt Ideal) G : Vec Ideal S5000x128 .f32) (ix2 p q) = G k := by
  obtain ⟨-, -, -, -, e4, e5⟩ := idx_facts8 t
  rw [View.read_apply]
  show G _ = G k
  congr 1
  funext a
  apply Fin.ext
  match a with
  | ⟨0, _⟩ => show win8_3.index t (0 : Fin 2) * 5000 + 1 * p.val = (k 0).val; rw [e4, hk0]; omega
  | ⟨1, _⟩ => show win8_3.index t (1 : Fin 2) * 128 + 1 * q.val = (k 1).val; rw [e5, hk1]; omega

theorem flushed8_eq (c : Dev nD) (t : Fin cfg8.N) :
    (dat8 V c).flushed 3 t = ((cfg8.win 3).blk t).view.read (Elt Ideal) (Cert.Spec.bnF (zarr8 V c) (sarr8 V c) (harr8 V c)) := by
  show (cfg8.win 3).cut (grid8.coords t) ((dat8 V c).after 3 t) = _
  rw [after8_3]
  unfold out2_3
  rw [View.canon_unit_zero hz2_2]
  simp only [View.ld_unit_zero (S := S5000x128) hz2_2, View.ld_unit_zero (S := S128) hz1_2]
  funext j
  obtain ⟨p, q, rfl⟩ : ∃ (p : Fin 5000) (q : Fin 128), j = ix2 p q := ⟨j 0, j 1, eq_ix2 j⟩
  have hp : 5000 * t.val + p.val < 100000 := by
    have h1 := t.isLt; have h2 : cfg8.N = 20 := N_8; have h3 := p.isLt; omega
  refine ((pay2_apply (zblk8 V c t) (sblk8 V c t) (hblk8 V c t) p q).trans ?_).trans
    (oblk8_apply (Cert.Spec.bnF (zarr8 V c) (sarr8 V c) (harr8 V c)) t p q (ix2 ⟨5000 * t.val + p.val, hp⟩ q) rfl rfl).symm
  rw [zblk8_apply V c t p q (ix2 ⟨5000 * t.val + p.val, hp⟩ q) rfl rfl, sblk8_apply V c t q, hblk8_apply V c t q]
  rfl

theorem mem_blk8 (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole (Pipeline.arrRef spec8 3)).slice (win8_3.rect t)).set ↔ _
  rw [View.set_slice_whole, Rect.mem_set_unit]
  exact Iff.rfl

theorem cover8 (i : S100000x128.Idx) : ∃ t : Fin cfg8.N, (cfg8.win 3).flush t = true ∧ i ∈ ((cfg8.win 3).blk t).view.set := by
  have hi0 : (i 0).val < 100000 := (i 0).isLt
  have hi1 : (i 1).val < 128 := (i 1).isLt
  have hN : cfg8.N = 20 := N_8
  let t : Fin cfg8.N := ⟨(i 0).val / 5000, by omega⟩
  obtain ⟨-, -, -, -, e4, e5⟩ := idx_facts8 t
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; rw [e4]; show (i 0).val / 5000 * 5000 ≤ (i 0).val ∧ (i 0).val < (i 0).val / 5000 * 5000 + 5000; omega
  | ⟨1, _⟩ => show win8_3.index t (1 : Fin 2) * 128 ≤ (i 1).val ∧ (i 1).val < win8_3.index t (1 : Fin 2) * 128 + 128; rw [e5]; omega

theorem arrAt_out8 (c : Dev nD) :
    (dat8 (F := Ideal) V c).arrAt 3 cfg8.N = Cert.Spec.bnF (V c (Pipeline.arrRef spec8 0)) (V c (Pipeline.arrRef spec8 1)) (V c (Pipeline.arrRef spec8 2)) :=
  (dat8 V c).arrAt_eq_of_cover 3 (Cert.Spec.bnF (zarr8 V c) (sarr8 V c) (harr8 V c)) (fun t _ => flushed8_eq V c t) cover8

end Cert.KernelIdeal.Val

end
-- ==== Proof.KI.Layer2.lean ====
import proofs.«409448_j71794673320215_1_alg».proof.Proof.KI.Fold
import proofs.«409448_j71794673320215_1_alg».proof.Proof.KI.Val6
import proofs.«409448_j71794673320215_1_alg».proof.Proof.KI.Val7
import proofs.«409448_j71794673320215_1_alg».proof.Proof.KI.Val8
import proofs.«409448_j71794673320215_1_alg».proof.Proof.KI.Layer1
import proofs.«409448_j71794673320215_1_alg».proof.Proof.Spec.Stages
import proofs.«409448_j71794673320215_1_alg».proof.Proof.Spec.BnColumn
import proofs.«409448_j71794673320215_1_alg».proof.Proof.Model.Defs
import Idealize.ShloMosaic.Lib.StableHlo.Run

set_option maxRecDepth 16384

noncomputable section

namespace Cert.KernelIdeal.Ly

open Cert.KernelIdeal Cert.KernelIdeal.Gen Cert.KernelIdeal.Rg
open Idealize.ShloMosaic Idealize.ShloMosaic.TcCoe Idealize.SL.Sem

section Params
variable (m : (ℓ : Loc nD τ sig) → Buf (Elt Ideal) ℓ) (c : Dev nD)

abbrev zin2 : FVec Ideal S100000x128 .f32 := zout1 m c
abbrev w2 : FVec Ideal S128x128 .f32 := Cert.Model.wSl2 (aW m c)
abbrev b2 : FVec Ideal S128 .f32 := Cert.Model.vSl2 (aB m c)
abbrev g2 : FVec Ideal S128 .f32 := Cert.Model.vSl2 (aG m c)
abbrev bt2 : FVec Ideal S128 .f32 := Cert.Model.vSl2 (aBt m c)

abbrev zout2 : FVec Ideal S100000x128 .f32 :=
  layerK (zin2 m c) (w2 m c) (b2 m c) (g2 m c) (bt2 m c) (norm0 m c) (sn0 m c) (row0 m c) (col0 m c)

end Params

section Entry

theorem ops6_w (X : Valuation τ sig (Elt Ideal)) :
    StableHlo.after (hostOps6 (F := Ideal)) X main_v98 = Cert.Model.wSl2 (X main_arg4) := by
  after_results_simp
  try rfl
theorem ops6_keep (X : Valuation τ sig (Elt Ideal)) (r : Ref sig .tc) (h : r ∉ hostOps6_W) :
    StableHlo.after (hostOps6 (F := Ideal)) X r = X r :=
  StableHlo.after_of_writes_sub hostOps6 _ hostOps6_writes h

variable (m : (ℓ : Loc nD τ sig) → Buf (Elt Ideal) ℓ) (c : Dev nD)

theorem ent2_z : W17 m c main_v96 = zin2 m c := (ops6_keep (W16 m c) main_v96 (by decide)).trans (zout1_eq m c)
theorem ent2_w : W17 m c main_v98 = w2 m c :=
  (ops6_w (W16 m c)).trans (congrArg Cert.Model.wSl2 (exit1_aw m c))
theorem ent2_row : W17 m c main_v1 = row0 m c := (ops6_keep (W16 m c) main_v1 (by decide)).trans (exit1_row m c)
theorem ent2_col : W17 m c main_v3 = col0 m c := (ops6_keep (W16 m c) main_v3 (by decide)).trans (exit1_col m c)
theorem ent2_norm : W17 m c main_v25 = norm0 m c := (ops6_keep (W16 m c) main_v25 (by decide)).trans (exit1_norm m c)
theorem ent2_sn : W17 m c main_v28 = sn0 m c := (ops6_keep (W16 m c) main_v28 (by decide)).trans (exit1_sn m c)
theorem ent2_aw : W17 m c main_arg4 = aW m c := (ops6_keep (W16 m c) main_arg4 (by decide)).trans (exit1_aw m c)
theorem ent2_b : W17 m c main_arg5 = aB m c := (ops6_keep (W16 m c) main_arg5 (by decide)).trans (exit1_b m c)
theorem ent2_g : W17 m c main_arg6 = aG m c := (ops6_keep (W16 m c) main_arg6 (by decide)).trans (exit1_g m c)
theorem ent2_bt : W17 m c main_arg7 = aBt m c := (ops6_keep (W16 m c) main_arg7 (by decide)).trans (exit1_bt m c)

end Entry

section Reads
variable (X : Valuation τ sig (Elt Ideal))

theorem ops7_agg : StableHlo.after (hostOps7 (F := Ideal)) X main_v112
    = Cert.Model.aggOf (X main_v99) (X main_v25) (X main_v1) (X main_v3) := by
  after_results_simp
  try rfl

theorem ops7_bias : StableHlo.after (hostOps7 (F := Ideal)) X main_v114 = Cert.Model.vSl2 (X main_arg5) := by
  after_results_simp
  try rfl

theorem ops7_keep (r : Ref sig .tc) (h : r ∉ hostOps7_W) : StableHlo.after (hostOps7 (F := Ideal)) X r = X r :=
  StableHlo.after_of_writes_sub hostOps7 _ hostOps7_writes h

theorem ops8_mean : StableHlo.after (hostOps8 (F := Ideal)) X main_v118 = meanK (X main_v115) := by
  after_results_simp
  try rfl

theorem ops8_ddof : StableHlo.after (hostOps8 (F := Ideal)) X main_c_24 = constantI S_ 32 0#32 := by
  after_results_simp
  try rfl

theorem ops8_keep (r : Ref sig .tc) (h : r ∉ hostOps8_W) : StableHlo.after (hostOps8 (F := Ideal)) X r = X r :=
  StableHlo.after_of_writes_sub hostOps8 _ hostOps8_writes h

theorem ops8_1_var (hc : X main_c_24 = constantI S_ 32 0#32) : StableHlo.after (hostOps8_1 (F := Ideal)) X main_v119
    = Cert.Spec.bnVar reducesTo_S100000x128_S128_d0 h_S_ bcast_S_S128 bcast_S_S128 bcast_S128_S1x128_1
        bcast_S1x128_S100000x128_0_1 bcast_S_S1x128 (X main_v115) := by
  after_results_simp
  rw [hc]
  try rfl

theorem ops8_1_keep (r : Ref sig .tc) (h : r ∉ hostOps8_1_W) : StableHlo.after (hostOps8_1 (F := Ideal)) X r = X r :=
  StableHlo.after_of_writes_sub hostOps8_1 _ hostOps8_1_writes h

theorem ops8_2_scale : StableHlo.after (hostOps8_2 (F := Ideal)) X main_v125
    = mulf (F := Ideal) (Cert.Model.vSl2 (X main_arg6)) (invOfVar (X main_v119)) := by
  after_results_simp
  try rfl

theorem ops8_2_shift : StableHlo.after (hostOps8_2 (F := Ideal)) X main_v129
    = subf (F := Ideal) (Cert.Model.vSl2 (X main_arg7))
        (mulf (F := Ideal) (X main_v118) (mulf (F := Ideal) (Cert.Model.vSl2 (X main_arg6)) (invOfVar (X main_v119)))) := by
  after_results_simp
  try rfl

theorem ops8_2_keep (r : Ref sig .tc) (h : r ∉ hostOps8_2_W) : StableHlo.after (hostOps8_2 (F := Ideal)) X r = X r :=
  StableHlo.after_of_writes_sub hostOps8_2 _ hostOps8_2_writes h

theorem bn3_zr_l2 : StableHlo.after (hostOps8_2 (F := Ideal)) (StableHlo.after (hostOps8_1 (F := Ideal)) (StableHlo.after (hostOps8 (F := Ideal)) X)) main_v115
    = X main_v115 := by
  rw [ops8_2_keep _ main_v115 (by decide), ops8_1_keep _ main_v115 (by decide), ops8_keep _ main_v115 (by decide)]

theorem bn3_var_l2 : StableHlo.after (hostOps8_1 (F := Ideal)) (StableHlo.after (hostOps8 (F := Ideal)) X) main_v119
    = Cert.Spec.bnVar reducesTo_S100000x128_S128_d0 h_S_ bcast_S_S128 bcast_S_S128 bcast_S128_S1x128_1
        bcast_S1x128_S100000x128_0_1 bcast_S_S1x128 (X main_v115) := by
  rw [ops8_1_var _ (ops8_ddof X), ops8_keep _ main_v115 (by decide)]

theorem bn3_scale_l2 : StableHlo.after (hostOps8_2 (F := Ideal)) (StableHlo.after (hostOps8_1 (F := Ideal)) (StableHlo.after (hostOps8 (F := Ideal)) X)) main_v125
    = mulf (F := Ideal) (Cert.Model.vSl2 (X main_arg6)) (invK (X main_v115)) := by
  rw [ops8_2_scale, bn3_var_l2, ops8_1_keep _ main_arg6 (by decide), ops8_keep _ main_arg6 (by decide)]

theorem bn3_shift_l2 : StableHlo.after (hostOps8_2 (F := Ideal)) (StableHlo.after (hostOps8_1 (F := Ideal)) (StableHlo.after (hostOps8 (F := Ideal)) X)) main_v129
    = subf (F := Ideal) (Cert.Model.vSl2 (X main_arg7))
        (mulf (F := Ideal) (meanK (X main_v115)) (mulf (F := Ideal) (Cert.Model.vSl2 (X main_arg6)) (invK (X main_v115)))) := by
  rw [ops8_2_shift, bn3_var_l2, ops8_1_keep _ main_arg6 (by decide), ops8_keep _ main_arg6 (by decide),
    ops8_1_keep _ main_arg7 (by decide), ops8_keep _ main_arg7 (by decide),
    ops8_1_keep _ main_v118 (by decide), ops8_mean]

end Reads

section Layer
variable (m : (ℓ : Loc nD τ sig) → Buf (Elt Ideal) ℓ) (c : Dev nD)

theorem W18_keep (r : Ref sig .tc) (h : r ≠ main_v99) : W18 m c r = W17 m c r :=
  Function.update_of_ne (StableHlo.devRef_ne_of_ne h : (Proc.devRef .tc r : DevRef τ sig) ≠ Proc.devRef .tc main_v99) _ _
theorem W20_keep (r : Ref sig .tc) (h : r ≠ main_v115) : W20 m c r = W19 m c r :=
  Function.update_of_ne (StableHlo.devRef_ne_of_ne h : (Proc.devRef .tc r : DevRef τ sig) ≠ Proc.devRef .tc main_v115) _ _
theorem W24_keep (r : Ref sig .tc) (h : r ≠ main_v130) : W24 m c r = W23 m c r :=
  Function.update_of_ne (StableHlo.devRef_ne_of_ne h : (Proc.devRef .tc r : DevRef τ sig) ≠ Proc.devRef .tc main_v130) _ _

theorem W19_keep (r : Ref sig .tc) (h : r ∉ hostOps7_W) : W19 m c r = W18 m c r := ops7_keep (W18 m c) r h
theorem W21_keep (r : Ref sig .tc) (h : r ∉ hostOps8_W) : W21 m c r = W20 m c r := ops8_keep (W20 m c) r h
theorem W22_keep (r : Ref sig .tc) (h : r ∉ hostOps8_1_W) : W22 m c r = W21 m c r := ops8_1_keep (W21 m c) r h
theorem W23_keep (r : Ref sig .tc) (h : r ∉ hostOps8_2_W) : W23 m c r = W22 m c r := ops8_2_keep (W22 m c) r h

theorem W18_lin : W18 m c main_v99 = Cert.Spec.linF (W17 m c main_v96) (W17 m c main_v98) := by
  show Function.update (W17 m c) main_v99 (o18 m c) main_v99 = _
  rw [Function.update_self]
  unfold o18
  exact Val.arrAt_out6 (U17 m) c

theorem W20_comb : W20 m c main_v115
    = Cert.Spec.combF (W19 m c main_v112) (W19 m c main_v99) (W19 m c main_v28) (W19 m c main_v114) := by
  show Function.update (W19 m c) main_v115 (o20 m c) main_v115 = _
  rw [Function.update_self]
  unfold o20
  exact Val.arrAt_out7 (U19 m) c

theorem W24_bn : W24 m c main_v130 = Cert.Spec.bnF (W23 m c main_v115) (W23 m c main_v125) (W23 m c main_v129) := by
  show Function.update (W23 m c) main_v130 (o24 m c) main_v130 = _
  rw [Function.update_self]
  unfold o24
  exact Val.arrAt_out8 (U23 m) c

theorem W19_agg : W19 m c main_v112 = Cert.Model.aggOf (W18 m c main_v99) (W18 m c main_v25) (W18 m c main_v1) (W18 m c main_v3) :=
  ops7_agg (W18 m c)
theorem W19_bias : W19 m c main_v114 = Cert.Model.vSl2 (W18 m c main_arg5) := ops7_bias (W18 m c)

theorem W18_h : W18 m c main_v99 = Cert.Spec.linF (zin2 m c) (w2 m c) := by
  rw [W18_lin, ent2_z, ent2_w]

theorem W20_zr : W20 m c main_v115 = zrK (zin2 m c) (w2 m c) (b2 m c) (norm0 m c) (sn0 m c) (row0 m c) (col0 m c) := by
  rw [W20_comb, W19_agg, W19_bias, W19_keep m c main_v99 (by decide), W19_keep m c main_v28 (by decide), W18_h,
    W18_keep m c main_v25 (by decide), W18_keep m c main_v1 (by decide), W18_keep m c main_v3 (by decide),
    W18_keep m c main_v28 (by decide), W18_keep m c main_arg5 (by decide),
    ent2_norm, ent2_row, ent2_col, ent2_sn, ent2_b]
  rfl

theorem W20_arg (r : Ref sig .tc) (h4 : r ≠ main_v115) (h3 : r ∉ hostOps7_W) (h2 : r ≠ main_v99) : W20 m c r = W17 m c r := by
  rw [W20_keep m c r h4, W19_keep m c r h3, W18_keep m c r h2]

theorem W23_zr : W23 m c main_v115 = zrK (zin2 m c) (w2 m c) (b2 m c) (norm0 m c) (sn0 m c) (row0 m c) (col0 m c) :=
  (bn3_zr_l2 (W20 m c)).trans (W20_zr m c)
theorem W23_scale : W23 m c main_v125
    = mulf (F := Ideal) (g2 m c) (invK (zrK (zin2 m c) (w2 m c) (b2 m c) (norm0 m c) (sn0 m c) (row0 m c) (col0 m c))) := by
  refine (bn3_scale_l2 (W20 m c)).trans ?_
  rw [W20_zr, W20_arg m c main_arg6 (by decide) (by decide) (by decide), ent2_g]
theorem W23_shift : W23 m c main_v129
    = subf (F := Ideal) (bt2 m c)
        (mulf (F := Ideal) (meanK (zrK (zin2 m c) (w2 m c) (b2 m c) (norm0 m c) (sn0 m c) (row0 m c) (col0 m c)))
          (mulf (F := Ideal) (g2 m c) (invK (zrK (zin2 m c) (w2 m c) (b2 m c) (norm0 m c) (sn0 m c) (row0 m c) (col0 m c))))) := by
  refine (bn3_shift_l2 (W20 m c)).trans ?_
  rw [W20_zr, W20_arg m c main_arg6 (by decide) (by decide) (by decide), ent2_g,
    W20_arg m c main_arg7 (by decide) (by decide) (by decide), ent2_bt]

theorem zout2_eq : W24 m c main_v130 = zout2 m c := by
  rw [W24_bn, W23_zr, W23_scale, W23_shift]
  rfl

end Layer

section Exit
variable (m : (ℓ : Loc nD τ sig) → Buf (Elt Ideal) ℓ) (c : Dev nD)

theorem lay2_keep (r : Ref sig .tc) (h8 : r ≠ main_v130) (h7 : r ∉ hostOps8_2_W) (h6 : r ∉ hostOps8_1_W) (h5 : r ∉ hostOps8_W)
    (h4 : r ≠ main_v115) (h3 : r ∉ hostOps7_W) (h2 : r ≠ main_v99) : W24 m c r = W17 m c r := by
  rw [W24_keep m c r h8, W23_keep m c r h7, W22_keep m c r h6, W21_keep m c r h5, W20_arg m c r h4 h3 h2]

theorem exit2_row : W24 m c main_v1 = row0 m c :=
  (lay2_keep m c main_v1 (by decide) (by decide) (by decide) (by decide) (by decide) (by decide) (by decide)).trans (ent2_row m c)
theorem exit2_col : W24 m c main_v3 = col0 m c :=
  (lay2_keep m c main_v3 (by decide) (by decide) (by decide) (by decide) (by decide) (by decide) (by decide)).trans (ent2_col m c)
theorem exit2_norm : W24 m c main_v25 = norm0 m c :=
  (lay2_keep m c main_v25 (by decide) (by decide) (by decide) (by decide) (by decide) (by decide) (by decide)).trans (ent2_norm m c)
theorem exit2_sn : W24 m c main_v28 = sn0 m c :=
  (lay2_keep m c main_v28 (by decide) (by decide) (by decide) (by decide) (by decide) (by decide) (by decide)).trans (ent2_sn m c)
theorem exit2_aw : W24 m c main_arg4 = aW m c :=
  (lay2_keep m c main_arg4 (by decide) (by decide) (by decide) (by decide) (by decide) (by decide) (by decide)).trans (ent2_aw m c)
theorem exit2_b : W24 m c main_arg5 = aB m c :=
  (lay2_keep m c main_arg5 (by decide) (by decide) (by decide) (by decide) (by decide) (by decide) (by decide)).trans (ent2_b m c)
theorem exit2_g : W24 m c main_arg6 = aG m c :=
  (lay2_keep m c main_arg6 (by decide) (by decide) (by decide) (by decide) (by decide) (by decide) (by decide)).trans (ent2_g m c)
theorem exit2_bt : W24 m c main_arg7 = aBt m c :=
  (lay2_keep m c main_arg7 (by decide) (by decide) (by decide) (by decide) (by decide) (by decide) (by decide)).trans (ent2_bt m c)

end Exit

end Cert.KernelIdeal.Ly

end
-- ==== Proof.Spec.RefStages.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«409448_j71794673320215_1_alg».proof.ReferenceIdeal
import proofs.«409448_j71794673320215_1_alg».proof.Proof.Spec.Stages

noncomputable section

namespace Cert.Spec.Ref

open Idealize.ShloMosaic Idealize.ShloMosaic.ValueIdx Cert.Spec Cert.ReferenceIdeal

variable [Facts₀]
open Facts₀

def kEquiv : dot_S100000x128_S128x128_S100000x128_1_0_0_1_n_n.contr.Idx ≃ Fin 128 :=
  contrEquiv1 dot_S100000x128_S128x128_S100000x128_1_0_0_1_n_n 128 rfl rfl

theorem lhsIdx_eq (i : S100000x128.Idx) (k : Fin 128) :
    dot_S100000x128_S128x128_S100000x128_1_0_0_1_n_n.lhsIdx i (kEquiv.symm k) = ix2 (i 0) k := by
  funext a
  match a with
  | ⟨0, _⟩ => exact Fin.ext rfl
  | ⟨1, _⟩ => exact Fin.ext rfl

theorem rhsIdx_eq (i : S100000x128.Idx) (k : Fin 128) :
    dot_S100000x128_S128x128_S100000x128_1_0_0_1_n_n.rhsIdx i (kEquiv.symm k) = ix2 k (i 1) := by
  funext a
  match a with
  | ⟨0, _⟩ => exact Fin.ext rfl
  | ⟨1, _⟩ => exact Fin.ext rfl

theorem dot_eq_linF (x : FVec Ideal S100000x128 .f32) (w : FVec Ideal S128x128 .f32) :
    Host.dotGeneral dot_S100000x128_S128x128_S100000x128_1_0_0_1_n_n none x w = linF x w := by
  funext i
  show FloatOps.dotGeneral dot_S100000x128_S128x128_S100000x128_1_0_0_1_n_n none .single x w i = _
  rw [Ideal.dotGeneral_apply, ← Equiv.sum_comp kEquiv.symm]
  exact Finset.sum_congr rfl fun k _ => by rw [lhsIdx_eq, rhsIdx_eq]; rfl

theorem bias_apply {α : Type} (v : S128.Idx → α) (i : S100000x128.Idx) :
    broadcastInDim S100000x128 ![0, 1] bcast_S1x128_S100000x128_0_1 (broadcastInDim S1x128 ![1] bcast_S128_S1x128_1 v) i
      = v (ix1 (i 1)) :=
  (broadcastInDim_apply _ bcast_S1x128_S100000x128_0_1 _ i (ix2 0 (i 1))
      (fun a => by match a with | ⟨0, _⟩ => rfl | ⟨1, _⟩ => rfl)).trans
    (broadcastInDim_apply _ bcast_S128_S1x128_1 v (ix2 0 (i 1)) (ix1 (i 1)) (fun a => by match a with | ⟨0, _⟩ => rfl))

theorem col_apply {α : Type} (sn : S100000x1.Idx → α) (i : S100000x128.Idx) :
    broadcastInDim S100000x128 ![0, 1] bcast_S100000x1_S100000x128_0_1 sn i = sn (ix2 (i 0) 0) :=
  broadcastInDim_apply _ bcast_S100000x1_S100000x128_0_1 sn i (ix2 (i 0) 0)
    (fun a => by match a with | ⟨0, _⟩ => rfl | ⟨1, _⟩ => rfl)

theorem zero_apply (i : S100000x128.Idx) :
    broadcastInDim S100000x128 ![] bcast_S_S100000x128 (constant (F := Ideal) S_ .f32 0x00000000#32) i = 0 := by
  rw [broadcastInDim_scalar_apply, constant_apply, Ideal.ofBits_zero_f32]

theorem comb_eq_combF (agg h : FVec Ideal S100000x128 .f32) (sn : FVec Ideal S100000x1 .f32) (b : FVec Ideal S128 .f32) :
    maximumf (addf (addf agg (mulf (broadcastInDim S100000x128 ![0, 1] bcast_S100000x1_S100000x128_0_1 sn) h))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32))
    = combF agg h sn b := by
  funext i
  show max ((agg i + broadcastInDim S100000x128 ![0, 1] bcast_S100000x1_S100000x128_0_1 sn i * h i)
        + broadcastInDim S100000x128 ![0, 1] bcast_S1x128_S100000x128_0_1 (broadcastInDim S1x128 ![1] bcast_S128_S1x128_1 b) i)
      (broadcastInDim S100000x128 ![] bcast_S_S100000x128 (constant (F := Ideal) S_ .f32 0x00000000#32) i)
    = max ((agg i + sn (ix2 (i 0) 0) * h i) + b (ix1 (i 1))) 0
  rw [col_apply, bias_apply, zero_apply]

theorem proj_eq_projF (z : FVec Ideal S100000x128 .f32) (w1 : FVec Ideal S128x128 .f32) (b1 : FVec Ideal S128 .f32)
    (w2 : FVec Ideal S128x128 .f32) (b2 : FVec Ideal S128 .f32) :
    addf (Host.dotGeneral dot_S100000x128_S128x128_S100000x128_1_0_0_1_n_n none
        (maximumf (addf (Host.dotGeneral dot_S100000x128_S128x128_S100000x128_1_0_0_1_n_n none z w1)
            (broadcastInDim S100000x128 ![0, 1] bcast_S1x128_S100000x128_0_1 (broadcastInDim S1x128 ![1] bcast_S128_S1x128_1 b1)))
          (broadcastInDim S100000x128 ![] bcast_S_S100000x128 (constant S_ .f32 0x00000000#32))) w2)
      (broadcastInDim S100000x128 ![0, 1] bcast_S1x128_S100000x128_0_1 (broadcastInDim S1x128 ![1] bcast_S128_S1x128_1 b2))
    = projF z w1 b1 w2 b2 := by
  rw [dot_eq_linF, dot_eq_linF]
  funext i
  show linF (maximumf (addf (linF z w1)
          (broadcastInDim S100000x128 ![0, 1] bcast_S1x128_S100000x128_0_1 (broadcastInDim S1x128 ![1] bcast_S128_S1x128_1 b1)))
        (broadcastInDim S100000x128 ![] bcast_S_S100000x128 (constant (F := Ideal) S_ .f32 0x00000000#32))) w2 i
      + broadcastInDim S100000x128 ![0, 1] bcast_S1x128_S100000x128_0_1 (broadcastInDim S1x128 ![1] bcast_S128_S1x128_1 b2) i
    = projF z w1 b1 w2 b2 i
  rw [bias_apply]
  refine congrArg (· + b2 (ix1 (i 1))) (Finset.sum_congr rfl fun k _ => ?_)
  show max (linF z w1 (ix2 (i 0) k)
        + broadcastInDim S100000x128 ![0, 1] bcast_S1x128_S100000x128_0_1 (broadcastInDim S1x128 ![1] bcast_S128_S1x128_1 b1) (ix2 (i 0) k))
      (broadcastInDim S100000x128 ![] bcast_S_S100000x128 (constant (F := Ideal) S_ .f32 0x00000000#32) (ix2 (i 0) k)) * w2 (ix2 k (i 1))
    = max ((∑ j : Fin 128, z (ix2 (i 0) j) * w1 (ix2 j k)) + b1 (ix1 k)) 0 * w2 (ix2 k (i 1))
  rw [bias_apply, zero_apply]
  rfl

theorem siIdx_eq (j : S100000x128.Idx) (c : Fin scatter_S128x128_S100000x1_S100000x128_1_0_0_1.scatterDimsToOperandDims.length) :
    scatter_S128x128_S100000x1_S100000x128_1_0_0_1.siIdx j c = ix2 (j 0) 0 := by
  funext b
  match b with
  | ⟨0, _⟩ => exact Fin.ext rfl
  | ⟨1, _⟩ =>
    apply Fin.ext
    show c.val = 0
    have : c.val < 1 := c.isLt
    omega

theorem start0 (j : S100000x128.Idx) (idx : IVec S100000x1 32) :
    scatter_S128x128_S100000x1_S100000x128_1_0_0_1.start j idx 0 = (idx (ix2 (j 0) 0)).toInt := by
  have h : scatter_S128x128_S100000x1_S100000x128_1_0_0_1.start j idx 0
      = (idx (scatter_S128x128_S100000x1_S100000x128_1_0_0_1.siIdx j ⟨0, Nat.zero_lt_one⟩)).toInt := rfl
  exact h.trans (congrArg (fun q => (idx q).toInt) (siIdx_eq j _))

theorem start1 (j : S100000x128.Idx) (idx : IVec S100000x1 32) :
    scatter_S128x128_S100000x1_S100000x128_1_0_0_1.start j idx 1 = 0 := rfl

theorem window0 (j : S100000x128.Idx) : scatter_S128x128_S100000x1_S100000x128_1_0_0_1.window j 0 = 0 := rfl

theorem window1 (j : S100000x128.Idx) : scatter_S128x128_S100000x1_S100000x128_1_0_0_1.window j 1 = (j 1).val := rfl

theorem resultIdx?_eq_some_iff (j : S100000x128.Idx) (idx : IVec S100000x1 32) (i : S128x128.Idx) :
    scatter_S128x128_S100000x1_S100000x128_1_0_0_1.resultIdx? j idx = some i
      ↔ (idx (ix2 (j 0) 0)).toInt = ((i 0).val : Int) ∧ (j 1).val = (i 1).val := by
  have hi0 : (i 0).val < 128 := idx2_lt0 i
  have hi1 : (i 1).val < 128 := idx2_lt1 i
  have hj1 : (j 1).val < 128 := idx2_lt1 j
  unfold ScatterDims.resultIdx?
  constructor
  · intro h
    split at h
    · rename_i hh
      have e := Option.some.inj h
      have e0 : (scatter_S128x128_S100000x1_S100000x128_1_0_0_1.start j idx 0
          + scatter_S128x128_S100000x1_S100000x128_1_0_0_1.window j 0).toNat = (i 0).val := congrArg Fin.val (congrFun e 0)
      have e1 : (scatter_S128x128_S100000x1_S100000x128_1_0_0_1.start j idx 1
          + scatter_S128x128_S100000x1_S100000x128_1_0_0_1.window j 1).toNat = (i 1).val := congrArg Fin.val (congrFun e 1)
      have p0 : 0 ≤ scatter_S128x128_S100000x1_S100000x128_1_0_0_1.start j idx 0
          + scatter_S128x128_S100000x1_S100000x128_1_0_0_1.window j 0 := (hh 0).1
      rw [start0, window0] at e0 p0
      rw [start1, window1] at e1
      constructor <;> omega
    · exact absurd h (by simp)
  · rintro ⟨h0, h1⟩
    have hh : ∀ a, 0 ≤ scatter_S128x128_S100000x1_S100000x128_1_0_0_1.start j idx a
          + scatter_S128x128_S100000x1_S100000x128_1_0_0_1.window j a
        ∧ scatter_S128x128_S100000x1_S100000x128_1_0_0_1.start j idx a
          + scatter_S128x128_S100000x1_S100000x128_1_0_0_1.window j a < S128x128.size a := fun a => by
      match a with
      | ⟨0, _⟩ =>
        show 0 ≤ scatter_S128x128_S100000x1_S100000x128_1_0_0_1.start j idx 0
            + scatter_S128x128_S100000x1_S100000x128_1_0_0_1.window j 0
          ∧ scatter_S128x128_S100000x1_S100000x128_1_0_0_1.start j idx 0
            + scatter_S128x128_S100000x1_S100000x128_1_0_0_1.window j 0 < (128 : Nat)
        rw [start0, window0, h0]; omega
      | ⟨1, _⟩ =>
        show 0 ≤ scatter_S128x128_S100000x1_S100000x128_1_0_0_1.start j idx 1
            + scatter_S128x128_S100000x1_S100000x128_1_0_0_1.window j 1
          ∧ scatter_S128x128_S100000x1_S100000x128_1_0_0_1.start j idx 1
            + scatter_S128x128_S100000x1_S100000x128_1_0_0_1.window j 1 < (128 : Nat)
        rw [start1, window1]; omega
    rw [dif_pos hh]
    refine congrArg some (funext fun a => Fin.ext ?_)
    match a with
    | ⟨0, _⟩ =>
      show (scatter_S128x128_S100000x1_S100000x128_1_0_0_1.start j idx 0
        + scatter_S128x128_S100000x1_S100000x128_1_0_0_1.window j 0).toNat = (i 0).val
      rw [start0, window0, h0]; omega
    | ⟨1, _⟩ =>
      show (scatter_S128x128_S100000x1_S100000x128_1_0_0_1.start j idx 1
        + scatter_S128x128_S100000x1_S100000x128_1_0_0_1.window j 1).toNat = (i 1).val
      rw [start1, window1]; omega

theorem landing (n : Fin 100000) (c : Fin 128) (idx : IVec S100000x1 32) (i : S128x128.Idx) :
    scatter_S128x128_S100000x1_S100000x128_1_0_0_1.resultIdx? (ix2 n c) idx = some i
      ↔ (idx (ix2 n 0)).toInt = ((i 0).val : Int) ∧ c.val = (i 1).val :=
  resultIdx?_eq_some_iff (ix2 n c) idx i

theorem toInt_eq_iff (b : BitVec 32) (g : Nat) (hg : g < 128) : b.toInt = (g : Int) ↔ b = BitVec.ofNat 32 g := by
  have hb := b.isLt
  constructor
  · intro h
    apply BitVec.eq_of_toNat_eq
    rw [BitVec.toNat_ofNat, BitVec.toInt_eq_toNat_cond] at *
    split at h <;> omega
  · rintro rfl
    rw [BitVec.toInt_eq_toNat_cond, BitVec.toNat_ofNat]
    split <;> omega

theorem pool_eq_poolF (bidx : IVec S100000x1 32) (z : FVec Ideal S100000x128 .f32) :
    Host.scatterAdd scatter_S128x128_S100000x1_S100000x128_1_0_0_1
        (broadcastInDim S128x128 ![] bcast_S_S128x128 (constant S_ .f32 0x00000000#32)) bidx z
      = poolF bidx z := by
  funext i
  have hi0 : (i 0).val < 128 := idx2_lt0 i
  show broadcastInDim S128x128 ![] bcast_S_S128x128 (constant (F := Ideal) S_ .f32 0x00000000#32) i
      + ∑ j ∈ Finset.univ.filter (fun j => scatter_S128x128_S100000x1_S100000x128_1_0_0_1.resultIdx? j bidx = some i), z j
    = ∑ n : Fin 100000, if bidx (ix2 n 0) = BitVec.ofNat 32 (i 0).val then z (ix2 n (i 1)) else 0
  rw [broadcastInDim_scalar_apply, constant_apply, Ideal.ofBits_zero_f32, zero_add, Finset.sum_filter, sum_idx2]
  refine Finset.sum_congr rfl fun n _ => ?_
  simp only [landing]
  by_cases hb : bidx (ix2 n 0) = BitVec.ofNat 32 (i 0).val
  · rw [if_pos hb]
    refine (Finset.sum_eq_single (⟨(i 1).val, idx2_lt1 i⟩ : Fin 128) ?_ ?_).trans ?_
    · intro c _ hc
      rw [if_neg]
      rintro ⟨_, h1⟩
      exact hc (Fin.ext h1)
    · intro h; exact absurd (Finset.mem_univ _) h
    · rw [if_pos ⟨(toInt_eq_iff _ _ hi0).mpr hb, rfl⟩]
      rfl
  · rw [if_neg hb]
    refine Finset.sum_eq_zero fun c _ => ?_
    rw [if_neg]
    rintro ⟨h0, _⟩
    exact hb ((toInt_eq_iff _ _ hi0).mp h0)

theorem combF_nonneg (agg h : SNH.Idx → EReal) (sn : SN1.Idx → EReal) (b : SH.Idx → EReal) (i : SNH.Idx) :
    0 ≤ combF agg h sn b i :=
  le_max_right _ _

end Cert.Spec.Ref

end
-- ==== Proof.Model.LayerEq.lean ====
import proofs.«409448_j71794673320215_1_alg».proof.Proof.Model.Defs
import proofs.«409448_j71794673320215_1_alg».proof.Proof.Spec.Stages
import proofs.«409448_j71794673320215_1_alg».proof.Proof.Spec.BnColumn
import proofs.«409448_j71794673320215_1_alg».proof.Proof.Spec.RefStages

noncomputable section

namespace Cert.Model

open Cert.ReferenceIdeal Cert.ReferenceIdeal.Gen Idealize.ShloMosaic Idealize.ShloMosaic.ValueIdx

theorem combF_nonneg (agg h : Cert.Spec.SNH.Idx → EReal) (sn : Cert.Spec.SN1.Idx → EReal) (b : Cert.Spec.SH.Idx → EReal)
    (i : Cert.Spec.SNH.Idx) : 0 ≤ Cert.Spec.combF agg h sn b i :=
  le_max_right _ _

theorem bnRef_eq (zr : FVec Ideal S100000x128 .f32) (hz : ∀ i, 0 ≤ zr i) (γ β : FVec Ideal S128 .f32)
    (hγ : ∀ j, γ j ≠ ⊤ ∧ γ j ≠ ⊥) (hβ : ∀ j, β j ≠ ⊤ ∧ β j ≠ ⊥) :
    bnRef zr γ β
      = Cert.Spec.bnF zr
          (mulf γ (Cert.Spec.bnInv reducesTo_S100000x128_S128_d0 h_S_ bcast_S_S128 bcast_S_S128 bcast_S128_S1x128_1 bcast_S1x128_S100000x128_0_1 bcast_S_S1x128 zr))
          (subf β (mulf (Cert.Spec.bnMean reducesTo_S100000x128_S128_d0 h_S_ bcast_S_S128 zr)
            (mulf γ (Cert.Spec.bnInv reducesTo_S100000x128_S128_d0 h_S_ bcast_S_S128 bcast_S_S128 bcast_S128_S1x128_1 bcast_S1x128_S100000x128_0_1 bcast_S_S1x128 zr)))) :=
  Cert.Spec.bn_column reducesTo_S100000x128_S128_d0 h_S_ bcast_S_S128 bcast_S_S128 bcast_S128_S1x128_1 bcast_S1x128_S100000x128_0_1 bcast_S_S1x128 zr hz γ β hγ hβ

theorem vSl0_entry (b : FVec Ideal S3x128 .f32) (j : S128.Idx) : ∃ i, vSl0 b j = b i := ⟨_, rfl⟩

theorem vSl1_entry (b : FVec Ideal S3x128 .f32) (j : S128.Idx) : ∃ i, vSl1 b j = b i := ⟨_, rfl⟩

theorem vSl2_entry (b : FVec Ideal S3x128 .f32) (j : S128.Idx) : ∃ i, vSl2 b j = b i := ⟨_, rfl⟩

theorem vSl0_finite (b : FVec Ideal S3x128 .f32) (hb : ∀ i, b i ≠ ⊤ ∧ b i ≠ ⊥) (j : S128.Idx) : vSl0 b j ≠ ⊤ ∧ vSl0 b j ≠ ⊥ := by
  obtain ⟨i, e⟩ := vSl0_entry b j; rw [e]; exact hb i
theorem vSl1_finite (b : FVec Ideal S3x128 .f32) (hb : ∀ i, b i ≠ ⊤ ∧ b i ≠ ⊥) (j : S128.Idx) : vSl1 b j ≠ ⊤ ∧ vSl1 b j ≠ ⊥ := by
  obtain ⟨i, e⟩ := vSl1_entry b j; rw [e]; exact hb i
theorem vSl2_finite (b : FVec Ideal S3x128 .f32) (hb : ∀ i, b i ≠ ⊤ ∧ b i ≠ ⊥) (j : S128.Idx) : vSl2 b j ≠ ⊤ ∧ vSl2 b j ≠ ⊥ := by
  obtain ⟨i, e⟩ := vSl2_entry b j; rw [e]; exact hb i

theorem dotOf_eq (x : FVec Ideal S100000x128 .f32) (w : FVec Ideal S128x128 .f32) : dotOf x w = Cert.Spec.linF x w :=
  Cert.Spec.Ref.dot_eq_linF x w

theorem relu_preAct_eq (agg h : FVec Ideal S100000x128 .f32) (sn : FVec Ideal S100000x1 .f32) (b : FVec Ideal S128 .f32) :
    reluOf (preAct agg h sn b) = Cert.Spec.combF agg h sn b :=
  Cert.Spec.Ref.comb_eq_combF agg h sn b

abbrev zrOf (z : FVec Ideal S100000x128 .f32) (w : FVec Ideal S128x128 .f32) (b : FVec Ideal S128 .f32) (norm : FVec Ideal S1600000 .f32)
    (sn : FVec Ideal S100000x1 .f32) (row col : IVec S1600000 32) : FVec Ideal S100000x128 .f32 :=
  Cert.Spec.combF (aggOf (Cert.Spec.linF z w) norm row col) (Cert.Spec.linF z w) sn b

abbrev refMean (zr : FVec Ideal S100000x128 .f32) : FVec Ideal S128 .f32 :=
  Cert.Spec.bnMean reducesTo_S100000x128_S128_d0 h_S_ bcast_S_S128 zr

abbrev refInv (zr : FVec Ideal S100000x128 .f32) : FVec Ideal S128 .f32 :=
  Cert.Spec.bnInv reducesTo_S100000x128_S128_d0 h_S_ bcast_S_S128 bcast_S_S128 bcast_S128_S1x128_1 bcast_S1x128_S100000x128_0_1 bcast_S_S1x128 zr

theorem layerRef_eq (z : FVec Ideal S100000x128 .f32) (w : FVec Ideal S128x128 .f32) (b γ β : FVec Ideal S128 .f32)
    (norm : FVec Ideal S1600000 .f32) (sn : FVec Ideal S100000x1 .f32) (row col : IVec S1600000 32)
    (hγ : ∀ j, γ j ≠ ⊤ ∧ γ j ≠ ⊥) (hβ : ∀ j, β j ≠ ⊤ ∧ β j ≠ ⊥) :
    layerRef z w b γ β norm sn row col
      = Cert.Spec.bnF (zrOf z w b norm sn row col) (mulf γ (refInv (zrOf z w b norm sn row col)))
          (subf β (mulf (refMean (zrOf z w b norm sn row col)) (mulf γ (refInv (zrOf z w b norm sn row col))))) := by
  unfold layerRef
  rw [relu_preAct_eq, dotOf_eq]
  exact bnRef_eq _ (fun i => combF_nonneg _ _ _ _ i) γ β hγ hβ

theorem headOf_eq (z : FVec Ideal S100000x128 .f32) (w1 : FVec Ideal S128x128 .f32) (b1 : FVec Ideal S128 .f32)
    (w2 : FVec Ideal S128x128 .f32) (b2 : FVec Ideal S128 .f32) : headOf z w1 b1 w2 b2 = Cert.Spec.projF z w1 b1 w2 b2 :=
  Cert.Spec.Ref.proj_eq_projF z w1 b1 w2 b2

theorem poolOf_eq (batch : IVec S100000 32) (z : FVec Ideal S100000x128 .f32) :
    poolOf batch z = Cert.Spec.poolF (broadcastInDim S100000x1 ![0] bcast_S100000_S100000x1_0 batch) z :=
  Cert.Spec.Ref.pool_eq_poolF _ z

end Cert.Model

end
-- ==== Proof.ModelOut.lean ====
import proofs.«409448_j71794673320215_1_alg».proof.Proof.Model.Defs
import proofs.«409448_j71794673320215_1_alg».proof.Proof.Model.LayerEq

noncomputable section

namespace Cert.Model

open Cert.ReferenceIdeal Cert.ReferenceIdeal.Gen Idealize.ShloMosaic Idealize.ShloMosaic.ValueIdx

def layerSt (z : FVec Ideal S100000x128 .f32) (w : FVec Ideal S128x128 .f32) (b γ β : FVec Ideal S128 .f32)
    (norm : FVec Ideal S1600000 .f32) (sn : FVec Ideal S100000x1 .f32) (row col : IVec S1600000 32) : FVec Ideal S100000x128 .f32 :=
  Cert.Spec.bnF (zrOf z w b norm sn row col) (mulf γ (refInv (zrOf z w b norm sn row col)))
    (subf β (mulf (refMean (zrOf z w b norm sn row col)) (mulf γ (refInv (zrOf z w b norm sn row col)))))

theorem layerRef_eq_layerSt (z : FVec Ideal S100000x128 .f32) (w : FVec Ideal S128x128 .f32) (b γ β : FVec Ideal S128 .f32)
    (norm : FVec Ideal S1600000 .f32) (sn : FVec Ideal S100000x1 .f32) (row col : IVec S1600000 32)
    (hγ : ∀ j, γ j ≠ ⊤ ∧ γ j ≠ ⊥) (hβ : ∀ j, β j ≠ ⊤ ∧ β j ≠ ⊥) :
    layerRef z w b γ β norm sn row col = layerSt z w b γ β norm sn row col :=
  layerRef_eq z w b γ β norm sn row col hγ hβ

section Whole

variable (x : FVec Ideal S100000x128 .f32) (ei : IVec S2x1600000 32) (ea : FVec Ideal S1600000 .f32) (batch : IVec S100000 32)
  (W : FVec Ideal S3x128x128 .f32) (b γ β : FVec Ideal S3x128 .f32)
  (w1 : FVec Ideal S128x128 .f32) (b1 : FVec Ideal S128 .f32) (w2 : FVec Ideal S128x128 .f32) (b2 : FVec Ideal S128 .f32)

def Z1 : FVec Ideal S100000x128 .f32 :=
  layerSt x (wSl0 W) (vSl0 b) (vSl0 γ) (vSl0 β) (normOf ea (rowOf ei) (colOf ei)) (snOf ea (colOf ei)) (rowOf ei) (colOf ei)

def Z2 : FVec Ideal S100000x128 .f32 :=
  layerSt (Z1 x ei ea W b γ β) (wSl1 W) (vSl1 b) (vSl1 γ) (vSl1 β) (normOf ea (rowOf ei) (colOf ei)) (snOf ea (colOf ei)) (rowOf ei) (colOf ei)

def Z3 : FVec Ideal S100000x128 .f32 :=
  layerSt (Z2 x ei ea W b γ β) (wSl2 W) (vSl2 b) (vSl2 γ) (vSl2 β) (normOf ea (rowOf ei) (colOf ei)) (snOf ea (colOf ei)) (rowOf ei) (colOf ei)

def ZH : FVec Ideal S100000x128 .f32 :=
  Cert.Spec.projF (Z3 x ei ea W b γ β) w1 b1 w2 b2

variable (hγ : ∀ i, γ i ≠ ⊤ ∧ γ i ≠ ⊥) (hβ : ∀ i, β i ≠ ⊤ ∧ β i ≠ ⊥)
include hγ hβ

theorem z1_closed : z1 x ei ea W b γ β = Z1 x ei ea W b γ β := by
  unfold z1 Z1
  exact layerRef_eq_layerSt _ _ _ _ _ _ _ _ _ (vSl0_finite γ hγ) (vSl0_finite β hβ)

theorem z2_closed : z2 x ei ea W b γ β = Z2 x ei ea W b γ β := by
  unfold z2 Z2
  rw [z1_closed x ei ea W b γ β hγ hβ]
  exact layerRef_eq_layerSt _ _ _ _ _ _ _ _ _ (vSl1_finite γ hγ) (vSl1_finite β hβ)

theorem z3_closed : z3 x ei ea W b γ β = Z3 x ei ea W b γ β := by
  unfold z3 Z3
  rw [z2_closed x ei ea W b γ β hγ hβ]
  exact layerRef_eq_layerSt _ _ _ _ _ _ _ _ _ (vSl2_finite γ hγ) (vSl2_finite β hβ)

theorem zh_closed : zh x ei ea W b γ β w1 b1 w2 b2 = ZH x ei ea W b γ β w1 b1 w2 b2 := by
  unfold zh ZH
  rw [z3_closed x ei ea W b γ β hγ hβ, headOf_eq]

theorem out0_closed : out0 x ei ea batch W b γ β w1 b1 w2 b2
    = cat4 (Z1 x ei ea W b γ β) (Z2 x ei ea W b γ β) (Z3 x ei ea W b γ β) (ZH x ei ea W b γ β w1 b1 w2 b2) := by
  unfold out0
  rw [z1_closed x ei ea W b γ β hγ hβ, z2_closed x ei ea W b γ β hγ hβ, z3_closed x ei ea W b γ β hγ hβ,
    zh_closed x ei ea W b γ β w1 b1 w2 b2 hγ hβ]

theorem out1_closed : out1 x ei ea batch W b γ β w1 b1 w2 b2
    = cat4g (Cert.Spec.poolF (broadcastInDim S100000x1 ![0] bcast_S100000_S100000x1_0 batch) (Z1 x ei ea W b γ β))
        (Cert.Spec.poolF (broadcastInDim S100000x1 ![0] bcast_S100000_S100000x1_0 batch) (Z2 x ei ea W b γ β))
        (Cert.Spec.poolF (broadcastInDim S100000x1 ![0] bcast_S100000_S100000x1_0 batch) (Z3 x ei ea W b γ β))
        (Cert.Spec.poolF (broadcastInDim S100000x1 ![0] bcast_S100000_S100000x1_0 batch) (ZH x ei ea W b γ β w1 b1 w2 b2)) := by
  unfold out1
  rw [z1_closed x ei ea W b γ β hγ hβ, z2_closed x ei ea W b γ β hγ hβ, z3_closed x ei ea W b γ β hγ hβ,
    zh_closed x ei ea W b γ β w1 b1 w2 b2 hγ hβ]
  simp only [poolOf_eq]

end Whole

end Cert.Model

end
-- ==== Proof.KI.Layers.lean ====
import proofs.«409448_j71794673320215_1_alg».proof.Proof.KI.Layer0
import proofs.«409448_j71794673320215_1_alg».proof.Proof.KI.Layer1
import proofs.«409448_j71794673320215_1_alg».proof.Proof.KI.Layer2
import proofs.«409448_j71794673320215_1_alg».proof.Proof.ModelOut

set_option maxRecDepth 16384

noncomputable section

namespace Cert.KernelIdeal.Ly

open Cert.KernelIdeal Cert.KernelIdeal.Gen Cert.KernelIdeal.Rg
open Idealize.ShloMosaic Idealize.ShloMosaic.TcCoe Idealize.SL.Sem

theorem layerK_eq (z : FVec Ideal S100000x128 .f32) (w : FVec Ideal S128x128 .f32) (b γ β : FVec Ideal S128 .f32)
    (norm : FVec Ideal S1600000 .f32) (sn : FVec Ideal S100000x1 .f32) (row col : IVec S1600000 32) :
    layerK z w b γ β norm sn row col = Cert.Model.layerSt z w b γ β norm sn row col := rfl

variable (m : (ℓ : Loc nD τ sig) → Buf (Elt Ideal) ℓ) (c : Dev nD)

theorem zout0_model : zout0 m c
    = Cert.Model.Z1 (aX m c) (aEi m c) (aEa m c) (aW m c) (aB m c) (aG m c) (aBt m c) := by
  unfold Cert.Model.Z1
  exact layerK_eq _ _ _ _ _ _ _ _ _

theorem zout1_model : zout1 m c
    = Cert.Model.Z2 (aX m c) (aEi m c) (aEa m c) (aW m c) (aB m c) (aG m c) (aBt m c) := by
  unfold Cert.Model.Z2
  rw [← zout0_model]
  exact layerK_eq _ _ _ _ _ _ _ _ _

theorem zout2_model : zout2 m c
    = Cert.Model.Z3 (aX m c) (aEi m c) (aEa m c) (aW m c) (aB m c) (aG m c) (aBt m c) := by
  unfold Cert.Model.Z3
  rw [← zout1_model]
  exact layerK_eq _ _ _ _ _ _ _ _ _

theorem z1_W24 : W24 m c main_v62
    = Cert.Model.Z1 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) :=
  (lay2_keep m c main_v62 (by decide) (by decide) (by decide) (by decide) (by decide) (by decide) (by decide)).trans <|
  (ops6_keep (W16 m c) main_v62 (by decide)).trans <|
  (lay1_keep m c main_v62 (by decide) (by decide) (by decide) (by decide) (by decide) (by decide) (by decide)).trans <|
  (ops3_keep (W8 m c) main_v62 (by decide)).trans <|
  (zout0_eq m c).trans (zout0_model m c)

theorem z2_W24 : W24 m c main_v96
    = Cert.Model.Z2 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) :=
  (lay2_keep m c main_v96 (by decide) (by decide) (by decide) (by decide) (by decide) (by decide) (by decide)).trans <|
  (ops6_keep (W16 m c) main_v96 (by decide)).trans <|
  (zout1_eq m c).trans (zout1_model m c)

theorem z3_W24 : W24 m c main_v130
    = Cert.Model.Z3 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) :=
  (zout2_eq m c).trans (zout2_model m c)

end Cert.KernelIdeal.Ly

end
-- ==== Proof.Ref.Stages.lean ====
import proofs.«409448_j71794673320215_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev l0A : List (HloOp τ sig (Elt F)) :=
  [ StableHlo.unary main_arg4 main_v29 ((extractStridedSlice S1x128x128 ![0, 0, 0] · slices_S3x128x128_S1x128x128_0_0_0)),
    StableHlo.reshape main_v29 main_v30 rfl shapeCasts_S1x128x128_S128x128,
    StableHlo.binary main_arg0 main_v30 main_v31 ((fun l r => Host.dotGeneral dot_S100000x128_S128x128_S100000x128_1_0_0_1_n_n none l r)),
    StableHlo.unary main_v25 main_v32 (broadcastInDim S1600000x1 ![0] bcast_S1600000_S1600000x1_0),
    StableHlo.nullary main_c_5 (constantI S_ 32 0#32),
    StableHlo.unary main_c_5 main_v33 (broadcastInDim S1600000 ![] bcast_S_S1600000),
    StableHlo.binary main_v1 main_v33 main_v34 (cmpi .slt),
    StableHlo.nullary main_c_6 (constantI S_ 32 100000#32),
    StableHlo.unary main_c_6 main_v35 (broadcastInDim S1600000 ![] bcast_S_S1600000),
    StableHlo.binary main_v1 main_v35 main_v36 (addi),
    StableHlo.ternary main_v34 main_v36 main_v1 main_v37 (select),
    StableHlo.unary main_v37 main_v38 (broadcastInDim S1600000x1 ![0] bcast_S1600000_S1600000x1_0),
    StableHlo.binary main_v31 main_v38 main_v39 ((fun x i => Host.gather gather_S100000x128_S1600000x1_S1600000x128_1_0_n_n_0_1_1128 x i)),
    StableHlo.unary main_v32 main_v40 (broadcastInDim S1600000x128 ![0, 1] bcast_S1600000x1_S1600000x128_0_1),
    StableHlo.binary main_v40 main_v39 main_v41 (mulf),
    StableHlo.nullary main_cst_7 (constant S_ .f32 0x00000000#32),
    StableHlo.unary main_cst_7 main_v42 (broadcastInDim S100000x128 ![] bcast_S_S100000x128),
    StableHlo.unary main_v3 main_v43 (broadcastInDim S1600000x1 ![0] bcast_S1600000_S1600000x1_0),
    StableHlo.ternary main_v42 main_v43 main_v41 main_v44 ((fun x i u => Host.scatterAdd scatter_S100000x128_S1600000x1_S1600000x128_1_0_0_1 x i u)),
    StableHlo.unary main_v28 main_v45 (broadcastInDim S100000x128 ![0, 1] bcast_S100000x1_S100000x128_0_1),
    StableHlo.binary main_v45 main_v31 main_v46 (mulf),
    StableHlo.binary main_v44 main_v46 main_v47 (addf),
    StableHlo.unary main_arg5 main_v48 ((extractStridedSlice S1x128 ![0, 0] · slices_S3x128_S1x128_0_0)),
    StableHlo.reshape main_v48 main_v49 rfl shapeCasts_S1x128_S128,
    StableHlo.unary main_v49 main_v50 (broadcastInDim S1x128 ![1] bcast_S128_S1x128_1),
    StableHlo.unary main_v50 main_v51 (broadcastInDim S100000x128 ![0, 1] bcast_S1x128_S100000x128_0_1),
    StableHlo.binary main_v47 main_v51 main_v52 (addf) ]

abbrev l0B : List (HloOp τ sig (Elt F)) :=
  [ StableHlo.TRef.nullary main_call0.cst (constant S_ .f32 0x00000000#32),
    StableHlo.TRef.unary main_call0.cst main_call0.v0 (broadcastInDim S100000x128 ![] bcast_S_S100000x128),
    StableHlo.TRef.binary (.of main_v52 : StableHlo.TRef sig ⟨S100000x128, .f32⟩) main_call0.v0 main_call0.v1 maximumf,
    StableHlo.nullary main_cst_8 (constant S_ .f32 0x00000000#32),
    StableHlo.binary main_v53 main_cst_8 main_v54 ((fun x v => Host.reduceAdd x v reducesTo_S100000x128_S128_d0 h_S_)),
    StableHlo.nullary main_cst_9 (constant S_ .f32 0x47C35000#32),
    StableHlo.unary main_cst_9 main_v55 (broadcastInDim S128 ![] bcast_S_S128),
    StableHlo.binary main_v54 main_v55 main_v56 (Host.divf) ]

abbrev l0C : List (HloOp τ sig (Elt F)) :=
  [ StableHlo.nullary main_c_10 (constantI S_ 32 0#32),
    StableHlo.TRef.nullary main_call1.cst (constant S_ .f32 0x00000000#32),
    StableHlo.TRef.binary (.of main_v53 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v53 : StableHlo.TRef sig ⟨S100000x128, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev l0D : List (HloOp τ sig (Elt F)) :=
  [ StableHlo.unary main_v56 main_v58 (broadcastInDim S1x128 ![1] bcast_S128_S1x128_1),
    StableHlo.unary main_v58 main_v59 (broadcastInDim S100000x128 ![0, 1] bcast_S1x128_S100000x128_0_1),
    StableHlo.binary main_v53 main_v59 main_v60 (subf),
    StableHlo.nullary main_cst_11 (constant S_ .f32 0x3727C5AC#32),
    StableHlo.unary main_cst_11 main_v61 (broadcastInDim S128 ![] bcast_S_S128),
    StableHlo.binary main_v57 main_v61 main_v62 (addf),
    StableHlo.unary main_v62 main_v63 (Host.rsqrt),
    StableHlo.unary main_v63 main_v64 (broadcastInDim S1x128 ![1] bcast_S128_S1x128_1),
    StableHlo.unary main_v64 main_v65 (broadcastInDim S100000x128 ![0, 1] bcast_S1x128_S100000x128_0_1),
    StableHlo.binary main_v60 main_v65 main_v66 (mulf),
    StableHlo.unary main_arg6 main_v67 ((extractStridedSlice S1x128 ![0, 0] · slices_S3x128_S1x128_0_0)),
    StableHlo.reshape main_v67 main_v68 rfl shapeCasts_S1x128_S128,
    StableHlo.unary main_v68 main_v69 (broadcastInDim S1x128 ![1] bcast_S128_S1x128_1),
    StableHlo.unary main_v69 main_v70 (broadcastInDim S100000x128 ![0, 1] bcast_S1x128_S100000x128_0_1),
    StableHlo.binary main_v66 main_v70 main_v71 (mulf),
    StableHlo.unary main_arg7 main_v72 ((extractStridedSlice S1x128 ![0, 0] · slices_S3x128_S1x128_0_0)),
    StableHlo.reshape main_v72 main_v73 rfl shapeCasts_S1x128_S128,
    StableHlo.unary main_v73 main_v74 (broadcastInDim S1x128 ![1] bcast_S128_S1x128_1),
    StableHlo.unary main_v74 main_v75 (broadcastInDim S100000x128 ![0, 1] bcast_S1x128_S100000x128_0_1),
    StableHlo.binary main_v71 main_v75 main_v76 (addf) ]

abbrev l1A : List (HloOp τ sig (Elt F)) :=
  [ StableHlo.unary main_arg4 main_v77 ((extractStridedSlice S1x128x128 ![1, 0, 0] · slices_S3x128x128_S1x128x128_1_0_0)),
    StableHlo.reshape main_v77 main_v78 rfl shapeCasts_S1x128x128_S128x128,
    StableHlo.binary main_v76 main_v78 main_v79 ((fun l r => Host.dotGeneral dot_S100000x128_S128x128_S100000x128_1_0_0_1_n_n none l r)),
    StableHlo.unary main_v25 main_v80 (broadcastInDim S1600000x1 ![0] bcast_S1600000_S1600000x1_0),
    StableHlo.nullary main_c_12 (constantI S_ 32 0#32),
    StableHlo.unary main_c_12 main_v81 (broadcastInDim S1600000 ![] bcast_S_S1600000),
    StableHlo.binary main_v1 main_v81 main_v82 (cmpi .slt),
    StableHlo.nullary main_c_13 (constantI S_ 32 100000#32),
    StableHlo.unary main_c_13 main_v83 (broadcastInDim S1600000 ![] bcast_S_S1600000),
    StableHlo.binary main_v1 main_v83 main_v84 (addi),
    StableHlo.ternary main_v82 main_v84 main_v1 main_v85 (select),
    StableHlo.unary main_v85 main_v86 (broadcastInDim S1600000x1 ![0] bcast_S1600000_S1600000x1_0),
    StableHlo.binary main_v79 main_v86 main_v87 ((fun x i => Host.gather gather_S100000x128_S1600000x1_S1600000x128_1_0_n_n_0_1_1128 x i)),
    StableHlo.unary main_v80 main_v88 (broadcastInDim S1600000x128 ![0, 1] bcast_S1600000x1_S1600000x128_0_1),
    StableHlo.binary main_v88 main_v87 main_v89 (mulf),
    StableHlo.nullary main_cst_14 (constant S_ .f32 0x00000000#32),
    StableHlo.unary main_cst_14 main_v90 (broadcastInDim S100000x128 ![] bcast_S_S100000x128),
    StableHlo.unary main_v3 main_v91 (broadcastInDim S1600000x1 ![0] bcast_S1600000_S1600000x1_0),
    StableHlo.ternary main_v90 main_v91 main_v89 main_v92 ((fun x i u => Host.scatterAdd scatter_S100000x128_S1600000x1_S1600000x128_1_0_0_1 x i u)),
    StableHlo.unary main_v28 main_v93 (broadcastInDim S100000x128 ![0, 1] bcast_S100000x1_S100000x128_0_1),
    StableHlo.binary main_v93 main_v79 main_v94 (mulf),
    StableHlo.binary main_v92 main_v94 main_v95 (addf),
    StableHlo.unary main_arg5 main_v96 ((extractStridedSlice S1x128 ![1, 0] · slices_S3x128_S1x128_1_0)),
    StableHlo.reshape main_v96 main_v97 rfl shapeCasts_S1x128_S128,
    StableHlo.unary main_v97 main_v98 (broadcastInDim S1x128 ![1] bcast_S128_S1x128_1),
    StableHlo.unary main_v98 main_v99 (broadcastInDim S100000x128 ![0, 1] bcast_S1x128_S100000x128_0_1),
    StableHlo.binary main_v95 main_v99 main_v100 (addf) ]

abbrev l1B : List (HloOp τ sig (Elt F)) :=
  [ StableHlo.TRef.nullary main_call2.cst (constant S_ .f32 0x00000000#32),
    StableHlo.TRef.unary main_call2.cst main_call2.v0 (broadcastInDim S100000x128 ![] bcast_S_S100000x128),
    StableHlo.TRef.binary (.of main_v100 : StableHlo.TRef sig ⟨S100000x128, .f32⟩) main_call2.v0 main_call2.v1 maximumf,
    StableHlo.nullary main_cst_15 (constant S_ .f32 0x00000000#32),
    StableHlo.binary main_v101 main_cst_15 main_v102 ((fun x v => Host.reduceAdd x v reducesTo_S100000x128_S128_d0 h_S_)),
    StableHlo.nullary main_cst_16 (constant S_ .f32 0x47C35000#32),
    StableHlo.unary main_cst_16 main_v103 (broadcastInDim S128 ![] bcast_S_S128),
    StableHlo.binary main_v102 main_v103 main_v104 (Host.divf) ]

abbrev l1C : List (HloOp τ sig (Elt F)) :=
  [ StableHlo.nullary main_c_17 (constantI S_ 32 0#32),
    StableHlo.TRef.nullary main_call3.cst (constant S_ .f32 0x00000000#32),
    StableHlo.TRef.binary (.of main_v101 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v101 : StableHlo.TRef sig ⟨S100000x128, .f32⟩) main_call3.v4 main_call3.v5 subf,
    StableHlo.TRef.binary main_call3.v5 main_call3.v5 main_call3.v6 mulf,
    StableHlo.TRef.unary (.of main_c_17 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

abbrev l1D : List (HloOp τ sig (Elt F)) :=
  [ StableHlo.unary main_v104 main_v106 (broadcastInDim S1x128 ![1] bcast_S128_S1x128_1),
    StableHlo.unary main_v106 main_v107 (broadcastInDim S100000x128 ![0, 1] bcast_S1x128_S100000x128_0_1),
    StableHlo.binary main_v101 main_v107 main_v108 (subf),
    StableHlo.nullary main_cst_18 (constant S_ .f32 0x3727C5AC#32),
    StableHlo.unary main_cst_18 main_v109 (broadcastInDim S128 ![] bcast_S_S128),
    StableHlo.binary main_v105 main_v109 main_v110 (addf),
    StableHlo.unary main_v110 main_v111 (Host.rsqrt),
    StableHlo.unary main_v111 main_v112 (broadcastInDim S1x128 ![1] bcast_S128_S1x128_1),
    StableHlo.unary main_v112 main_v113 (broadcastInDim S100000x128 ![0, 1] bcast_S1x128_S100000x128_0_1),
    StableHlo.binary main_v108 main_v113 main_v114 (mulf),
    StableHlo.unary main_arg6 main_v115 ((extractStridedSlice S1x128 ![1, 0] · slices_S3x128_S1x128_1_0)),
    StableHlo.reshape main_v115 main_v116 rfl shapeCasts_S1x128_S128,
    StableHlo.unary main_v116 main_v117 (broadcastInDim S1x128 ![1] bcast_S128_S1x128_1),
    StableHlo.unary main_v117 main_v118 (broadcastInDim S100000x128 ![0, 1] bcast_S1x128_S100000x128_0_1),
    StableHlo.binary main_v114 main_v118 main_v119 (mulf),
    StableHlo.unary main_arg7 main_v120 ((extractStridedSlice S1x128 ![1, 0] · slices_S3x128_S1x128_1_0)),
    StableHlo.reshape main_v120 main_v121 rfl shapeCasts_S1x128_S128,
    StableHlo.unary main_v121 main_v122 (broadcastInDim S1x128 ![1] bcast_S128_S1x128_1),
    StableHlo.unary main_v122 main_v123 (broadcastInDim S100000x128 ![0, 1] bcast_S1x128_S100000x128_0_1),
    StableHlo.binary main_v119 main_v123 main_v124 (addf) ]

abbrev l2A : List (HloOp τ sig (Elt F)) :=
  [ StableHlo.unary main_arg4 main_v125 ((extractStridedSlice S1x128x128 ![2, 0, 0] · slices_S3x128x128_S1x128x128_2_0_0)),
    StableHlo.reshape main_v125 main_v126 rfl shapeCasts_S1x128x128_S128x128,
    StableHlo.binary main_v124 main_v126 main_v127 ((fun l r => Host.dotGeneral dot_S100000x128_S128x128_S100000x128_1_0_0_1_n_n none l r)),
    StableHlo.unary main_v25 main_v128 (broadcastInDim S1600000x1 ![0] bcast_S1600000_S1600000x1_0),
    StableHlo.nullary main_c_19 (constantI S_ 32 0#32),
    StableHlo.unary main_c_19 main_v129 (broadcastInDim S1600000 ![] bcast_S_S1600000),
    StableHlo.binary main_v1 main_v129 main_v130 (cmpi .slt),
    StableHlo.nullary main_c_20 (constantI S_ 32 100000#32),
    StableHlo.unary main_c_20 main_v131 (broadcastInDim S1600000 ![] bcast_S_S1600000),
    StableHlo.binary main_v1 main_v131 main_v132 (addi),
    StableHlo.ternary main_v130 main_v132 main_v1 main_v133 (select),
    StableHlo.unary main_v133 main_v134 (broadcastInDim S1600000x1 ![0] bcast_S1600000_S1600000x1_0),
    StableHlo.binary main_v127 main_v134 main_v135 ((fun x i => Host.gather gather_S100000x128_S1600000x1_S1600000x128_1_0_n_n_0_1_1128 x i)),
    StableHlo.unary main_v128 main_v136 (broadcastInDim S1600000x128 ![0, 1] bcast_S1600000x1_S1600000x128_0_1),
    StableHlo.binary main_v136 main_v135 main_v137 (mulf),
    StableHlo.nullary main_cst_21 (constant S_ .f32 0x00000000#32),
    StableHlo.unary main_cst_21 main_v138 (broadcastInDim S100000x128 ![] bcast_S_S100000x128),
    StableHlo.unary main_v3 main_v139 (broadcastInDim S1600000x1 ![0] bcast_S1600000_S1600000x1_0),
    StableHlo.ternary main_v138 main_v139 main_v137 main_v140 ((fun x i u => Host.scatterAdd scatter_S100000x128_S1600000x1_S1600000x128_1_0_0_1 x i u)),
    StableHlo.unary main_v28 main_v141 (broadcastInDim S100000x128 ![0, 1] bcast_S100000x1_S100000x128_0_1),
    StableHlo.binary main_v141 main_v127 main_v142 (mulf),
    StableHlo.binary main_v140 main_v142 main_v143 (addf),
    StableHlo.unary main_arg5 main_v144 ((extractStridedSlice S1x128 ![2, 0] · slices_S3x128_S1x128_2_0)),
    StableHlo.reshape main_v144 main_v145 rfl shapeCasts_S1x128_S128,
    StableHlo.unary main_v145 main_v146 (broadcastInDim S1x128 ![1] bcast_S128_S1x128_1),
    StableHlo.unary main_v146 main_v147 (broadcastInDim S100000x128 ![0, 1] bcast_S1x128_S100000x128_0_1),
    StableHlo.binary main_v143 main_v147 main_v148 (addf) ]

abbrev l2B : List (HloOp τ sig (Elt F)) :=
  [ StableHlo.TRef.nullary main_call4.cst (constant S_ .f32 0x00000000#32),
    StableHlo.TRef.unary main_call4.cst main_call4.v0 (broadcastInDim S100000x128 ![] bcast_S_S100000x128),
    StableHlo.TRef.binary (.of main_v148 : StableHlo.TRef sig ⟨S100000x128, .f32⟩) main_call4.v0 main_call4.v1 maximumf,
    StableHlo.nullary main_cst_22 (constant S_ .f32 0x00000000#32),
    StableHlo.binary main_v149 main_cst_22 main_v150 ((fun x v => Host.reduceAdd x v reducesTo_S100000x128_S128_d0 h_S_)),
    StableHlo.nullary main_cst_23 (constant S_ .f32 0x47C35000#32),
    StableHlo.unary main_cst_23 main_v151 (broadcastInDim S128 ![] bcast_S_S128),
    StableHlo.binary main_v150 main_v151 main_v152 (Host.divf) ]

abbrev l2C : List (HloOp τ sig (Elt F)) :=
  [ StableHlo.nullary main_c_24 (constantI S_ 32 0#32),
    StableHlo.TRef.nullary main_call5.cst (constant S_ .f32 0x00000000#32),
    StableHlo.TRef.binary (.of main_v149 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v149 : StableHlo.TRef sig ⟨S100000x128, .f32⟩) main_call5.v4 main_call5.v5 subf,
    StableHlo.TRef.binary main_call5.v5 main_call5.v5 main_call5.v6 mulf,
    StableHlo.TRef.unary (.of main_c_24 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

abbrev l2D : List (HloOp τ sig (Elt F)) :=
  [ StableHlo.unary main_v152 main_v154 (broadcastInDim S1x128 ![1] bcast_S128_S1x128_1),
    StableHlo.unary main_v154 main_v155 (broadcastInDim S100000x128 ![0, 1] bcast_S1x128_S100000x128_0_1),
    StableHlo.binary main_v149 main_v155 main_v156 (subf),
    StableHlo.nullary main_cst_25 (constant S_ .f32 0x3727C5AC#32),
    StableHlo.unary main_cst_25 main_v157 (broadcastInDim S128 ![] bcast_S_S128),
    StableHlo.binary main_v153 main_v157 main_v158 (addf),
    StableHlo.unary main_v158 main_v159 (Host.rsqrt),
    StableHlo.unary main_v159 main_v160 (broadcastInDim S1x128 ![1] bcast_S128_S1x128_1),
    StableHlo.unary main_v160 main_v161 (broadcastInDim S100000x128 ![0, 1] bcast_S1x128_S100000x128_0_1),
    StableHlo.binary main_v156 main_v161 main_v162 (mulf),
    StableHlo.unary main_arg6 main_v163 ((extractStridedSlice S1x128 ![2, 0] · slices_S3x128_S1x128_2_0)),
    StableHlo.reshape main_v163 main_v164 rfl shapeCasts_S1x128_S128,
    StableHlo.unary main_v164 main_v165 (broadcastInDim S1x128 ![1] bcast_S128_S1x128_1),
    StableHlo.unary main_v165 main_v166 (broadcastInDim S100000x128 ![0, 1] bcast_S1x128_S100000x128_0_1),
    StableHlo.binary main_v162 main_v166 main_v167 (mulf),
    StableHlo.unary main_arg7 main_v168 ((extractStridedSlice S1x128 ![2, 0] · slices_S3x128_S1x128_2_0)),
    StableHlo.reshape main_v168 main_v169 rfl shapeCasts_S1x128_S128,
    StableHlo.unary main_v169 main_v170 (broadcastInDim S1x128 ![1] bcast_S128_S1x128_1),
    StableHlo.unary main_v170 main_v171 (broadcastInDim S100000x128 ![0, 1] bcast_S1x128_S100000x128_0_1),
    StableHlo.binary main_v167 main_v171 main_v172 (addf) ]

set_option maxRecDepth 8192 in

theorem layer0_split : (layer0 : List (HloOp τ sig (Elt F))) = l0A ++ (l0B ++ (l0C ++ l0D)) := rfl

theorem after_layer0_split (V : Valuation τ sig (Elt F)) : after layer0 V = after l0D (after l0C (after l0B (after l0A V))) := by
  rw [layer0_split, after_append, after_append, after_append]

set_option maxRecDepth 8192 in

theorem layer1_split : (layer1 : List (HloOp τ sig (Elt F))) = l1A ++ (l1B ++ (l1C ++ l1D)) := rfl

theorem after_layer1_split (V : Valuation τ sig (Elt F)) : after layer1 V = after l1D (after l1C (after l1B (after l1A V))) := by
  rw [layer1_split, after_append, after_append, after_append]

set_option maxRecDepth 8192 in

theorem layer2_split : (layer2 : List (HloOp τ sig (Elt F))) = l2A ++ (l2B ++ (l2C ++ l2D)) := rfl

theorem after_layer2_split (V : Valuation τ sig (Elt F)) : after layer2 V = after l2D (after l2C (after l2B (after l2A V))) := by
  rw [layer2_split, after_append, after_append, after_append]

abbrev l0A_W : List (Ref sig .tc) := [main_v29, main_v30, main_v31, main_v32, main_c_5, main_v33, main_v34, main_c_6, main_v35, main_v36, main_v37, main_v38, main_v39, main_v40, main_v41, main_cst_7, main_v42, main_v43, main_v44, main_v45, main_v46, main_v47, main_v48, main_v49, main_v50, main_v51, main_v52]
set_option maxRecDepth 8192 in
theorem l0A_writes : (l0A : List (HloOp τ sig (Elt F))).Forall fun op => op.writes ⊆ (l0A_W.map (Proc.devRef (τ := τ) .tc)).toFinset :=
  ⟨writes_sub_of_mem (y := main_v29) rfl (by decide), writes_sub_of_mem (y := main_v30) rfl (by decide), writes_sub_of_mem (y := main_v31) rfl (by decide), writes_sub_of_mem (y := main_v32) rfl (by decide), writes_sub_of_mem (y := main_c_5) rfl (by decide), writes_sub_of_mem (y := main_v33) rfl (by decide), writes_sub_of_mem (y := main_v34) rfl (by decide), writes_sub_of_mem (y := main_c_6) rfl (by decide), writes_sub_of_mem (y := main_v35) rfl (by decide), writes_sub_of_mem (y := main_v36) rfl (by decide), writes_sub_of_mem (y := main_v37) rfl (by decide), writes_sub_of_mem (y := main_v38) rfl (by decide), writes_sub_of_mem (y := main_v39) rfl (by decide), writes_sub_of_mem (y := main_v40) rfl (by decide), writes_sub_of_mem (y := main_v41) rfl (by decide), writes_sub_of_mem (y := main_cst_7) rfl (by decide), writes_sub_of_mem (y := main_v42) rfl (by decide), writes_sub_of_mem (y := main_v43) rfl (by decide), writes_sub_of_mem (y := main_v44) rfl (by decide), writes_sub_of_mem (y := main_v45) rfl (by decide), writes_sub_of_mem (y := main_v46) rfl (by decide), writes_sub_of_mem (y := main_v47) rfl (by decide), writes_sub_of_mem (y := main_v48) rfl (by decide), writes_sub_of_mem (y := main_v49) rfl (by decide), writes_sub_of_mem (y := main_v50) rfl (by decide), writes_sub_of_mem (y := main_v51) rfl (by decide), writes_sub_of_mem (y := main_v52) rfl (by decide)⟩

theorem l0A_keep (V : Valuation τ sig (Elt F)) (r : Ref sig .tc) (h : r ∉ l0A_W) :
    after l0A V (Proc.devRef .tc r) = V (Proc.devRef .tc r) :=
  after_of_writes_sub l0A V l0A_writes h

abbrev l0B_W : List (Ref sig .tc) := [main_call0_cst, main_call0_v0, main_v53, main_cst_8, main_v54, main_cst_9, main_v55, main_v56]
set_option maxRecDepth 8192 in
theorem l0B_writes : (l0B : List (HloOp τ sig (Elt F))).Forall fun op => op.writes ⊆ (l0B_W.map (Proc.devRef (τ := τ) .tc)).toFinset :=
  ⟨writes_sub_of_mem (y := main_call0_cst) rfl (by decide), writes_sub_of_mem (y := main_call0_v0) rfl (by decide), writes_sub_of_mem (y := main_v53) rfl (by decide), writes_sub_of_mem (y := main_cst_8) rfl (by decide), writes_sub_of_mem (y := main_v54) rfl (by decide), writes_sub_of_mem (y := main_cst_9) rfl (by decide), writes_sub_of_mem (y := main_v55) rfl (by decide), writes_sub_of_mem (y := main_v56) rfl (by decide)⟩

theorem l0B_keep (V : Valuation τ sig (Elt F)) (r : Ref sig .tc) (h : r ∉ l0B_W) :
    after l0B V (Proc.devRef .tc r) = V (Proc.devRef .tc r) :=
  after_of_writes_sub l0B V l0B_writes h

abbrev l0C_W : List (Ref sig .tc) := [main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v57]
set_option maxRecDepth 8192 in
theorem l0C_writes : (l0C : List (HloOp τ sig (Elt F))).Forall fun op => op.writes ⊆ (l0C_W.map (Proc.devRef (τ := τ) .tc)).toFinset :=
  ⟨writes_sub_of_mem (y := main_c_10) rfl (by decide), writes_sub_of_mem (y := main_call1_cst) rfl (by decide), writes_sub_of_mem (y := main_call1_v0) rfl (by decide), writes_sub_of_mem (y := main_call1_v1) rfl (by decide), writes_sub_of_mem (y := main_call1_cst_0) rfl (by decide), writes_sub_of_mem (y := main_call1_v2) rfl (by decide), writes_sub_of_mem (y := main_call1_v3) rfl (by decide), writes_sub_of_mem (y := main_call1_v4) rfl (by decide), writes_sub_of_mem (y := main_call1_v5) rfl (by decide), writes_sub_of_mem (y := main_call1_v6) rfl (by decide), writes_sub_of_mem (y := main_call1_v7) rfl (by decide), writes_sub_of_mem (y := main_call1_cst_1) rfl (by decide), writes_sub_of_mem (y := main_call1_v8) rfl (by decide), writes_sub_of_mem (y := main_call1_cst_2) rfl (by decide), writes_sub_of_mem (y := main_call1_v9) rfl (by decide), writes_sub_of_mem (y := main_call1_v10) rfl (by decide), writes_sub_of_mem (y := main_call1_v11) rfl (by decide), writes_sub_of_mem (y := main_call1_cst_3) rfl (by decide), writes_sub_of_mem (y := main_call1_v12) rfl (by decide), writes_sub_of_mem (y := main_call1_cst_4) rfl (by decide), writes_sub_of_mem (y := main_call1_call0_v0) rfl (by decide), writes_sub_of_mem (y := main_call1_call0_v1) rfl (by decide), writes_sub_of_mem (y := main_v57) rfl (by decide)⟩

theorem l0C_keep (V : Valuation τ sig (Elt F)) (r : Ref sig .tc) (h : r ∉ l0C_W) :
    after l0C V (Proc.devRef .tc r) = V (Proc.devRef .tc r) :=
  after_of_writes_sub l0C V l0C_writes h

abbrev l0D_W : List (Ref sig .tc) := [main_v58, main_v59, main_v60, main_cst_11, main_v61, main_v62, main_v63, main_v64, main_v65, main_v66, main_v67, main_v68, main_v69, main_v70, main_v71, main_v72, main_v73, main_v74, main_v75, main_v76]
set_option maxRecDepth 8192 in
theorem l0D_writes : (l0D : List (HloOp τ sig (Elt F))).Forall fun op => op.writes ⊆ (l0D_W.map (Proc.devRef (τ := τ) .tc)).toFinset :=
  ⟨writes_sub_of_mem (y := main_v58) rfl (by decide), writes_sub_of_mem (y := main_v59) rfl (by decide), writes_sub_of_mem (y := main_v60) rfl (by decide), writes_sub_of_mem (y := main_cst_11) rfl (by decide), writes_sub_of_mem (y := main_v61) rfl (by decide), writes_sub_of_mem (y := main_v62) rfl (by decide), writes_sub_of_mem (y := main_v63) rfl (by decide), writes_sub_of_mem (y := main_v64) rfl (by decide), writes_sub_of_mem (y := main_v65) rfl (by decide), writes_sub_of_mem (y := main_v66) rfl (by decide), writes_sub_of_mem (y := main_v67) rfl (by decide), writes_sub_of_mem (y := main_v68) rfl (by decide), writes_sub_of_mem (y := main_v69) rfl (by decide), writes_sub_of_mem (y := main_v70) rfl (by decide), writes_sub_of_mem (y := main_v71) rfl (by decide), writes_sub_of_mem (y := main_v72) rfl (by decide), writes_sub_of_mem (y := main_v73) rfl (by decide), writes_sub_of_mem (y := main_v74) rfl (by decide), writes_sub_of_mem (y := main_v75) rfl (by decide), writes_sub_of_mem (y := main_v76) rfl (by decide)⟩

theorem l0D_keep (V : Valuation τ sig (Elt F)) (r : Ref sig .tc) (h : r ∉ l0D_W) :
    after l0D V (Proc.devRef .tc r) = V (Proc.devRef .tc r) :=
  after_of_writes_sub l0D V l0D_writes h

abbrev l1A_W : List (Ref sig .tc) := [main_v77, main_v78, main_v79, main_v80, main_c_12, main_v81, main_v82, main_c_13, main_v83, main_v84, main_v85, main_v86, main_v87, main_v88, main_v89, main_cst_14, main_v90, main_v91, main_v92, main_v93, main_v94, main_v95, main_v96, main_v97, main_v98, main_v99, main_v100]
set_option maxRecDepth 8192 in
theorem l1A_writes : (l1A : List (HloOp τ sig (Elt F))).Forall fun op => op.writes ⊆ (l1A_W.map (Proc.devRef (τ := τ) .tc)).toFinset :=
  ⟨writes_sub_of_mem (y := main_v77) rfl (by decide), writes_sub_of_mem (y := main_v78) rfl (by decide), writes_sub_of_mem (y := main_v79) rfl (by decide), writes_sub_of_mem (y := main_v80) rfl (by decide), writes_sub_of_mem (y := main_c_12) rfl (by decide), writes_sub_of_mem (y := main_v81) rfl (by decide), writes_sub_of_mem (y := main_v82) rfl (by decide), writes_sub_of_mem (y := main_c_13) rfl (by decide), writes_sub_of_mem (y := main_v83) rfl (by decide), writes_sub_of_mem (y := main_v84) rfl (by decide), writes_sub_of_mem (y := main_v85) rfl (by decide), writes_sub_of_mem (y := main_v86) rfl (by decide), writes_sub_of_mem (y := main_v87) rfl (by decide), writes_sub_of_mem (y := main_v88) rfl (by decide), writes_sub_of_mem (y := main_v89) rfl (by decide), writes_sub_of_mem (y := main_cst_14) rfl (by decide), writes_sub_of_mem (y := main_v90) rfl (by decide), writes_sub_of_mem (y := main_v91) rfl (by decide), writes_sub_of_mem (y := main_v92) rfl (by decide), writes_sub_of_mem (y := main_v93) rfl (by decide), writes_sub_of_mem (y := main_v94) rfl (by decide), writes_sub_of_mem (y := main_v95) rfl (by decide), writes_sub_of_mem (y := main_v96) rfl (by decide), writes_sub_of_mem (y := main_v97) rfl (by decide), writes_sub_of_mem (y := main_v98) rfl (by decide), writes_sub_of_mem (y := main_v99) rfl (by decide), writes_sub_of_mem (y := main_v100) rfl (by decide)⟩

theorem l1A_keep (V : Valuation τ sig (Elt F)) (r : Ref sig .tc) (h : r ∉ l1A_W) :
    after l1A V (Proc.devRef .tc r) = V (Proc.devRef .tc r) :=
  after_of_writes_sub l1A V l1A_writes h

abbrev l1B_W : List (Ref sig .tc) := [main_call2_cst, main_call2_v0, main_v101, main_cst_15, main_v102, main_cst_16, main_v103, main_v104]
set_option maxRecDepth 8192 in
theorem l1B_writes : (l1B : List (HloOp τ sig (Elt F))).Forall fun op => op.writes ⊆ (l1B_W.map (Proc.devRef (τ := τ) .tc)).toFinset :=
  ⟨writes_sub_of_mem (y := main_call2_cst) rfl (by decide), writes_sub_of_mem (y := main_call2_v0) rfl (by decide), writes_sub_of_mem (y := main_v101) rfl (by decide), writes_sub_of_mem (y := main_cst_15) rfl (by decide), writes_sub_of_mem (y := main_v102) rfl (by decide), writes_sub_of_mem (y := main_cst_16) rfl (by decide), writes_sub_of_mem (y := main_v103) rfl (by decide), writes_sub_of_mem (y := main_v104) rfl (by decide)⟩

theorem l1B_keep (V : Valuation τ sig (Elt F)) (r : Ref sig .tc) (h : r ∉ l1B_W) :
    after l1B V (Proc.devRef .tc r) = V (Proc.devRef .tc r) :=
  after_of_writes_sub l1B V l1B_writes h

abbrev l1C_W : List (Ref sig .tc) := [main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v105]
set_option maxRecDepth 8192 in
theorem l1C_writes : (l1C : List (HloOp τ sig (Elt F))).Forall fun op => op.writes ⊆ (l1C_W.map (Proc.devRef (τ := τ) .tc)).toFinset :=
  ⟨writes_sub_of_mem (y := main_c_17) rfl (by decide), writes_sub_of_mem (y := main_call3_cst) rfl (by decide), writes_sub_of_mem (y := main_call3_v0) rfl (by decide), writes_sub_of_mem (y := main_call3_v1) rfl (by decide), writes_sub_of_mem (y := main_call3_cst_0) rfl (by decide), writes_sub_of_mem (y := main_call3_v2) rfl (by decide), writes_sub_of_mem (y := main_call3_v3) rfl (by decide), writes_sub_of_mem (y := main_call3_v4) rfl (by decide), writes_sub_of_mem (y := main_call3_v5) rfl (by decide), writes_sub_of_mem (y := main_call3_v6) rfl (by decide), writes_sub_of_mem (y := main_call3_v7) rfl (by decide), writes_sub_of_mem (y := main_call3_cst_1) rfl (by decide), writes_sub_of_mem (y := main_call3_v8) rfl (by decide), writes_sub_of_mem (y := main_call3_cst_2) rfl (by decide), writes_sub_of_mem (y := main_call3_v9) rfl (by decide), writes_sub_of_mem (y := main_call3_v10) rfl (by decide), writes_sub_of_mem (y := main_call3_v11) rfl (by decide), writes_sub_of_mem (y := main_call3_cst_3) rfl (by decide), writes_sub_of_mem (y := main_call3_v12) rfl (by decide), writes_sub_of_mem (y := main_call3_cst_4) rfl (by decide), writes_sub_of_mem (y := main_call3_call0_v0) rfl (by decide), writes_sub_of_mem (y := main_call3_call0_v1) rfl (by decide), writes_sub_of_mem (y := main_v105) rfl (by decide)⟩

theorem l1C_keep (V : Valuation τ sig (Elt F)) (r : Ref sig .tc) (h : r ∉ l1C_W) :
    after l1C V (Proc.devRef .tc r) = V (Proc.devRef .tc r) :=
  after_of_writes_sub l1C V l1C_writes h

abbrev l1D_W : List (Ref sig .tc) := [main_v106, main_v107, main_v108, main_cst_18, main_v109, main_v110, main_v111, main_v112, main_v113, main_v114, main_v115, main_v116, main_v117, main_v118, main_v119, main_v120, main_v121, main_v122, main_v123, main_v124]
set_option maxRecDepth 8192 in
theorem l1D_writes : (l1D : List (HloOp τ sig (Elt F))).Forall fun op => op.writes ⊆ (l1D_W.map (Proc.devRef (τ := τ) .tc)).toFinset :=
  ⟨writes_sub_of_mem (y := main_v106) rfl (by decide), writes_sub_of_mem (y := main_v107) rfl (by decide), writes_sub_of_mem (y := main_v108) rfl (by decide), writes_sub_of_mem (y := main_cst_18) rfl (by decide), writes_sub_of_mem (y := main_v109) rfl (by decide), writes_sub_of_mem (y := main_v110) rfl (by decide), writes_sub_of_mem (y := main_v111) rfl (by decide), writes_sub_of_mem (y := main_v112) rfl (by decide), writes_sub_of_mem (y := main_v113) rfl (by decide), writes_sub_of_mem (y := main_v114) rfl (by decide), writes_sub_of_mem (y := main_v115) rfl (by decide), writes_sub_of_mem (y := main_v116) rfl (by decide), writes_sub_of_mem (y := main_v117) rfl (by decide), writes_sub_of_mem (y := main_v118) rfl (by decide), writes_sub_of_mem (y := main_v119) rfl (by decide), writes_sub_of_mem (y := main_v120) rfl (by decide), writes_sub_of_mem (y := main_v121) rfl (by decide), writes_sub_of_mem (y := main_v122) rfl (by decide), writes_sub_of_mem (y := main_v123) rfl (by decide), writes_sub_of_mem (y := main_v124) rfl (by decide)⟩

theorem l1D_keep (V : Valuation τ sig (Elt F)) (r : Ref sig .tc) (h : r ∉ l1D_W) :
    after l1D V (Proc.devRef .tc r) = V (Proc.devRef .tc r) :=
  after_of_writes_sub l1D V l1D_writes h

abbrev l2A_W : List (Ref sig .tc) := [main_v125, main_v126, main_v127, main_v128, main_c_19, main_v129, main_v130, main_c_20, main_v131, main_v132, main_v133, main_v134, main_v135, main_v136, main_v137, main_cst_21, main_v138, main_v139, main_v140, main_v141, main_v142, main_v143, main_v144, main_v145, main_v146, main_v147, main_v148]
set_option maxRecDepth 8192 in
theorem l2A_writes : (l2A : List (HloOp τ sig (Elt F))).Forall fun op => op.writes ⊆ (l2A_W.map (Proc.devRef (τ := τ) .tc)).toFinset :=
  ⟨writes_sub_of_mem (y := main_v125) rfl (by decide), writes_sub_of_mem (y := main_v126) rfl (by decide), writes_sub_of_mem (y := main_v127) rfl (by decide), writes_sub_of_mem (y := main_v128) rfl (by decide), writes_sub_of_mem (y := main_c_19) rfl (by decide), writes_sub_of_mem (y := main_v129) rfl (by decide), writes_sub_of_mem (y := main_v130) rfl (by decide), writes_sub_of_mem (y := main_c_20) rfl (by decide), writes_sub_of_mem (y := main_v131) rfl (by decide), writes_sub_of_mem (y := main_v132) rfl (by decide), writes_sub_of_mem (y := main_v133) rfl (by decide), writes_sub_of_mem (y := main_v134) rfl (by decide), writes_sub_of_mem (y := main_v135) rfl (by decide), writes_sub_of_mem (y := main_v136) rfl (by decide), writes_sub_of_mem (y := main_v137) rfl (by decide), writes_sub_of_mem (y := main_cst_21) rfl (by decide), writes_sub_of_mem (y := main_v138) rfl (by decide), writes_sub_of_mem (y := main_v139) rfl (by decide), writes_sub_of_mem (y := main_v140) rfl (by decide), writes_sub_of_mem (y := main_v141) rfl (by decide), writes_sub_of_mem (y := main_v142) rfl (by decide), writes_sub_of_mem (y := main_v143) rfl (by decide), writes_sub_of_mem (y := main_v144) rfl (by decide), writes_sub_of_mem (y := main_v145) rfl (by decide), writes_sub_of_mem (y := main_v146) rfl (by decide), writes_sub_of_mem (y := main_v147) rfl (by decide), writes_sub_of_mem (y := main_v148) rfl (by decide)⟩

theorem l2A_keep (V : Valuation τ sig (Elt F)) (r : Ref sig .tc) (h : r ∉ l2A_W) :
    after l2A V (Proc.devRef .tc r) = V (Proc.devRef .tc r) :=
  after_of_writes_sub l2A V l2A_writes h

abbrev l2B_W : List (Ref sig .tc) := [main_call4_cst, main_call4_v0, main_v149, main_cst_22, main_v150, main_cst_23, main_v151, main_v152]
set_option maxRecDepth 8192 in
theorem l2B_writes : (l2B : List (HloOp τ sig (Elt F))).Forall fun op => op.writes ⊆ (l2B_W.map (Proc.devRef (τ := τ) .tc)).toFinset :=
  ⟨writes_sub_of_mem (y := main_call4_cst) rfl (by decide), writes_sub_of_mem (y := main_call4_v0) rfl (by decide), writes_sub_of_mem (y := main_v149) rfl (by decide), writes_sub_of_mem (y := main_cst_22) rfl (by decide), writes_sub_of_mem (y := main_v150) rfl (by decide), writes_sub_of_mem (y := main_cst_23) rfl (by decide), writes_sub_of_mem (y := main_v151) rfl (by decide), writes_sub_of_mem (y := main_v152) rfl (by decide)⟩

theorem l2B_keep (V : Valuation τ sig (Elt F)) (r : Ref sig .tc) (h : r ∉ l2B_W) :
    after l2B V (Proc.devRef .tc r) = V (Proc.devRef .tc r) :=
  after_of_writes_sub l2B V l2B_writes h

abbrev l2C_W : List (Ref sig .tc) := [main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v153]
set_option maxRecDepth 8192 in
theorem l2C_writes : (l2C : List (HloOp τ sig (Elt F))).Forall fun op => op.writes ⊆ (l2C_W.map (Proc.devRef (τ := τ) .tc)).toFinset :=
  ⟨writes_sub_of_mem (y := main_c_24) rfl (by decide), writes_sub_of_mem (y := main_call5_cst) rfl (by decide), writes_sub_of_mem (y := main_call5_v0) rfl (by decide), writes_sub_of_mem (y := main_call5_v1) rfl (by decide), writes_sub_of_mem (y := main_call5_cst_0) rfl (by decide), writes_sub_of_mem (y := main_call5_v2) rfl (by decide), writes_sub_of_mem (y := main_call5_v3) rfl (by decide), writes_sub_of_mem (y := main_call5_v4) rfl (by decide), writes_sub_of_mem (y := main_call5_v5) rfl (by decide), writes_sub_of_mem (y := main_call5_v6) rfl (by decide), writes_sub_of_mem (y := main_call5_v7) rfl (by decide), writes_sub_of_mem (y := main_call5_cst_1) rfl (by decide), writes_sub_of_mem (y := main_call5_v8) rfl (by decide), writes_sub_of_mem (y := main_call5_cst_2) rfl (by decide), writes_sub_of_mem (y := main_call5_v9) rfl (by decide), writes_sub_of_mem (y := main_call5_v10) rfl (by decide), writes_sub_of_mem (y := main_call5_v11) rfl (by decide), writes_sub_of_mem (y := main_call5_cst_3) rfl (by decide), writes_sub_of_mem (y := main_call5_v12) rfl (by decide), writes_sub_of_mem (y := main_call5_cst_4) rfl (by decide), writes_sub_of_mem (y := main_call5_call0_v0) rfl (by decide), writes_sub_of_mem (y := main_call5_call0_v1) rfl (by decide), writes_sub_of_mem (y := main_v153) rfl (by decide)⟩

theorem l2C_keep (V : Valuation τ sig (Elt F)) (r : Ref sig .tc) (h : r ∉ l2C_W) :
    after l2C V (Proc.devRef .tc r) = V (Proc.devRef .tc r) :=
  after_of_writes_sub l2C V l2C_writes h

abbrev l2D_W : List (Ref sig .tc) := [main_v154, main_v155, main_v156, main_cst_25, main_v157, main_v158, main_v159, main_v160, main_v161, main_v162, main_v163, main_v164, main_v165, main_v166, main_v167, main_v168, main_v169, main_v170, main_v171, main_v172]
set_option maxRecDepth 8192 in
theorem l2D_writes : (l2D : List (HloOp τ sig (Elt F))).Forall fun op => op.writes ⊆ (l2D_W.map (Proc.devRef (τ := τ) .tc)).toFinset :=
  ⟨writes_sub_of_mem (y := main_v154) rfl (by decide), writes_sub_of_mem (y := main_v155) rfl (by decide), writes_sub_of_mem (y := main_v156) rfl (by decide), writes_sub_of_mem (y := main_cst_25) rfl (by decide), writes_sub_of_mem (y := main_v157) rfl (by decide), writes_sub_of_mem (y := main_v158) rfl (by decide), writes_sub_of_mem (y := main_v159) rfl (by decide), writes_sub_of_mem (y := main_v160) rfl (by decide), writes_sub_of_mem (y := main_v161) rfl (by decide), writes_sub_of_mem (y := main_v162) rfl (by decide), writes_sub_of_mem (y := main_v163) rfl (by decide), writes_sub_of_mem (y := main_v164) rfl (by decide), writes_sub_of_mem (y := main_v165) rfl (by decide), writes_sub_of_mem (y := main_v166) rfl (by decide), writes_sub_of_mem (y := main_v167) rfl (by decide), writes_sub_of_mem (y := main_v168) rfl (by decide), writes_sub_of_mem (y := main_v169) rfl (by decide), writes_sub_of_mem (y := main_v170) rfl (by decide), writes_sub_of_mem (y := main_v171) rfl (by decide), writes_sub_of_mem (y := main_v172) rfl (by decide)⟩

theorem l2D_keep (V : Valuation τ sig (Elt F)) (r : Ref sig .tc) (h : r ∉ l2D_W) :
    after l2D V (Proc.devRef .tc r) = V (Proc.devRef .tc r) :=
  after_of_writes_sub l2D V l2D_writes h

end Cert.ReferenceIdeal.RefRun

end
-- ==== Proof.Ref.Read.lean ====
import proofs.«409448_j71794673320215_1_alg».proof.Proof.Ref.Stages
import proofs.«409448_j71794673320215_1_alg».proof.Proof.Model.Defs

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Model

abbrev Val := Valuation τ sig (Elt Ideal)

set_option maxRecDepth 8192 in
set_option maxHeartbeats 1000000 in
theorem pre_v1 (V : Val) : after pre V (main_v1 : DevRef τ sig) = rowOf (V (main_arg1 : DevRef τ sig)) := by
  simp only [pre]
  after_results_simp
  rfl

set_option maxRecDepth 8192 in
set_option maxHeartbeats 1000000 in
theorem pre_v3 (V : Val) : after pre V (main_v3 : DevRef τ sig) = colOf (V (main_arg1 : DevRef τ sig)) := by
  simp only [pre]
  after_results_simp
  rfl

set_option maxRecDepth 8192 in
set_option maxHeartbeats 1000000 in
theorem pre_v25 (V : Val) : after pre V (main_v25 : DevRef τ sig) = normOf (V (main_arg2 : DevRef τ sig)) (rowOf (V (main_arg1 : DevRef τ sig))) (colOf (V (main_arg1 : DevRef τ sig))) := by
  simp only [pre]
  after_results_simp
  rfl

set_option maxRecDepth 8192 in
set_option maxHeartbeats 1000000 in
theorem pre_v28 (V : Val) : after pre V (main_v28 : DevRef τ sig) = snOf (V (main_arg2 : DevRef τ sig)) (colOf (V (main_arg1 : DevRef τ sig))) := by
  simp only [pre]
  after_results_simp
  rfl

set_option maxRecDepth 8192 in
set_option maxHeartbeats 2000000 in
theorem l0A_read (V : Val) : after l0A V (main_v52 : DevRef τ sig)
    = preAct (aggOf (dotOf (V (main_arg0 : DevRef τ sig)) (wSl0 (V (main_arg4 : DevRef τ sig)))) (V (main_v25 : DevRef τ sig)) (V (main_v1 : DevRef τ sig)) (V (main_v3 : DevRef τ sig))) (dotOf (V (main_arg0 : DevRef τ sig)) (wSl0 (V (main_arg4 : DevRef τ sig)))) (V (main_v28 : DevRef τ sig)) (vSl0 (V (main_arg5 : DevRef τ sig))) := by
  simp only [l0A]
  after_results_simp
  rfl

set_option maxRecDepth 8192 in
set_option maxHeartbeats 1000000 in
theorem l0B_relu (V : Val) : after l0B V (main_v53 : DevRef τ sig) = reluOf (V (main_v52 : DevRef τ sig)) := by
  simp only [l0B]
  after_results_simp
  rfl

set_option maxRecDepth 8192 in
set_option maxHeartbeats 1000000 in
theorem l0B_mean (V : Val) : after l0B V (main_v56 : DevRef τ sig) = meanOf (reluOf (V (main_v52 : DevRef τ sig))) := by
  simp only [l0B]
  after_results_simp
  rfl

set_option maxRecDepth 8192 in
set_option maxHeartbeats 2000000 in
theorem l0C_read (V : Val) : after l0C V (main_v57 : DevRef τ sig) = varOf (V (main_v53 : DevRef τ sig)) := by
  simp only [l0C]
  after_results_simp
  rfl

set_option maxRecDepth 8192 in
set_option maxHeartbeats 2000000 in
theorem l0D_read (V : Val) (zr : FVec Ideal S100000x128 .f32) (hR : V (main_v53 : DevRef τ sig) = zr) (hM : V (main_v56 : DevRef τ sig) = meanOf zr)
    (hV : V (main_v57 : DevRef τ sig) = varOf zr) :
    after l0D V (main_v76 : DevRef τ sig) = bnRef zr (vSl0 (V (main_arg6 : DevRef τ sig))) (vSl0 (V (main_arg7 : DevRef τ sig))) := by
  simp only [l0D]
  after_results_simp
  rw [hR, hM, hV]
  rfl

theorem layer0_read (V : Val) : after layer0 V (main_v76 : DevRef τ sig)
    = layerRef (V (main_arg0 : DevRef τ sig)) (wSl0 (V (main_arg4 : DevRef τ sig))) (vSl0 (V (main_arg5 : DevRef τ sig))) (vSl0 (V (main_arg6 : DevRef τ sig))) (vSl0 (V (main_arg7 : DevRef τ sig)))
        (V (main_v25 : DevRef τ sig)) (V (main_v28 : DevRef τ sig)) (V (main_v1 : DevRef τ sig)) (V (main_v3 : DevRef τ sig)) := by
  have hP := l0A_read V
  have hR := (l0C_keep (after l0B (after l0A V)) main_v53 (by decide)).trans ((l0B_relu (after l0A V)).trans (congrArg reluOf hP))
  have hM := (l0C_keep (after l0B (after l0A V)) main_v56 (by decide)).trans ((l0B_mean (after l0A V)).trans (congrArg (fun t => meanOf (reluOf t)) hP))
  have hV := (l0C_read (after l0B (after l0A V))).trans (congrArg varOf ((l0B_relu (after l0A V)).trans (congrArg reluOf hP)))
  rw [after_layer0_split, l0D_read _ _ hR hM hV,
    l0C_keep _ main_arg6 (by decide), l0B_keep _ main_arg6 (by decide), l0A_keep _ main_arg6 (by decide),
    l0C_keep _ main_arg7 (by decide), l0B_keep _ main_arg7 (by decide), l0A_keep _ main_arg7 (by decide)]
  rfl

theorem layer0_keep (V : Val) (r : Ref sig .tc) (ha : r ∉ layer0a_W) (hb : r ∉ layer0b_W) :
    after layer0 V (Proc.devRef .tc r) = V (Proc.devRef .tc r) := by
  rw [after_layer0, layer0b_keep _ r hb, layer0a_keep _ r ha]

set_option maxRecDepth 8192 in
set_option maxHeartbeats 2000000 in
theorem l1A_read (V : Val) : after l1A V (main_v100 : DevRef τ sig)
    = preAct (aggOf (dotOf (V (main_v76 : DevRef τ sig)) (wSl1 (V (main_arg4 : DevRef τ sig)))) (V (main_v25 : DevRef τ sig)) (V (main_v1 : DevRef τ sig)) (V (main_v3 : DevRef τ sig))) (dotOf (V (main_v76 : DevRef τ sig)) (wSl1 (V (main_arg4 : DevRef τ sig)))) (V (main_v28 : DevRef τ sig)) (vSl1 (V (main_arg5 : DevRef τ sig))) := by
  simp only [l1A]
  after_results_simp
  rfl

set_option maxRecDepth 8192 in
set_option maxHeartbeats 1000000 in
theorem l1B_relu (V : Val) : after l1B V (main_v101 : DevRef τ sig) = reluOf (V (main_v100 : DevRef τ sig)) := by
  simp only [l1B]
  after_results_simp
  rfl

set_option maxRecDepth 8192 in
set_option maxHeartbeats 1000000 in
theorem l1B_mean (V : Val) : after l1B V (main_v104 : DevRef τ sig) = meanOf (reluOf (V (main_v100 : DevRef τ sig))) := by
  simp only [l1B]
  after_results_simp
  rfl

set_option maxRecDepth 8192 in
set_option maxHeartbeats 2000000 in
theorem l1C_read (V : Val) : after l1C V (main_v105 : DevRef τ sig) = varOf (V (main_v101 : DevRef τ sig)) := by
  simp only [l1C]
  after_results_simp
  rfl

set_option maxRecDepth 8192 in
set_option maxHeartbeats 2000000 in
theorem l1D_read (V : Val) (zr : FVec Ideal S100000x128 .f32) (hR : V (main_v101 : DevRef τ sig) = zr) (hM : V (main_v104 : DevRef τ sig) = meanOf zr)
    (hV : V (main_v105 : DevRef τ sig) = varOf zr) :
    after l1D V (main_v124 : DevRef τ sig) = bnRef zr (vSl1 (V (main_arg6 : DevRef τ sig))) (vSl1 (V (main_arg7 : DevRef τ sig))) := by
  simp only [l1D]
  after_results_simp
  rw [hR, hM, hV]
  rfl

theorem layer1_read (V : Val) : after layer1 V (main_v124 : DevRef τ sig)
    = layerRef (V (main_v76 : DevRef τ sig)) (wSl1 (V (main_arg4 : DevRef τ sig))) (vSl1 (V (main_arg5 : DevRef τ sig))) (vSl1 (V (main_arg6 : DevRef τ sig))) (vSl1 (V (main_arg7 : DevRef τ sig)))
        (V (main_v25 : DevRef τ sig)) (V (main_v28 : DevRef τ sig)) (V (main_v1 : DevRef τ sig)) (V (main_v3 : DevRef τ sig)) := by
  have hP := l1A_read V
  have hR := (l1C_keep (after l1B (after l1A V)) main_v101 (by decide)).trans ((l1B_relu (after l1A V)).trans (congrArg reluOf hP))
  have hM := (l1C_keep (after l1B (after l1A V)) main_v104 (by decide)).trans ((l1B_mean (after l1A V)).trans (congrArg (fun t => meanOf (reluOf t)) hP))
  have hV := (l1C_read (after l1B (after l1A V))).trans (congrArg varOf ((l1B_relu (after l1A V)).trans (congrArg reluOf hP)))
  rw [after_layer1_split, l1D_read _ _ hR hM hV,
    l1C_keep _ main_arg6 (by decide), l1B_keep _ main_arg6 (by decide), l1A_keep _ main_arg6 (by decide),
    l1C_keep _ main_arg7 (by decide), l1B_keep _ main_arg7 (by decide), l1A_keep _ main_arg7 (by decide)]
  rfl

theorem layer1_keep (V : Val) (r : Ref sig .tc) (ha : r ∉ layer1a_W) (hb : r ∉ layer1b_W) :
    after layer1 V (Proc.devRef .tc r) = V (Proc.devRef .tc r) := by
  rw [after_layer1, layer1b_keep _ r hb, layer1a_keep _ r ha]

set_option maxRecDepth 8192 in
set_option maxHeartbeats 2000000 in
theorem l2A_read (V : Val) : after l2A V (main_v148 : DevRef τ sig)
    = preAct (aggOf (dotOf (V (main_v124 : DevRef τ sig)) (wSl2 (V (main_arg4 : DevRef τ sig)))) (V (main_v25 : DevRef τ sig)) (V (main_v1 : DevRef τ sig)) (V (main_v3 : DevRef τ sig))) (dotOf (V (main_v124 : DevRef τ sig)) (wSl2 (V (main_arg4 : DevRef τ sig)))) (V (main_v28 : DevRef τ sig)) (vSl2 (V (main_arg5 : DevRef τ sig))) := by
  simp only [l2A]
  after_results_simp
  rfl

set_option maxRecDepth 8192 in
set_option maxHeartbeats 1000000 in
theorem l2B_relu (V : Val) : after l2B V (main_v149 : DevRef τ sig) = reluOf (V (main_v148 : DevRef τ sig)) := by
  simp only [l2B]
  after_results_simp
  rfl

set_option maxRecDepth 8192 in
set_option maxHeartbeats 1000000 in
theorem l2B_mean (V : Val) : after l2B V (main_v152 : DevRef τ sig) = meanOf (reluOf (V (main_v148 : DevRef τ sig))) := by
  simp only [l2B]
  after_results_simp
  rfl

set_option maxRecDepth 8192 in
set_option maxHeartbeats 2000000 in
theorem l2C_read (V : Val) : after l2C V (main_v153 : DevRef τ sig) = varOf (V (main_v149 : DevRef τ sig)) := by
  simp only [l2C]
  after_results_simp
  rfl

set_option maxRecDepth 8192 in
set_option maxHeartbeats 2000000 in
theorem l2D_read (V : Val) (zr : FVec Ideal S100000x128 .f32) (hR : V (main_v149 : DevRef τ sig) = zr) (hM : V (main_v152 : DevRef τ sig) = meanOf zr)
    (hV : V (main_v153 : DevRef τ sig) = varOf zr) :
    after l2D V (main_v172 : DevRef τ sig) = bnRef zr (vSl2 (V (main_arg6 : DevRef τ sig))) (vSl2 (V (main_arg7 : DevRef τ sig))) := by
  simp only [l2D]
  after_results_simp
  rw [hR, hM, hV]
  rfl

theorem layer2_read (V : Val) : after layer2 V (main_v172 : DevRef τ sig)
    = layerRef (V (main_v124 : DevRef τ sig)) (wSl2 (V (main_arg4 : DevRef τ sig))) (vSl2 (V (main_arg5 : DevRef τ sig))) (vSl2 (V (main_arg6 : DevRef τ sig))) (vSl2 (V (main_arg7 : DevRef τ sig)))
        (V (main_v25 : DevRef τ sig)) (V (main_v28 : DevRef τ sig)) (V (main_v1 : DevRef τ sig)) (V (main_v3 : DevRef τ sig)) := by
  have hP := l2A_read V
  have hR := (l2C_keep (after l2B (after l2A V)) main_v149 (by decide)).trans ((l2B_relu (after l2A V)).trans (congrArg reluOf hP))
  have hM := (l2C_keep (after l2B (after l2A V)) main_v152 (by decide)).trans ((l2B_mean (after l2A V)).trans (congrArg (fun t => meanOf (reluOf t)) hP))
  have hV := (l2C_read (after l2B (after l2A V))).trans (congrArg varOf ((l2B_relu (after l2A V)).trans (congrArg reluOf hP)))
  rw [after_layer2_split, l2D_read _ _ hR hM hV,
    l2C_keep _ main_arg6 (by decide), l2B_keep _ main_arg6 (by decide), l2A_keep _ main_arg6 (by decide),
    l2C_keep _ main_arg7 (by decide), l2B_keep _ main_arg7 (by decide), l2A_keep _ main_arg7 (by decide)]
  rfl

theorem layer2_keep (V : Val) (r : Ref sig .tc) (ha : r ∉ layer2a_W) (hb : r ∉ layer2b_W) :
    after layer2 V (Proc.devRef .tc r) = V (Proc.devRef .tc r) := by
  rw [after_layer2, layer2b_keep _ r hb, layer2a_keep _ r ha]

abbrev V1 (V : Val) : Val := after pre V
abbrev V2 (V : Val) : Val := after layer0 (V1 V)
abbrev V3 (V : Val) : Val := after layer1 (V2 V)
abbrev V4 (V : Val) : Val := after layer2 (V3 V)
abbrev V5 (V : Val) : Val := after head (V4 V)
abbrev V6 (V : Val) : Val := after pools (V5 V)

theorem V1_arg0 (V : Val) : V1 V (main_arg0 : DevRef τ sig) = V (main_arg0 : DevRef τ sig) := pre_keep V main_arg0 (by decide)
theorem V1_arg1 (V : Val) : V1 V (main_arg1 : DevRef τ sig) = V (main_arg1 : DevRef τ sig) := pre_keep V main_arg1 (by decide)
theorem V1_arg2 (V : Val) : V1 V (main_arg2 : DevRef τ sig) = V (main_arg2 : DevRef τ sig) := pre_keep V main_arg2 (by decide)
theorem V1_arg3 (V : Val) : V1 V (main_arg3 : DevRef τ sig) = V (main_arg3 : DevRef τ sig) := pre_keep V main_arg3 (by decide)
theorem V1_arg4 (V : Val) : V1 V (main_arg4 : DevRef τ sig) = V (main_arg4 : DevRef τ sig) := pre_keep V main_arg4 (by decide)
theorem V1_arg5 (V : Val) : V1 V (main_arg5 : DevRef τ sig) = V (main_arg5 : DevRef τ sig) := pre_keep V main_arg5 (by decide)
theorem V1_arg6 (V : Val) : V1 V (main_arg6 : DevRef τ sig) = V (main_arg6 : DevRef τ sig) := pre_keep V main_arg6 (by decide)
theorem V1_arg7 (V : Val) : V1 V (main_arg7 : DevRef τ sig) = V (main_arg7 : DevRef τ sig) := pre_keep V main_arg7 (by decide)
theorem V1_arg8 (V : Val) : V1 V (main_arg8 : DevRef τ sig) = V (main_arg8 : DevRef τ sig) := pre_keep V main_arg8 (by decide)
theorem V1_arg9 (V : Val) : V1 V (main_arg9 : DevRef τ sig) = V (main_arg9 : DevRef τ sig) := pre_keep V main_arg9 (by decide)
theorem V1_arg10 (V : Val) : V1 V (main_arg10 : DevRef τ sig) = V (main_arg10 : DevRef τ sig) := pre_keep V main_arg10 (by decide)
theorem V1_arg11 (V : Val) : V1 V (main_arg11 : DevRef τ sig) = V (main_arg11 : DevRef τ sig) := pre_keep V main_arg11 (by decide)
theorem V1_v1 (V : Val) : V1 V (main_v1 : DevRef τ sig) = rowOf (V (main_arg1 : DevRef τ sig)) := pre_v1 V
theorem V1_v3 (V : Val) : V1 V (main_v3 : DevRef τ sig) = colOf (V (main_arg1 : DevRef τ sig)) := pre_v3 V
theorem V1_v25 (V : Val) : V1 V (main_v25 : DevRef τ sig) = normOf (V (main_arg2 : DevRef τ sig)) (rowOf (V (main_arg1 : DevRef τ sig))) (colOf (V (main_arg1 : DevRef τ sig))) := pre_v25 V
theorem V1_v28 (V : Val) : V1 V (main_v28 : DevRef τ sig) = snOf (V (main_arg2 : DevRef τ sig)) (colOf (V (main_arg1 : DevRef τ sig))) := pre_v28 V

theorem V2_arg3 (V : Val) : V2 V (main_arg3 : DevRef τ sig) = V (main_arg3 : DevRef τ sig) := (layer0_keep (V1 V) main_arg3 (by decide) (by decide)).trans (V1_arg3 V)
theorem V2_arg4 (V : Val) : V2 V (main_arg4 : DevRef τ sig) = V (main_arg4 : DevRef τ sig) := (layer0_keep (V1 V) main_arg4 (by decide) (by decide)).trans (V1_arg4 V)
theorem V2_arg5 (V : Val) : V2 V (main_arg5 : DevRef τ sig) = V (main_arg5 : DevRef τ sig) := (layer0_keep (V1 V) main_arg5 (by decide) (by decide)).trans (V1_arg5 V)
theorem V2_arg6 (V : Val) : V2 V (main_arg6 : DevRef τ sig) = V (main_arg6 : DevRef τ sig) := (layer0_keep (V1 V) main_arg6 (by decide) (by decide)).trans (V1_arg6 V)
theorem V2_arg7 (V : Val) : V2 V (main_arg7 : DevRef τ sig) = V (main_arg7 : DevRef τ sig) := (layer0_keep (V1 V) main_arg7 (by decide) (by decide)).trans (V1_arg7 V)
theorem V2_arg8 (V : Val) : V2 V (main_arg8 : DevRef τ sig) = V (main_arg8 : DevRef τ sig) := (layer0_keep (V1 V) main_arg8 (by decide) (by decide)).trans (V1_arg8 V)
theorem V2_arg9 (V : Val) : V2 V (main_arg9 : DevRef τ sig) = V (main_arg9 : DevRef τ sig) := (layer0_keep (V1 V) main_arg9 (by decide) (by decide)).trans (V1_arg9 V)
theorem V2_arg10 (V : Val) : V2 V (main_arg10 : DevRef τ sig) = V (main_arg10 : DevRef τ sig) := (layer0_keep (V1 V) main_arg10 (by decide) (by decide)).trans (V1_arg10 V)
theorem V2_arg11 (V : Val) : V2 V (main_arg11 : DevRef τ sig) = V (main_arg11 : DevRef τ sig) := (layer0_keep (V1 V) main_arg11 (by decide) (by decide)).trans (V1_arg11 V)
theorem V2_v1 (V : Val) : V2 V (main_v1 : DevRef τ sig) = rowOf (V (main_arg1 : DevRef τ sig)) := (layer0_keep (V1 V) main_v1 (by decide) (by decide)).trans (V1_v1 V)
theorem V2_v3 (V : Val) : V2 V (main_v3 : DevRef τ sig) = colOf (V (main_arg1 : DevRef τ sig)) := (layer0_keep (V1 V) main_v3 (by decide) (by decide)).trans (V1_v3 V)
theorem V2_v25 (V : Val) : V2 V (main_v25 : DevRef τ sig) = normOf (V (main_arg2 : DevRef τ sig)) (rowOf (V (main_arg1 : DevRef τ sig))) (colOf (V (main_arg1 : DevRef τ sig))) := (layer0_keep (V1 V) main_v25 (by decide) (by decide)).trans (V1_v25 V)
theorem V2_v28 (V : Val) : V2 V (main_v28 : DevRef τ sig) = snOf (V (main_arg2 : DevRef τ sig)) (colOf (V (main_arg1 : DevRef τ sig))) := (layer0_keep (V1 V) main_v28 (by decide) (by decide)).trans (V1_v28 V)
theorem V2_v76 (V : Val) : V2 V (main_v76 : DevRef τ sig) = z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := by
  show after layer0 (V1 V) _ = _
  rw [layer0_read, V1_arg0, V1_arg4, V1_arg5, V1_arg6, V1_arg7, V1_v25, V1_v28, V1_v1, V1_v3]
  rfl

theorem V3_arg3 (V : Val) : V3 V (main_arg3 : DevRef τ sig) = V (main_arg3 : DevRef τ sig) := (layer1_keep (V2 V) main_arg3 (by decide) (by decide)).trans (V2_arg3 V)
theorem V3_arg4 (V : Val) : V3 V (main_arg4 : DevRef τ sig) = V (main_arg4 : DevRef τ sig) := (layer1_keep (V2 V) main_arg4 (by decide) (by decide)).trans (V2_arg4 V)
theorem V3_arg5 (V : Val) : V3 V (main_arg5 : DevRef τ sig) = V (main_arg5 : DevRef τ sig) := (layer1_keep (V2 V) main_arg5 (by decide) (by decide)).trans (V2_arg5 V)
theorem V3_arg6 (V : Val) : V3 V (main_arg6 : DevRef τ sig) = V (main_arg6 : DevRef τ sig) := (layer1_keep (V2 V) main_arg6 (by decide) (by decide)).trans (V2_arg6 V)
theorem V3_arg7 (V : Val) : V3 V (main_arg7 : DevRef τ sig) = V (main_arg7 : DevRef τ sig) := (layer1_keep (V2 V) main_arg7 (by decide) (by decide)).trans (V2_arg7 V)
theorem V3_arg8 (V : Val) : V3 V (main_arg8 : DevRef τ sig) = V (main_arg8 : DevRef τ sig) := (layer1_keep (V2 V) main_arg8 (by decide) (by decide)).trans (V2_arg8 V)
theorem V3_arg9 (V : Val) : V3 V (main_arg9 : DevRef τ sig) = V (main_arg9 : DevRef τ sig) := (layer1_keep (V2 V) main_arg9 (by decide) (by decide)).trans (V2_arg9 V)
theorem V3_arg10 (V : Val) : V3 V (main_arg10 : DevRef τ sig) = V (main_arg10 : DevRef τ sig) := (layer1_keep (V2 V) main_arg10 (by decide) (by decide)).trans (V2_arg10 V)
theorem V3_arg11 (V : Val) : V3 V (main_arg11 : DevRef τ sig) = V (main_arg11 : DevRef τ sig) := (layer1_keep (V2 V) main_arg11 (by decide) (by decide)).trans (V2_arg11 V)
theorem V3_v1 (V : Val) : V3 V (main_v1 : DevRef τ sig) = rowOf (V (main_arg1 : DevRef τ sig)) := (layer1_keep (V2 V) main_v1 (by decide) (by decide)).trans (V2_v1 V)
theorem V3_v3 (V : Val) : V3 V (main_v3 : DevRef τ sig) = colOf (V (main_arg1 : DevRef τ sig)) := (layer1_keep (V2 V) main_v3 (by decide) (by decide)).trans (V2_v3 V)
theorem V3_v25 (V : Val) : V3 V (main_v25 : DevRef τ sig) = normOf (V (main_arg2 : DevRef τ sig)) (rowOf (V (main_arg1 : DevRef τ sig))) (colOf (V (main_arg1 : DevRef τ sig))) := (layer1_keep (V2 V) main_v25 (by decide) (by decide)).trans (V2_v25 V)
theorem V3_v28 (V : Val) : V3 V (main_v28 : DevRef τ sig) = snOf (V (main_arg2 : DevRef τ sig)) (colOf (V (main_arg1 : DevRef τ sig))) := (layer1_keep (V2 V) main_v28 (by decide) (by decide)).trans (V2_v28 V)
theorem V3_v76 (V : Val) : V3 V (main_v76 : DevRef τ sig) = z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (layer1_keep (V2 V) main_v76 (by decide) (by decide)).trans (V2_v76 V)
theorem V3_v124 (V : Val) : V3 V (main_v124 : DevRef τ sig) = z2 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := by
  show after layer1 (V2 V) _ = _
  rw [layer1_read, V2_v76, V2_arg4, V2_arg5, V2_arg6, V2_arg7, V2_v25, V2_v28, V2_v1, V2_v3]
  rfl

theorem V4_arg3 (V : Val) : V4 V (main_arg3 : DevRef τ sig) = V (main_arg3 : DevRef τ sig) := (layer2_keep (V3 V) main_arg3 (by decide) (by decide)).trans (V3_arg3 V)
theorem V4_arg8 (V : Val) : V4 V (main_arg8 : DevRef τ sig) = V (main_arg8 : DevRef τ sig) := (layer2_keep (V3 V) main_arg8 (by decide) (by decide)).trans (V3_arg8 V)
theorem V4_arg9 (V : Val) : V4 V (main_arg9 : DevRef τ sig) = V (main_arg9 : DevRef τ sig) := (layer2_keep (V3 V) main_arg9 (by decide) (by decide)).trans (V3_arg9 V)
theorem V4_arg10 (V : Val) : V4 V (main_arg10 : DevRef τ sig) = V (main_arg10 : DevRef τ sig) := (layer2_keep (V3 V) main_arg10 (by decide) (by decide)).trans (V3_arg10 V)
theorem V4_arg11 (V : Val) : V4 V (main_arg11 : DevRef τ sig) = V (main_arg11 : DevRef τ sig) := (layer2_keep (V3 V) main_arg11 (by decide) (by decide)).trans (V3_arg11 V)
theorem V4_v76 (V : Val) : V4 V (main_v76 : DevRef τ sig) = z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (layer2_keep (V3 V) main_v76 (by decide) (by decide)).trans (V3_v76 V)
theorem V4_v124 (V : Val) : V4 V (main_v124 : DevRef τ sig) = z2 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (layer2_keep (V3 V) main_v124 (by decide) (by decide)).trans (V3_v124 V)
theorem V4_v172 (V : Val) : V4 V (main_v172 : DevRef τ sig) = z3 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := by
  show after layer2 (V3 V) _ = _
  rw [layer2_read, V3_v124, V3_arg4, V3_arg5, V3_arg6, V3_arg7, V3_v25, V3_v28, V3_v1, V3_v3]
  rfl

set_option maxRecDepth 8192 in
set_option maxHeartbeats 1000000 in
theorem head_read (V : Val) : after head V (main_v181 : DevRef τ sig)
    = headOf (V (main_v172 : DevRef τ sig)) (V (main_arg8 : DevRef τ sig)) (V (main_arg9 : DevRef τ sig)) (V (main_arg10 : DevRef τ sig)) (V (main_arg11 : DevRef τ sig)) := by
  simp only [head]
  after_results_simp
  rfl

set_option maxRecDepth 8192 in
set_option maxHeartbeats 1000000 in
theorem pools_v184 (V : Val) : after pools V (main_v184 : DevRef τ sig) = poolOf (V (main_arg3 : DevRef τ sig)) (V (main_v76 : DevRef τ sig)) := by
  simp only [pools]
  after_results_simp
  rfl

set_option maxRecDepth 8192 in
set_option maxHeartbeats 1000000 in
theorem pools_v187 (V : Val) : after pools V (main_v187 : DevRef τ sig) = poolOf (V (main_arg3 : DevRef τ sig)) (V (main_v124 : DevRef τ sig)) := by
  simp only [pools]
  after_results_simp
  rfl

set_option maxRecDepth 8192 in
set_option maxHeartbeats 1000000 in
theorem pools_v190 (V : Val) : after pools V (main_v190 : DevRef τ sig) = poolOf (V (main_arg3 : DevRef τ sig)) (V (main_v172 : DevRef τ sig)) := by
  simp only [pools]
  after_results_simp
  rfl

set_option maxRecDepth 8192 in
set_option maxHeartbeats 1000000 in
theorem pools_v193 (V : Val) : after pools V (main_v193 : DevRef τ sig) = poolOf (V (main_arg3 : DevRef τ sig)) (V (main_v181 : DevRef τ sig)) := by
  simp only [pools]
  after_results_simp
  rfl

set_option maxRecDepth 8192 in
theorem concats_v194 (V : Val) : after concats V (main_v194 : DevRef τ sig)
    = cat4 (V (main_v76 : DevRef τ sig)) (V (main_v124 : DevRef τ sig)) (V (main_v172 : DevRef τ sig)) (V (main_v181 : DevRef τ sig)) := by
  simp only [concats]
  after_results
  rfl

set_option maxRecDepth 8192 in
theorem concats_v195 (V : Val) : after concats V (main_v195 : DevRef τ sig)
    = cat4g (V (main_v184 : DevRef τ sig)) (V (main_v187 : DevRef τ sig)) (V (main_v190 : DevRef τ sig)) (V (main_v193 : DevRef τ sig)) := by
  simp only [concats]
  after_results
  rfl

theorem V5_arg3 (V : Val) : V5 V (main_arg3 : DevRef τ sig) = V (main_arg3 : DevRef τ sig) := (head_keep (V4 V) main_arg3 (by decide)).trans (V4_arg3 V)
theorem V5_v76 (V : Val) : V5 V (main_v76 : DevRef τ sig) = z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (head_keep (V4 V) main_v76 (by decide)).trans (V4_v76 V)
theorem V5_v124 (V : Val) : V5 V (main_v124 : DevRef τ sig) = z2 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (head_keep (V4 V) main_v124 (by decide)).trans (V4_v124 V)
theorem V5_v172 (V : Val) : V5 V (main_v172 : DevRef τ sig) = z3 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (head_keep (V4 V) main_v172 (by decide)).trans (V4_v172 V)
theorem V5_v181 (V : Val) : V5 V (main_v181 : DevRef τ sig) = zh (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  show after head (V4 V) _ = _
  rw [head_read, V4_v172, V4_arg8, V4_arg9, V4_arg10, V4_arg11]
  rfl

theorem V6_v76 (V : Val) : V6 V (main_v76 : DevRef τ sig) = z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (pools_keep (V5 V) main_v76 (by decide)).trans (V5_v76 V)
theorem V6_v124 (V : Val) : V6 V (main_v124 : DevRef τ sig) = z2 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (pools_keep (V5 V) main_v124 (by decide)).trans (V5_v124 V)
theorem V6_v172 (V : Val) : V6 V (main_v172 : DevRef τ sig) = z3 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) := (pools_keep (V5 V) main_v172 (by decide)).trans (V5_v172 V)
theorem V6_v181 (V : Val) : V6 V (main_v181 : DevRef τ sig) = zh (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := (pools_keep (V5 V) main_v181 (by decide)).trans (V5_v181 V)
theorem V6_v184 (V : Val) : V6 V (main_v184 : DevRef τ sig) = poolOf (V (main_arg3 : DevRef τ sig)) (z1 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig))) := by
  show after pools (V5 V) _ = _
  rw [pools_v184, V5_arg3, V5_v76]

theorem V6_v187 (V : Val) : V6 V (main_v187 : DevRef τ sig) = poolOf (V (main_arg3 : DevRef τ sig)) (z2 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig))) := by
  show after pools (V5 V) _ = _
  rw [pools_v187, V5_arg3, V5_v124]

theorem V6_v190 (V : Val) : V6 V (main_v190 : DevRef τ sig) = poolOf (V (main_arg3 : DevRef τ sig)) (z3 (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig))) := by
  show after pools (V5 V) _ = _
  rw [pools_v190, V5_arg3, V5_v172]

theorem V6_v193 (V : Val) : V6 V (main_v193 : DevRef τ sig) = poolOf (V (main_arg3 : DevRef τ sig)) (zh (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))) := by
  show after pools (V5 V) _ = _
  rw [pools_v193, V5_arg3, V5_v181]

theorem out0_read (V : Val) : after ops V (main_v194 : DevRef τ sig) = out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops]
  show after concats (V6 V) _ = _
  rw [concats_v194, V6_v76, V6_v124, V6_v172, V6_v181]
  rfl

theorem out1_read (V : Val) : after ops V (main_v195 : DevRef τ sig) = out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops]
  show after concats (V6 V) _ = _
  rw [concats_v195, V6_v184, V6_v187, V6_v190, V6_v193]
  rfl

theorem out0_eq (m : (ℓ : Loc nD τ sig) → Buf (Elt Ideal) ℓ) (c : Dev nD) :
    after ops (launchContents m c) (main_v194 : DevRef τ sig)
      = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  out0_read (launchContents m c)

theorem out1_eq (m : (ℓ : Loc nD τ sig) → Buf (Elt Ideal) ℓ) (c : Dev nD) :
    after ops (launchContents m c) (main_v195 : DevRef τ sig)
      = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  out1_read (launchContents m c)

end Cert.ReferenceIdeal.RefRun

end
-- ==== Proof.Pre.Finite.lean ====
import proofs.«409448_j71794673320215_1_alg».proof.Defs
import proofs.«409448_j71794673320215_1_alg».proof.Proof.Gen.Pre_finite_inputs
import Idealize.ShloMosaic.Lib.ReduceAll
import Idealize.ShloMosaic.Lib.ValueIdx
import Idealize.ShloMosaic.PureOps.Ideal

noncomputable section

namespace Cert.Proof.PreFinite

open Idealize.ShloMosaic Idealize.ShloMosaic.ValueIdx Idealize.SL.Sem

instance subsingleton_scalar_idx : Subsingleton Cert.Pre_finite_inputs.S_.Idx := ⟨fun a b => funext fun d => d.elim0⟩

theorem inf_word : Ideal.ofBits .f32 0x7F800000#32 = (⊤ : EReal) := by
  simp [Ideal.ofBits, Ideal.ieee]

theorem ne_top_bot_of_abs_lt (x : EReal) (h : Ideal.cmp .olt (max x (-x)) (Ideal.ofBits .f32 0x7F800000#32) = 1#1) :
    x ≠ ⊤ ∧ x ≠ ⊥ := by
  rw [inf_word] at h
  have hb : ∀ b : Bool, BitVec.ofBool b = 1#1 → b = true := fun b => by cases b <;> decide
  have hlt : max x (-x) < ⊤ := of_decide_eq_true (hb _ h)
  constructor
  · rintro rfl
    exact absurd hlt (by simp)
  · rintro rfl
    exact absurd hlt (by simp)

theorem all_finite_S3x128 [Cert.Pre_finite_inputs.Facts] (a : FVec Ideal Cert.Pre_finite_inputs.S3x128 .f32)
    (e : Host.reduce IntOp.andi
        (cmpf .olt (Host.absf a)
          (broadcastInDim Cert.Pre_finite_inputs.S3x128 ![] Cert.Pre_finite_inputs.Facts.bcast_S_S3x128
            (constant (F := Ideal) Cert.Pre_finite_inputs.S_ .f32 0x7F800000#32)))
        (constantI Cert.Pre_finite_inputs.S_ 1 1#1)
        Cert.Pre_finite_inputs.Facts.reducesTo_S3x128_S_d0_1 Cert.Pre_finite_inputs.Facts.h_S_ ix0 = 1#1)
    (i : Cert.Pre_finite_inputs.S3x128.Idx) : a i ≠ (⊤ : EReal) ∧ a i ≠ ⊥ :=
  ne_top_bot_of_abs_lt (a i) (Host.reduce_andi_all _ _ _ _ ix0 e i)

theorem pre_conjuncts [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S3x128.Idx,
        (m ((c.tc : Thread Cert.KernelIdeal.nD Cert.KernelIdeal.τ).loc Cert.KernelIdeal.main_arg6) : Cert.KernelIdeal.S3x128.Idx → EReal) i ≠ (⊤ : EReal)
        ∧ (m ((c.tc : Thread Cert.KernelIdeal.nD Cert.KernelIdeal.τ).loc Cert.KernelIdeal.main_arg6) : Cert.KernelIdeal.S3x128.Idx → EReal) i ≠ (⊥ : EReal))
    ∧ (∀ i : Cert.KernelIdeal.S3x128.Idx,
        (m ((c.tc : Thread Cert.KernelIdeal.nD Cert.KernelIdeal.τ).loc Cert.KernelIdeal.main_arg7) : Cert.KernelIdeal.S3x128.Idx → EReal) i ≠ (⊤ : EReal)
        ∧ (m ((c.tc : Thread Cert.KernelIdeal.nD Cert.KernelIdeal.τ).loc Cert.KernelIdeal.main_arg7) : Cert.KernelIdeal.S3x128.Idx → EReal) i ≠ (⊥ : EReal)) := by
  have h0 := congrFun (h c) ix0
  unfold Cert.Pre_finite_inputs.fn Cert.Pre_finite_inputs.fn_part1 Cert.Pre_finite_inputs.fn_part2 at h0
  dsimp only at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, h7⟩ := IntOp.andi_eq_one.1 h4
  obtain ⟨-, h6⟩ := IntOp.andi_eq_one.1 h5
  exact ⟨fun i => all_finite_S3x128 _ h6 i, fun i => all_finite_S3x128 _ h7 i⟩

theorem gamma_finite [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S3x128.Idx) :
    (m ((c.tc : Thread Cert.KernelIdeal.nD Cert.KernelIdeal.τ).loc Cert.KernelIdeal.main_arg6) : Cert.KernelIdeal.S3x128.Idx → EReal) i ≠ (⊤ : EReal)
      ∧ (m ((c.tc : Thread Cert.KernelIdeal.nD Cert.KernelIdeal.τ).loc Cert.KernelIdeal.main_arg6) : Cert.KernelIdeal.S3x128.Idx → EReal) i ≠ (⊥ : EReal) :=
  (pre_conjuncts m h c).1 i

theorem beta_finite [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S3x128.Idx) :
    (m ((c.tc : Thread Cert.KernelIdeal.nD Cert.KernelIdeal.τ).loc Cert.KernelIdeal.main_arg7) : Cert.KernelIdeal.S3x128.Idx → EReal) i ≠ (⊤ : EReal)
      ∧ (m ((c.tc : Thread Cert.KernelIdeal.nD Cert.KernelIdeal.τ).loc Cert.KernelIdeal.main_arg7) : Cert.KernelIdeal.S3x128.Idx → EReal) i ≠ (⊥ : EReal) :=
  (pre_conjuncts m h c).2 i

end Cert.Proof.PreFinite

end
-- ==== Proof.Bridge.lean ====
import proofs.«409448_j71794673320215_1_alg».proof.Defs
import proofs.«409448_j71794673320215_1_alg».proof.Proof.Gen.Pre_finite_inputs
import proofs.«409448_j71794673320215_1_alg».proof.Proof.KI.Fold
import proofs.«409448_j71794673320215_1_alg».proof.Proof.KI.Tail
import proofs.«409448_j71794673320215_1_alg».proof.Proof.KI.Layers
import proofs.«409448_j71794673320215_1_alg».proof.Proof.Ref.Ops
import proofs.«409448_j71794673320215_1_alg».proof.Proof.Ref.Read
import proofs.«409448_j71794673320215_1_alg».proof.Proof.Model.LayerEq
import proofs.«409448_j71794673320215_1_alg».proof.Proof.ModelOut
import proofs.«409448_j71794673320215_1_alg».proof.Proof.Pre.Finite

noncomputable section

namespace Cert.Proof.Bridge

open Idealize.ShloMosaic Idealize.ShloMosaic.TcCoe Idealize.SL.Sem Idealize.ShloMosaic.StableHlo

abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

section Joined

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)

theorem bridge0_of (hpre : Cert.Pre_KernelIdeal m) (hagree : Agree m m') (c : Dev Cert.KernelIdeal.nD)
    (hK1 : Cert.KernelIdeal.Ly.z1 m c = Cert.Model.Z1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hK2 : Cert.KernelIdeal.Ly.z2 m c = Cert.Model.Z2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hK3 : Cert.KernelIdeal.Ly.z3 m c = Cert.Model.Z3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) :
    after Cert.ReferenceIdeal.RefRun.ops (launchContents m' c)
        (Cert.ReferenceIdeal.main_v194 : DevRef Cert.ReferenceIdeal.τ Cert.ReferenceIdeal.sig)
      = Cert.KernelIdeal.Rg.W31 m c (Cert.KernelIdeal.main_v137 : DevRef Cert.KernelIdeal.τ Cert.KernelIdeal.sig) := by
  obtain ⟨e0, e1, e2, e3, e4, e5, e6, e7, e8, e9, e10, e11⟩ := hagree c
  rw [Cert.ReferenceIdeal.RefRun.out0_eq m' c, e0, e1, e2, e3, e4, e5, e6, e7, e8, e9, e10, e11]
  rw [Cert.Model.out0_closed _ _ _ _ _ _ _ _ _ _ _ _ (fun i => Cert.Proof.PreFinite.gamma_finite m hpre c i)
    (fun i => Cert.Proof.PreFinite.beta_finite m hpre c i)]
  rw [Cert.KernelIdeal.Ly.W31_v137 m c]
  unfold Cert.Model.cat4 Cert.Model.ZH Cert.KernelIdeal.Ly.zp
  rw [hK1, hK2, hK3]

theorem bridge1_of (hpre : Cert.Pre_KernelIdeal m) (hagree : Agree m m') (c : Dev Cert.KernelIdeal.nD)
    (hK1 : Cert.KernelIdeal.Ly.z1 m c = Cert.Model.Z1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hK2 : Cert.KernelIdeal.Ly.z2 m c = Cert.Model.Z2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hK3 : Cert.KernelIdeal.Ly.z3 m c = Cert.Model.Z3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) :
    after Cert.ReferenceIdeal.RefRun.ops (launchContents m' c)
        (Cert.ReferenceIdeal.main_v195 : DevRef Cert.ReferenceIdeal.τ Cert.ReferenceIdeal.sig)
      = Cert.KernelIdeal.Rg.W31 m c (Cert.KernelIdeal.main_v138 : DevRef Cert.KernelIdeal.τ Cert.KernelIdeal.sig) := by
  obtain ⟨e0, e1, e2, e3, e4, e5, e6, e7, e8, e9, e10, e11⟩ := hagree c
  rw [Cert.ReferenceIdeal.RefRun.out1_eq m' c, e0, e1, e2, e3, e4, e5, e6, e7, e8, e9, e10, e11]
  rw [Cert.Model.out1_closed _ _ _ _ _ _ _ _ _ _ _ _ (fun i => Cert.Proof.PreFinite.gamma_finite m hpre c i)
    (fun i => Cert.Proof.PreFinite.beta_finite m hpre c i)]
  rw [Cert.KernelIdeal.Ly.W31_v138 m c]
  unfold Cert.Model.cat4g Cert.Model.ZH Cert.KernelIdeal.Ly.zp Cert.KernelIdeal.Ly.bt
  rw [hK1, hK2, hK3]

end Joined

theorem bridge0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    after Cert.ReferenceIdeal.RefRun.ops (launchContents m' c)
        (Cert.ReferenceIdeal.main_v194 : DevRef Cert.ReferenceIdeal.τ Cert.ReferenceIdeal.sig)
      = Cert.KernelIdeal.Rg.W31 m c (Cert.KernelIdeal.main_v137 : DevRef Cert.KernelIdeal.τ Cert.KernelIdeal.sig) :=
  bridge0_of m m' hpre hagree c (Cert.KernelIdeal.Ly.z1_W24 m c) (Cert.KernelIdeal.Ly.z2_W24 m c) (Cert.KernelIdeal.Ly.z3_W24 m c)

theorem bridge1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    after Cert.ReferenceIdeal.RefRun.ops (launchContents m' c)
        (Cert.ReferenceIdeal.main_v195 : DevRef Cert.ReferenceIdeal.τ Cert.ReferenceIdeal.sig)
      = Cert.KernelIdeal.Rg.W31 m c (Cert.KernelIdeal.main_v138 : DevRef Cert.KernelIdeal.τ Cert.KernelIdeal.sig) :=
  bridge1_of m m' hpre hagree c (Cert.KernelIdeal.Ly.z1_W24 m c) (Cert.KernelIdeal.Ly.z2_W24 m c) (Cert.KernelIdeal.Ly.z3_W24 m c)

end Cert.Proof.Bridge

end
-- ==== Proof.lean ====
import proofs.«409448_j71794673320215_1_alg».proof.Defs
import proofs.«409448_j71794673320215_1_alg».proof.Proof.Gen.Kernel
import proofs.«409448_j71794673320215_1_alg».proof.Proof.Gen.Kernel.Skeleton
import proofs.«409448_j71794673320215_1_alg».proof.Proof.Gen.Kernel.Launch
import proofs.«409448_j71794673320215_1_alg».proof.Proof.Gen.Kernel.Regions
import proofs.«409448_j71794673320215_1_alg».proof.Proof.Gen.Kernel.Points
import proofs.«409448_j71794673320215_1_alg».proof.Proof.Gen.KernelIdeal
import proofs.«409448_j71794673320215_1_alg».proof.Proof.Gen.KernelIdeal.Skeleton
import proofs.«409448_j71794673320215_1_alg».proof.Proof.Gen.KernelIdeal.Launch
import proofs.«409448_j71794673320215_1_alg».proof.Proof.Gen.KernelIdeal.Regions
import proofs.«409448_j71794673320215_1_alg».proof.Proof.Gen.KernelIdeal.Points
import proofs.«409448_j71794673320215_1_alg».proof.Proof.Gen.ReferenceIdeal
import proofs.«409448_j71794673320215_1_alg».proof.Proof.Gen.Pre_finite_inputs
import proofs.«409448_j71794673320215_1_alg».proof.Proof.KB.Frame
import proofs.«409448_j71794673320215_1_alg».proof.Proof.KI.Frame
import proofs.«409448_j71794673320215_1_alg».proof.Proof.KI.Run
import proofs.«409448_j71794673320215_1_alg».proof.Proof.Ref.Run
import proofs.«409448_j71794673320215_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

section KernelSide
open Cert.KernelIdeal Cert.KernelIdeal.Gen Cert.KernelIdeal.Rg

theorem kernel_side (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v137) = W31 m c main_v137 ∧
      r.2.mem ((c.tc : Thread nD τ).loc main_v138) = W31 m c main_v138 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11)) :=
  (θ_run _ _ _).mono (fun r h c => ⟨h c _ (mem_uc main_v137 (by decide)), h c _ (mem_uc main_v138 (by decide)),
      (h c _ (mem_uc main_arg0 (by decide))).trans ((congrFun (V31_eq m c).symm _).trans (V31_main_arg0 m (outs m) c)),
      (h c _ (mem_uc main_arg1 (by decide))).trans ((congrFun (V31_eq m c).symm _).trans (V31_main_arg1 m (outs m) c)),
      (h c _ (mem_uc main_arg2 (by decide))).trans ((congrFun (V31_eq m c).symm _).trans (V31_main_arg2 m (outs m) c)),
      (h c _ (mem_uc main_arg3 (by decide))).trans ((congrFun (V31_eq m c).symm _).trans (V31_main_arg3 m (outs m) c)),
      (h c _ (mem_uc main_arg4 (by decide))).trans ((congrFun (V31_eq m c).symm _).trans (V31_main_arg4 m (outs m) c)),
      (h c _ (mem_uc main_arg5 (by decide))).trans ((congrFun (V31_eq m c).symm _).trans (V31_main_arg5 m (outs m) c)),
      (h c _ (mem_uc main_arg6 (by decide))).trans ((congrFun (V31_eq m c).symm _).trans (V31_main_arg6 m (outs m) c)),
      (h c _ (mem_uc main_arg7 (by decide))).trans ((congrFun (V31_eq m c).symm _).trans (V31_main_arg7 m (outs m) c)),
      (h c _ (mem_uc main_arg8 (by decide))).trans ((congrFun (V31_eq m c).symm _).trans (V31_main_arg8 m (outs m) c)),
      (h c _ (mem_uc main_arg9 (by decide))).trans ((congrFun (V31_eq m c).symm _).trans (V31_main_arg9 m (outs m) c)),
      (h c _ (mem_uc main_arg10 (by decide))).trans ((congrFun (V31_eq m c).symm _).trans (V31_main_arg10 m (outs m) c)),
      (h c _ (mem_uc main_arg11 (by decide))).trans ((congrFun (V31_eq m c).symm _).trans (V31_main_arg11 m (outs m) c))⟩) (Cert.KernelIdeal.Rg.run (F := Ideal) m ρ)

end KernelSide

section ReferenceSide
open Cert.ReferenceIdeal Cert.ReferenceIdeal.RefRun

theorem reference_side (m : (ℓ : Loc Cert.KernelIdeal.nD Cert.KernelIdeal.τ Cert.KernelIdeal.sig) → Buf (Elt Ideal) ℓ)
    (m' : (ℓ : Loc nD τ sig) → Buf (Elt Ideal) ℓ) (ρ' : Dev nD → PrngReg)
    (hpre : Cert.Pre_KernelIdeal m) (hagree : Bridge.Agree m m') :
    θ_run (defs (F := Ideal)) (onTc (τ := τ) (main (F := Ideal))) ⟨m', fun _ => 0, ρ'⟩ (fun r => ∀ c : Dev nD,
      r.2.mem ((c.tc : Thread nD τ).loc main_v194)
        = Cert.KernelIdeal.Rg.W31 m c (Cert.KernelIdeal.main_v137 : DevRef Cert.KernelIdeal.τ Cert.KernelIdeal.sig) ∧
      r.2.mem ((c.tc : Thread nD τ).loc main_v195)
        = Cert.KernelIdeal.Rg.W31 m c (Cert.KernelIdeal.main_v138 : DevRef Cert.KernelIdeal.τ Cert.KernelIdeal.sig) ∧
      r.2.mem ((c.tc : Thread nD τ).loc main_arg0) = m' ((c.tc : Thread nD τ).loc main_arg0) ∧
      r.2.mem ((c.tc : Thread nD τ).loc main_arg1) = m' ((c.tc : Thread nD τ).loc main_arg1) ∧
      r.2.mem ((c.tc : Thread nD τ).loc main_arg2) = m' ((c.tc : Thread nD τ).loc main_arg2) ∧
      r.2.mem ((c.tc : Thread nD τ).loc main_arg3) = m' ((c.tc : Thread nD τ).loc main_arg3) ∧
      r.2.mem ((c.tc : Thread nD τ).loc main_arg4) = m' ((c.tc : Thread nD τ).loc main_arg4) ∧
      r.2.mem ((c.tc : Thread nD τ).loc main_arg5) = m' ((c.tc : Thread nD τ).loc main_arg5) ∧
      r.2.mem ((c.tc : Thread nD τ).loc main_arg6) = m' ((c.tc : Thread nD τ).loc main_arg6) ∧
      r.2.mem ((c.tc : Thread nD τ).loc main_arg7) = m' ((c.tc : Thread nD τ).loc main_arg7) ∧
      r.2.mem ((c.tc : Thread nD τ).loc main_arg8) = m' ((c.tc : Thread nD τ).loc main_arg8) ∧
      r.2.mem ((c.tc : Thread nD τ).loc main_arg9) = m' ((c.tc : Thread nD τ).loc main_arg9) ∧
      r.2.mem ((c.tc : Thread nD τ).loc main_arg10) = m' ((c.tc : Thread nD τ).loc main_arg10) ∧
      r.2.mem ((c.tc : Thread nD τ).loc main_arg11) = m' ((c.tc : Thread nD τ).loc main_arg11)) :=
  (θ_run _ _ _).mono (fun r h c => ⟨(h c main_v194).trans (Bridge.bridge0 m m' hpre hagree c),
      (h c main_v195).trans (Bridge.bridge1 m m' hpre hagree c),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide))⟩) (Cert.ReferenceIdeal.RefRun.run (F := Ideal) m' ρ')

end ReferenceSide

/-- Over the extended reals the tiled program and the whole-array reference leave the same two arrays (`Bridge`). -/
theorem algebraic : Cert.algebraic_KernelIdeal_ReferenceIdeal := fun m ρ m' ρ' hpre hagree =>
  ⟨fun c => Cert.KernelIdeal.Rg.W31 m c (Cert.KernelIdeal.main_v137 : DevRef Cert.KernelIdeal.τ Cert.KernelIdeal.sig),
    fun c => Cert.KernelIdeal.Rg.W31 m c (Cert.KernelIdeal.main_v138 : DevRef Cert.KernelIdeal.τ Cert.KernelIdeal.sig),
    kernel_side m ρ, reference_side m m' ρ' hpre hagree⟩

theorem claim : Cert.Claim :=
  ⟨Cert.Kernel.Gen.facts, Cert.KernelIdeal.Gen.facts, Cert.ReferenceIdeal.Gen.facts, Cert.Pre_finite_inputs.Gen.facts,
    fun m ρ _ => Cert.Kernel.Rg.frame (F := Bits) m ρ, fun m ρ _ => Cert.KernelIdeal.Rg.frame (F := Ideal) m ρ,
    Cert.ReferenceIdeal.RefRun.frame, trivial, algebraic⟩

end Cert.Proof

end
